-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v720)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v720) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v833) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S2048x2048x2 : S_.BroadcastsInDim S2048x2048x2 (![] : Fin 0 → Fin S2048x2048x2.rank)
  reducesTo_S2048x2048x2_S_d0_1_2 : S2048x2048x2.ReducesTo [0, 1, 2] S_
  bcast_S_S2048x1 : S_.BroadcastsInDim S2048x1 (![] : Fin 0 → Fin S2048x1.rank)
  reducesTo_S2048x1_S_d0_1 : S2048x1.ReducesTo [0, 1] S_
  bcast_S_S64x64x3 : S_.BroadcastsInDim S64x64x3 (![] : Fin 0 → Fin S64x64x3.rank)
  reducesTo_S64x64x3_S_d0_1_2 : S64x64x3.ReducesTo [0, 1, 2] S_
  bcast_S_S48x48x3 : S_.BroadcastsInDim S48x48x3 (![] : Fin 0 → Fin S48x48x3.rank)
  reducesTo_S48x48x3_S_d0_1_2 : S48x48x3.ReducesTo [0, 1, 2] S_
  bcast_S_S96x2 : S_.BroadcastsInDim S96x2 (![] : Fin 0 → Fin S96x2.rank)
  reducesTo_S96x2_S_d0_1 : S96x2.ReducesTo [0, 1] S_
  bcast_S_S32x32x1 : S_.BroadcastsInDim S32x32x1 (![] : Fin 0 → Fin S32x32x1.rank)
  reducesTo_S32x32x1_S_d0_1_2 : S32x32x1.ReducesTo [0, 1, 2] S_
  bcast_S_S32x32x4 : S_.BroadcastsInDim S32x32x4 (![] : Fin 0 → Fin S32x32x4.rank)
  reducesTo_S32x32x4_S_d0_1_2 : S32x32x4.ReducesTo [0, 1, 2] S_

variable [Facts]

def fn_part4 {F : FTy → Type} [FloatOps F] (main_arg14 : FVec F S32x32x1 .f32) (main_arg15 : FVec F S32x32x4 .f32) (main_arg16 : FVec F S32x32x4 .f32) (main_v63 : IVec S_ 1) (main_v67 : IVec S_ 1) : IVec S_ 1 :=
  let main_v68 : IVec S_ 1 := andi main_v63 main_v67
  let main_v69 : FVec F S32x32x1 .f32 := Host.absf main_arg14
  let main_cst_26 : FVec F S_ .f32 := constant S_ .f32 0x7F800000#32
  let main_v70 : FVec F S32x32x1 .f32 := broadcastInDim S32x32x1 ![] bcast_S_S32x32x1 main_cst_26
  let main_v71 : IVec S32x32x1 1 := cmpf .olt main_v69 main_v70
  let main_c_27 : IVec S_ 1 := constantI S_ 1 1#1
  let main_v72 : IVec S_ 1 := (fun x v => Host.reduce IntOp.andi x v reducesTo_S32x32x1_S_d0_1_2 h_S_) main_v71 main_c_27
  let main_v73 : IVec S_ 1 := andi main_v68 main_v72
  let main_v74 : FVec F S32x32x4 .f32 := Host.absf main_arg15
  let main_cst_28 : FVec F S_ .f32 := constant S_ .f32 0x7F800000#32
  let main_v75 : FVec F S32x32x4 .f32 := broadcastInDim S32x32x4 ![] bcast_S_S32x32x4 main_cst_28
  let main_v76 : IVec S32x32x4 1 := cmpf .olt main_v74 main_v75
  let main_c_29 : IVec S_ 1 := constantI S_ 1 1#1
  let main_v77 : IVec S_ 1 := (fun x v => Host.reduce IntOp.andi x v reducesTo_S32x32x4_S_d0_1_2 h_S_) main_v76 main_c_29
  let main_v78 : IVec S_ 1 := andi main_v73 main_v77
  let main_v79 : FVec F S32x32x4 .f32 := Host.absf main_arg16
  let main_cst_30 : FVec F S_ .f32 := constant S_ .f32 0x7F800000#32
  let main_v80 : FVec F S32x32x4 .f32 := broadcastInDim S32x32x4 ![] bcast_S_S32x32x4 main_cst_30
  let main_v81 : IVec S32x32x4 1 := cmpf .olt main_v79 main_v80
  let main_c_31 : IVec S_ 1 := constantI S_ 1 1#1
  let main_v82 : IVec S_ 1 := (fun x v => Host.reduce IntOp.andi x v reducesTo_S32x32x4_S_d0_1_2 h_S_) main_v81 main_c_31
  let main_v83 : IVec S_ 1 := andi main_v78 main_v82
  main_v83

def fn_part3 {F : FTy → Type} [FloatOps F] (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v48 : IVec S_ 1) (main_v49 : FVec F S2048x1 .f32) (main_v50 : FVec F S2048x1 .f32) : IVec S_ 1 :=
  let main_v51 : IVec S2048x1 1 := cmpf .olt main_v49 main_v50
  let main_c_19 : IVec S_ 1 := constantI S_ 1 1#1
  let main_v52 : IVec S_ 1 := (fun x v => Host.reduce IntOp.andi x v reducesTo_S2048x1_S_d0_1 h_S_) main_v51 main_c_19
  let main_v53 : IVec S_ 1 := andi main_v48 main_v52
  let main_v54 : FVec F S64x64x3 .f32 := Host.absf main_arg11
  let main_cst_20 : FVec F S_ .f32 := constant S_ .f32 0x7F800000#32
  let main_v55 : FVec F S64x64x3 .f32 := broadcastInDim S64x64x3 ![] bcast_S_S64x64x3 main_cst_20
  let main_v56 : IVec S64x64x3 1 := cmpf .olt main_v54 main_v55
  let main_c_21 : IVec S_ 1 := constantI S_ 1 1#1
  let main_v57 : IVec S_ 1 := (fun x v => Host.reduce IntOp.andi x v reducesTo_S64x64x3_S_d0_1_2 h_S_) main_v56 main_c_21
  let main_v58 : IVec S_ 1 := andi main_v53 main_v57
  let main_v59 : FVec F S48x48x3 .f32 := Host.absf main_arg12
  let main_cst_22 : FVec F S_ .f32 := constant S_ .f32 0x7F800000#32
  let main_v60 : FVec F S48x48x3 .f32 := broadcastInDim S48x48x3 ![] bcast_S_S48x48x3 main_cst_22
  let main_v61 : IVec S48x48x3 1 := cmpf .olt main_v59 main_v60
  let main_c_23 : IVec S_ 1 := constantI S_ 1 1#1
  let main_v62 : IVec S_ 1 := (fun x v => Host.reduce IntOp.andi x v reducesTo_S48x48x3_S_d0_1_2 h_S_) main_v61 main_c_23
  let main_v63 : IVec S_ 1 := andi main_v58 main_v62
  let main_v64 : FVec F S96x2 .f32 := Host.absf main_arg13
  let main_cst_24 : FVec F S_ .f32 := constant S_ .f32 0x7F800000#32
  let main_v65 : FVec F S96x2 .f32 := broadcastInDim S96x2 ![] bcast_S_S96x2 main_cst_24
  let main_v66 : IVec S96x2 1 := cmpf .olt main_v64 main_v65
  let main_c_25 : IVec S_ 1 := constantI S_ 1 1#1
  let main_v67 : IVec S_ 1 := (fun x v => Host.reduce IntOp.andi x v reducesTo_S96x2_S_d0_1 h_S_) main_v66 main_c_25
  fn_part4 (F := F) main_arg14 main_arg15 main_arg16 main_v63 main_v67

def fn_part2 {F : FTy → Type} [FloatOps F] (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v33 : IVec S_ 1) : IVec S_ 1 :=
  let main_v34 : FVec F S2097152x2 .f32 := Host.absf main_arg7
  let main_cst_12 : FVec F S_ .f32 := constant S_ .f32 0x7F800000#32
  let main_v35 : FVec F S2097152x2 .f32 := broadcastInDim S2097152x2 ![] bcast_S_S2097152x2 main_cst_12
  let main_v36 : IVec S2097152x2 1 := cmpf .olt main_v34 main_v35
  let main_c_13 : IVec S_ 1 := constantI S_ 1 1#1
  let main_v37 : IVec S_ 1 := (fun x v => Host.reduce IntOp.andi x v reducesTo_S2097152x2_S_d0_1 h_S_) main_v36 main_c_13
  let main_v38 : IVec S_ 1 := andi main_v33 main_v37
  let main_v39 : FVec F S2097152x2 .f32 := Host.absf main_arg8
  let main_cst_14 : FVec F S_ .f32 := constant S_ .f32 0x7F800000#32
  let main_v40 : FVec F S2097152x2 .f32 := broadcastInDim S2097152x2 ![] bcast_S_S2097152x2 main_cst_14
  let main_v41 : IVec S2097152x2 1 := cmpf .olt main_v39 main_v40
  let main_c_15 : IVec S_ 1 := constantI S_ 1 1#1
  let main_v42 : IVec S_ 1 := (fun x v => Host.reduce IntOp.andi x v reducesTo_S2097152x2_S_d0_1 h_S_) main_v41 main_c_15
  let main_v43 : IVec S_ 1 := andi main_v38 main_v42
  let main_v44 : FVec F S2048x2048x2 .f32 := Host.absf main_arg9
  let main_cst_16 : FVec F S_ .f32 := constant S_ .f32 0x7F800000#32
  let main_v45 : FVec F S2048x2048x2 .f32 := broadcastInDim S2048x2048x2 ![] bcast_S_S2048x2048x2 main_cst_16
  let main_v46 : IVec S2048x2048x2 1 := cmpf .olt main_v44 main_v45
  let main_c_17 : IVec S_ 1 := constantI S_ 1 1#1
  let main_v47 : IVec S_ 1 := (fun x v => Host.reduce IntOp.andi x v reducesTo_S2048x2048x2_S_d0_1_2 h_S_) main_v46 main_c_17
  let main_v48 : IVec S_ 1 := andi main_v43 main_v47
  let main_v49 : FVec F S2048x1 .f32 := Host.absf main_arg10
  let main_cst_18 : FVec F S_ .f32 := constant S_ .f32 0x7F800000#32
  let main_v50 : FVec F S2048x1 .f32 := broadcastInDim S2048x1 ![] bcast_S_S2048x1 main_cst_18
  fn_part3 (F := F) main_arg11 main_arg12 main_arg13 main_arg14 main_arg15 main_arg16 main_v48 main_v49 main_v50

def fn_part1 {F : FTy → Type} [FloatOps F] (main_arg4 : FVec F S2097152x2 .f32) (main_arg5 : FVec F S2097152x2 .f32) (main_arg6 : FVec F S2097152x2 .f32) (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) (main_v13 : IVec S_ 1) (main_v16 : IVec S2097152x2 1) : IVec S_ 1 :=
  let main_c_5 : IVec S_ 1 := constantI S_ 1 1#1
  let main_v17 : IVec S_ 1 := (fun x v => Host.reduce IntOp.andi x v reducesTo_S2097152x2_S_d0_1 h_S_) main_v16 main_c_5
  let main_v18 : IVec S_ 1 := andi main_v13 main_v17
  let main_v19 : FVec F S2097152x2 .f32 := Host.absf main_arg4
  let main_cst_6 : FVec F S_ .f32 := constant S_ .f32 0x7F800000#32
  let main_v20 : FVec F S2097152x2 .f32 := broadcastInDim S2097152x2 ![] bcast_S_S2097152x2 main_cst_6
  let main_v21 : IVec S2097152x2 1 := cmpf .olt main_v19 main_v20
  let main_c_7 : IVec S_ 1 := constantI S_ 1 1#1
  let main_v22 : IVec S_ 1 := (fun x v => Host.reduce IntOp.andi x v reducesTo_S2097152x2_S_d0_1 h_S_) main_v21 main_c_7
  let main_v23 : IVec S_ 1 := andi main_v18 main_v22
  let main_v24 : FVec F S2097152x2 .f32 := Host.absf main_arg5
  let main_cst_8 : FVec F S_ .f32 := constant S_ .f32 0x7F800000#32
  let main_v25 : FVec F S2097152x2 .f32 := broadcastInDim S2097152x2 ![] bcast_S_S2097152x2 main_cst_8
  let main_v26 : IVec S2097152x2 1 := cmpf .olt main_v24 main_v25
  let main_c_9 : IVec S_ 1 := constantI S_ 1 1#1
  let main_v27 : IVec S_ 1 := (fun x v => Host.reduce IntOp.andi x v reducesTo_S2097152x2_S_d0_1 h_S_) main_v26 main_c_9
  let main_v28 : IVec S_ 1 := andi main_v23 main_v27
  let main_v29 : FVec F S2097152x2 .f32 := Host.absf main_arg6
  let main_cst_10 : FVec F S_ .f32 := constant S_ .f32 0x7F800000#32
  let main_v30 : FVec F S2097152x2 .f32 := broadcastInDim S2097152x2 ![] bcast_S_S2097152x2 main_cst_10
  let main_v31 : IVec S2097152x2 1 := cmpf .olt main_v29 main_v30
  let main_c_11 : IVec S_ 1 := constantI S_ 1 1#1
  let main_v32 : IVec S_ 1 := (fun x v => Host.reduce IntOp.andi x v reducesTo_S2097152x2_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2097152x2 .f32) (main_arg1 : FVec F S2097152x2 .f32) (main_arg2 : FVec F S2097152x2 .f32) (main_arg3 : FVec F S2097152x2 .f32) (main_arg4 : FVec F S2097152x2 .f32) (main_arg5 : FVec F S2097152x2 .f32) (main_arg6 : FVec F S2097152x2 .f32) (main_arg7 : FVec F S2097152x2 .f32) (main_arg8 : FVec F S2097152x2 .f32) (main_arg9 : FVec F S2048x2048x2 .f32) (main_arg10 : FVec F S2048x1 .f32) (main_arg11 : FVec F S64x64x3 .f32) (main_arg12 : FVec F S48x48x3 .f32) (main_arg13 : FVec F S96x2 .f32) (main_arg14 : FVec F S32x32x1 .f32) (main_arg15 : FVec F S32x32x4 .f32) (main_arg16 : FVec F S32x32x4 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S2097152x2 .f32 := Host.absf main_arg1
  let main_cst_0 : FVec F S_ .f32 := constant S_ .f32 0x7F800000#32
  let main_v5 : FVec F S2097152x2 .f32 := broadcastInDim S2097152x2 ![] bcast_S_S2097152x2 main_cst_0
  let main_v6 : IVec S2097152x2 1 := cmpf .olt main_v4 main_v5
  let main_c_1 : IVec S_ 1 := constantI S_ 1 1#1
  let main_v7 : IVec S_ 1 := (fun x v => Host.reduce IntOp.andi x v reducesTo_S2097152x2_S_d0_1 h_S_) main_v6 main_c_1
  let main_v8 : IVec S_ 1 := andi main_v3 main_v7
  let main_v9 : FVec F S2097152x2 .f32 := Host.absf main_arg2
  let main_cst_2 : FVec F S_ .f32 := constant S_ .f32 0x7F800000#32
  let main_v10 : FVec F S2097152x2 .f32 := broadcastInDim S2097152x2 ![] bcast_S_S2097152x2 main_cst_2
  let main_v11 : IVec S2097152x2 1 := cmpf .olt main_v9 main_v10
  let main_c_3 : IVec S_ 1 := constantI S_ 1 1#1
  let main_v12 : IVec S_ 1 := (fun x v => Host.reduce IntOp.andi x v reducesTo_S2097152x2_S_d0_1 h_S_) main_v11 main_c_3
  let main_v13 : IVec S_ 1 := andi main_v8 main_v12
  let main_v14 : FVec F S2097152x2 .f32 := Host.absf main_arg3
  let main_cst_4 : FVec F S_ .f32 := constant S_ .f32 0x7F800000#32
  let main_v15 : FVec F S2097152x2 .f32 := broadcastInDim S2097152x2 ![] bcast_S_S2097152x2 main_cst_4
  let main_v16 : IVec S2097152x2 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S1x2048 : Shape := ⟨2, ![1, 2048]⟩
abbrev S3x64x64 : Shape := ⟨3, ![3, 64, 64]⟩
abbrev S3x48x48 : Shape := ⟨3, ![3, 48, 48]⟩
abbrev S2x96 : Shape := ⟨2, ![2, 96]⟩
abbrev S1x32x32 : Shape := ⟨3, ![1, 32, 32]⟩
abbrev S4x32x32 : Shape := ⟨3, ![4, 32, 32]⟩
abbrev S2097152x1 : Shape := ⟨2, ![2097152, 1]⟩
abbrev S2097152 : Shape := ⟨1, ![2097152]⟩
abbrev S_ : Shape := ⟨0, ![]⟩
abbrev S4194304x2 : Shape := ⟨2, ![4194304, 2]⟩
abbrev S2x2097152 : Shape := ⟨2, ![2, 2097152]⟩
abbrev S1x2097152 : Shape := ⟨2, ![1, 2097152]⟩
abbrev S3x2097152 : Shape := ⟨2, ![3, 2097152]⟩
abbrev S4x2097152 : Shape := ⟨2, ![4, 2097152]⟩
abbrev S12x2097152 : Shape := ⟨2, ![12, 2097152]⟩
abbrev S12x16384 : Shape := ⟨2, ![12, 16384]⟩
abbrev S3x16384 : Shape := ⟨2, ![3, 16384]⟩
abbrev S2x16384 : Shape := ⟨2, ![2, 16384]⟩
abbrev S1x16384 : Shape := ⟨2, ![1, 16384]⟩
abbrev S4x16384 : Shape := ⟨2, ![4, 16384]⟩

abbrev nBuf : Space → Nat
  | .hbm => 1006
  | .vmem => 16
  | .smem => 0
  | _ => 0

abbrev hbmTy0_0 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S2048x2048x2, .f32⟩
  | 10 => ⟨S2048x1, .f32⟩
  | 11 => ⟨S64x64x3, .f32⟩
  | 12 => ⟨S48x48x3, .f32⟩
  | 13 => ⟨S96x2, .f32⟩
  | 14 => ⟨S32x32x1, .f32⟩
  | 15 => ⟨S32x32x4, .f32⟩
  | 16 => ⟨S32x32x4, .f32⟩
  | 17 => ⟨S1x2048, .f32⟩
  | 18 => ⟨S3x64x64, .f32⟩
  | 19 => ⟨S3x48x48, .f32⟩
  | 20 => ⟨S2x96, .f32⟩
  | 21 => ⟨S1x32x32, .f32⟩
  | 22 => ⟨S4x32x32, .f32⟩
  | 23 => ⟨S4x32x32, .f32⟩
  | 24 => ⟨S2097152x1, .f32⟩
  | 25 => ⟨S2097152, .f32⟩
  | 26 => ⟨S2097152x1, .f32⟩
  | 27 => ⟨S2097152, .f32⟩
  | 28 => ⟨S2097152x1, .f32⟩
  | 29 => ⟨S2097152, .f32⟩
  | 30 => ⟨S_, .f32⟩
  | 31 => ⟨S_, .f32⟩
  | 32 => ⟨S_, .f32⟩
  | 33 => ⟨S2097152, .f32⟩
  | 34 => ⟨S2097152, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S_, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S_, .f32⟩
  | 50 => ⟨S2097152, .f32⟩
  | 51 => ⟨S2097152, .f32⟩
  | 52 => ⟨S2097152, .f32⟩
  | 53 => ⟨S2097152, .i32⟩
  | 54 => ⟨S2097152, .f32⟩
  | 55 => ⟨S2097152, .i32⟩
  | 56 => ⟨S_, .i32⟩
  | 57 => ⟨S2097152, .i32⟩
  | 58 => ⟨S2097152, .i32⟩
  | 59 => ⟨S2097152, .i32⟩
  | 60 => ⟨S4194304x2, .f32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S2097152x1, .i32⟩
  | 69 => ⟨S2097152x2, .f32⟩
  | 70 => ⟨S_, .f32⟩
  | 71 => ⟨S2097152x2, .f32⟩
  | 72 => ⟨S2097152x2, .f32⟩
  | 73 => ⟨S_, .f32⟩
  | 74 => ⟨S2097152x2, .f32⟩
  | 75 => ⟨S2097152x2, .f32⟩
  | 76 => ⟨S_, .f32⟩
  | 77 => ⟨S2097152x2, .f32⟩
  | 78 => ⟨S2097152x2, .f32⟩
  | 79 => ⟨S2097152x2, .f32⟩
  | 80 => ⟨S2097152x2, .f32⟩
  | 81 => ⟨S2097152x2, .f32⟩
  | 82 => ⟨S_, .f32⟩
  | 83 => ⟨S2097152x2, .f32⟩
  | 84 => ⟨S2097152x2, .f32⟩
  | 85 => ⟨S2x2097152, .f32⟩
  | 86 => ⟨S1x2097152, .f32⟩
  | 87 => ⟨S2097152, .f32⟩
  | 88 => ⟨S1x2097152, .f32⟩
  | 89 => ⟨S2097152, .f32⟩
  | 90 => ⟨S2097152x1, .f32⟩
  | 91 => ⟨S2097152, .f32⟩
  | 92 => ⟨S_, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S_, .f32⟩
  | 105 => ⟨S1x2048, .f32⟩
  | 106 => ⟨S1x2048, .f32⟩
  | 107 => ⟨S_, .f32⟩
  | 108 => ⟨S_, .f32⟩
  | 109 => ⟨S_, .f32⟩
  | 110 => ⟨S2097152, .f32⟩
  | 111 => ⟨S2097152, .f32⟩
  | 112 => ⟨S_, .f32⟩
  | 113 => ⟨S2097152, .f32⟩
  | 114 => ⟨S2097152, .f32⟩
  | 115 => ⟨S_, .f32⟩
  | 116 => ⟨S2097152, .f32⟩
  | 117 => ⟨S2097152, .f32⟩
  | 118 => ⟨S2097152, .f32⟩
  | 119 => ⟨S2097152, .i32⟩
  | 120 => ⟨S_, .i32⟩
  | 121 => ⟨S2097152, .i32⟩
  | 122 => ⟨S2097152, .i1⟩
  | 123 => ⟨S_, .i32⟩
  | 124 => ⟨S2097152, .i32⟩
  | 125 => ⟨S2097152, .i32⟩
  | 126 => ⟨S2097152, .i32⟩
  | 127 => ⟨S2097152x1, .i32⟩
  | _ => ⟨S2097152x2, .f32⟩

abbrev hbmTy0_1 (i : Nat) : BufTy := match i % 128 with
  | 0 => ⟨S1x2097152, .f32⟩
  | 1 => ⟨S2097152, .f32⟩
  | 2 => ⟨S2097152x1, .f32⟩
  | 3 => ⟨S2097152, .f32⟩
  | 4 => ⟨S_, .f32⟩
  | 5 => ⟨S3x64x64, .f32⟩
  | 6 => ⟨S3x64x64, .f32⟩
  | 7 => ⟨S_, .f32⟩
  | 8 => ⟨S3x64x64, .f32⟩
  | 9 => ⟨S3x64x64, .f32⟩
  | 10 => ⟨S_, .f32⟩
  | 11 => ⟨S3x64x64, .f32⟩
  | 12 => ⟨S3x64x64, .f32⟩
  | 13 => ⟨S3x64x64, .f32⟩
  | 14 => ⟨S3x64x64, .f32⟩
  | 15 => ⟨S3x64x64, .f32⟩
  | 16 => ⟨S_, .f32⟩
  | 17 => ⟨S3x64x64, .f32⟩
  | 18 => ⟨S3x64x64, .f32⟩
  | 19 => ⟨S_, .f32⟩
  | 20 => ⟨S_, .f32⟩
  | 21 => ⟨S_, .f32⟩
  | 22 => ⟨S2097152, .f32⟩
  | 23 => ⟨S2097152, .f32⟩
  | 24 => ⟨S_, .f32⟩
  | 25 => ⟨S2097152, .f32⟩
  | 26 => ⟨S2097152, .f32⟩
  | 27 => ⟨S_, .f32⟩
  | 28 => ⟨S2097152, .f32⟩
  | 29 => ⟨S2097152, .f32⟩
  | 30 => ⟨S_, .f32⟩
  | 31 => ⟨S_, .f32⟩
  | 32 => ⟨S_, .f32⟩
  | 33 => ⟨S2097152, .f32⟩
  | 34 => ⟨S2097152, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S2097152, .f32⟩
  | 42 => ⟨S2097152, .f32⟩
  | 43 => ⟨S2097152, .f32⟩
  | 44 => ⟨S1x2097152, .f32⟩
  | 45 => ⟨S2097152, .f32⟩
  | 46 => ⟨S1x2097152, .f32⟩
  | 47 => ⟨S2097152, .i32⟩
  | 48 => ⟨S2097152, .i32⟩
  | 49 => ⟨S_, .i32⟩
  | 50 => ⟨S2097152, .i32⟩
  | 51 => ⟨S2097152, .i32⟩
  | 52 => ⟨S_, .i32⟩
  | 53 => ⟨S2097152, .i32⟩
  | 54 => ⟨S2097152, .i32⟩
  | 55 => ⟨S_, .i32⟩
  | 56 => ⟨S2097152, .i32⟩
  | 57 => ⟨S2097152, .i32⟩
  | 58 => ⟨S_, .i32⟩
  | 59 => ⟨S2097152, .i32⟩
  | 60 => ⟨S2097152, .i32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S_, .i32⟩
  | 69 => ⟨S2097152, .i32⟩
  | 70 => ⟨S2097152, .i1⟩
  | 71 => ⟨S_, .i32⟩
  | 72 => ⟨S2097152, .i32⟩
  | 73 => ⟨S2097152, .i32⟩
  | 74 => ⟨S2097152, .i32⟩
  | 75 => ⟨S2097152x1, .i32⟩
  | 76 => ⟨S2097152x1, .i32⟩
  | 77 => ⟨S2097152x2, .i32⟩
  | 78 => ⟨S3x2097152, .f32⟩
  | 79 => ⟨S_, .f32⟩
  | 80 => ⟨S1x2097152, .f32⟩
  | 81 => ⟨S1x2097152, .f32⟩
  | 82 => ⟨S3x2097152, .f32⟩
  | 83 => ⟨S3x2097152, .f32⟩
  | 84 => ⟨S_, .f32⟩
  | 85 => ⟨S1x2097152, .f32⟩
  | 86 => ⟨S1x2097152, .f32⟩
  | 87 => ⟨S3x2097152, .f32⟩
  | 88 => ⟨S3x2097152, .f32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S_, .i32⟩
  | 97 => ⟨S2097152, .i32⟩
  | 98 => ⟨S2097152, .i1⟩
  | 99 => ⟨S_, .i32⟩
  | 100 => ⟨S2097152, .i32⟩
  | 101 => ⟨S2097152, .i32⟩
  | 102 => ⟨S2097152, .i32⟩
  | 103 => ⟨S2097152x1, .i32⟩
  | 104 => ⟨S2097152x1, .i32⟩
  | 105 => ⟨S2097152x2, .i32⟩
  | 106 => ⟨S3x2097152, .f32⟩
  | 107 => ⟨S3x2097152, .f32⟩
  | 108 => ⟨S3x2097152, .f32⟩
  | 109 => ⟨S_, .f32⟩
  | 110 => ⟨S1x2097152, .f32⟩
  | 111 => ⟨S1x2097152, .f32⟩
  | 112 => ⟨S3x2097152, .f32⟩
  | 113 => ⟨S3x2097152, .f32⟩
  | 114 => ⟨S3x2097152, .f32⟩
  | 115 => ⟨S_, .i32⟩
  | 116 => ⟨S2097152, .i32⟩
  | 117 => ⟨S2097152, .i1⟩
  | 118 => ⟨S_, .i32⟩
  | 119 => ⟨S2097152, .i32⟩
  | 120 => ⟨S2097152, .i32⟩
  | 121 => ⟨S2097152, .i32⟩
  | 122 => ⟨S_, .i32⟩
  | 123 => ⟨S2097152, .i32⟩
  | 124 => ⟨S2097152, .i1⟩
  | 125 => ⟨S_, .i32⟩
  | 126 => ⟨S2097152, .i32⟩
  | 127 => ⟨S2097152, .i32⟩
  | _ => ⟨S2097152x2, .f32⟩

abbrev hbmTy0_2 (i : Nat) : BufTy := match i % 128 with
  | 0 => ⟨S2097152, .i32⟩
  | 1 => ⟨S2097152x1, .i32⟩
  | 2 => ⟨S2097152x1, .i32⟩
  | 3 => ⟨S2097152x2, .i32⟩
  | 4 => ⟨S3x2097152, .f32⟩
  | 5 => ⟨S_, .f32⟩
  | 6 => ⟨S1x2097152, .f32⟩
  | 7 => ⟨S1x2097152, .f32⟩
  | 8 => ⟨S3x2097152, .f32⟩
  | 9 => ⟨S3x2097152, .f32⟩
  | 10 => ⟨S3x2097152, .f32⟩
  | 11 => ⟨S3x2097152, .f32⟩
  | 12 => ⟨S3x2097152, .f32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S_, .i32⟩
  | 21 => ⟨S2097152, .i32⟩
  | 22 => ⟨S2097152, .i1⟩
  | 23 => ⟨S_, .i32⟩
  | 24 => ⟨S2097152, .i32⟩
  | 25 => ⟨S2097152, .i32⟩
  | 26 => ⟨S2097152, .i32⟩
  | 27 => ⟨S2097152x1, .i32⟩
  | 28 => ⟨S2097152x1, .i32⟩
  | 29 => ⟨S2097152x2, .i32⟩
  | 30 => ⟨S3x2097152, .f32⟩
  | 31 => ⟨S3x2097152, .f32⟩
  | 32 => ⟨S3x2097152, .f32⟩
  | 33 => ⟨S3x2097152, .f32⟩
  | 34 => ⟨S3x2097152, .f32⟩
  | 35 => ⟨S3x2097152, .f32⟩
  | 36 => ⟨S_, .f32⟩
  | 37 => ⟨S_, .f32⟩
  | 38 => ⟨S_, .f32⟩
  | 39 => ⟨S2097152, .f32⟩
  | 40 => ⟨S2097152, .f32⟩
  | 41 => ⟨S_, .f32⟩
  | 42 => ⟨S2097152, .f32⟩
  | 43 => ⟨S2097152, .f32⟩
  | 44 => ⟨S_, .f32⟩
  | 45 => ⟨S2097152, .f32⟩
  | 46 => ⟨S2097152, .f32⟩
  | 47 => ⟨S_, .f32⟩
  | 48 => ⟨S_, .f32⟩
  | 49 => ⟨S_, .f32⟩
  | 50 => ⟨S2097152, .f32⟩
  | 51 => ⟨S2097152, .f32⟩
  | 52 => ⟨S_, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152, .f32⟩
  | 59 => ⟨S2097152, .f32⟩
  | 60 => ⟨S2097152, .f32⟩
  | 61 => ⟨S1x2097152, .f32⟩
  | 62 => ⟨S2097152, .f32⟩
  | 63 => ⟨S1x2097152, .f32⟩
  | 64 => ⟨S2097152, .i32⟩
  | 65 => ⟨S2097152, .i32⟩
  | 66 => ⟨S_, .i32⟩
  | 67 => ⟨S2097152, .i32⟩
  | 68 => ⟨S2097152, .i32⟩
  | 69 => ⟨S_, .i32⟩
  | 70 => ⟨S2097152, .i32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S_, .i32⟩
  | 86 => ⟨S2097152, .i32⟩
  | 87 => ⟨S2097152, .i1⟩
  | 88 => ⟨S_, .i32⟩
  | 89 => ⟨S2097152, .i32⟩
  | 90 => ⟨S2097152, .i32⟩
  | 91 => ⟨S2097152, .i32⟩
  | 92 => ⟨S2097152x1, .i32⟩
  | 93 => ⟨S2097152x1, .i32⟩
  | 94 => ⟨S2097152x2, .i32⟩
  | 95 => ⟨S3x2097152, .f32⟩
  | 96 => ⟨S_, .f32⟩
  | 97 => ⟨S1x2097152, .f32⟩
  | 98 => ⟨S1x2097152, .f32⟩
  | 99 => ⟨S3x2097152, .f32⟩
  | 100 => ⟨S3x2097152, .f32⟩
  | 101 => ⟨S_, .f32⟩
  | 102 => ⟨S1x2097152, .f32⟩
  | 103 => ⟨S1x2097152, .f32⟩
  | 104 => ⟨S3x2097152, .f32⟩
  | 105 => ⟨S3x2097152, .f32⟩
  | 106 => ⟨S_, .i32⟩
  | 107 => ⟨S2097152, .i32⟩
  | 108 => ⟨S2097152, .i1⟩
  | 109 => ⟨S_, .i32⟩
  | 110 => ⟨S2097152, .i32⟩
  | 111 => ⟨S2097152, .i32⟩
  | 112 => ⟨S2097152, .i32⟩
  | 113 => ⟨S_, .i32⟩
  | 114 => ⟨S2097152, .i32⟩
  | 115 => ⟨S2097152, .i1⟩
  | 116 => ⟨S_, .i32⟩
  | 117 => ⟨S2097152, .i32⟩
  | 118 => ⟨S2097152, .i32⟩
  | 119 => ⟨S2097152, .i32⟩
  | 120 => ⟨S2097152x1, .i32⟩
  | 121 => ⟨S2097152x1, .i32⟩
  | 122 => ⟨S2097152x2, .i32⟩
  | 123 => ⟨S3x2097152, .f32⟩
  | 124 => ⟨S3x2097152, .f32⟩
  | 125 => ⟨S3x2097152, .f32⟩
  | 126 => ⟨S_, .f32⟩
  | 127 => ⟨S1x2097152, .f32⟩
  | _ => ⟨S2097152x2, .f32⟩

abbrev hbmTy0_3 (i : Nat) : BufTy := match i % 128 with
  | 0 => ⟨S1x2097152, .f32⟩
  | 1 => ⟨S3x2097152, .f32⟩
  | 2 => ⟨S3x2097152, .f32⟩
  | 3 => ⟨S3x2097152, .f32⟩
  | 4 => ⟨S_, .i32⟩
  | 5 => ⟨S2097152, .i32⟩
  | 6 => ⟨S2097152, .i1⟩
  | 7 => ⟨S_, .i32⟩
  | 8 => ⟨S2097152, .i32⟩
  | 9 => ⟨S2097152, .i32⟩
  | 10 => ⟨S2097152, .i32⟩
  | 11 => ⟨S_, .i32⟩
  | 12 => ⟨S2097152, .i32⟩
  | 13 => ⟨S2097152, .i1⟩
  | 14 => ⟨S_, .i32⟩
  | 15 => ⟨S2097152, .i32⟩
  | 16 => ⟨S2097152, .i32⟩
  | 17 => ⟨S2097152, .i32⟩
  | 18 => ⟨S2097152x1, .i32⟩
  | 19 => ⟨S2097152x1, .i32⟩
  | 20 => ⟨S2097152x2, .i32⟩
  | 21 => ⟨S3x2097152, .f32⟩
  | 22 => ⟨S_, .f32⟩
  | 23 => ⟨S1x2097152, .f32⟩
  | 24 => ⟨S1x2097152, .f32⟩
  | 25 => ⟨S3x2097152, .f32⟩
  | 26 => ⟨S3x2097152, .f32⟩
  | 27 => ⟨S3x2097152, .f32⟩
  | 28 => ⟨S3x2097152, .f32⟩
  | 29 => ⟨S3x2097152, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S2097152x1, .i32⟩
  | 45 => ⟨S2097152x1, .i32⟩
  | 46 => ⟨S2097152x2, .i32⟩
  | 47 => ⟨S3x2097152, .f32⟩
  | 48 => ⟨S3x2097152, .f32⟩
  | 49 => ⟨S3x2097152, .f32⟩
  | 50 => ⟨S3x2097152, .f32⟩
  | 51 => ⟨S3x2097152, .f32⟩
  | 52 => ⟨S3x2097152, .f32⟩
  | 53 => ⟨S_, .f32⟩
  | 54 => ⟨S_, .f32⟩
  | 55 => ⟨S_, .f32⟩
  | 56 => ⟨S2097152, .f32⟩
  | 57 => ⟨S2097152, .f32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S2097152, .f32⟩
  | 65 => ⟨S2097152, .f32⟩
  | 66 => ⟨S1x2097152, .f32⟩
  | 67 => ⟨S2097152, .i32⟩
  | 68 => ⟨S_, .i32⟩
  | 69 => ⟨S2097152, .i32⟩
  | 70 => ⟨S2097152, .i32⟩
  | 71 => ⟨S_, .i32⟩
  | 72 => ⟨S2097152, .i32⟩
  | 73 => ⟨S2097152, .i32⟩
  | 74 => ⟨S_, .i32⟩
  | 75 => ⟨S2097152, .i32⟩
  | 76 => ⟨S2097152, .i1⟩
  | 77 => ⟨S_, .i32⟩
  | 78 => ⟨S2097152, .i32⟩
  | 79 => ⟨S2097152, .i32⟩
  | 80 => ⟨S2097152, .i32⟩
  | 81 => ⟨S2097152x1, .i32⟩
  | 82 => ⟨S2x2097152, .f32⟩
  | 83 => ⟨S_, .f32⟩
  | 84 => ⟨S1x2097152, .f32⟩
  | 85 => ⟨S1x2097152, .f32⟩
  | 86 => ⟨S2x2097152, .f32⟩
  | 87 => ⟨S2x2097152, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S2097152x1, .i32⟩
  | 96 => ⟨S2x2097152, .f32⟩
  | 97 => ⟨S2x2097152, .f32⟩
  | 98 => ⟨S2x2097152, .f32⟩
  | 99 => ⟨S2x2097152, .f32⟩
  | 100 => ⟨S2097152x1, .f32⟩
  | 101 => ⟨S2097152, .f32⟩
  | 102 => ⟨S2097152x1, .f32⟩
  | 103 => ⟨S2097152, .f32⟩
  | 104 => ⟨S2097152, .f32⟩
  | 105 => ⟨S_, .f32⟩
  | 106 => ⟨S1x32x32, .f32⟩
  | 107 => ⟨S1x32x32, .f32⟩
  | 108 => ⟨S_, .f32⟩
  | 109 => ⟨S1x32x32, .f32⟩
  | 110 => ⟨S1x32x32, .f32⟩
  | 111 => ⟨S_, .f32⟩
  | 112 => ⟨S1x32x32, .f32⟩
  | 113 => ⟨S1x32x32, .f32⟩
  | 114 => ⟨S1x32x32, .f32⟩
  | 115 => ⟨S1x32x32, .f32⟩
  | 116 => ⟨S1x32x32, .f32⟩
  | 117 => ⟨S_, .f32⟩
  | 118 => ⟨S1x32x32, .f32⟩
  | 119 => ⟨S1x32x32, .f32⟩
  | 120 => ⟨S_, .f32⟩
  | 121 => ⟨S_, .f32⟩
  | 122 => ⟨S_, .f32⟩
  | 123 => ⟨S2097152, .f32⟩
  | 124 => ⟨S2097152, .f32⟩
  | 125 => ⟨S_, .f32⟩
  | 126 => ⟨S2097152, .f32⟩
  | 127 => ⟨S2097152, .f32⟩
  | _ => ⟨S2097152x2, .f32⟩

abbrev hbmTy0_4 (i : Nat) : BufTy := match i % 128 with
  | 0 => ⟨S_, .f32⟩
  | 1 => ⟨S2097152, .f32⟩
  | 2 => ⟨S2097152, .f32⟩
  | 3 => ⟨S_, .f32⟩
  | 4 => ⟨S_, .f32⟩
  | 5 => ⟨S_, .f32⟩
  | 6 => ⟨S2097152, .f32⟩
  | 7 => ⟨S2097152, .f32⟩
  | 8 => ⟨S_, .f32⟩
  | 9 => ⟨S2097152, .f32⟩
  | 10 => ⟨S2097152, .f32⟩
  | 11 => ⟨S_, .f32⟩
  | 12 => ⟨S2097152, .f32⟩
  | 13 => ⟨S2097152, .f32⟩
  | 14 => ⟨S2097152, .f32⟩
  | 15 => ⟨S2097152, .f32⟩
  | 16 => ⟨S2097152, .f32⟩
  | 17 => ⟨S1x2097152, .f32⟩
  | 18 => ⟨S2097152, .f32⟩
  | 19 => ⟨S1x2097152, .f32⟩
  | 20 => ⟨S2097152, .i32⟩
  | 21 => ⟨S2097152, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i32⟩
  | 31 => ⟨S_, .i32⟩
  | 32 => ⟨S2097152, .i32⟩
  | 33 => ⟨S2097152, .i32⟩
  | 34 => ⟨S_, .i32⟩
  | 35 => ⟨S2097152, .i32⟩
  | 36 => ⟨S2097152, .i1⟩
  | 37 => ⟨S_, .i32⟩
  | 38 => ⟨S2097152, .i32⟩
  | 39 => ⟨S2097152, .i32⟩
  | 40 => ⟨S2097152, .i32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i32⟩
  | 47 => ⟨S2097152, .i32⟩
  | 48 => ⟨S2097152x1, .i32⟩
  | 49 => ⟨S2097152x1, .i32⟩
  | 50 => ⟨S2097152x2, .i32⟩
  | 51 => ⟨S1x2097152, .f32⟩
  | 52 => ⟨S_, .f32⟩
  | 53 => ⟨S1x2097152, .f32⟩
  | 54 => ⟨S1x2097152, .f32⟩
  | 55 => ⟨S1x2097152, .f32⟩
  | 56 => ⟨S_, .f32⟩
  | 57 => ⟨S1x2097152, .f32⟩
  | 58 => ⟨S1x2097152, .f32⟩
  | 59 => ⟨S1x2097152, .f32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x1, .i32⟩
  | 76 => ⟨S2097152x2, .i32⟩
  | 77 => ⟨S1x2097152, .f32⟩
  | 78 => ⟨S1x2097152, .f32⟩
  | 79 => ⟨S_, .f32⟩
  | 80 => ⟨S1x2097152, .f32⟩
  | 81 => ⟨S1x2097152, .f32⟩
  | 82 => ⟨S1x2097152, .f32⟩
  | 83 => ⟨S1x2097152, .f32⟩
  | 84 => ⟨S_, .i32⟩
  | 85 => ⟨S2097152, .i32⟩
  | 86 => ⟨S2097152, .i1⟩
  | 87 => ⟨S_, .i32⟩
  | 88 => ⟨S2097152, .i32⟩
  | 89 => ⟨S2097152, .i32⟩
  | 90 => ⟨S2097152, .i32⟩
  | 91 => ⟨S_, .i32⟩
  | 92 => ⟨S2097152, .i32⟩
  | 93 => ⟨S2097152, .i1⟩
  | 94 => ⟨S_, .i32⟩
  | 95 => ⟨S2097152, .i32⟩
  | 96 => ⟨S2097152, .i32⟩
  | 97 => ⟨S2097152, .i32⟩
  | 98 => ⟨S2097152x1, .i32⟩
  | 99 => ⟨S2097152x1, .i32⟩
  | 100 => ⟨S2097152x2, .i32⟩
  | 101 => ⟨S1x2097152, .f32⟩
  | 102 => ⟨S_, .f32⟩
  | 103 => ⟨S1x2097152, .f32⟩
  | 104 => ⟨S1x2097152, .f32⟩
  | 105 => ⟨S1x2097152, .f32⟩
  | 106 => ⟨S1x2097152, .f32⟩
  | 107 => ⟨S1x2097152, .f32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S_, .i32⟩
  | 116 => ⟨S2097152, .i32⟩
  | 117 => ⟨S2097152, .i1⟩
  | 118 => ⟨S_, .i32⟩
  | 119 => ⟨S2097152, .i32⟩
  | 120 => ⟨S2097152, .i32⟩
  | 121 => ⟨S2097152, .i32⟩
  | 122 => ⟨S2097152x1, .i32⟩
  | 123 => ⟨S2097152x1, .i32⟩
  | 124 => ⟨S2097152x2, .i32⟩
  | 125 => ⟨S1x2097152, .f32⟩
  | 126 => ⟨S1x2097152, .f32⟩
  | 127 => ⟨S1x2097152, .f32⟩
  | _ => ⟨S2097152x2, .f32⟩

abbrev hbmTy0_5 (i : Nat) : BufTy := match i % 128 with
  | 0 => ⟨S1x2097152, .f32⟩
  | 1 => ⟨S2097152x1, .f32⟩
  | 2 => ⟨S2097152, .f32⟩
  | 3 => ⟨S2097152x1, .f32⟩
  | 4 => ⟨S2097152, .f32⟩
  | 5 => ⟨S_, .f32⟩
  | 6 => ⟨S4x32x32, .f32⟩
  | 7 => ⟨S4x32x32, .f32⟩
  | 8 => ⟨S_, .f32⟩
  | 9 => ⟨S4x32x32, .f32⟩
  | 10 => ⟨S4x32x32, .f32⟩
  | 11 => ⟨S_, .f32⟩
  | 12 => ⟨S4x32x32, .f32⟩
  | 13 => ⟨S4x32x32, .f32⟩
  | 14 => ⟨S4x32x32, .f32⟩
  | 15 => ⟨S4x32x32, .f32⟩
  | 16 => ⟨S4x32x32, .f32⟩
  | 17 => ⟨S_, .f32⟩
  | 18 => ⟨S4x32x32, .f32⟩
  | 19 => ⟨S4x32x32, .f32⟩
  | 20 => ⟨S_, .f32⟩
  | 21 => ⟨S_, .f32⟩
  | 22 => ⟨S_, .f32⟩
  | 23 => ⟨S2097152, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S_, .f32⟩
  | 33 => ⟨S_, .f32⟩
  | 34 => ⟨S2097152, .f32⟩
  | 35 => ⟨S2097152, .f32⟩
  | 36 => ⟨S_, .f32⟩
  | 37 => ⟨S2097152, .f32⟩
  | 38 => ⟨S2097152, .f32⟩
  | 39 => ⟨S_, .f32⟩
  | 40 => ⟨S2097152, .f32⟩
  | 41 => ⟨S2097152, .f32⟩
  | 42 => ⟨S2097152, .f32⟩
  | 43 => ⟨S2097152, .f32⟩
  | 44 => ⟨S2097152, .f32⟩
  | 45 => ⟨S1x2097152, .f32⟩
  | 46 => ⟨S2097152, .f32⟩
  | 47 => ⟨S1x2097152, .f32⟩
  | 48 => ⟨S2097152, .i32⟩
  | 49 => ⟨S2097152, .i32⟩
  | 50 => ⟨S_, .i32⟩
  | 51 => ⟨S2097152, .i32⟩
  | 52 => ⟨S2097152, .i32⟩
  | 53 => ⟨S_, .i32⟩
  | 54 => ⟨S2097152, .i32⟩
  | 55 => ⟨S2097152, .i32⟩
  | 56 => ⟨S_, .i32⟩
  | 57 => ⟨S2097152, .i32⟩
  | 58 => ⟨S2097152, .i32⟩
  | 59 => ⟨S_, .i32⟩
  | 60 => ⟨S2097152, .i32⟩
  | 61 => ⟨S2097152, .i32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S2097152x1, .i32⟩
  | 77 => ⟨S2097152x1, .i32⟩
  | 78 => ⟨S2097152x2, .i32⟩
  | 79 => ⟨S4x2097152, .f32⟩
  | 80 => ⟨S_, .f32⟩
  | 81 => ⟨S1x2097152, .f32⟩
  | 82 => ⟨S1x2097152, .f32⟩
  | 83 => ⟨S4x2097152, .f32⟩
  | 84 => ⟨S4x2097152, .f32⟩
  | 85 => ⟨S_, .f32⟩
  | 86 => ⟨S1x2097152, .f32⟩
  | 87 => ⟨S1x2097152, .f32⟩
  | 88 => ⟨S4x2097152, .f32⟩
  | 89 => ⟨S4x2097152, .f32⟩
  | 90 => ⟨S_, .i32⟩
  | 91 => ⟨S2097152, .i32⟩
  | 92 => ⟨S2097152, .i1⟩
  | 93 => ⟨S_, .i32⟩
  | 94 => ⟨S2097152, .i32⟩
  | 95 => ⟨S2097152, .i32⟩
  | 96 => ⟨S2097152, .i32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S2097152x1, .i32⟩
  | 105 => ⟨S2097152x1, .i32⟩
  | 106 => ⟨S2097152x2, .i32⟩
  | 107 => ⟨S4x2097152, .f32⟩
  | 108 => ⟨S4x2097152, .f32⟩
  | 109 => ⟨S4x2097152, .f32⟩
  | 110 => ⟨S_, .f32⟩
  | 111 => ⟨S1x2097152, .f32⟩
  | 112 => ⟨S1x2097152, .f32⟩
  | 113 => ⟨S4x2097152, .f32⟩
  | 114 => ⟨S4x2097152, .f32⟩
  | 115 => ⟨S4x2097152, .f32⟩
  | 116 => ⟨S_, .i32⟩
  | 117 => ⟨S2097152, .i32⟩
  | 118 => ⟨S2097152, .i1⟩
  | 119 => ⟨S_, .i32⟩
  | 120 => ⟨S2097152, .i32⟩
  | 121 => ⟨S2097152, .i32⟩
  | 122 => ⟨S2097152, .i32⟩
  | 123 => ⟨S_, .i32⟩
  | 124 => ⟨S2097152, .i32⟩
  | 125 => ⟨S2097152, .i1⟩
  | 126 => ⟨S_, .i32⟩
  | 127 => ⟨S2097152, .i32⟩
  | _ => ⟨S2097152x2, .f32⟩

abbrev hbmTy0_6 (i : Nat) : BufTy := match i % 128 with
  | 0 => ⟨S2097152, .i32⟩
  | 1 => ⟨S2097152, .i32⟩
  | 2 => ⟨S2097152x1, .i32⟩
  | 3 => ⟨S2097152x1, .i32⟩
  | 4 => ⟨S2097152x2, .i32⟩
  | 5 => ⟨S4x2097152, .f32⟩
  | 6 => ⟨S_, .f32⟩
  | 7 => ⟨S1x2097152, .f32⟩
  | 8 => ⟨S1x2097152, .f32⟩
  | 9 => ⟨S4x2097152, .f32⟩
  | 10 => ⟨S4x2097152, .f32⟩
  | 11 => ⟨S4x2097152, .f32⟩
  | 12 => ⟨S4x2097152, .f32⟩
  | 13 => ⟨S4x2097152, .f32⟩
  | 14 => ⟨S_, .i32⟩
  | 15 => ⟨S2097152, .i32⟩
  | 16 => ⟨S2097152, .i1⟩
  | 17 => ⟨S_, .i32⟩
  | 18 => ⟨S2097152, .i32⟩
  | 19 => ⟨S2097152, .i32⟩
  | 20 => ⟨S2097152, .i32⟩
  | 21 => ⟨S_, .i32⟩
  | 22 => ⟨S2097152, .i32⟩
  | 23 => ⟨S2097152, .i1⟩
  | 24 => ⟨S_, .i32⟩
  | 25 => ⟨S2097152, .i32⟩
  | 26 => ⟨S2097152, .i32⟩
  | 27 => ⟨S2097152, .i32⟩
  | 28 => ⟨S2097152x1, .i32⟩
  | 29 => ⟨S2097152x1, .i32⟩
  | 30 => ⟨S2097152x2, .i32⟩
  | 31 => ⟨S4x2097152, .f32⟩
  | 32 => ⟨S4x2097152, .f32⟩
  | 33 => ⟨S4x2097152, .f32⟩
  | 34 => ⟨S4x2097152, .f32⟩
  | 35 => ⟨S4x2097152, .f32⟩
  | 36 => ⟨S4x2097152, .f32⟩
  | 37 => ⟨S2097152x1, .f32⟩
  | 38 => ⟨S2097152, .f32⟩
  | 39 => ⟨S2097152x1, .f32⟩
  | 40 => ⟨S2097152, .f32⟩
  | 41 => ⟨S_, .f32⟩
  | 42 => ⟨S4x32x32, .f32⟩
  | 43 => ⟨S4x32x32, .f32⟩
  | 44 => ⟨S_, .f32⟩
  | 45 => ⟨S4x32x32, .f32⟩
  | 46 => ⟨S4x32x32, .f32⟩
  | 47 => ⟨S_, .f32⟩
  | 48 => ⟨S4x32x32, .f32⟩
  | 49 => ⟨S4x32x32, .f32⟩
  | 50 => ⟨S4x32x32, .f32⟩
  | 51 => ⟨S4x32x32, .f32⟩
  | 52 => ⟨S4x32x32, .f32⟩
  | 53 => ⟨S_, .f32⟩
  | 54 => ⟨S4x32x32, .f32⟩
  | 55 => ⟨S4x32x32, .f32⟩
  | 56 => ⟨S_, .f32⟩
  | 57 => ⟨S_, .f32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S_, .f32⟩
  | 65 => ⟨S2097152, .f32⟩
  | 66 => ⟨S2097152, .f32⟩
  | 67 => ⟨S_, .f32⟩
  | 68 => ⟨S_, .f32⟩
  | 69 => ⟨S_, .f32⟩
  | 70 => ⟨S2097152, .f32⟩
  | 71 => ⟨S2097152, .f32⟩
  | 72 => ⟨S_, .f32⟩
  | 73 => ⟨S2097152, .f32⟩
  | 74 => ⟨S2097152, .f32⟩
  | 75 => ⟨S_, .f32⟩
  | 76 => ⟨S2097152, .f32⟩
  | 77 => ⟨S2097152, .f32⟩
  | 78 => ⟨S2097152, .f32⟩
  | 79 => ⟨S2097152, .f32⟩
  | 80 => ⟨S2097152, .f32⟩
  | 81 => ⟨S1x2097152, .f32⟩
  | 82 => ⟨S2097152, .f32⟩
  | 83 => ⟨S1x2097152, .f32⟩
  | 84 => ⟨S2097152, .i32⟩
  | 85 => ⟨S2097152, .i32⟩
  | 86 => ⟨S_, .i32⟩
  | 87 => ⟨S2097152, .i32⟩
  | 88 => ⟨S2097152, .i32⟩
  | 89 => ⟨S_, .i32⟩
  | 90 => ⟨S2097152, .i32⟩
  | 91 => ⟨S2097152, .i32⟩
  | 92 => ⟨S_, .i32⟩
  | 93 => ⟨S2097152, .i32⟩
  | 94 => ⟨S2097152, .i32⟩
  | 95 => ⟨S_, .i32⟩
  | 96 => ⟨S2097152, .i32⟩
  | 97 => ⟨S2097152, .i32⟩
  | 98 => ⟨S_, .i32⟩
  | 99 => ⟨S2097152, .i32⟩
  | 100 => ⟨S2097152, .i1⟩
  | 101 => ⟨S_, .i32⟩
  | 102 => ⟨S2097152, .i32⟩
  | 103 => ⟨S2097152, .i32⟩
  | 104 => ⟨S2097152, .i32⟩
  | 105 => ⟨S_, .i32⟩
  | 106 => ⟨S2097152, .i32⟩
  | 107 => ⟨S2097152, .i1⟩
  | 108 => ⟨S_, .i32⟩
  | 109 => ⟨S2097152, .i32⟩
  | 110 => ⟨S2097152, .i32⟩
  | 111 => ⟨S2097152, .i32⟩
  | 112 => ⟨S2097152x1, .i32⟩
  | 113 => ⟨S2097152x1, .i32⟩
  | 114 => ⟨S2097152x2, .i32⟩
  | 115 => ⟨S4x2097152, .f32⟩
  | 116 => ⟨S_, .f32⟩
  | 117 => ⟨S1x2097152, .f32⟩
  | 118 => ⟨S1x2097152, .f32⟩
  | 119 => ⟨S4x2097152, .f32⟩
  | 120 => ⟨S4x2097152, .f32⟩
  | 121 => ⟨S_, .f32⟩
  | 122 => ⟨S1x2097152, .f32⟩
  | 123 => ⟨S1x2097152, .f32⟩
  | 124 => ⟨S4x2097152, .f32⟩
  | 125 => ⟨S4x2097152, .f32⟩
  | 126 => ⟨S_, .i32⟩
  | 127 => ⟨S2097152, .i32⟩
  | _ => ⟨S2097152x2, .f32⟩

abbrev hbmTy0_7 (i : Nat) : BufTy := match i % 128 with
  | 0 => ⟨S2097152, .i1⟩
  | 1 => ⟨S_, .i32⟩
  | 2 => ⟨S2097152, .i32⟩
  | 3 => ⟨S2097152, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S2097152x1, .i32⟩
  | 13 => ⟨S2097152x1, .i32⟩
  | 14 => ⟨S2097152x2, .i32⟩
  | 15 => ⟨S4x2097152, .f32⟩
  | 16 => ⟨S4x2097152, .f32⟩
  | 17 => ⟨S4x2097152, .f32⟩
  | 18 => ⟨S_, .f32⟩
  | 19 => ⟨S1x2097152, .f32⟩
  | 20 => ⟨S1x2097152, .f32⟩
  | 21 => ⟨S4x2097152, .f32⟩
  | 22 => ⟨S4x2097152, .f32⟩
  | 23 => ⟨S4x2097152, .f32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S_, .i32⟩
  | 32 => ⟨S2097152, .i32⟩
  | 33 => ⟨S2097152, .i1⟩
  | 34 => ⟨S_, .i32⟩
  | 35 => ⟨S2097152, .i32⟩
  | 36 => ⟨S2097152, .i32⟩
  | 37 => ⟨S2097152, .i32⟩
  | 38 => ⟨S2097152x1, .i32⟩
  | 39 => ⟨S2097152x1, .i32⟩
  | 40 => ⟨S2097152x2, .i32⟩
  | 41 => ⟨S4x2097152, .f32⟩
  | 42 => ⟨S_, .f32⟩
  | 43 => ⟨S1x2097152, .f32⟩
  | 44 => ⟨S1x2097152, .f32⟩
  | 45 => ⟨S4x2097152, .f32⟩
  | 46 => ⟨S4x2097152, .f32⟩
  | 47 => ⟨S4x2097152, .f32⟩
  | 48 => ⟨S4x2097152, .f32⟩
  | 49 => ⟨S4x2097152, .f32⟩
  | 50 => ⟨S_, .i32⟩
  | 51 => ⟨S2097152, .i32⟩
  | 52 => ⟨S2097152, .i1⟩
  | 53 => ⟨S_, .i32⟩
  | 54 => ⟨S2097152, .i32⟩
  | 55 => ⟨S2097152, .i32⟩
  | 56 => ⟨S2097152, .i32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S2097152x1, .i32⟩
  | 65 => ⟨S2097152x1, .i32⟩
  | 66 => ⟨S2097152x2, .i32⟩
  | 67 => ⟨S4x2097152, .f32⟩
  | 68 => ⟨S4x2097152, .f32⟩
  | 69 => ⟨S4x2097152, .f32⟩
  | 70 => ⟨S4x2097152, .f32⟩
  | 71 => ⟨S4x2097152, .f32⟩
  | 72 => ⟨S4x2097152, .f32⟩
  | 73 => ⟨S2097152x1, .f32⟩
  | 74 => ⟨S2097152, .f32⟩
  | 75 => ⟨S2097152x1, .f32⟩
  | 76 => ⟨S2097152, .f32⟩
  | 77 => ⟨S2097152x1, .f32⟩
  | 78 => ⟨S2097152, .f32⟩
  | 79 => ⟨S2097152x1, .f32⟩
  | 80 => ⟨S2097152, .f32⟩
  | 81 => ⟨S2097152x1, .f32⟩
  | 82 => ⟨S2097152, .f32⟩
  | 83 => ⟨S2097152x1, .f32⟩
  | 84 => ⟨S2097152, .f32⟩
  | 85 => ⟨S2097152x1, .f32⟩
  | 86 => ⟨S2097152, .f32⟩
  | 87 => ⟨S2097152x1, .f32⟩
  | 88 => ⟨S2097152, .f32⟩
  | 89 => ⟨S2097152x1, .f32⟩
  | 90 => ⟨S2097152, .f32⟩
  | 91 => ⟨S2097152x1, .f32⟩
  | 92 => ⟨S2097152, .f32⟩
  | 93 => ⟨S2097152x1, .f32⟩
  | 94 => ⟨S2097152, .f32⟩
  | 95 => ⟨S1x2097152, .f32⟩
  | 96 => ⟨S1x2097152, .f32⟩
  | 97 => ⟨S1x2097152, .f32⟩
  | 98 => ⟨S1x2097152, .f32⟩
  | 99 => ⟨S1x2097152, .f32⟩
  | 100 => ⟨S1x2097152, .f32⟩
  | 101 => ⟨S1x2097152, .f32⟩
  | 102 => ⟨S1x2097152, .f32⟩
  | 103 => ⟨S1x2097152, .f32⟩
  | 104 => ⟨S1x2097152, .f32⟩
  | 105 => ⟨S1x2097152, .f32⟩
  | 106 => ⟨S1x2097152, .f32⟩
  | 107 => ⟨S12x2097152, .f32⟩
  | 108 => ⟨S2x2097152, .f32⟩
  | 109 => ⟨S2097152x2, .f32⟩
  | _ => ⟨S2097152x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2097152x2, .f32⟩

abbrev bufTy : (tb : Table) → Fin (tcTables nBuf tb) → BufTy
  | .hbm, ⟨i, _⟩ => hbmTy i
  | .local _ .vmem, ⟨0, _⟩ => ⟨S12x16384, .f32⟩
  | .local _ .vmem, ⟨1, _⟩ => ⟨S12x16384, .f32⟩
  | .local _ .vmem, ⟨2, _⟩ => ⟨S3x16384, .f32⟩
  | .local _ .vmem, ⟨3, _⟩ => ⟨S3x16384, .f32⟩
  | .local _ .vmem, ⟨4, _⟩ => ⟨S3x16384, .f32⟩
  | .local _ .vmem, ⟨5, _⟩ => ⟨S3x16384, .f32⟩
  | .local _ .vmem, ⟨6, _⟩ => ⟨S2x16384, .f32⟩
  | .local _ .vmem, ⟨7, _⟩ => ⟨S2x16384, .f32⟩
  | .local _ .vmem, ⟨8, _⟩ => ⟨S1x16384, .f32⟩
  | .local _ .vmem, ⟨9, _⟩ => ⟨S1x16384, .f32⟩
  | .local _ .vmem, ⟨10, _⟩ => ⟨S4x16384, .f32⟩
  | .local _ .vmem, ⟨11, _⟩ => ⟨S4x16384, .f32⟩
  | .local _ .vmem, ⟨12, _⟩ => ⟨S4x16384, .f32⟩
  | .local _ .vmem, ⟨13, _⟩ => ⟨S4x16384, .f32⟩
  | .local _ .vmem, ⟨14, _⟩ => ⟨S2x16384, .f32⟩
  | .local _ .vmem, ⟨15, _⟩ => ⟨S2x16384, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v16 : Ref sig .tc := ⟨.hbm, 48, rfl⟩
abbrev main_cst_4 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_c_5 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_cst_9 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_10 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_11 : Ref sig .tc := ⟨.hbm, 92, rfl⟩
abbrev main_v52 : Ref sig .tc := ⟨.hbm, 93, rfl⟩
abbrev main_v53 : Ref sig .tc := ⟨.hbm, 94, rfl⟩
abbrev main_cst_12 : Ref sig .tc := ⟨.hbm, 95, rfl⟩
abbrev main_v54 : Ref sig .tc := ⟨.hbm, 96, rfl⟩
abbrev main_v55 : Ref sig .tc := ⟨.hbm, 97, rfl⟩
abbrev main_cst_13 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_14 : Ref sig .tc := ⟨.hbm, 104, rfl⟩
abbrev main_v61 : Ref sig .tc := ⟨.hbm, 105, rfl⟩
abbrev main_v62 : Ref sig .tc := ⟨.hbm, 106, rfl⟩
abbrev main_cst_15 : Ref sig .tc := ⟨.hbm, 107, rfl⟩
abbrev main_cst_16 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v63 : Ref sig .tc := ⟨.hbm, 114, rfl⟩
abbrev main_cst_17 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_18 : Ref sig .tc := ⟨.hbm, 120, rfl⟩
abbrev main_v68 : Ref sig .tc := ⟨.hbm, 121, rfl⟩
abbrev main_v69 : Ref sig .tc := ⟨.hbm, 122, rfl⟩
abbrev main_c_19 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_20 : Ref sig .tc := ⟨.hbm, 132, rfl⟩
abbrev main_v78 : Ref sig .tc := ⟨.hbm, 133, rfl⟩
abbrev main_v79 : Ref sig .tc := ⟨.hbm, 134, rfl⟩
abbrev main_cst_21 : Ref sig .tc := ⟨.hbm, 135, rfl⟩
abbrev main_v80 : Ref sig .tc := ⟨.hbm, 136, rfl⟩
abbrev main_v81 : Ref sig .tc := ⟨.hbm, 137, rfl⟩
abbrev main_cst_22 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_23 : Ref sig .tc := ⟨.hbm, 144, rfl⟩
abbrev main_v87 : Ref sig .tc := ⟨.hbm, 145, rfl⟩
abbrev main_v88 : Ref sig .tc := ⟨.hbm, 146, rfl⟩
abbrev main_cst_24 : Ref sig .tc := ⟨.hbm, 147, rfl⟩
abbrev main_cst_25 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_v89 : Ref sig .tc := ⟨.hbm, 154, rfl⟩
abbrev main_cst_26 : Ref sig .tc := ⟨.hbm, 155, rfl⟩
abbrev main_v90 : Ref sig .tc := ⟨.hbm, 156, rfl⟩
abbrev main_v91 : Ref sig .tc := ⟨.hbm, 157, rfl⟩
abbrev main_cst_27 : Ref sig .tc := ⟨.hbm, 158, rfl⟩
abbrev main_cst_28 : Ref sig .tc := ⟨.hbm, 159, rfl⟩
abbrev main_call7_v0 : Ref sig .tc := ⟨.hbm, 160, rfl⟩
abbrev main_call7_v1 : Ref sig .tc := ⟨.hbm, 161, rfl⟩
abbrev main_call7_v2 : Ref sig .tc := ⟨.hbm, 162, rfl⟩
abbrev main_call7_v3 : Ref sig .tc := ⟨.hbm, 163, rfl⟩
abbrev main_call7_v4 : Ref sig .tc := ⟨.hbm, 164, rfl⟩
abbrev main_v92 : Ref sig .tc := ⟨.hbm, 165, rfl⟩
abbrev main_cst_29 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_c_30 : Ref sig .tc := ⟨.hbm, 177, rfl⟩
abbrev main_v103 : Ref sig .tc := ⟨.hbm, 178, rfl⟩
abbrev main_v104 : Ref sig .tc := ⟨.hbm, 179, rfl⟩
abbrev main_c_31 : Ref sig .tc := ⟨.hbm, 180, rfl⟩
abbrev main_v105 : Ref sig .tc := ⟨.hbm, 181, rfl⟩
abbrev main_v106 : Ref sig .tc := ⟨.hbm, 182, rfl⟩
abbrev main_c_32 : Ref sig .tc := ⟨.hbm, 183, rfl⟩
abbrev main_v107 : Ref sig .tc := ⟨.hbm, 184, rfl⟩
abbrev main_v108 : Ref sig .tc := ⟨.hbm, 185, rfl⟩
abbrev main_c_33 : Ref sig .tc := ⟨.hbm, 186, rfl⟩
abbrev main_v109 : Ref sig .tc := ⟨.hbm, 187, rfl⟩
abbrev main_v110 : Ref sig .tc := ⟨.hbm, 188, rfl⟩
abbrev main_c_34 : Ref sig .tc := ⟨.hbm, 189, rfl⟩
abbrev main_v111 : Ref sig .tc := ⟨.hbm, 190, rfl⟩
abbrev main_v112 : Ref sig .tc := ⟨.hbm, 191, rfl⟩
abbrev main_c_35 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_c_36 : Ref sig .tc := ⟨.hbm, 196, rfl⟩
abbrev main_v116 : Ref sig .tc := ⟨.hbm, 197, rfl⟩
abbrev main_v117 : Ref sig .tc := ⟨.hbm, 198, rfl⟩
abbrev main_c_37 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_38 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_cst_39 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_c_40 : Ref sig .tc := ⟨.hbm, 217, rfl⟩
abbrev main_v133 : Ref sig .tc := ⟨.hbm, 218, rfl⟩
abbrev main_v134 : Ref sig .tc := ⟨.hbm, 219, rfl⟩
abbrev main_c_41 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_c_42 : Ref sig .tc := ⟨.hbm, 224, rfl⟩
abbrev main_v138 : Ref sig .tc := ⟨.hbm, 225, rfl⟩
abbrev main_v139 : Ref sig .tc := ⟨.hbm, 226, rfl⟩
abbrev main_c_43 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_44 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_c_45 : Ref sig .tc := ⟨.hbm, 243, rfl⟩
abbrev main_v154 : Ref sig .tc := ⟨.hbm, 244, rfl⟩
abbrev main_v155 : Ref sig .tc := ⟨.hbm, 245, rfl⟩
abbrev main_c_46 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_c_47 : Ref sig .tc := ⟨.hbm, 250, rfl⟩
abbrev main_v159 : Ref sig .tc := ⟨.hbm, 251, rfl⟩
abbrev main_v160 : Ref sig .tc := ⟨.hbm, 252, rfl⟩
abbrev main_c_48 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_cst_49 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_c_50 : Ref sig .tc := ⟨.hbm, 269, rfl⟩
abbrev main_v175 : Ref sig .tc := ⟨.hbm, 270, rfl⟩
abbrev main_v176 : Ref sig .tc := ⟨.hbm, 271, rfl⟩
abbrev main_c_51 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_c_52 : Ref sig .tc := ⟨.hbm, 276, rfl⟩
abbrev main_v180 : Ref sig .tc := ⟨.hbm, 277, rfl⟩
abbrev main_v181 : Ref sig .tc := ⟨.hbm, 278, rfl⟩
abbrev main_c_53 : Ref sig .tc := ⟨.hbm, 279, rfl⟩
abbrev main_v182 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_v193 : Ref sig .tc := ⟨.hbm, 291, rfl⟩
abbrev main_cst_54 : Ref sig .tc := ⟨.hbm, 292, rfl⟩
abbrev main_cst_55 : Ref sig .tc := ⟨.hbm, 293, rfl⟩
abbrev main_call8_v0 : Ref sig .tc := ⟨.hbm, 294, rfl⟩
abbrev main_call8_v1 : Ref sig .tc := ⟨.hbm, 295, rfl⟩
abbrev main_call8_v2 : Ref sig .tc := ⟨.hbm, 296, rfl⟩
abbrev main_call8_v3 : Ref sig .tc := ⟨.hbm, 297, rfl⟩
abbrev main_call8_v4 : Ref sig .tc := ⟨.hbm, 298, rfl⟩
abbrev main_v194 : Ref sig .tc := ⟨.hbm, 299, rfl⟩
abbrev main_cst_56 : Ref sig .tc := ⟨.hbm, 300, rfl⟩
abbrev main_v195 : Ref sig .tc := ⟨.hbm, 301, rfl⟩
abbrev main_v196 : Ref sig .tc := ⟨.hbm, 302, rfl⟩
abbrev main_cst_57 : Ref sig .tc := ⟨.hbm, 303, rfl⟩
abbrev main_cst_58 : Ref sig .tc := ⟨.hbm, 304, rfl⟩
abbrev main_call9_v0 : Ref sig .tc := ⟨.hbm, 305, rfl⟩
abbrev main_call9_v1 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_v197 : Ref sig .tc := ⟨.hbm, 310, rfl⟩
abbrev main_cst_59 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_c_60 : Ref sig .tc := ⟨.hbm, 322, rfl⟩
abbrev main_v208 : Ref sig .tc := ⟨.hbm, 323, rfl⟩
abbrev main_v209 : Ref sig .tc := ⟨.hbm, 324, rfl⟩
abbrev main_c_61 : Ref sig .tc := ⟨.hbm, 325, rfl⟩
abbrev main_v210 : Ref sig .tc := ⟨.hbm, 326, rfl⟩
abbrev main_v211 : Ref sig .tc := ⟨.hbm, 327, rfl⟩
abbrev main_c_62 : Ref sig .tc := ⟨.hbm, 328, rfl⟩
abbrev main_v212 : Ref sig .tc := ⟨.hbm, 329, rfl⟩
abbrev main_v213 : Ref sig .tc := ⟨.hbm, 330, rfl⟩
abbrev main_c_63 : Ref sig .tc := ⟨.hbm, 331, rfl⟩
abbrev main_v214 : Ref sig .tc := ⟨.hbm, 332, rfl⟩
abbrev main_v215 : Ref sig .tc := ⟨.hbm, 333, rfl⟩
abbrev main_c_64 : Ref sig .tc := ⟨.hbm, 334, rfl⟩
abbrev main_v216 : Ref sig .tc := ⟨.hbm, 335, rfl⟩
abbrev main_v217 : Ref sig .tc := ⟨.hbm, 336, rfl⟩
abbrev main_c_65 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_c_66 : Ref sig .tc := ⟨.hbm, 341, rfl⟩
abbrev main_v221 : Ref sig .tc := ⟨.hbm, 342, rfl⟩
abbrev main_v222 : Ref sig .tc := ⟨.hbm, 343, rfl⟩
abbrev main_c_67 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_v228 : Ref sig .tc := ⟨.hbm, 350, rfl⟩
abbrev main_v229 : Ref sig .tc := ⟨.hbm, 351, rfl⟩
abbrev main_cst_68 : Ref sig .tc := ⟨.hbm, 352, rfl⟩
abbrev main_v230 : Ref sig .tc := ⟨.hbm, 353, rfl⟩
abbrev main_v231 : Ref sig .tc := ⟨.hbm, 354, rfl⟩
abbrev main_v232 : Ref sig .tc := ⟨.hbm, 355, rfl⟩
abbrev main_v233 : Ref sig .tc := ⟨.hbm, 356, rfl⟩
abbrev main_cst_69 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_c_70 : Ref sig .tc := ⟨.hbm, 362, rfl⟩
abbrev main_v238 : Ref sig .tc := ⟨.hbm, 363, rfl⟩
abbrev main_v239 : Ref sig .tc := ⟨.hbm, 364, rfl⟩
abbrev main_c_71 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_c_72 : Ref sig .tc := ⟨.hbm, 369, rfl⟩
abbrev main_v243 : Ref sig .tc := ⟨.hbm, 370, rfl⟩
abbrev main_v244 : Ref sig .tc := ⟨.hbm, 371, rfl⟩
abbrev main_c_73 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_cst_74 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_c_75 : Ref sig .tc := ⟨.hbm, 388, rfl⟩
abbrev main_v259 : Ref sig .tc := ⟨.hbm, 389, rfl⟩
abbrev main_v260 : Ref sig .tc := ⟨.hbm, 390, rfl⟩
abbrev main_c_76 : Ref sig .tc := ⟨.hbm, 391, rfl⟩
abbrev main_v261 : Ref sig .tc := ⟨.hbm, 392, rfl⟩
abbrev main_v262 : Ref sig .tc := ⟨.hbm, 393, rfl⟩
abbrev main_v263 : Ref sig .tc := ⟨.hbm, 394, rfl⟩
abbrev main_c_77 : Ref sig .tc := ⟨.hbm, 395, rfl⟩
abbrev main_v264 : Ref sig .tc := ⟨.hbm, 396, rfl⟩
abbrev main_v265 : Ref sig .tc := ⟨.hbm, 397, rfl⟩
abbrev main_c_78 : Ref sig .tc := ⟨.hbm, 398, rfl⟩
abbrev main_v266 : Ref sig .tc := ⟨.hbm, 399, rfl⟩
abbrev main_v267 : Ref sig .tc := ⟨.hbm, 400, rfl⟩
abbrev main_v268 : Ref sig .tc := ⟨.hbm, 401, rfl⟩
abbrev main_v269 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_cst_79 : Ref sig .tc := ⟨.hbm, 406, rfl⟩
abbrev main_v273 : Ref sig .tc := ⟨.hbm, 407, rfl⟩
abbrev main_v274 : Ref sig .tc := ⟨.hbm, 408, rfl⟩
abbrev main_v275 : Ref sig .tc := ⟨.hbm, 409, rfl⟩
abbrev main_v276 : Ref sig .tc := ⟨.hbm, 410, rfl⟩
abbrev main_v277 : Ref sig .tc := ⟨.hbm, 411, rfl⟩
abbrev main_v278 : Ref sig .tc := ⟨.hbm, 412, rfl⟩
abbrev main_v279 : Ref sig .tc := ⟨.hbm, 413, rfl⟩
abbrev main_c_80 : Ref sig .tc := ⟨.hbm, 414, rfl⟩
abbrev main_v280 : Ref sig .tc := ⟨.hbm, 415, rfl⟩
abbrev main_v281 : Ref sig .tc := ⟨.hbm, 416, rfl⟩
abbrev main_c_81 : Ref sig .tc := ⟨.hbm, 417, rfl⟩
abbrev main_v282 : Ref sig .tc := ⟨.hbm, 418, rfl⟩
abbrev main_v283 : Ref sig .tc := ⟨.hbm, 419, rfl⟩
abbrev main_v284 : Ref sig .tc := ⟨.hbm, 420, rfl⟩
abbrev main_c_82 : Ref sig .tc := ⟨.hbm, 421, rfl⟩
abbrev main_v285 : Ref sig .tc := ⟨.hbm, 422, rfl⟩
abbrev main_v286 : Ref sig .tc := ⟨.hbm, 423, rfl⟩
abbrev main_c_83 : Ref sig .tc := ⟨.hbm, 424, rfl⟩
abbrev main_v287 : Ref sig .tc := ⟨.hbm, 425, rfl⟩
abbrev main_v288 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_cst_84 : Ref sig .tc := ⟨.hbm, 437, rfl⟩
abbrev main_cst_85 : Ref sig .tc := ⟨.hbm, 438, rfl⟩
abbrev main_call10_v0 : Ref sig .tc := ⟨.hbm, 439, rfl⟩
abbrev main_call10_v1 : Ref sig .tc := ⟨.hbm, 440, rfl⟩
abbrev main_call10_v2 : Ref sig .tc := ⟨.hbm, 441, rfl⟩
abbrev main_call10_v3 : Ref sig .tc := ⟨.hbm, 442, rfl⟩
abbrev main_call10_v4 : Ref sig .tc := ⟨.hbm, 443, rfl⟩
abbrev main_v299 : Ref sig .tc := ⟨.hbm, 444, rfl⟩
abbrev main_cst_86 : Ref sig .tc := ⟨.hbm, 445, rfl⟩
abbrev main_v300 : Ref sig .tc := ⟨.hbm, 446, rfl⟩
abbrev main_v301 : Ref sig .tc := ⟨.hbm, 447, rfl⟩
abbrev main_v302 : Ref sig .tc := ⟨.hbm, 448, rfl⟩
abbrev main_v303 : Ref sig .tc := ⟨.hbm, 449, rfl⟩
abbrev main_v304 : Ref sig .tc := ⟨.hbm, 450, rfl⟩
abbrev main_v305 : Ref sig .tc := ⟨.hbm, 451, rfl⟩
abbrev main_c_87 : Ref sig .tc := ⟨.hbm, 452, rfl⟩
abbrev main_v306 : Ref sig .tc := ⟨.hbm, 453, rfl⟩
abbrev main_v307 : Ref sig .tc := ⟨.hbm, 454, rfl⟩
abbrev main_c_88 : Ref sig .tc := ⟨.hbm, 455, rfl⟩
abbrev main_v308 : Ref sig .tc := ⟨.hbm, 456, rfl⟩
abbrev main_v309 : Ref sig .tc := ⟨.hbm, 457, rfl⟩
abbrev main_c_89 : Ref sig .tc := ⟨.hbm, 458, rfl⟩
abbrev main_v310 : Ref sig .tc := ⟨.hbm, 459, rfl⟩
abbrev main_v311 : Ref sig .tc := ⟨.hbm, 460, rfl⟩
abbrev main_c_90 : Ref sig .tc := ⟨.hbm, 461, rfl⟩
abbrev main_v312 : Ref sig .tc := ⟨.hbm, 462, rfl⟩
abbrev main_v313 : Ref sig .tc := ⟨.hbm, 463, rfl⟩
abbrev main_v314 : Ref sig .tc := ⟨.hbm, 464, rfl⟩
abbrev main_v315 : Ref sig .tc := ⟨.hbm, 465, rfl⟩
abbrev main_v316 : Ref sig .tc := ⟨.hbm, 466, rfl⟩
abbrev main_cst_91 : Ref sig .tc := ⟨.hbm, 467, rfl⟩
abbrev main_v317 : Ref sig .tc := ⟨.hbm, 468, rfl⟩
abbrev main_v318 : Ref sig .tc := ⟨.hbm, 469, rfl⟩
abbrev main_v319 : Ref sig .tc := ⟨.hbm, 470, rfl⟩
abbrev main_v320 : Ref sig .tc := ⟨.hbm, 471, rfl⟩
abbrev main_c_92 : Ref sig .tc := ⟨.hbm, 472, rfl⟩
abbrev main_v321 : Ref sig .tc := ⟨.hbm, 473, rfl⟩
abbrev main_v322 : Ref sig .tc := ⟨.hbm, 474, rfl⟩
abbrev main_c_93 : Ref sig .tc := ⟨.hbm, 475, rfl⟩
abbrev main_v323 : Ref sig .tc := ⟨.hbm, 476, rfl⟩
abbrev main_v324 : Ref sig .tc := ⟨.hbm, 477, rfl⟩
abbrev main_v325 : Ref sig .tc := ⟨.hbm, 478, rfl⟩
abbrev main_v326 : Ref sig .tc := ⟨.hbm, 479, rfl⟩
abbrev main_v327 : Ref sig .tc := ⟨.hbm, 480, rfl⟩
abbrev main_v328 : Ref sig .tc := ⟨.hbm, 481, rfl⟩
abbrev main_v329 : Ref sig .tc := ⟨.hbm, 482, rfl⟩
abbrev main_v330 : Ref sig .tc := ⟨.hbm, 483, rfl⟩
abbrev main_v331 : Ref sig .tc := ⟨.hbm, 484, rfl⟩
abbrev main_v332 : Ref sig .tc := ⟨.hbm, 485, rfl⟩
abbrev main_v333 : Ref sig .tc := ⟨.hbm, 486, rfl⟩
abbrev main_v334 : Ref sig .tc := ⟨.hbm, 487, rfl⟩
abbrev main_v335 : Ref sig .tc := ⟨.hbm, 488, rfl⟩
abbrev main_cst_94 : Ref sig .tc := ⟨.hbm, 489, rfl⟩
abbrev main_v336 : Ref sig .tc := ⟨.hbm, 490, rfl⟩
abbrev main_v337 : Ref sig .tc := ⟨.hbm, 491, rfl⟩
abbrev main_cst_95 : Ref sig .tc := ⟨.hbm, 492, rfl⟩
abbrev main_v338 : Ref sig .tc := ⟨.hbm, 493, rfl⟩
abbrev main_v339 : Ref sig .tc := ⟨.hbm, 494, rfl⟩
abbrev main_cst_96 : Ref sig .tc := ⟨.hbm, 495, rfl⟩
abbrev main_v340 : Ref sig .tc := ⟨.hbm, 496, rfl⟩
abbrev main_v341 : Ref sig .tc := ⟨.hbm, 497, rfl⟩
abbrev main_v342 : Ref sig .tc := ⟨.hbm, 498, rfl⟩
abbrev main_v343 : Ref sig .tc := ⟨.hbm, 499, rfl⟩
abbrev main_v344 : Ref sig .tc := ⟨.hbm, 500, rfl⟩
abbrev main_cst_97 : Ref sig .tc := ⟨.hbm, 501, rfl⟩
abbrev main_v345 : Ref sig .tc := ⟨.hbm, 502, rfl⟩
abbrev main_v346 : Ref sig .tc := ⟨.hbm, 503, rfl⟩
abbrev main_cst_98 : Ref sig .tc := ⟨.hbm, 504, rfl⟩
abbrev main_cst_99 : Ref sig .tc := ⟨.hbm, 505, rfl⟩
abbrev main_call11_v0 : Ref sig .tc := ⟨.hbm, 506, rfl⟩
abbrev main_call11_v1 : Ref sig .tc := ⟨.hbm, 507, rfl⟩
abbrev main_call11_v2 : Ref sig .tc := ⟨.hbm, 508, rfl⟩
abbrev main_call11_v3 : Ref sig .tc := ⟨.hbm, 509, rfl⟩
abbrev main_call11_v4 : Ref sig .tc := ⟨.hbm, 510, rfl⟩
abbrev main_v347 : Ref sig .tc := ⟨.hbm, 511, rfl⟩
abbrev main_cst_100 : Ref sig .tc := ⟨.hbm, 512, rfl⟩
abbrev main_v348 : Ref sig .tc := ⟨.hbm, 513, rfl⟩
abbrev main_v349 : Ref sig .tc := ⟨.hbm, 514, rfl⟩
abbrev main_cst_101 : Ref sig .tc := ⟨.hbm, 515, rfl⟩
abbrev main_cst_102 : Ref sig .tc := ⟨.hbm, 516, rfl⟩
abbrev main_call12_v0 : Ref sig .tc := ⟨.hbm, 517, rfl⟩
abbrev main_call12_v1 : Ref sig .tc := ⟨.hbm, 518, rfl⟩
abbrev main_call12_v2 : Ref sig .tc := ⟨.hbm, 519, rfl⟩
abbrev main_call12_v3 : Ref sig .tc := ⟨.hbm, 520, rfl⟩
abbrev main_call12_v4 : Ref sig .tc := ⟨.hbm, 521, rfl⟩
abbrev main_v350 : Ref sig .tc := ⟨.hbm, 522, rfl⟩
abbrev main_cst_103 : Ref sig .tc := ⟨.hbm, 523, rfl⟩
abbrev main_v351 : Ref sig .tc := ⟨.hbm, 524, rfl⟩
abbrev main_v352 : Ref sig .tc := ⟨.hbm, 525, rfl⟩
abbrev main_v353 : Ref sig .tc := ⟨.hbm, 526, rfl⟩
abbrev main_v354 : Ref sig .tc := ⟨.hbm, 527, rfl⟩
abbrev main_v355 : Ref sig .tc := ⟨.hbm, 528, rfl⟩
abbrev main_v356 : Ref sig .tc := ⟨.hbm, 529, rfl⟩
abbrev main_v357 : Ref sig .tc := ⟨.hbm, 530, rfl⟩
abbrev main_v358 : Ref sig .tc := ⟨.hbm, 531, rfl⟩
abbrev main_v359 : Ref sig .tc := ⟨.hbm, 532, rfl⟩
abbrev main_v360 : Ref sig .tc := ⟨.hbm, 533, rfl⟩
abbrev main_c_104 : Ref sig .tc := ⟨.hbm, 534, rfl⟩
abbrev main_v361 : Ref sig .tc := ⟨.hbm, 535, rfl⟩
abbrev main_v362 : Ref sig .tc := ⟨.hbm, 536, rfl⟩
abbrev main_c_105 : Ref sig .tc := ⟨.hbm, 537, rfl⟩
abbrev main_v363 : Ref sig .tc := ⟨.hbm, 538, rfl⟩
abbrev main_v364 : Ref sig .tc := ⟨.hbm, 539, rfl⟩
abbrev main_c_106 : Ref sig .tc := ⟨.hbm, 540, rfl⟩
abbrev main_v365 : Ref sig .tc := ⟨.hbm, 541, rfl⟩
abbrev main_v366 : Ref sig .tc := ⟨.hbm, 542, rfl⟩
abbrev main_c_107 : Ref sig .tc := ⟨.hbm, 543, rfl⟩
abbrev main_v367 : Ref sig .tc := ⟨.hbm, 544, rfl⟩
abbrev main_v368 : Ref sig .tc := ⟨.hbm, 545, rfl⟩
abbrev main_c_108 : Ref sig .tc := ⟨.hbm, 546, rfl⟩
abbrev main_v369 : Ref sig .tc := ⟨.hbm, 547, rfl⟩
abbrev main_v370 : Ref sig .tc := ⟨.hbm, 548, rfl⟩
abbrev main_c_109 : Ref sig .tc := ⟨.hbm, 549, rfl⟩
abbrev main_v371 : Ref sig .tc := ⟨.hbm, 550, rfl⟩
abbrev main_v372 : Ref sig .tc := ⟨.hbm, 551, rfl⟩
abbrev main_v373 : Ref sig .tc := ⟨.hbm, 552, rfl⟩
abbrev main_c_110 : Ref sig .tc := ⟨.hbm, 553, rfl⟩
abbrev main_v374 : Ref sig .tc := ⟨.hbm, 554, rfl⟩
abbrev main_v375 : Ref sig .tc := ⟨.hbm, 555, rfl⟩
abbrev main_c_111 : Ref sig .tc := ⟨.hbm, 556, rfl⟩
abbrev main_v376 : Ref sig .tc := ⟨.hbm, 557, rfl⟩
abbrev main_v377 : Ref sig .tc := ⟨.hbm, 558, rfl⟩
abbrev main_v378 : Ref sig .tc := ⟨.hbm, 559, rfl⟩
abbrev main_v379 : Ref sig .tc := ⟨.hbm, 560, rfl⟩
abbrev main_v380 : Ref sig .tc := ⟨.hbm, 561, rfl⟩
abbrev main_v381 : Ref sig .tc := ⟨.hbm, 562, rfl⟩
abbrev main_v382 : Ref sig .tc := ⟨.hbm, 563, rfl⟩
abbrev main_cst_112 : Ref sig .tc := ⟨.hbm, 564, rfl⟩
abbrev main_v383 : Ref sig .tc := ⟨.hbm, 565, rfl⟩
abbrev main_v384 : Ref sig .tc := ⟨.hbm, 566, rfl⟩
abbrev main_v385 : Ref sig .tc := ⟨.hbm, 567, rfl⟩
abbrev main_cst_113 : Ref sig .tc := ⟨.hbm, 568, rfl⟩
abbrev main_v386 : Ref sig .tc := ⟨.hbm, 569, rfl⟩
abbrev main_v387 : Ref sig .tc := ⟨.hbm, 570, rfl⟩
abbrev main_v388 : Ref sig .tc := ⟨.hbm, 571, rfl⟩
abbrev main_c_114 : Ref sig .tc := ⟨.hbm, 572, rfl⟩
abbrev main_v389 : Ref sig .tc := ⟨.hbm, 573, rfl⟩
abbrev main_v390 : Ref sig .tc := ⟨.hbm, 574, rfl⟩
abbrev main_c_115 : Ref sig .tc := ⟨.hbm, 575, rfl⟩
abbrev main_v391 : Ref sig .tc := ⟨.hbm, 576, rfl⟩
abbrev main_v392 : Ref sig .tc := ⟨.hbm, 577, rfl⟩
abbrev main_v393 : Ref sig .tc := ⟨.hbm, 578, rfl⟩
abbrev main_c_116 : Ref sig .tc := ⟨.hbm, 579, rfl⟩
abbrev main_v394 : Ref sig .tc := ⟨.hbm, 580, rfl⟩
abbrev main_v395 : Ref sig .tc := ⟨.hbm, 581, rfl⟩
abbrev main_c_117 : Ref sig .tc := ⟨.hbm, 582, rfl⟩
abbrev main_v396 : Ref sig .tc := ⟨.hbm, 583, rfl⟩
abbrev main_v397 : Ref sig .tc := ⟨.hbm, 584, rfl⟩
abbrev main_v398 : Ref sig .tc := ⟨.hbm, 585, rfl⟩
abbrev main_v399 : Ref sig .tc := ⟨.hbm, 586, rfl⟩
abbrev main_v400 : Ref sig .tc := ⟨.hbm, 587, rfl⟩
abbrev main_v401 : Ref sig .tc := ⟨.hbm, 588, rfl⟩
abbrev main_v402 : Ref sig .tc := ⟨.hbm, 589, rfl⟩
abbrev main_v403 : Ref sig .tc := ⟨.hbm, 590, rfl⟩
abbrev main_cst_118 : Ref sig .tc := ⟨.hbm, 591, rfl⟩
abbrev main_v404 : Ref sig .tc := ⟨.hbm, 592, rfl⟩
abbrev main_v405 : Ref sig .tc := ⟨.hbm, 593, rfl⟩
abbrev main_v406 : Ref sig .tc := ⟨.hbm, 594, rfl⟩
abbrev main_v407 : Ref sig .tc := ⟨.hbm, 595, rfl⟩
abbrev main_c_119 : Ref sig .tc := ⟨.hbm, 596, rfl⟩
abbrev main_v408 : Ref sig .tc := ⟨.hbm, 597, rfl⟩
abbrev main_v409 : Ref sig .tc := ⟨.hbm, 598, rfl⟩
abbrev main_c_120 : Ref sig .tc := ⟨.hbm, 599, rfl⟩
abbrev main_v410 : Ref sig .tc := ⟨.hbm, 600, rfl⟩
abbrev main_v411 : Ref sig .tc := ⟨.hbm, 601, rfl⟩
abbrev main_v412 : Ref sig .tc := ⟨.hbm, 602, rfl⟩
abbrev main_c_121 : Ref sig .tc := ⟨.hbm, 603, rfl⟩
abbrev main_v413 : Ref sig .tc := ⟨.hbm, 604, rfl⟩
abbrev main_v414 : Ref sig .tc := ⟨.hbm, 605, rfl⟩
abbrev main_c_122 : Ref sig .tc := ⟨.hbm, 606, rfl⟩
abbrev main_v415 : Ref sig .tc := ⟨.hbm, 607, rfl⟩
abbrev main_v416 : Ref sig .tc := ⟨.hbm, 608, rfl⟩
abbrev main_v417 : Ref sig .tc := ⟨.hbm, 609, rfl⟩
abbrev main_v418 : Ref sig .tc := ⟨.hbm, 610, rfl⟩
abbrev main_v419 : Ref sig .tc := ⟨.hbm, 611, rfl⟩
abbrev main_v420 : Ref sig .tc := ⟨.hbm, 612, rfl⟩
abbrev main_v421 : Ref sig .tc := ⟨.hbm, 613, rfl⟩
abbrev main_cst_123 : Ref sig .tc := ⟨.hbm, 614, rfl⟩
abbrev main_v422 : Ref sig .tc := ⟨.hbm, 615, rfl⟩
abbrev main_v423 : Ref sig .tc := ⟨.hbm, 616, rfl⟩
abbrev main_v424 : Ref sig .tc := ⟨.hbm, 617, rfl⟩
abbrev main_v425 : Ref sig .tc := ⟨.hbm, 618, rfl⟩
abbrev main_v426 : Ref sig .tc := ⟨.hbm, 619, rfl⟩
abbrev main_c_124 : Ref sig .tc := ⟨.hbm, 620, rfl⟩
abbrev main_v427 : Ref sig .tc := ⟨.hbm, 621, rfl⟩
abbrev main_v428 : Ref sig .tc := ⟨.hbm, 622, rfl⟩
abbrev main_c_125 : Ref sig .tc := ⟨.hbm, 623, rfl⟩
abbrev main_v429 : Ref sig .tc := ⟨.hbm, 624, rfl⟩
abbrev main_v430 : Ref sig .tc := ⟨.hbm, 625, rfl⟩
abbrev main_v431 : Ref sig .tc := ⟨.hbm, 626, rfl⟩
abbrev main_c_126 : Ref sig .tc := ⟨.hbm, 627, rfl⟩
abbrev main_v432 : Ref sig .tc := ⟨.hbm, 628, rfl⟩
abbrev main_v433 : Ref sig .tc := ⟨.hbm, 629, rfl⟩
abbrev main_c_127 : Ref sig .tc := ⟨.hbm, 630, rfl⟩
abbrev main_v434 : Ref sig .tc := ⟨.hbm, 631, rfl⟩
abbrev main_v435 : Ref sig .tc := ⟨.hbm, 632, rfl⟩
abbrev main_v436 : Ref sig .tc := ⟨.hbm, 633, rfl⟩
abbrev main_v437 : Ref sig .tc := ⟨.hbm, 634, rfl⟩
abbrev main_v438 : Ref sig .tc := ⟨.hbm, 635, rfl⟩
abbrev main_v439 : Ref sig .tc := ⟨.hbm, 636, rfl⟩
abbrev main_v440 : Ref sig .tc := ⟨.hbm, 637, rfl⟩
abbrev main_v441 : Ref sig .tc := ⟨.hbm, 638, rfl⟩
abbrev main_v442 : Ref sig .tc := ⟨.hbm, 639, rfl⟩
abbrev main_v443 : Ref sig .tc := ⟨.hbm, 640, rfl⟩
abbrev main_v444 : Ref sig .tc := ⟨.hbm, 641, rfl⟩
abbrev main_v445 : Ref sig .tc := ⟨.hbm, 642, rfl⟩
abbrev main_v446 : Ref sig .tc := ⟨.hbm, 643, rfl⟩
abbrev main_v447 : Ref sig .tc := ⟨.hbm, 644, rfl⟩
abbrev main_cst_128 : Ref sig .tc := ⟨.hbm, 645, rfl⟩
abbrev main_v448 : Ref sig .tc := ⟨.hbm, 646, rfl⟩
abbrev main_v449 : Ref sig .tc := ⟨.hbm, 647, rfl⟩
abbrev main_cst_129 : Ref sig .tc := ⟨.hbm, 648, rfl⟩
abbrev main_v450 : Ref sig .tc := ⟨.hbm, 649, rfl⟩
abbrev main_v451 : Ref sig .tc := ⟨.hbm, 650, rfl⟩
abbrev main_cst_130 : Ref sig .tc := ⟨.hbm, 651, rfl⟩
abbrev main_v452 : Ref sig .tc := ⟨.hbm, 652, rfl⟩
abbrev main_v453 : Ref sig .tc := ⟨.hbm, 653, rfl⟩
abbrev main_v454 : Ref sig .tc := ⟨.hbm, 654, rfl⟩
abbrev main_v455 : Ref sig .tc := ⟨.hbm, 655, rfl⟩
abbrev main_v456 : Ref sig .tc := ⟨.hbm, 656, rfl⟩
abbrev main_cst_131 : Ref sig .tc := ⟨.hbm, 657, rfl⟩
abbrev main_v457 : Ref sig .tc := ⟨.hbm, 658, rfl⟩
abbrev main_v458 : Ref sig .tc := ⟨.hbm, 659, rfl⟩
abbrev main_cst_132 : Ref sig .tc := ⟨.hbm, 660, rfl⟩
abbrev main_cst_133 : Ref sig .tc := ⟨.hbm, 661, rfl⟩
abbrev main_call13_v0 : Ref sig .tc := ⟨.hbm, 662, rfl⟩
abbrev main_call13_v1 : Ref sig .tc := ⟨.hbm, 663, rfl⟩
abbrev main_call13_v2 : Ref sig .tc := ⟨.hbm, 664, rfl⟩
abbrev main_call13_v3 : Ref sig .tc := ⟨.hbm, 665, rfl⟩
abbrev main_call13_v4 : Ref sig .tc := ⟨.hbm, 666, rfl⟩
abbrev main_v459 : Ref sig .tc := ⟨.hbm, 667, rfl⟩
abbrev main_cst_134 : Ref sig .tc := ⟨.hbm, 668, rfl⟩
abbrev main_v460 : Ref sig .tc := ⟨.hbm, 669, rfl⟩
abbrev main_v461 : Ref sig .tc := ⟨.hbm, 670, rfl⟩
abbrev main_cst_135 : Ref sig .tc := ⟨.hbm, 671, rfl⟩
abbrev main_cst_136 : Ref sig .tc := ⟨.hbm, 672, rfl⟩
abbrev main_call14_v0 : Ref sig .tc := ⟨.hbm, 673, rfl⟩
abbrev main_call14_v1 : Ref sig .tc := ⟨.hbm, 674, rfl⟩
abbrev main_call14_v2 : Ref sig .tc := ⟨.hbm, 675, rfl⟩
abbrev main_call14_v3 : Ref sig .tc := ⟨.hbm, 676, rfl⟩
abbrev main_call14_v4 : Ref sig .tc := ⟨.hbm, 677, rfl⟩
abbrev main_v462 : Ref sig .tc := ⟨.hbm, 678, rfl⟩
abbrev main_cst_137 : Ref sig .tc := ⟨.hbm, 679, rfl⟩
abbrev main_v463 : Ref sig .tc := ⟨.hbm, 680, rfl⟩
abbrev main_v464 : Ref sig .tc := ⟨.hbm, 681, rfl⟩
abbrev main_v465 : Ref sig .tc := ⟨.hbm, 682, rfl⟩
abbrev main_v466 : Ref sig .tc := ⟨.hbm, 683, rfl⟩
abbrev main_v467 : Ref sig .tc := ⟨.hbm, 684, rfl⟩
abbrev main_v468 : Ref sig .tc := ⟨.hbm, 685, rfl⟩
abbrev main_v469 : Ref sig .tc := ⟨.hbm, 686, rfl⟩
abbrev main_v470 : Ref sig .tc := ⟨.hbm, 687, rfl⟩
abbrev main_v471 : Ref sig .tc := ⟨.hbm, 688, rfl⟩
abbrev main_v472 : Ref sig .tc := ⟨.hbm, 689, rfl⟩
abbrev main_c_138 : Ref sig .tc := ⟨.hbm, 690, rfl⟩
abbrev main_v473 : Ref sig .tc := ⟨.hbm, 691, rfl⟩
abbrev main_v474 : Ref sig .tc := ⟨.hbm, 692, rfl⟩
abbrev main_c_139 : Ref sig .tc := ⟨.hbm, 693, rfl⟩
abbrev main_v475 : Ref sig .tc := ⟨.hbm, 694, rfl⟩
abbrev main_v476 : Ref sig .tc := ⟨.hbm, 695, rfl⟩
abbrev main_c_140 : Ref sig .tc := ⟨.hbm, 696, rfl⟩
abbrev main_v477 : Ref sig .tc := ⟨.hbm, 697, rfl⟩
abbrev main_v478 : Ref sig .tc := ⟨.hbm, 698, rfl⟩
abbrev main_c_141 : Ref sig .tc := ⟨.hbm, 699, rfl⟩
abbrev main_v479 : Ref sig .tc := ⟨.hbm, 700, rfl⟩
abbrev main_v480 : Ref sig .tc := ⟨.hbm, 701, rfl⟩
abbrev main_c_142 : Ref sig .tc := ⟨.hbm, 702, rfl⟩
abbrev main_v481 : Ref sig .tc := ⟨.hbm, 703, rfl⟩
abbrev main_v482 : Ref sig .tc := ⟨.hbm, 704, rfl⟩
abbrev main_c_143 : Ref sig .tc := ⟨.hbm, 705, rfl⟩
abbrev main_v483 : Ref sig .tc := ⟨.hbm, 706, rfl⟩
abbrev main_v484 : Ref sig .tc := ⟨.hbm, 707, rfl⟩
abbrev main_v485 : Ref sig .tc := ⟨.hbm, 708, rfl⟩
abbrev main_c_144 : Ref sig .tc := ⟨.hbm, 709, rfl⟩
abbrev main_v486 : Ref sig .tc := ⟨.hbm, 710, rfl⟩
abbrev main_v487 : Ref sig .tc := ⟨.hbm, 711, rfl⟩
abbrev main_c_145 : Ref sig .tc := ⟨.hbm, 712, rfl⟩
abbrev main_v488 : Ref sig .tc := ⟨.hbm, 713, rfl⟩
abbrev main_v489 : Ref sig .tc := ⟨.hbm, 714, rfl⟩
abbrev main_v490 : Ref sig .tc := ⟨.hbm, 715, rfl⟩
abbrev main_v491 : Ref sig .tc := ⟨.hbm, 716, rfl⟩
abbrev main_v492 : Ref sig .tc := ⟨.hbm, 717, rfl⟩
abbrev main_v493 : Ref sig .tc := ⟨.hbm, 718, rfl⟩
abbrev main_v494 : Ref sig .tc := ⟨.hbm, 719, rfl⟩
abbrev main_cst_146 : Ref sig .tc := ⟨.hbm, 720, rfl⟩
abbrev main_v495 : Ref sig .tc := ⟨.hbm, 721, rfl⟩
abbrev main_v496 : Ref sig .tc := ⟨.hbm, 722, rfl⟩
abbrev main_v497 : Ref sig .tc := ⟨.hbm, 723, rfl⟩
abbrev main_v498 : Ref sig .tc := ⟨.hbm, 724, rfl⟩
abbrev main_cst_147 : Ref sig .tc := ⟨.hbm, 725, rfl⟩
abbrev main_v499 : Ref sig .tc := ⟨.hbm, 726, rfl⟩
abbrev main_v500 : Ref sig .tc := ⟨.hbm, 727, rfl⟩
abbrev main_v501 : Ref sig .tc := ⟨.hbm, 728, rfl⟩
abbrev main_v502 : Ref sig .tc := ⟨.hbm, 729, rfl⟩
abbrev main_c_148 : Ref sig .tc := ⟨.hbm, 730, rfl⟩
abbrev main_v503 : Ref sig .tc := ⟨.hbm, 731, rfl⟩
abbrev main_v504 : Ref sig .tc := ⟨.hbm, 732, rfl⟩
abbrev main_c_149 : Ref sig .tc := ⟨.hbm, 733, rfl⟩
abbrev main_v505 : Ref sig .tc := ⟨.hbm, 734, rfl⟩
abbrev main_v506 : Ref sig .tc := ⟨.hbm, 735, rfl⟩
abbrev main_v507 : Ref sig .tc := ⟨.hbm, 736, rfl⟩
abbrev main_c_150 : Ref sig .tc := ⟨.hbm, 737, rfl⟩
abbrev main_v508 : Ref sig .tc := ⟨.hbm, 738, rfl⟩
abbrev main_v509 : Ref sig .tc := ⟨.hbm, 739, rfl⟩
abbrev main_c_151 : Ref sig .tc := ⟨.hbm, 740, rfl⟩
abbrev main_v510 : Ref sig .tc := ⟨.hbm, 741, rfl⟩
abbrev main_v511 : Ref sig .tc := ⟨.hbm, 742, rfl⟩
abbrev main_v512 : Ref sig .tc := ⟨.hbm, 743, rfl⟩
abbrev main_v513 : Ref sig .tc := ⟨.hbm, 744, rfl⟩
abbrev main_v514 : Ref sig .tc := ⟨.hbm, 745, rfl⟩
abbrev main_v515 : Ref sig .tc := ⟨.hbm, 746, rfl⟩
abbrev main_v516 : Ref sig .tc := ⟨.hbm, 747, rfl⟩
abbrev main_v517 : Ref sig .tc := ⟨.hbm, 748, rfl⟩
abbrev main_v518 : Ref sig .tc := ⟨.hbm, 749, rfl⟩
abbrev main_cst_152 : Ref sig .tc := ⟨.hbm, 750, rfl⟩
abbrev main_v519 : Ref sig .tc := ⟨.hbm, 751, rfl⟩
abbrev main_v520 : Ref sig .tc := ⟨.hbm, 752, rfl⟩
abbrev main_v521 : Ref sig .tc := ⟨.hbm, 753, rfl⟩
abbrev main_v522 : Ref sig .tc := ⟨.hbm, 754, rfl⟩
abbrev main_v523 : Ref sig .tc := ⟨.hbm, 755, rfl⟩
abbrev main_c_153 : Ref sig .tc := ⟨.hbm, 756, rfl⟩
abbrev main_v524 : Ref sig .tc := ⟨.hbm, 757, rfl⟩
abbrev main_v525 : Ref sig .tc := ⟨.hbm, 758, rfl⟩
abbrev main_c_154 : Ref sig .tc := ⟨.hbm, 759, rfl⟩
abbrev main_v526 : Ref sig .tc := ⟨.hbm, 760, rfl⟩
abbrev main_v527 : Ref sig .tc := ⟨.hbm, 761, rfl⟩
abbrev main_v528 : Ref sig .tc := ⟨.hbm, 762, rfl⟩
abbrev main_c_155 : Ref sig .tc := ⟨.hbm, 763, rfl⟩
abbrev main_v529 : Ref sig .tc := ⟨.hbm, 764, rfl⟩
abbrev main_v530 : Ref sig .tc := ⟨.hbm, 765, rfl⟩
abbrev main_c_156 : Ref sig .tc := ⟨.hbm, 766, rfl⟩
abbrev main_v531 : Ref sig .tc := ⟨.hbm, 767, rfl⟩
abbrev main_v532 : Ref sig .tc := ⟨.hbm, 768, rfl⟩
abbrev main_v533 : Ref sig .tc := ⟨.hbm, 769, rfl⟩
abbrev main_v534 : Ref sig .tc := ⟨.hbm, 770, rfl⟩
abbrev main_v535 : Ref sig .tc := ⟨.hbm, 771, rfl⟩
abbrev main_v536 : Ref sig .tc := ⟨.hbm, 772, rfl⟩
abbrev main_v537 : Ref sig .tc := ⟨.hbm, 773, rfl⟩
abbrev main_cst_157 : Ref sig .tc := ⟨.hbm, 774, rfl⟩
abbrev main_v538 : Ref sig .tc := ⟨.hbm, 775, rfl⟩
abbrev main_v539 : Ref sig .tc := ⟨.hbm, 776, rfl⟩
abbrev main_v540 : Ref sig .tc := ⟨.hbm, 777, rfl⟩
abbrev main_v541 : Ref sig .tc := ⟨.hbm, 778, rfl⟩
abbrev main_v542 : Ref sig .tc := ⟨.hbm, 779, rfl⟩
abbrev main_v543 : Ref sig .tc := ⟨.hbm, 780, rfl⟩
abbrev main_v544 : Ref sig .tc := ⟨.hbm, 781, rfl⟩
abbrev main_c_158 : Ref sig .tc := ⟨.hbm, 782, rfl⟩
abbrev main_v545 : Ref sig .tc := ⟨.hbm, 783, rfl⟩
abbrev main_v546 : Ref sig .tc := ⟨.hbm, 784, rfl⟩
abbrev main_c_159 : Ref sig .tc := ⟨.hbm, 785, rfl⟩
abbrev main_v547 : Ref sig .tc := ⟨.hbm, 786, rfl⟩
abbrev main_v548 : Ref sig .tc := ⟨.hbm, 787, rfl⟩
abbrev main_v549 : Ref sig .tc := ⟨.hbm, 788, rfl⟩
abbrev main_c_160 : Ref sig .tc := ⟨.hbm, 789, rfl⟩
abbrev main_v550 : Ref sig .tc := ⟨.hbm, 790, rfl⟩
abbrev main_v551 : Ref sig .tc := ⟨.hbm, 791, rfl⟩
abbrev main_c_161 : Ref sig .tc := ⟨.hbm, 792, rfl⟩
abbrev main_v552 : Ref sig .tc := ⟨.hbm, 793, rfl⟩
abbrev main_v553 : Ref sig .tc := ⟨.hbm, 794, rfl⟩
abbrev main_v554 : Ref sig .tc := ⟨.hbm, 795, rfl⟩
abbrev main_v555 : Ref sig .tc := ⟨.hbm, 796, rfl⟩
abbrev main_v556 : Ref sig .tc := ⟨.hbm, 797, rfl⟩
abbrev main_v557 : Ref sig .tc := ⟨.hbm, 798, rfl⟩
abbrev main_v558 : Ref sig .tc := ⟨.hbm, 799, rfl⟩
abbrev main_v559 : Ref sig .tc := ⟨.hbm, 800, rfl⟩
abbrev main_v560 : Ref sig .tc := ⟨.hbm, 801, rfl⟩
abbrev main_v561 : Ref sig .tc := ⟨.hbm, 802, rfl⟩
abbrev main_v562 : Ref sig .tc := ⟨.hbm, 803, rfl⟩
abbrev main_v563 : Ref sig .tc := ⟨.hbm, 804, rfl⟩
abbrev main_v564 : Ref sig .tc := ⟨.hbm, 805, rfl⟩
abbrev main_v565 : Ref sig .tc := ⟨.hbm, 806, rfl⟩
abbrev main_v566 : Ref sig .tc := ⟨.hbm, 807, rfl⟩
abbrev main_v567 : Ref sig .tc := ⟨.hbm, 808, rfl⟩
abbrev main_cst_162 : Ref sig .tc := ⟨.hbm, 809, rfl⟩
abbrev main_v568 : Ref sig .tc := ⟨.hbm, 810, rfl⟩
abbrev main_v569 : Ref sig .tc := ⟨.hbm, 811, rfl⟩
abbrev main_cst_163 : Ref sig .tc := ⟨.hbm, 812, rfl⟩
abbrev main_v570 : Ref sig .tc := ⟨.hbm, 813, rfl⟩
abbrev main_v571 : Ref sig .tc := ⟨.hbm, 814, rfl⟩
abbrev main_cst_164 : Ref sig .tc := ⟨.hbm, 815, rfl⟩
abbrev main_v572 : Ref sig .tc := ⟨.hbm, 816, rfl⟩
abbrev main_v573 : Ref sig .tc := ⟨.hbm, 817, rfl⟩
abbrev main_v574 : Ref sig .tc := ⟨.hbm, 818, rfl⟩
abbrev main_v575 : Ref sig .tc := ⟨.hbm, 819, rfl⟩
abbrev main_v576 : Ref sig .tc := ⟨.hbm, 820, rfl⟩
abbrev main_cst_165 : Ref sig .tc := ⟨.hbm, 821, rfl⟩
abbrev main_v577 : Ref sig .tc := ⟨.hbm, 822, rfl⟩
abbrev main_v578 : Ref sig .tc := ⟨.hbm, 823, rfl⟩
abbrev main_cst_166 : Ref sig .tc := ⟨.hbm, 824, rfl⟩
abbrev main_cst_167 : Ref sig .tc := ⟨.hbm, 825, rfl⟩
abbrev main_call15_v0 : Ref sig .tc := ⟨.hbm, 826, rfl⟩
abbrev main_call15_v1 : Ref sig .tc := ⟨.hbm, 827, rfl⟩
abbrev main_call15_v2 : Ref sig .tc := ⟨.hbm, 828, rfl⟩
abbrev main_call15_v3 : Ref sig .tc := ⟨.hbm, 829, rfl⟩
abbrev main_call15_v4 : Ref sig .tc := ⟨.hbm, 830, rfl⟩
abbrev main_v579 : Ref sig .tc := ⟨.hbm, 831, rfl⟩
abbrev main_cst_168 : Ref sig .tc := ⟨.hbm, 832, rfl⟩
abbrev main_v580 : Ref sig .tc := ⟨.hbm, 833, rfl⟩
abbrev main_v581 : Ref sig .tc := ⟨.hbm, 834, rfl⟩
abbrev main_cst_169 : Ref sig .tc := ⟨.hbm, 835, rfl⟩
abbrev main_cst_170 : Ref sig .tc := ⟨.hbm, 836, rfl⟩
abbrev main_call16_v0 : Ref sig .tc := ⟨.hbm, 837, rfl⟩
abbrev main_call16_v1 : Ref sig .tc := ⟨.hbm, 838, rfl⟩
abbrev main_call16_v2 : Ref sig .tc := ⟨.hbm, 839, rfl⟩
abbrev main_call16_v3 : Ref sig .tc := ⟨.hbm, 840, rfl⟩
abbrev main_call16_v4 : Ref sig .tc := ⟨.hbm, 841, rfl⟩
abbrev main_v582 : Ref sig .tc := ⟨.hbm, 842, rfl⟩
abbrev main_cst_171 : Ref sig .tc := ⟨.hbm, 843, rfl⟩
abbrev main_v583 : Ref sig .tc := ⟨.hbm, 844, rfl⟩
abbrev main_v584 : Ref sig .tc := ⟨.hbm, 845, rfl⟩
abbrev main_v585 : Ref sig .tc := ⟨.hbm, 846, rfl⟩
abbrev main_v586 : Ref sig .tc := ⟨.hbm, 847, rfl⟩
abbrev main_v587 : Ref sig .tc := ⟨.hbm, 848, rfl⟩
abbrev main_v588 : Ref sig .tc := ⟨.hbm, 849, rfl⟩
abbrev main_v589 : Ref sig .tc := ⟨.hbm, 850, rfl⟩
abbrev main_v590 : Ref sig .tc := ⟨.hbm, 851, rfl⟩
abbrev main_v591 : Ref sig .tc := ⟨.hbm, 852, rfl⟩
abbrev main_v592 : Ref sig .tc := ⟨.hbm, 853, rfl⟩
abbrev main_c_172 : Ref sig .tc := ⟨.hbm, 854, rfl⟩
abbrev main_v593 : Ref sig .tc := ⟨.hbm, 855, rfl⟩
abbrev main_v594 : Ref sig .tc := ⟨.hbm, 856, rfl⟩
abbrev main_c_173 : Ref sig .tc := ⟨.hbm, 857, rfl⟩
abbrev main_v595 : Ref sig .tc := ⟨.hbm, 858, rfl⟩
abbrev main_v596 : Ref sig .tc := ⟨.hbm, 859, rfl⟩
abbrev main_c_174 : Ref sig .tc := ⟨.hbm, 860, rfl⟩
abbrev main_v597 : Ref sig .tc := ⟨.hbm, 861, rfl⟩
abbrev main_v598 : Ref sig .tc := ⟨.hbm, 862, rfl⟩
abbrev main_c_175 : Ref sig .tc := ⟨.hbm, 863, rfl⟩
abbrev main_v599 : Ref sig .tc := ⟨.hbm, 864, rfl⟩
abbrev main_v600 : Ref sig .tc := ⟨.hbm, 865, rfl⟩
abbrev main_c_176 : Ref sig .tc := ⟨.hbm, 866, rfl⟩
abbrev main_v601 : Ref sig .tc := ⟨.hbm, 867, rfl⟩
abbrev main_v602 : Ref sig .tc := ⟨.hbm, 868, rfl⟩
abbrev main_c_177 : Ref sig .tc := ⟨.hbm, 869, rfl⟩
abbrev main_v603 : Ref sig .tc := ⟨.hbm, 870, rfl⟩
abbrev main_v604 : Ref sig .tc := ⟨.hbm, 871, rfl⟩
abbrev main_v605 : Ref sig .tc := ⟨.hbm, 872, rfl⟩
abbrev main_c_178 : Ref sig .tc := ⟨.hbm, 873, rfl⟩
abbrev main_v606 : Ref sig .tc := ⟨.hbm, 874, rfl⟩
abbrev main_v607 : Ref sig .tc := ⟨.hbm, 875, rfl⟩
abbrev main_c_179 : Ref sig .tc := ⟨.hbm, 876, rfl⟩
abbrev main_v608 : Ref sig .tc := ⟨.hbm, 877, rfl⟩
abbrev main_v609 : Ref sig .tc := ⟨.hbm, 878, rfl⟩
abbrev main_v610 : Ref sig .tc := ⟨.hbm, 879, rfl⟩
abbrev main_v611 : Ref sig .tc := ⟨.hbm, 880, rfl⟩
abbrev main_v612 : Ref sig .tc := ⟨.hbm, 881, rfl⟩
abbrev main_v613 : Ref sig .tc := ⟨.hbm, 882, rfl⟩
abbrev main_v614 : Ref sig .tc := ⟨.hbm, 883, rfl⟩
abbrev main_cst_180 : Ref sig .tc := ⟨.hbm, 884, rfl⟩
abbrev main_v615 : Ref sig .tc := ⟨.hbm, 885, rfl⟩
abbrev main_v616 : Ref sig .tc := ⟨.hbm, 886, rfl⟩
abbrev main_v617 : Ref sig .tc := ⟨.hbm, 887, rfl⟩
abbrev main_v618 : Ref sig .tc := ⟨.hbm, 888, rfl⟩
abbrev main_cst_181 : Ref sig .tc := ⟨.hbm, 889, rfl⟩
abbrev main_v619 : Ref sig .tc := ⟨.hbm, 890, rfl⟩
abbrev main_v620 : Ref sig .tc := ⟨.hbm, 891, rfl⟩
abbrev main_v621 : Ref sig .tc := ⟨.hbm, 892, rfl⟩
abbrev main_v622 : Ref sig .tc := ⟨.hbm, 893, rfl⟩
abbrev main_c_182 : Ref sig .tc := ⟨.hbm, 894, rfl⟩
abbrev main_v623 : Ref sig .tc := ⟨.hbm, 895, rfl⟩
abbrev main_v624 : Ref sig .tc := ⟨.hbm, 896, rfl⟩
abbrev main_c_183 : Ref sig .tc := ⟨.hbm, 897, rfl⟩
abbrev main_v625 : Ref sig .tc := ⟨.hbm, 898, rfl⟩
abbrev main_v626 : Ref sig .tc := ⟨.hbm, 899, rfl⟩
abbrev main_v627 : Ref sig .tc := ⟨.hbm, 900, rfl⟩
abbrev main_c_184 : Ref sig .tc := ⟨.hbm, 901, rfl⟩
abbrev main_v628 : Ref sig .tc := ⟨.hbm, 902, rfl⟩
abbrev main_v629 : Ref sig .tc := ⟨.hbm, 903, rfl⟩
abbrev main_c_185 : Ref sig .tc := ⟨.hbm, 904, rfl⟩
abbrev main_v630 : Ref sig .tc := ⟨.hbm, 905, rfl⟩
abbrev main_v631 : Ref sig .tc := ⟨.hbm, 906, rfl⟩
abbrev main_v632 : Ref sig .tc := ⟨.hbm, 907, rfl⟩
abbrev main_v633 : Ref sig .tc := ⟨.hbm, 908, rfl⟩
abbrev main_v634 : Ref sig .tc := ⟨.hbm, 909, rfl⟩
abbrev main_v635 : Ref sig .tc := ⟨.hbm, 910, rfl⟩
abbrev main_v636 : Ref sig .tc := ⟨.hbm, 911, rfl⟩
abbrev main_v637 : Ref sig .tc := ⟨.hbm, 912, rfl⟩
abbrev main_v638 : Ref sig .tc := ⟨.hbm, 913, rfl⟩
abbrev main_cst_186 : Ref sig .tc := ⟨.hbm, 914, rfl⟩
abbrev main_v639 : Ref sig .tc := ⟨.hbm, 915, rfl⟩
abbrev main_v640 : Ref sig .tc := ⟨.hbm, 916, rfl⟩
abbrev main_v641 : Ref sig .tc := ⟨.hbm, 917, rfl⟩
abbrev main_v642 : Ref sig .tc := ⟨.hbm, 918, rfl⟩
abbrev main_v643 : Ref sig .tc := ⟨.hbm, 919, rfl⟩
abbrev main_c_187 : Ref sig .tc := ⟨.hbm, 920, rfl⟩
abbrev main_v644 : Ref sig .tc := ⟨.hbm, 921, rfl⟩
abbrev main_v645 : Ref sig .tc := ⟨.hbm, 922, rfl⟩
abbrev main_c_188 : Ref sig .tc := ⟨.hbm, 923, rfl⟩
abbrev main_v646 : Ref sig .tc := ⟨.hbm, 924, rfl⟩
abbrev main_v647 : Ref sig .tc := ⟨.hbm, 925, rfl⟩
abbrev main_v648 : Ref sig .tc := ⟨.hbm, 926, rfl⟩
abbrev main_c_189 : Ref sig .tc := ⟨.hbm, 927, rfl⟩
abbrev main_v649 : Ref sig .tc := ⟨.hbm, 928, rfl⟩
abbrev main_v650 : Ref sig .tc := ⟨.hbm, 929, rfl⟩
abbrev main_c_190 : Ref sig .tc := ⟨.hbm, 930, rfl⟩
abbrev main_v651 : Ref sig .tc := ⟨.hbm, 931, rfl⟩
abbrev main_v652 : Ref sig .tc := ⟨.hbm, 932, rfl⟩
abbrev main_v653 : Ref sig .tc := ⟨.hbm, 933, rfl⟩
abbrev main_v654 : Ref sig .tc := ⟨.hbm, 934, rfl⟩
abbrev main_v655 : Ref sig .tc := ⟨.hbm, 935, rfl⟩
abbrev main_v656 : Ref sig .tc := ⟨.hbm, 936, rfl⟩
abbrev main_v657 : Ref sig .tc := ⟨.hbm, 937, rfl⟩
abbrev main_cst_191 : Ref sig .tc := ⟨.hbm, 938, rfl⟩
abbrev main_v658 : Ref sig .tc := ⟨.hbm, 939, rfl⟩
abbrev main_v659 : Ref sig .tc := ⟨.hbm, 940, rfl⟩
abbrev main_v660 : Ref sig .tc := ⟨.hbm, 941, rfl⟩
abbrev main_v661 : Ref sig .tc := ⟨.hbm, 942, rfl⟩
abbrev main_v662 : Ref sig .tc := ⟨.hbm, 943, rfl⟩
abbrev main_v663 : Ref sig .tc := ⟨.hbm, 944, rfl⟩
abbrev main_v664 : Ref sig .tc := ⟨.hbm, 945, rfl⟩
abbrev main_c_192 : Ref sig .tc := ⟨.hbm, 946, rfl⟩
abbrev main_v665 : Ref sig .tc := ⟨.hbm, 947, rfl⟩
abbrev main_v666 : Ref sig .tc := ⟨.hbm, 948, rfl⟩
abbrev main_c_193 : Ref sig .tc := ⟨.hbm, 949, rfl⟩
abbrev main_v667 : Ref sig .tc := ⟨.hbm, 950, rfl⟩
abbrev main_v668 : Ref sig .tc := ⟨.hbm, 951, rfl⟩
abbrev main_v669 : Ref sig .tc := ⟨.hbm, 952, rfl⟩
abbrev main_c_194 : Ref sig .tc := ⟨.hbm, 953, rfl⟩
abbrev main_v670 : Ref sig .tc := ⟨.hbm, 954, rfl⟩
abbrev main_v671 : Ref sig .tc := ⟨.hbm, 955, rfl⟩
abbrev main_c_195 : Ref sig .tc := ⟨.hbm, 956, rfl⟩
abbrev main_v672 : Ref sig .tc := ⟨.hbm, 957, rfl⟩
abbrev main_v673 : Ref sig .tc := ⟨.hbm, 958, rfl⟩
abbrev main_v674 : Ref sig .tc := ⟨.hbm, 959, rfl⟩
abbrev main_v675 : Ref sig .tc := ⟨.hbm, 960, rfl⟩
abbrev main_v676 : Ref sig .tc := ⟨.hbm, 961, rfl⟩
abbrev main_v677 : Ref sig .tc := ⟨.hbm, 962, rfl⟩
abbrev main_v678 : Ref sig .tc := ⟨.hbm, 963, rfl⟩
abbrev main_v679 : Ref sig .tc := ⟨.hbm, 964, rfl⟩
abbrev main_v680 : Ref sig .tc := ⟨.hbm, 965, rfl⟩
abbrev main_v681 : Ref sig .tc := ⟨.hbm, 966, rfl⟩
abbrev main_v682 : Ref sig .tc := ⟨.hbm, 967, rfl⟩
abbrev main_v683 : Ref sig .tc := ⟨.hbm, 968, rfl⟩
abbrev main_v684 : Ref sig .tc := ⟨.hbm, 969, rfl⟩
abbrev main_v685 : Ref sig .tc := ⟨.hbm, 970, rfl⟩
abbrev main_v686 : Ref sig .tc := ⟨.hbm, 971, rfl⟩
abbrev main_v687 : Ref sig .tc := ⟨.hbm, 972, rfl⟩
abbrev main_v688 : Ref sig .tc := ⟨.hbm, 973, rfl⟩
abbrev main_v689 : Ref sig .tc := ⟨.hbm, 974, rfl⟩
abbrev main_v690 : Ref sig .tc := ⟨.hbm, 975, rfl⟩
abbrev main_v691 : Ref sig .tc := ⟨.hbm, 976, rfl⟩
abbrev main_v692 : Ref sig .tc := ⟨.hbm, 977, rfl⟩
abbrev main_v693 : Ref sig .tc := ⟨.hbm, 978, rfl⟩
abbrev main_v694 : Ref sig .tc := ⟨.hbm, 979, rfl⟩
abbrev main_v695 : Ref sig .tc := ⟨.hbm, 980, rfl⟩
abbrev main_v696 : Ref sig .tc := ⟨.hbm, 981, rfl⟩
abbrev main_v697 : Ref sig .tc := ⟨.hbm, 982, rfl⟩
abbrev main_v698 : Ref sig .tc := ⟨.hbm, 983, rfl⟩
abbrev main_v699 : Ref sig .tc := ⟨.hbm, 984, rfl⟩
abbrev main_v700 : Ref sig .tc := ⟨.hbm, 985, rfl⟩
abbrev main_v701 : Ref sig .tc := ⟨.hbm, 986, rfl⟩
abbrev main_v702 : Ref sig .tc := ⟨.hbm, 987, rfl⟩
abbrev main_v703 : Ref sig .tc := ⟨.hbm, 988, rfl⟩
abbrev main_v704 : Ref sig .tc := ⟨.hbm, 989, rfl⟩
abbrev main_v705 : Ref sig .tc := ⟨.hbm, 990, rfl⟩
abbrev main_v706 : Ref sig .tc := ⟨.hbm, 991, rfl⟩
abbrev main_v707 : Ref sig .tc := ⟨.hbm, 992, rfl⟩
abbrev main_v708 : Ref sig .tc := ⟨.hbm, 993, rfl⟩
abbrev main_v709 : Ref sig .tc := ⟨.hbm, 994, rfl⟩
abbrev main_v710 : Ref sig .tc := ⟨.hbm, 995, rfl⟩
abbrev main_v711 : Ref sig .tc := ⟨.hbm, 996, rfl⟩
abbrev main_v712 : Ref sig .tc := ⟨.hbm, 997, rfl⟩
abbrev main_v713 : Ref sig .tc := ⟨.hbm, 998, rfl⟩
abbrev main_v714 : Ref sig .tc := ⟨.hbm, 999, rfl⟩
abbrev main_v715 : Ref sig .tc := ⟨.hbm, 1000, rfl⟩
abbrev main_v716 : Ref sig .tc := ⟨.hbm, 1001, rfl⟩
abbrev main_v717 : Ref sig .tc := ⟨.hbm, 1002, rfl⟩
abbrev main_v718 : Ref sig .tc := ⟨.hbm, 1003, rfl⟩
abbrev main_v719 : Ref sig .tc := ⟨.hbm, 1004, rfl⟩
abbrev main_v720 : Ref sig .tc := ⟨.hbm, 1005, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2048x1_S1x2048_1_0 : S2048x1.Transposes [1, 0] S1x2048
  transposes_S64x64x3_S3x64x64_2_0_1 : S64x64x3.Transposes [2, 0, 1] S3x64x64
  transposes_S48x48x3_S3x48x48_2_0_1 : S48x48x3.Transposes [2, 0, 1] S3x48x48
  transposes_S96x2_S2x96_1_0 : S96x2.Transposes [1, 0] S2x96
  transposes_S32x32x1_S1x32x32_2_0_1 : S32x32x1.Transposes [2, 0, 1] S1x32x32
  transposes_S32x32x4_S4x32x32_2_0_1 : S32x32x4.Transposes [2, 0, 1] S4x32x32
  slices_S2097152x2_S2097152x1_0_0 : S2097152x2.Slices ![0, 0] S2097152x1
  shapeCasts_S2097152x1_S2097152 : S2097152x1.ShapeCasts S2097152
  bcast_S_S2097152 : S_.BroadcastsInDim S2097152 (![] : Fin 0 → Fin S2097152.rank)
  shapeCasts_S2048x2048x2_S4194304x2 : S2048x2048x2.ShapeCasts S4194304x2
  bcast_S2097152_S2097152x1_0 : S2097152.BroadcastsInDim S2097152x1 (![0] : Fin 1 → Fin S2097152x1.rank)
  bcast_S_S2097152x2 : S_.BroadcastsInDim S2097152x2 (![] : Fin 0 → Fin S2097152x2.rank)
  transposes_S2097152x2_S2x2097152_1_0 : S2097152x2.Transposes [1, 0] S2x2097152
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  slices_S2097152x2_S2097152x1_0_1 : S2097152x2.Slices ![0, 1] S2097152x1
  bcast_S_S1x2048 : S_.BroadcastsInDim S1x2048 (![] : Fin 0 → Fin S1x2048.rank)
  bcast_S_S3x64x64 : S_.BroadcastsInDim S3x64x64 (![] : Fin 0 → Fin S3x64x64.rank)
  bcast_S2097152_S1x2097152_1 : S2097152.BroadcastsInDim S1x2097152 (![1] : Fin 1 → Fin S1x2097152.rank)
  concatenates_S2097152x1_S2097152x1_S2097152x2_d1 : Shape.Concatenates [S2097152x1, S2097152x1] S2097152x2 1
  bcast_S_S1x2097152 : S_.BroadcastsInDim S1x2097152 (![] : Fin 0 → Fin S1x2097152.rank)
  bcast_S1x2097152_S3x2097152_0_1 : S1x2097152.BroadcastsInDim S3x2097152 (![0, 1] : Fin 2 → Fin S3x2097152.rank)
  bcast_S1x2097152_S2x2097152_0_1 : S1x2097152.BroadcastsInDim S2x2097152 (![0, 1] : Fin 2 → Fin S2x2097152.rank)
  bcast_S_S1x32x32 : S_.BroadcastsInDim S1x32x32 (![] : Fin 0 → Fin S1x32x32.rank)
  bcast_S_S4x32x32 : S_.BroadcastsInDim S4x32x32 (![] : Fin 0 → Fin S4x32x32.rank)
  bcast_S1x2097152_S4x2097152_0_1 : S1x2097152.BroadcastsInDim S4x2097152 (![0, 1] : Fin 2 → Fin S4x2097152.rank)
  concatenates_S1x2097152_S1x2097152_S1x2097152_S1x2097152_S1x2097152_S1x2097152_S1x2097152_S1x2097152_S1x2097152_S1x2097152_S1x2097152_S1x2097152_S12x2097152_d0 : Shape.Concatenates [S1x2097152, S1x2097152, S1x2097152, S1x2097152, S1x2097152, S1x2097152, S1x2097152, S1x2097152, S1x2097152, S1x2097152, S1x2097152, S1x2097152] S12x2097152 0
  inb_S12x16384_S1x16384_0_0 : ∀ a, (![0, 0] : Fin 2 → Nat) a + S1x16384.size a ≤ S12x16384.size a
  h_S1x16384 : 0 < S1x16384.numel
  shapeCasts_S1x16384_S1x16384 : S1x16384.ShapeCasts S1x16384
  inb_S12x16384_S1x16384_1_0 : ∀ a, (![1, 0] : Fin 2 → Nat) a + S1x16384.size a ≤ S12x16384.size a
  inb_S12x16384_S1x16384_3_0 : ∀ a, (![3, 0] : Fin 2 → Nat) a + S1x16384.size a ≤ S12x16384.size a
  inb_S12x16384_S1x16384_4_0 : ∀ a, (![4, 0] : Fin 2 → Nat) a + S1x16384.size a ≤ S12x16384.size a
  inb_S12x16384_S1x16384_5_0 : ∀ a, (![5, 0] : Fin 2 → Nat) a + S1x16384.size a ≤ S12x16384.size a
  inb_S12x16384_S1x16384_6_0 : ∀ a, (![6, 0] : Fin 2 → Nat) a + S1x16384.size a ≤ S12x16384.size a
  inb_S12x16384_S1x16384_7_0 : ∀ a, (![7, 0] : Fin 2 → Nat) a + S1x16384.size a ≤ S12x16384.size a
  inb_S12x16384_S1x16384_8_0 : ∀ a, (![8, 0] : Fin 2 → Nat) a + S1x16384.size a ≤ S12x16384.size a
  inb_S12x16384_S1x16384_9_0 : ∀ a, (![9, 0] : Fin 2 → Nat) a + S1x16384.size a ≤ S12x16384.size a
  inb_S12x16384_S1x16384_10_0 : ∀ a, (![10, 0] : Fin 2 → Nat) a + S1x16384.size a ≤ S12x16384.size a
  inb_S12x16384_S1x16384_11_0 : ∀ a, (![11, 0] : Fin 2 → Nat) a + S1x16384.size a ≤ S12x16384.size a
  inb_S3x16384_S1x16384_0_0 : ∀ a, (![0, 0] : Fin 2 → Nat) a + S1x16384.size a ≤ S3x16384.size a
  inb_S3x16384_S1x16384_1_0 : ∀ a, (![1, 0] : Fin 2 → Nat) a + S1x16384.size a ≤ S3x16384.size a
  inb_S3x16384_S1x16384_2_0 : ∀ a, (![2, 0] : Fin 2 → Nat) a + S1x16384.size a ≤ S3x16384.size a
  inb_S2x16384_S1x16384_0_0 : ∀ a, (![0, 0] : Fin 2 → Nat) a + S1x16384.size a ≤ S2x16384.size a
  inb_S2x16384_S1x16384_1_0 : ∀ a, (![1, 0] : Fin 2 → Nat) a + S1x16384.size a ≤ S2x16384.size a
  inb_S1x16384_S1x16384_0_0 : ∀ a, (![0, 0] : Fin 2 → Nat) a + S1x16384.size a ≤ S1x16384.size a
  inb_S4x16384_S1x16384_0_0 : ∀ a, (![0, 0] : Fin 2 → Nat) a + S1x16384.size a ≤ S4x16384.size a
  inb_S4x16384_S1x16384_1_0 : ∀ a, (![1, 0] : Fin 2 → Nat) a + S1x16384.size a ≤ S4x16384.size a
  inb_S4x16384_S1x16384_2_0 : ∀ a, (![2, 0] : Fin 2 → Nat) a + S1x16384.size a ≤ S4x16384.size a
  inb_S4x16384_S1x16384_3_0 : ∀ a, (![3, 0] : Fin 2 → Nat) a + S1x16384.size a ≤ S4x16384.size a
  transposes_S2x2097152_S2097152x2_1_0 : S2x2097152.Transposes [1, 0] S2097152x2
  gather_S4194304x2_S2097152x1_S2097152x2_1_0_n_n_0_1_12_wf : GatherDims.WF S4194304x2 S2097152x1 S2097152x2 [1] [0] [] [0] [] 1 ![1, 2]
  gather_S1x2048_S2097152x1_S1x2097152_0_1_n_n_1_1_11_wf : GatherDims.WF S1x2048 S2097152x1 S1x2097152 [0] [1] [] [1] [] 1 ![1, 1]
  gather_S3x64x64_S2097152x2_S3x2097152_0_12_n_n_12_1_311_wf : GatherDims.WF S3x64x64 S2097152x2 S3x2097152 [0] [1, 2] [] [1, 2] [] 1 ![3, 1, 1]
  gather_S3x48x48_S2097152x2_S3x2097152_0_12_n_n_12_1_311_wf : GatherDims.WF S3x48x48 S2097152x2 S3x2097152 [0] [1, 2] [] [1, 2] [] 1 ![3, 1, 1]
  gather_S2x96_S2097152x1_S2x2097152_0_1_n_n_1_1_21_wf : GatherDims.WF S2x96 S2097152x1 S2x2097152 [0] [1] [] [1] [] 1 ![2, 1]
  gather_S1x32x32_S2097152x2_S1x2097152_0_12_n_n_12_1_111_wf : GatherDims.WF S1x32x32 S2097152x2 S1x2097152 [0] [1, 2] [] [1, 2] [] 1 ![1, 1, 1]
  gather_S4x32x32_S2097152x2_S4x2097152_0_12_n_n_12_1_411_wf : GatherDims.WF S4x32x32 S2097152x2 S4x2097152 [0] [1, 2] [] [1, 2] [] 1 ![4, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x16384.size a ≤ S12x2097152.size a
  hwx0_0 : ∀ i : grid0.Coords, EltTy.bits .f32 = 32 ∨ (Rect.block (s := S12x2097152) S12x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x2097152.size a
  hwx0_1 : ∀ i : grid0.Coords, EltTy.bits .f32 = 32 ∨ (Rect.block (s := S3x2097152) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x16384.size a ≤ S3x2097152.size a
  hwx0_2 : ∀ i : grid0.Coords, EltTy.bits .f32 = 32 ∨ (Rect.block (s := S3x2097152) S3x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x16384.size a ≤ S2x2097152.size a
  hwx0_3 : ∀ i : grid0.Coords, EltTy.bits .f32 = 32 ∨ (Rect.block (s := S2x2097152) S2x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x2097152.size a
  hwx0_4 : ∀ i : grid0.Coords, EltTy.bits .f32 = 32 ∨ (Rect.block (s := S1x2097152) S1x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x16384.size a ≤ S4x2097152.size a
  hwx0_5 : ∀ i : grid0.Coords, EltTy.bits .f32 = 32 ∨ (Rect.block (s := S4x2097152) S4x16384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x16384.size a ≤ S4x2097152.size a
  hwx0_6 : ∀ i : grid0.Coords, EltTy.bits .f32 = 32 ∨ (Rect.block (s := S4x2097152) S4x16384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x16384.size a ≤ S2x2097152.size a
  hwx0_7 : ∀ i : grid0.Coords, EltTy.bits .f32 = 32 ∨ (Rect.block (s := S2x2097152) S2x16384.size (cc0_transform_7 i) (hinb0_7 i)).WholeWords (EltTy.packing .f32)

variable [Facts₀]

def gather_S4194304x2_S2097152x1_S2097152x2_1_0_n_n_0_1_12 : GatherDims S4194304x2 S2097152x1 S2097152x2 where
  offsetDims := [1]
  collapsedSliceDims := [0]
  operandBatchingDims := []
  startIndicesBatchingDims := []
  startIndexMap := [0]
  indexVectorDim := 1
  sliceSizes := ![1, 2]
  wf := gather_S4194304x2_S2097152x1_S2097152x2_1_0_n_n_0_1_12_wf
def gather_S1x2048_S2097152x1_S1x2097152_0_1_n_n_1_1_11 : GatherDims S1x2048 S2097152x1 S1x2097152 where
  offsetDims := [0]
  collapsedSliceDims := [1]
  operandBatchingDims := []
  startIndicesBatchingDims := []
  startIndexMap := [1]
  indexVectorDim := 1
  sliceSizes := ![1, 1]
  wf := gather_S1x2048_S2097152x1_S1x2097152_0_1_n_n_1_1_11_wf
def gather_S3x64x64_S2097152x2_S3x2097152_0_12_n_n_12_1_311 : GatherDims S3x64x64 S2097152x2 S3x2097152 where
  offsetDims := [0]
  collapsedSliceDims := [1, 2]
  operandBatchingDims := []
  startIndicesBatchingDims := []
  startIndexMap := [1, 2]
  indexVectorDim := 1
  sliceSizes := ![3, 1, 1]
  wf := gather_S3x64x64_S2097152x2_S3x2097152_0_12_n_n_12_1_311_wf
def gather_S3x48x48_S2097152x2_S3x2097152_0_12_n_n_12_1_311 : GatherDims S3x48x48 S2097152x2 S3x2097152 where
  offsetDims := [0]
  collapsedSliceDims := [1, 2]
  operandBatchingDims := []
  startIndicesBatchingDims := []
  startIndexMap := [1, 2]
  indexVectorDim := 1
  sliceSizes := ![3, 1, 1]
  wf := gather_S3x48x48_S2097152x2_S3x2097152_0_12_n_n_12_1_311_wf
def gather_S2x96_S2097152x1_S2x2097152_0_1_n_n_1_1_21 : GatherDims S2x96 S2097152x1 S2x2097152 where
  offsetDims := [0]
  collapsedSliceDims := [1]
  operandBatchingDims := []
  startIndicesBatchingDims := []
  startIndexMap := [1]
  indexVectorDim := 1
  sliceSizes := ![2, 1]
  wf := gather_S2x96_S2097152x1_S2x2097152_0_1_n_n_1_1_21_wf
def gather_S1x32x32_S2097152x2_S1x2097152_0_12_n_n_12_1_111 : GatherDims S1x32x32 S2097152x2 S1x2097152 where
  offsetDims := [0]
  collapsedSliceDims := [1, 2]
  operandBatchingDims := []
  startIndicesBatchingDims := []
  startIndexMap := [1, 2]
  indexVectorDim := 1
  sliceSizes := ![1, 1, 1]
  wf := gather_S1x32x32_S2097152x2_S1x2097152_0_12_n_n_12_1_111_wf
def gather_S4x32x32_S2097152x2_S4x2097152_0_12_n_n_12_1_411 : GatherDims S4x32x32 S2097152x2 S4x2097152 where
  offsetDims := [0]
  collapsedSliceDims := [1, 2]
  operandBatchingDims := []
  startIndicesBatchingDims := []
  startIndexMap := [1, 2]
  indexVectorDim := 1
  sliceSizes := ![4, 1, 1]
  wf := gather_S4x32x32_S2097152x2_S4x2097152_0_12_n_n_12_1_411_wf

abbrev win0_0 : Pipeline.Window sig grid0 :=
  Pipeline.Window.ofSpec (Memref.whole main_v718) S12x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v193) S3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v298) S3x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v330) S2x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v443) S1x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v563) S4x16384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v683) S4x16384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v719) S2x16384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S2048x2048x2 : Shape := ⟨3, ![2048, 2048, 2]⟩
abbrev S2048x1 : Shape := ⟨2, ![2048, 1]⟩
abbrev S64x64x3 : Shape := ⟨3, ![64, 64, 3]⟩
abbrev S48x48x3 : Shape := ⟨3, ![48, 48, 3]⟩
abbrev S96x2 : Shape := ⟨2, ![96, 2]⟩
abbrev S32x32x1 : Shape := ⟨3, ![32, 32, 1]⟩
abbrev S32x32x4 : Shape := ⟨3, ![32, 32, 4]⟩
abbrev S2097152x1 : Shape := ⟨2, ![2097152, 1]⟩
abbrev S2097152 : Shape := ⟨1, ![2097152]⟩
abbrev S_ : Shape := ⟨0, ![]⟩
abbrev S2097152x3 : Shape := ⟨2, ![2097152, 3]⟩
abbrev S2097152x4 : Shape := ⟨2, ![2097152, 4]⟩

abbrev nBuf : Space → Nat
  | .hbm => 1132
  | .vmem => 0
  | .smem => 0
  | _ => 0

abbrev hbmTy0_0 (i : Nat) : BufTy := match i % 128 with
  | 0 => ⟨S2097152x2, .f32⟩
  | 1 => ⟨S2097152x2, .f32⟩
  | 2 => ⟨S2097152x2, .f32⟩
  | 3 => ⟨S2097152x2, .f32⟩
  | 4 => ⟨S2097152x2, .f32⟩
  | 5 => ⟨S2097152x2, .f32⟩
  | 6 => ⟨S2097152x2, .f32⟩
  | 7 => ⟨S2097152x2, .f32⟩
  | 8 => ⟨S2097152x2, .f32⟩
  | 9 => ⟨S2048x2048x2, .f32⟩
  | 10 => ⟨S2048x1, .f32⟩
  | 11 => ⟨S64x64x3, .f32⟩
  | 12 => ⟨S48x48x3, .f32⟩
  | 13 => ⟨S96x2, .f32⟩
  | 14 => ⟨S32x32x1, .f32⟩
  | 15 => ⟨S32x32x4, .f32⟩
  | 16 => ⟨S32x32x4, .f32⟩
  | 17 => ⟨S2097152x1, .f32⟩
  | 18 => ⟨S2097152, .f32⟩
  | 19 => ⟨S2097152x1, .f32⟩
  | 20 => ⟨S2097152, .f32⟩
  | 21 => ⟨S2097152x1, .f32⟩
  | 22 => ⟨S2097152x1, .f32⟩
  | 23 => ⟨S2097152x2, .f32⟩
  | 24 => ⟨S2097152x1, .f32⟩
  | 25 => ⟨S2097152, .f32⟩
  | 26 => ⟨S_, .f32⟩
  | 27 => ⟨S2048x2048x2, .f32⟩
  | 28 => ⟨S2048x2048x2, .f32⟩
  | 29 => ⟨S_, .f32⟩
  | 30 => ⟨S2048x2048x2, .f32⟩
  | 31 => ⟨S2048x2048x2, .f32⟩
  | 32 => ⟨S_, .f32⟩
  | 33 => ⟨S2048x2048x2, .f32⟩
  | 34 => ⟨S2048x2048x2, .f32⟩
  | 35 => ⟨S2048x2048x2, .f32⟩
  | 36 => ⟨S2048x2048x2, .f32⟩
  | 37 => ⟨S2048x2048x2, .f32⟩
  | 38 => ⟨S_, .f32⟩
  | 39 => ⟨S2048x2048x2, .f32⟩
  | 40 => ⟨S2048x2048x2, .f32⟩
  | 41 => ⟨S2097152x1, .f32⟩
  | 42 => ⟨S2097152, .f32⟩
  | 43 => ⟨S_, .f32⟩
  | 44 => ⟨S_, .f32⟩
  | 45 => ⟨S_, .f32⟩
  | 46 => ⟨S2097152, .f32⟩
  | 47 => ⟨S2097152, .f32⟩
  | 48 => ⟨S_, .f32⟩
  | 49 => ⟨S2097152, .f32⟩
  | 50 => ⟨S2097152, .f32⟩
  | 51 => ⟨S_, .f32⟩
  | 52 => ⟨S2097152, .f32⟩
  | 53 => ⟨S2097152, .f32⟩
  | 54 => ⟨S2097152x1, .f32⟩
  | 55 => ⟨S2097152, .f32⟩
  | 56 => ⟨S_, .f32⟩
  | 57 => ⟨S_, .f32⟩
  | 58 => ⟨S_, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S_, .f32⟩
  | 65 => ⟨S2097152, .f32⟩
  | 66 => ⟨S2097152, .f32⟩
  | 67 => ⟨S2097152, .f32⟩
  | 68 => ⟨S2097152, .i32⟩
  | 69 => ⟨S2097152, .f32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S2097152x1, .i32⟩
  | 86 => ⟨S2097152x1, .i32⟩
  | 87 => ⟨S2097152x2, .i32⟩
  | 88 => ⟨S2097152x2, .f32⟩
  | 89 => ⟨S2097152x1, .f32⟩
  | 90 => ⟨S2097152, .f32⟩
  | 91 => ⟨S_, .f32⟩
  | 92 => ⟨S2048x1, .f32⟩
  | 93 => ⟨S2048x1, .f32⟩
  | 94 => ⟨S_, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S2048x1, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S_, .f32⟩
  | 108 => ⟨S_, .f32⟩
  | 109 => ⟨S2097152, .f32⟩
  | 110 => ⟨S2097152, .f32⟩
  | 111 => ⟨S_, .f32⟩
  | 112 => ⟨S2097152, .f32⟩
  | 113 => ⟨S2097152, .f32⟩
  | 114 => ⟨S_, .f32⟩
  | 115 => ⟨S2097152, .f32⟩
  | 116 => ⟨S2097152, .f32⟩
  | 117 => ⟨S2097152, .f32⟩
  | 118 => ⟨S2097152, .i32⟩
  | 119 => ⟨S_, .i32⟩
  | 120 => ⟨S2097152, .i32⟩
  | 121 => ⟨S2097152, .i1⟩
  | 122 => ⟨S_, .i32⟩
  | 123 => ⟨S2097152, .i32⟩
  | 124 => ⟨S2097152, .i32⟩
  | 125 => ⟨S2097152, .i32⟩
  | 126 => ⟨S2097152x1, .i32⟩
  | 127 => ⟨S2097152x1, .f32⟩
  | _ => ⟨S2097152x2, .f32⟩

abbrev hbmTy0_1 (i : Nat) : BufTy := match i % 128 with
  | 0 => ⟨S2097152x1, .f32⟩
  | 1 => ⟨S2097152x1, .f32⟩
  | 2 => ⟨S2097152x2, .f32⟩
  | 3 => ⟨S_, .f32⟩
  | 4 => ⟨S64x64x3, .f32⟩
  | 5 => ⟨S64x64x3, .f32⟩
  | 6 => ⟨S_, .f32⟩
  | 7 => ⟨S64x64x3, .f32⟩
  | 8 => ⟨S64x64x3, .f32⟩
  | 9 => ⟨S_, .f32⟩
  | 10 => ⟨S64x64x3, .f32⟩
  | 11 => ⟨S64x64x3, .f32⟩
  | 12 => ⟨S64x64x3, .f32⟩
  | 13 => ⟨S64x64x3, .f32⟩
  | 14 => ⟨S64x64x3, .f32⟩
  | 15 => ⟨S_, .f32⟩
  | 16 => ⟨S64x64x3, .f32⟩
  | 17 => ⟨S64x64x3, .f32⟩
  | 18 => ⟨S2097152x1, .f32⟩
  | 19 => ⟨S2097152, .f32⟩
  | 20 => ⟨S_, .f32⟩
  | 21 => ⟨S_, .f32⟩
  | 22 => ⟨S_, .f32⟩
  | 23 => ⟨S2097152, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S2097152x1, .f32⟩
  | 32 => ⟨S2097152, .f32⟩
  | 33 => ⟨S_, .f32⟩
  | 34 => ⟨S_, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S2097152, .f32⟩
  | 43 => ⟨S2097152, .f32⟩
  | 44 => ⟨S2097152, .f32⟩
  | 45 => ⟨S2097152, .f32⟩
  | 46 => ⟨S2097152, .f32⟩
  | 47 => ⟨S2097152x1, .f32⟩
  | 48 => ⟨S2097152, .f32⟩
  | 49 => ⟨S2097152x1, .f32⟩
  | 50 => ⟨S2097152, .i32⟩
  | 51 => ⟨S2097152, .i32⟩
  | 52 => ⟨S_, .i32⟩
  | 53 => ⟨S2097152, .i32⟩
  | 54 => ⟨S2097152, .i32⟩
  | 55 => ⟨S_, .i32⟩
  | 56 => ⟨S2097152, .i32⟩
  | 57 => ⟨S2097152, .i32⟩
  | 58 => ⟨S_, .i32⟩
  | 59 => ⟨S2097152, .i32⟩
  | 60 => ⟨S2097152, .i32⟩
  | 61 => ⟨S_, .i32⟩
  | 62 => ⟨S2097152, .i32⟩
  | 63 => ⟨S2097152, .i32⟩
  | 64 => ⟨S_, .i32⟩
  | 65 => ⟨S2097152, .i32⟩
  | 66 => ⟨S2097152, .i1⟩
  | 67 => ⟨S_, .i32⟩
  | 68 => ⟨S2097152, .i32⟩
  | 69 => ⟨S2097152, .i32⟩
  | 70 => ⟨S2097152, .i32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S2097152x1, .i32⟩
  | 79 => ⟨S2097152x1, .i32⟩
  | 80 => ⟨S2097152x2, .i32⟩
  | 81 => ⟨S2097152x3, .f32⟩
  | 82 => ⟨S_, .f32⟩
  | 83 => ⟨S2097152x1, .f32⟩
  | 84 => ⟨S2097152x1, .f32⟩
  | 85 => ⟨S2097152x3, .f32⟩
  | 86 => ⟨S2097152x3, .f32⟩
  | 87 => ⟨S_, .f32⟩
  | 88 => ⟨S2097152x1, .f32⟩
  | 89 => ⟨S2097152x1, .f32⟩
  | 90 => ⟨S2097152x3, .f32⟩
  | 91 => ⟨S2097152x3, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S_, .i32⟩
  | 100 => ⟨S2097152, .i32⟩
  | 101 => ⟨S2097152, .i1⟩
  | 102 => ⟨S_, .i32⟩
  | 103 => ⟨S2097152, .i32⟩
  | 104 => ⟨S2097152, .i32⟩
  | 105 => ⟨S2097152, .i32⟩
  | 106 => ⟨S2097152x1, .i32⟩
  | 107 => ⟨S2097152x1, .i32⟩
  | 108 => ⟨S2097152x2, .i32⟩
  | 109 => ⟨S2097152x3, .f32⟩
  | 110 => ⟨S2097152x3, .f32⟩
  | 111 => ⟨S2097152x3, .f32⟩
  | 112 => ⟨S_, .f32⟩
  | 113 => ⟨S2097152x1, .f32⟩
  | 114 => ⟨S2097152x1, .f32⟩
  | 115 => ⟨S2097152x3, .f32⟩
  | 116 => ⟨S2097152x3, .f32⟩
  | 117 => ⟨S2097152x3, .f32⟩
  | 118 => ⟨S_, .i32⟩
  | 119 => ⟨S2097152, .i32⟩
  | 120 => ⟨S2097152, .i1⟩
  | 121 => ⟨S_, .i32⟩
  | 122 => ⟨S2097152, .i32⟩
  | 123 => ⟨S2097152, .i32⟩
  | 124 => ⟨S2097152, .i32⟩
  | 125 => ⟨S_, .i32⟩
  | 126 => ⟨S2097152, .i32⟩
  | 127 => ⟨S2097152, .i1⟩
  | _ => ⟨S2097152x2, .f32⟩

abbrev hbmTy0_2 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x1, .i32⟩
  | 6 => ⟨S2097152x2, .i32⟩
  | 7 => ⟨S2097152x3, .f32⟩
  | 8 => ⟨S_, .f32⟩
  | 9 => ⟨S2097152x1, .f32⟩
  | 10 => ⟨S2097152x1, .f32⟩
  | 11 => ⟨S2097152x3, .f32⟩
  | 12 => ⟨S2097152x3, .f32⟩
  | 13 => ⟨S2097152x3, .f32⟩
  | 14 => ⟨S2097152x3, .f32⟩
  | 15 => ⟨S2097152x3, .f32⟩
  | 16 => ⟨S_, .i32⟩
  | 17 => ⟨S2097152, .i32⟩
  | 18 => ⟨S2097152, .i1⟩
  | 19 => ⟨S_, .i32⟩
  | 20 => ⟨S2097152, .i32⟩
  | 21 => ⟨S2097152, .i32⟩
  | 22 => ⟨S2097152, .i32⟩
  | 23 => ⟨S_, .i32⟩
  | 24 => ⟨S2097152, .i32⟩
  | 25 => ⟨S2097152, .i1⟩
  | 26 => ⟨S_, .i32⟩
  | 27 => ⟨S2097152, .i32⟩
  | 28 => ⟨S2097152, .i32⟩
  | 29 => ⟨S2097152, .i32⟩
  | 30 => ⟨S2097152x1, .i32⟩
  | 31 => ⟨S2097152x1, .i32⟩
  | 32 => ⟨S2097152x2, .i32⟩
  | 33 => ⟨S2097152x3, .f32⟩
  | 34 => ⟨S2097152x3, .f32⟩
  | 35 => ⟨S2097152x3, .f32⟩
  | 36 => ⟨S2097152x3, .f32⟩
  | 37 => ⟨S2097152x3, .f32⟩
  | 38 => ⟨S2097152x3, .f32⟩
  | 39 => ⟨S_, .f32⟩
  | 40 => ⟨S2097152, .f32⟩
  | 41 => ⟨S2097152, .f32⟩
  | 42 => ⟨S2097152x1, .f32⟩
  | 43 => ⟨S2097152, .f32⟩
  | 44 => ⟨S2097152, .f32⟩
  | 45 => ⟨S2097152x1, .f32⟩
  | 46 => ⟨S2097152, .f32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S2097152, .f32⟩
  | 54 => ⟨S2097152x1, .f32⟩
  | 55 => ⟨S2097152, .f32⟩
  | 56 => ⟨S2097152, .f32⟩
  | 57 => ⟨S2097152x1, .f32⟩
  | 58 => ⟨S2097152, .f32⟩
  | 59 => ⟨S2097152, .f32⟩
  | 60 => ⟨S2097152, .f32⟩
  | 61 => ⟨S2097152x1, .f32⟩
  | 62 => ⟨S2097152x1, .f32⟩
  | 63 => ⟨S2097152, .f32⟩
  | 64 => ⟨S_, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S2097152, .f32⟩
  | 71 => ⟨S2097152x1, .f32⟩
  | 72 => ⟨S2097152, .f32⟩
  | 73 => ⟨S_, .f32⟩
  | 74 => ⟨S2097152, .f32⟩
  | 75 => ⟨S2097152, .f32⟩
  | 76 => ⟨S2097152, .f32⟩
  | 77 => ⟨S2097152x1, .f32⟩
  | 78 => ⟨S2097152x1, .f32⟩
  | 79 => ⟨S2097152, .f32⟩
  | 80 => ⟨S_, .f32⟩
  | 81 => ⟨S2097152, .f32⟩
  | 82 => ⟨S2097152, .f32⟩
  | 83 => ⟨S2097152, .f32⟩
  | 84 => ⟨S2097152x1, .f32⟩
  | 85 => ⟨S2097152, .f32⟩
  | 86 => ⟨S2097152, .f32⟩
  | 87 => ⟨S2097152x1, .f32⟩
  | 88 => ⟨S2097152x1, .f32⟩
  | 89 => ⟨S2097152, .f32⟩
  | 90 => ⟨S_, .f32⟩
  | 91 => ⟨S2097152, .f32⟩
  | 92 => ⟨S2097152, .f32⟩
  | 93 => ⟨S2097152, .f32⟩
  | 94 => ⟨S2097152x1, .f32⟩
  | 95 => ⟨S2097152, .f32⟩
  | 96 => ⟨S_, .f32⟩
  | 97 => ⟨S2097152, .f32⟩
  | 98 => ⟨S2097152, .f32⟩
  | 99 => ⟨S2097152, .f32⟩
  | 100 => ⟨S2097152x1, .f32⟩
  | 101 => ⟨S2097152x1, .f32⟩
  | 102 => ⟨S2097152, .f32⟩
  | 103 => ⟨S_, .f32⟩
  | 104 => ⟨S2097152, .f32⟩
  | 105 => ⟨S2097152, .f32⟩
  | 106 => ⟨S2097152x1, .f32⟩
  | 107 => ⟨S2097152x1, .f32⟩
  | 108 => ⟨S2097152x3, .f32⟩
  | 109 => ⟨S2097152x3, .f32⟩
  | 110 => ⟨S2097152x1, .f32⟩
  | 111 => ⟨S2097152, .f32⟩
  | 112 => ⟨S_, .f32⟩
  | 113 => ⟨S_, .f32⟩
  | 114 => ⟨S_, .f32⟩
  | 115 => ⟨S2097152, .f32⟩
  | 116 => ⟨S2097152, .f32⟩
  | 117 => ⟨S_, .f32⟩
  | 118 => ⟨S2097152, .f32⟩
  | 119 => ⟨S2097152, .f32⟩
  | 120 => ⟨S_, .f32⟩
  | 121 => ⟨S2097152, .f32⟩
  | 122 => ⟨S2097152, .f32⟩
  | 123 => ⟨S2097152x1, .f32⟩
  | 124 => ⟨S2097152, .f32⟩
  | 125 => ⟨S_, .f32⟩
  | 126 => ⟨S_, .f32⟩
  | 127 => ⟨S_, .f32⟩
  | _ => ⟨S2097152x2, .f32⟩

abbrev hbmTy0_3 (i : Nat) : BufTy := match i % 128 with
  | 0 => ⟨S2097152, .f32⟩
  | 1 => ⟨S2097152, .f32⟩
  | 2 => ⟨S_, .f32⟩
  | 3 => ⟨S2097152, .f32⟩
  | 4 => ⟨S2097152, .f32⟩
  | 5 => ⟨S_, .f32⟩
  | 6 => ⟨S2097152, .f32⟩
  | 7 => ⟨S2097152, .f32⟩
  | 8 => ⟨S2097152, .f32⟩
  | 9 => ⟨S2097152, .f32⟩
  | 10 => ⟨S2097152, .f32⟩
  | 11 => ⟨S2097152x1, .f32⟩
  | 12 => ⟨S2097152, .f32⟩
  | 13 => ⟨S2097152x1, .f32⟩
  | 14 => ⟨S2097152, .i32⟩
  | 15 => ⟨S2097152, .i32⟩
  | 16 => ⟨S_, .i32⟩
  | 17 => ⟨S2097152, .i32⟩
  | 18 => ⟨S2097152, .i32⟩
  | 19 => ⟨S_, .i32⟩
  | 20 => ⟨S2097152, .i32⟩
  | 21 => ⟨S2097152, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i32⟩
  | 28 => ⟨S_, .i32⟩
  | 29 => ⟨S2097152, .i32⟩
  | 30 => ⟨S2097152, .i1⟩
  | 31 => ⟨S_, .i32⟩
  | 32 => ⟨S2097152, .i32⟩
  | 33 => ⟨S2097152, .i32⟩
  | 34 => ⟨S2097152, .i32⟩
  | 35 => ⟨S_, .i32⟩
  | 36 => ⟨S2097152, .i32⟩
  | 37 => ⟨S2097152, .i1⟩
  | 38 => ⟨S_, .i32⟩
  | 39 => ⟨S2097152, .i32⟩
  | 40 => ⟨S2097152, .i32⟩
  | 41 => ⟨S2097152, .i32⟩
  | 42 => ⟨S2097152x1, .i32⟩
  | 43 => ⟨S2097152x1, .i32⟩
  | 44 => ⟨S2097152x2, .i32⟩
  | 45 => ⟨S2097152x3, .f32⟩
  | 46 => ⟨S_, .f32⟩
  | 47 => ⟨S2097152x1, .f32⟩
  | 48 => ⟨S2097152x1, .f32⟩
  | 49 => ⟨S2097152x3, .f32⟩
  | 50 => ⟨S2097152x3, .f32⟩
  | 51 => ⟨S_, .f32⟩
  | 52 => ⟨S2097152x1, .f32⟩
  | 53 => ⟨S2097152x1, .f32⟩
  | 54 => ⟨S2097152x3, .f32⟩
  | 55 => ⟨S2097152x3, .f32⟩
  | 56 => ⟨S_, .i32⟩
  | 57 => ⟨S2097152, .i32⟩
  | 58 => ⟨S2097152, .i1⟩
  | 59 => ⟨S_, .i32⟩
  | 60 => ⟨S2097152, .i32⟩
  | 61 => ⟨S2097152, .i32⟩
  | 62 => ⟨S2097152, .i32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S2097152x1, .i32⟩
  | 71 => ⟨S2097152x1, .i32⟩
  | 72 => ⟨S2097152x2, .i32⟩
  | 73 => ⟨S2097152x3, .f32⟩
  | 74 => ⟨S2097152x3, .f32⟩
  | 75 => ⟨S2097152x3, .f32⟩
  | 76 => ⟨S_, .f32⟩
  | 77 => ⟨S2097152x1, .f32⟩
  | 78 => ⟨S2097152x1, .f32⟩
  | 79 => ⟨S2097152x3, .f32⟩
  | 80 => ⟨S2097152x3, .f32⟩
  | 81 => ⟨S2097152x3, .f32⟩
  | 82 => ⟨S_, .i32⟩
  | 83 => ⟨S2097152, .i32⟩
  | 84 => ⟨S2097152, .i1⟩
  | 85 => ⟨S_, .i32⟩
  | 86 => ⟨S2097152, .i32⟩
  | 87 => ⟨S2097152, .i32⟩
  | 88 => ⟨S2097152, .i32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x1, .i32⟩
  | 98 => ⟨S2097152x2, .i32⟩
  | 99 => ⟨S2097152x3, .f32⟩
  | 100 => ⟨S_, .f32⟩
  | 101 => ⟨S2097152x1, .f32⟩
  | 102 => ⟨S2097152x1, .f32⟩
  | 103 => ⟨S2097152x3, .f32⟩
  | 104 => ⟨S2097152x3, .f32⟩
  | 105 => ⟨S2097152x3, .f32⟩
  | 106 => ⟨S2097152x3, .f32⟩
  | 107 => ⟨S2097152x3, .f32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S_, .i32⟩
  | 116 => ⟨S2097152, .i32⟩
  | 117 => ⟨S2097152, .i1⟩
  | 118 => ⟨S_, .i32⟩
  | 119 => ⟨S2097152, .i32⟩
  | 120 => ⟨S2097152, .i32⟩
  | 121 => ⟨S2097152, .i32⟩
  | 122 => ⟨S2097152x1, .i32⟩
  | 123 => ⟨S2097152x1, .i32⟩
  | 124 => ⟨S2097152x2, .i32⟩
  | 125 => ⟨S2097152x3, .f32⟩
  | 126 => ⟨S2097152x3, .f32⟩
  | 127 => ⟨S2097152x3, .f32⟩
  | _ => ⟨S2097152x2, .f32⟩

abbrev hbmTy0_4 (i : Nat) : BufTy := match i % 128 with
  | 0 => ⟨S2097152x3, .f32⟩
  | 1 => ⟨S2097152x3, .f32⟩
  | 2 => ⟨S2097152x3, .f32⟩
  | 3 => ⟨S2097152, .f32⟩
  | 4 => ⟨S_, .f32⟩
  | 5 => ⟨S_, .f32⟩
  | 6 => ⟨S_, .f32⟩
  | 7 => ⟨S2097152, .f32⟩
  | 8 => ⟨S2097152, .f32⟩
  | 9 => ⟨S_, .f32⟩
  | 10 => ⟨S2097152, .f32⟩
  | 11 => ⟨S2097152, .f32⟩
  | 12 => ⟨S_, .f32⟩
  | 13 => ⟨S2097152, .f32⟩
  | 14 => ⟨S2097152, .f32⟩
  | 15 => ⟨S2097152, .f32⟩
  | 16 => ⟨S2097152, .f32⟩
  | 17 => ⟨S2097152x1, .f32⟩
  | 18 => ⟨S2097152, .i32⟩
  | 19 => ⟨S_, .i32⟩
  | 20 => ⟨S2097152, .i32⟩
  | 21 => ⟨S2097152, .i32⟩
  | 22 => ⟨S_, .i32⟩
  | 23 => ⟨S2097152, .i32⟩
  | 24 => ⟨S2097152, .i32⟩
  | 25 => ⟨S_, .i32⟩
  | 26 => ⟨S2097152, .i32⟩
  | 27 => ⟨S2097152, .i1⟩
  | 28 => ⟨S_, .i32⟩
  | 29 => ⟨S2097152, .i32⟩
  | 30 => ⟨S2097152, .i32⟩
  | 31 => ⟨S2097152, .i32⟩
  | 32 => ⟨S2097152x1, .i32⟩
  | 33 => ⟨S2097152x2, .f32⟩
  | 34 => ⟨S_, .f32⟩
  | 35 => ⟨S2097152x1, .f32⟩
  | 36 => ⟨S2097152x1, .f32⟩
  | 37 => ⟨S2097152x2, .f32⟩
  | 38 => ⟨S2097152x2, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152x2, .f32⟩
  | 48 => ⟨S2097152x2, .f32⟩
  | 49 => ⟨S2097152x2, .f32⟩
  | 50 => ⟨S2097152x2, .f32⟩
  | 51 => ⟨S2097152x1, .f32⟩
  | 52 => ⟨S2097152x1, .f32⟩
  | 53 => ⟨S2097152x1, .f32⟩
  | 54 => ⟨S2097152x1, .f32⟩
  | 55 => ⟨S2097152x2, .f32⟩
  | 56 => ⟨S_, .f32⟩
  | 57 => ⟨S32x32x1, .f32⟩
  | 58 => ⟨S32x32x1, .f32⟩
  | 59 => ⟨S_, .f32⟩
  | 60 => ⟨S32x32x1, .f32⟩
  | 61 => ⟨S32x32x1, .f32⟩
  | 62 => ⟨S_, .f32⟩
  | 63 => ⟨S32x32x1, .f32⟩
  | 64 => ⟨S32x32x1, .f32⟩
  | 65 => ⟨S32x32x1, .f32⟩
  | 66 => ⟨S32x32x1, .f32⟩
  | 67 => ⟨S32x32x1, .f32⟩
  | 68 => ⟨S_, .f32⟩
  | 69 => ⟨S32x32x1, .f32⟩
  | 70 => ⟨S32x32x1, .f32⟩
  | 71 => ⟨S2097152x1, .f32⟩
  | 72 => ⟨S2097152, .f32⟩
  | 73 => ⟨S_, .f32⟩
  | 74 => ⟨S_, .f32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S2097152x1, .f32⟩
  | 85 => ⟨S2097152, .f32⟩
  | 86 => ⟨S_, .f32⟩
  | 87 => ⟨S_, .f32⟩
  | 88 => ⟨S_, .f32⟩
  | 89 => ⟨S2097152, .f32⟩
  | 90 => ⟨S2097152, .f32⟩
  | 91 => ⟨S_, .f32⟩
  | 92 => ⟨S2097152, .f32⟩
  | 93 => ⟨S2097152, .f32⟩
  | 94 => ⟨S_, .f32⟩
  | 95 => ⟨S2097152, .f32⟩
  | 96 => ⟨S2097152, .f32⟩
  | 97 => ⟨S2097152, .f32⟩
  | 98 => ⟨S2097152, .f32⟩
  | 99 => ⟨S2097152, .f32⟩
  | 100 => ⟨S2097152x1, .f32⟩
  | 101 => ⟨S2097152, .f32⟩
  | 102 => ⟨S2097152x1, .f32⟩
  | 103 => ⟨S2097152, .i32⟩
  | 104 => ⟨S2097152, .i32⟩
  | 105 => ⟨S_, .i32⟩
  | 106 => ⟨S2097152, .i32⟩
  | 107 => ⟨S2097152, .i32⟩
  | 108 => ⟨S_, .i32⟩
  | 109 => ⟨S2097152, .i32⟩
  | 110 => ⟨S2097152, .i32⟩
  | 111 => ⟨S_, .i32⟩
  | 112 => ⟨S2097152, .i32⟩
  | 113 => ⟨S2097152, .i32⟩
  | 114 => ⟨S_, .i32⟩
  | 115 => ⟨S2097152, .i32⟩
  | 116 => ⟨S2097152, .i32⟩
  | 117 => ⟨S_, .i32⟩
  | 118 => ⟨S2097152, .i32⟩
  | 119 => ⟨S2097152, .i1⟩
  | 120 => ⟨S_, .i32⟩
  | 121 => ⟨S2097152, .i32⟩
  | 122 => ⟨S2097152, .i32⟩
  | 123 => ⟨S2097152, .i32⟩
  | 124 => ⟨S_, .i32⟩
  | 125 => ⟨S2097152, .i32⟩
  | 126 => ⟨S2097152, .i1⟩
  | 127 => ⟨S_, .i32⟩
  | _ => ⟨S2097152x2, .f32⟩

abbrev hbmTy0_5 (i : Nat) : BufTy := match i % 128 with
  | 0 => ⟨S2097152, .i32⟩
  | 1 => ⟨S2097152, .i32⟩
  | 2 => ⟨S2097152, .i32⟩
  | 3 => ⟨S2097152x1, .i32⟩
  | 4 => ⟨S2097152x1, .i32⟩
  | 5 => ⟨S2097152x2, .i32⟩
  | 6 => ⟨S2097152x1, .f32⟩
  | 7 => ⟨S_, .f32⟩
  | 8 => ⟨S2097152x1, .f32⟩
  | 9 => ⟨S2097152x1, .f32⟩
  | 10 => ⟨S2097152x1, .f32⟩
  | 11 => ⟨S_, .f32⟩
  | 12 => ⟨S2097152x1, .f32⟩
  | 13 => ⟨S2097152x1, .f32⟩
  | 14 => ⟨S2097152x1, .f32⟩
  | 15 => ⟨S_, .i32⟩
  | 16 => ⟨S2097152, .i32⟩
  | 17 => ⟨S2097152, .i1⟩
  | 18 => ⟨S_, .i32⟩
  | 19 => ⟨S2097152, .i32⟩
  | 20 => ⟨S2097152, .i32⟩
  | 21 => ⟨S2097152, .i32⟩
  | 22 => ⟨S_, .i32⟩
  | 23 => ⟨S2097152, .i32⟩
  | 24 => ⟨S2097152, .i1⟩
  | 25 => ⟨S_, .i32⟩
  | 26 => ⟨S2097152, .i32⟩
  | 27 => ⟨S2097152, .i32⟩
  | 28 => ⟨S2097152, .i32⟩
  | 29 => ⟨S2097152x1, .i32⟩
  | 30 => ⟨S2097152x1, .i32⟩
  | 31 => ⟨S2097152x2, .i32⟩
  | 32 => ⟨S2097152x1, .f32⟩
  | 33 => ⟨S2097152x1, .f32⟩
  | 34 => ⟨S_, .f32⟩
  | 35 => ⟨S2097152x1, .f32⟩
  | 36 => ⟨S2097152x1, .f32⟩
  | 37 => ⟨S2097152x1, .f32⟩
  | 38 => ⟨S2097152x1, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S_, .i32⟩
  | 47 => ⟨S2097152, .i32⟩
  | 48 => ⟨S2097152, .i1⟩
  | 49 => ⟨S_, .i32⟩
  | 50 => ⟨S2097152, .i32⟩
  | 51 => ⟨S2097152, .i32⟩
  | 52 => ⟨S2097152, .i32⟩
  | 53 => ⟨S2097152x1, .i32⟩
  | 54 => ⟨S2097152x1, .i32⟩
  | 55 => ⟨S2097152x2, .i32⟩
  | 56 => ⟨S2097152x1, .f32⟩
  | 57 => ⟨S_, .f32⟩
  | 58 => ⟨S2097152x1, .f32⟩
  | 59 => ⟨S2097152x1, .f32⟩
  | 60 => ⟨S2097152x1, .f32⟩
  | 61 => ⟨S2097152x1, .f32⟩
  | 62 => ⟨S2097152x1, .f32⟩
  | 63 => ⟨S_, .i32⟩
  | 64 => ⟨S2097152, .i32⟩
  | 65 => ⟨S2097152, .i1⟩
  | 66 => ⟨S_, .i32⟩
  | 67 => ⟨S2097152, .i32⟩
  | 68 => ⟨S2097152, .i32⟩
  | 69 => ⟨S2097152, .i32⟩
  | 70 => ⟨S_, .i32⟩
  | 71 => ⟨S2097152, .i32⟩
  | 72 => ⟨S2097152, .i1⟩
  | 73 => ⟨S_, .i32⟩
  | 74 => ⟨S2097152, .i32⟩
  | 75 => ⟨S2097152, .i32⟩
  | 76 => ⟨S2097152, .i32⟩
  | 77 => ⟨S2097152x1, .i32⟩
  | 78 => ⟨S2097152x1, .i32⟩
  | 79 => ⟨S2097152x2, .i32⟩
  | 80 => ⟨S2097152x1, .f32⟩
  | 81 => ⟨S2097152x1, .f32⟩
  | 82 => ⟨S2097152x1, .f32⟩
  | 83 => ⟨S2097152x1, .f32⟩
  | 84 => ⟨S_, .f32⟩
  | 85 => ⟨S32x32x4, .f32⟩
  | 86 => ⟨S32x32x4, .f32⟩
  | 87 => ⟨S_, .f32⟩
  | 88 => ⟨S32x32x4, .f32⟩
  | 89 => ⟨S32x32x4, .f32⟩
  | 90 => ⟨S_, .f32⟩
  | 91 => ⟨S32x32x4, .f32⟩
  | 92 => ⟨S32x32x4, .f32⟩
  | 93 => ⟨S32x32x4, .f32⟩
  | 94 => ⟨S32x32x4, .f32⟩
  | 95 => ⟨S32x32x4, .f32⟩
  | 96 => ⟨S_, .f32⟩
  | 97 => ⟨S32x32x4, .f32⟩
  | 98 => ⟨S32x32x4, .f32⟩
  | 99 => ⟨S2097152x1, .f32⟩
  | 100 => ⟨S2097152, .f32⟩
  | 101 => ⟨S_, .f32⟩
  | 102 => ⟨S_, .f32⟩
  | 103 => ⟨S_, .f32⟩
  | 104 => ⟨S2097152, .f32⟩
  | 105 => ⟨S2097152, .f32⟩
  | 106 => ⟨S_, .f32⟩
  | 107 => ⟨S2097152, .f32⟩
  | 108 => ⟨S2097152, .f32⟩
  | 109 => ⟨S_, .f32⟩
  | 110 => ⟨S2097152, .f32⟩
  | 111 => ⟨S2097152, .f32⟩
  | 112 => ⟨S2097152x1, .f32⟩
  | 113 => ⟨S2097152, .f32⟩
  | 114 => ⟨S_, .f32⟩
  | 115 => ⟨S_, .f32⟩
  | 116 => ⟨S_, .f32⟩
  | 117 => ⟨S2097152, .f32⟩
  | 118 => ⟨S2097152, .f32⟩
  | 119 => ⟨S_, .f32⟩
  | 120 => ⟨S2097152, .f32⟩
  | 121 => ⟨S2097152, .f32⟩
  | 122 => ⟨S_, .f32⟩
  | 123 => ⟨S2097152, .f32⟩
  | 124 => ⟨S2097152, .f32⟩
  | 125 => ⟨S2097152, .f32⟩
  | 126 => ⟨S2097152, .f32⟩
  | 127 => ⟨S2097152, .f32⟩
  | _ => ⟨S2097152x2, .f32⟩

abbrev hbmTy0_6 (i : Nat) : BufTy := match i % 128 with
  | 0 => ⟨S2097152x1, .f32⟩
  | 1 => ⟨S2097152, .f32⟩
  | 2 => ⟨S2097152x1, .f32⟩
  | 3 => ⟨S2097152, .i32⟩
  | 4 => ⟨S2097152, .i32⟩
  | 5 => ⟨S_, .i32⟩
  | 6 => ⟨S2097152, .i32⟩
  | 7 => ⟨S2097152, .i32⟩
  | 8 => ⟨S_, .i32⟩
  | 9 => ⟨S2097152, .i32⟩
  | 10 => ⟨S2097152, .i32⟩
  | 11 => ⟨S_, .i32⟩
  | 12 => ⟨S2097152, .i32⟩
  | 13 => ⟨S2097152, .i32⟩
  | 14 => ⟨S_, .i32⟩
  | 15 => ⟨S2097152, .i32⟩
  | 16 => ⟨S2097152, .i32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S_, .i32⟩
  | 25 => ⟨S2097152, .i32⟩
  | 26 => ⟨S2097152, .i1⟩
  | 27 => ⟨S_, .i32⟩
  | 28 => ⟨S2097152, .i32⟩
  | 29 => ⟨S2097152, .i32⟩
  | 30 => ⟨S2097152, .i32⟩
  | 31 => ⟨S2097152x1, .i32⟩
  | 32 => ⟨S2097152x1, .i32⟩
  | 33 => ⟨S2097152x2, .i32⟩
  | 34 => ⟨S2097152x4, .f32⟩
  | 35 => ⟨S_, .f32⟩
  | 36 => ⟨S2097152x1, .f32⟩
  | 37 => ⟨S2097152x1, .f32⟩
  | 38 => ⟨S2097152x4, .f32⟩
  | 39 => ⟨S2097152x4, .f32⟩
  | 40 => ⟨S_, .f32⟩
  | 41 => ⟨S2097152x1, .f32⟩
  | 42 => ⟨S2097152x1, .f32⟩
  | 43 => ⟨S2097152x4, .f32⟩
  | 44 => ⟨S2097152x4, .f32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S2097152, .i32⟩
  | 52 => ⟨S_, .i32⟩
  | 53 => ⟨S2097152, .i32⟩
  | 54 => ⟨S2097152, .i1⟩
  | 55 => ⟨S_, .i32⟩
  | 56 => ⟨S2097152, .i32⟩
  | 57 => ⟨S2097152, .i32⟩
  | 58 => ⟨S2097152, .i32⟩
  | 59 => ⟨S2097152x1, .i32⟩
  | 60 => ⟨S2097152x1, .i32⟩
  | 61 => ⟨S2097152x2, .i32⟩
  | 62 => ⟨S2097152x4, .f32⟩
  | 63 => ⟨S2097152x4, .f32⟩
  | 64 => ⟨S2097152x4, .f32⟩
  | 65 => ⟨S_, .f32⟩
  | 66 => ⟨S2097152x1, .f32⟩
  | 67 => ⟨S2097152x1, .f32⟩
  | 68 => ⟨S2097152x4, .f32⟩
  | 69 => ⟨S2097152x4, .f32⟩
  | 70 => ⟨S2097152x4, .f32⟩
  | 71 => ⟨S_, .i32⟩
  | 72 => ⟨S2097152, .i32⟩
  | 73 => ⟨S2097152, .i1⟩
  | 74 => ⟨S_, .i32⟩
  | 75 => ⟨S2097152, .i32⟩
  | 76 => ⟨S2097152, .i32⟩
  | 77 => ⟨S2097152, .i32⟩
  | 78 => ⟨S_, .i32⟩
  | 79 => ⟨S2097152, .i32⟩
  | 80 => ⟨S2097152, .i1⟩
  | 81 => ⟨S_, .i32⟩
  | 82 => ⟨S2097152, .i32⟩
  | 83 => ⟨S2097152, .i32⟩
  | 84 => ⟨S2097152, .i32⟩
  | 85 => ⟨S2097152x1, .i32⟩
  | 86 => ⟨S2097152x1, .i32⟩
  | 87 => ⟨S2097152x2, .i32⟩
  | 88 => ⟨S2097152x4, .f32⟩
  | 89 => ⟨S_, .f32⟩
  | 90 => ⟨S2097152x1, .f32⟩
  | 91 => ⟨S2097152x1, .f32⟩
  | 92 => ⟨S2097152x4, .f32⟩
  | 93 => ⟨S2097152x4, .f32⟩
  | 94 => ⟨S2097152x4, .f32⟩
  | 95 => ⟨S2097152x4, .f32⟩
  | 96 => ⟨S2097152x4, .f32⟩
  | 97 => ⟨S_, .i32⟩
  | 98 => ⟨S2097152, .i32⟩
  | 99 => ⟨S2097152, .i1⟩
  | 100 => ⟨S_, .i32⟩
  | 101 => ⟨S2097152, .i32⟩
  | 102 => ⟨S2097152, .i32⟩
  | 103 => ⟨S2097152, .i32⟩
  | 104 => ⟨S_, .i32⟩
  | 105 => ⟨S2097152, .i32⟩
  | 106 => ⟨S2097152, .i1⟩
  | 107 => ⟨S_, .i32⟩
  | 108 => ⟨S2097152, .i32⟩
  | 109 => ⟨S2097152, .i32⟩
  | 110 => ⟨S2097152, .i32⟩
  | 111 => ⟨S2097152x1, .i32⟩
  | 112 => ⟨S2097152x1, .i32⟩
  | 113 => ⟨S2097152x2, .i32⟩
  | 114 => ⟨S2097152x4, .f32⟩
  | 115 => ⟨S2097152x4, .f32⟩
  | 116 => ⟨S2097152x4, .f32⟩
  | 117 => ⟨S2097152x4, .f32⟩
  | 118 => ⟨S2097152x4, .f32⟩
  | 119 => ⟨S2097152x4, .f32⟩
  | 120 => ⟨S2097152x1, .f32⟩
  | 121 => ⟨S2097152, .f32⟩
  | 122 => ⟨S2097152x1, .f32⟩
  | 123 => ⟨S2097152, .f32⟩
  | 124 => ⟨S2097152x1, .f32⟩
  | 125 => ⟨S2097152x1, .f32⟩
  | 126 => ⟨S2097152x2, .f32⟩
  | 127 => ⟨S_, .f32⟩
  | _ => ⟨S2097152x2, .f32⟩

abbrev hbmTy0_7 (i : Nat) : BufTy := match i % 128 with
  | 0 => ⟨S32x32x4, .f32⟩
  | 1 => ⟨S32x32x4, .f32⟩
  | 2 => ⟨S_, .f32⟩
  | 3 => ⟨S32x32x4, .f32⟩
  | 4 => ⟨S32x32x4, .f32⟩
  | 5 => ⟨S_, .f32⟩
  | 6 => ⟨S32x32x4, .f32⟩
  | 7 => ⟨S32x32x4, .f32⟩
  | 8 => ⟨S32x32x4, .f32⟩
  | 9 => ⟨S32x32x4, .f32⟩
  | 10 => ⟨S32x32x4, .f32⟩
  | 11 => ⟨S_, .f32⟩
  | 12 => ⟨S32x32x4, .f32⟩
  | 13 => ⟨S32x32x4, .f32⟩
  | 14 => ⟨S2097152x1, .f32⟩
  | 15 => ⟨S2097152, .f32⟩
  | 16 => ⟨S_, .f32⟩
  | 17 => ⟨S_, .f32⟩
  | 18 => ⟨S_, .f32⟩
  | 19 => ⟨S2097152, .f32⟩
  | 20 => ⟨S2097152, .f32⟩
  | 21 => ⟨S_, .f32⟩
  | 22 => ⟨S2097152, .f32⟩
  | 23 => ⟨S2097152, .f32⟩
  | 24 => ⟨S_, .f32⟩
  | 25 => ⟨S2097152, .f32⟩
  | 26 => ⟨S2097152, .f32⟩
  | 27 => ⟨S2097152x1, .f32⟩
  | 28 => ⟨S2097152, .f32⟩
  | 29 => ⟨S_, .f32⟩
  | 30 => ⟨S_, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S2097152, .f32⟩
  | 41 => ⟨S2097152, .f32⟩
  | 42 => ⟨S2097152, .f32⟩
  | 43 => ⟨S2097152x1, .f32⟩
  | 44 => ⟨S2097152, .f32⟩
  | 45 => ⟨S2097152x1, .f32⟩
  | 46 => ⟨S2097152, .i32⟩
  | 47 => ⟨S2097152, .i32⟩
  | 48 => ⟨S_, .i32⟩
  | 49 => ⟨S2097152, .i32⟩
  | 50 => ⟨S2097152, .i32⟩
  | 51 => ⟨S_, .i32⟩
  | 52 => ⟨S2097152, .i32⟩
  | 53 => ⟨S2097152, .i32⟩
  | 54 => ⟨S_, .i32⟩
  | 55 => ⟨S2097152, .i32⟩
  | 56 => ⟨S2097152, .i32⟩
  | 57 => ⟨S_, .i32⟩
  | 58 => ⟨S2097152, .i32⟩
  | 59 => ⟨S2097152, .i32⟩
  | 60 => ⟨S_, .i32⟩
  | 61 => ⟨S2097152, .i32⟩
  | 62 => ⟨S2097152, .i1⟩
  | 63 => ⟨S_, .i32⟩
  | 64 => ⟨S2097152, .i32⟩
  | 65 => ⟨S2097152, .i32⟩
  | 66 => ⟨S2097152, .i32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x1, .i32⟩
  | 76 => ⟨S2097152x2, .i32⟩
  | 77 => ⟨S2097152x4, .f32⟩
  | 78 => ⟨S_, .f32⟩
  | 79 => ⟨S2097152x1, .f32⟩
  | 80 => ⟨S2097152x1, .f32⟩
  | 81 => ⟨S2097152x4, .f32⟩
  | 82 => ⟨S2097152x4, .f32⟩
  | 83 => ⟨S_, .f32⟩
  | 84 => ⟨S2097152x1, .f32⟩
  | 85 => ⟨S2097152x1, .f32⟩
  | 86 => ⟨S2097152x4, .f32⟩
  | 87 => ⟨S2097152x4, .f32⟩
  | 88 => ⟨S_, .i32⟩
  | 89 => ⟨S2097152, .i32⟩
  | 90 => ⟨S2097152, .i1⟩
  | 91 => ⟨S_, .i32⟩
  | 92 => ⟨S2097152, .i32⟩
  | 93 => ⟨S2097152, .i32⟩
  | 94 => ⟨S2097152, .i32⟩
  | 95 => ⟨S_, .i32⟩
  | 96 => ⟨S2097152, .i32⟩
  | 97 => ⟨S2097152, .i1⟩
  | 98 => ⟨S_, .i32⟩
  | 99 => ⟨S2097152, .i32⟩
  | 100 => ⟨S2097152, .i32⟩
  | 101 => ⟨S2097152, .i32⟩
  | 102 => ⟨S2097152x1, .i32⟩
  | 103 => ⟨S2097152x1, .i32⟩
  | 104 => ⟨S2097152x2, .i32⟩
  | 105 => ⟨S2097152x4, .f32⟩
  | 106 => ⟨S2097152x4, .f32⟩
  | 107 => ⟨S2097152x4, .f32⟩
  | 108 => ⟨S_, .f32⟩
  | 109 => ⟨S2097152x1, .f32⟩
  | 110 => ⟨S2097152x1, .f32⟩
  | 111 => ⟨S2097152x4, .f32⟩
  | 112 => ⟨S2097152x4, .f32⟩
  | 113 => ⟨S2097152x4, .f32⟩
  | 114 => ⟨S_, .i32⟩
  | 115 => ⟨S2097152, .i32⟩
  | 116 => ⟨S2097152, .i1⟩
  | 117 => ⟨S_, .i32⟩
  | 118 => ⟨S2097152, .i32⟩
  | 119 => ⟨S2097152, .i32⟩
  | 120 => ⟨S2097152, .i32⟩
  | 121 => ⟨S_, .i32⟩
  | 122 => ⟨S2097152, .i32⟩
  | 123 => ⟨S2097152, .i1⟩
  | 124 => ⟨S_, .i32⟩
  | 125 => ⟨S2097152, .i32⟩
  | 126 => ⟨S2097152, .i32⟩
  | 127 => ⟨S2097152, .i32⟩
  | _ => ⟨S2097152x2, .f32⟩

abbrev hbmTy0_8 (i : Nat) : BufTy := match i % 128 with
  | 0 => ⟨S2097152x1, .i32⟩
  | 1 => ⟨S2097152x1, .i32⟩
  | 2 => ⟨S2097152x2, .i32⟩
  | 3 => ⟨S2097152x4, .f32⟩
  | 4 => ⟨S_, .f32⟩
  | 5 => ⟨S2097152x1, .f32⟩
  | 6 => ⟨S2097152x1, .f32⟩
  | 7 => ⟨S2097152x4, .f32⟩
  | 8 => ⟨S2097152x4, .f32⟩
  | 9 => ⟨S2097152x4, .f32⟩
  | 10 => ⟨S2097152x4, .f32⟩
  | 11 => ⟨S2097152x4, .f32⟩
  | 12 => ⟨S_, .i32⟩
  | 13 => ⟨S2097152, .i32⟩
  | 14 => ⟨S2097152, .i1⟩
  | 15 => ⟨S_, .i32⟩
  | 16 => ⟨S2097152, .i32⟩
  | 17 => ⟨S2097152, .i32⟩
  | 18 => ⟨S2097152, .i32⟩
  | 19 => ⟨S_, .i32⟩
  | 20 => ⟨S2097152, .i32⟩
  | 21 => ⟨S2097152, .i1⟩
  | 22 => ⟨S_, .i32⟩
  | 23 => ⟨S2097152, .i32⟩
  | 24 => ⟨S2097152, .i32⟩
  | 25 => ⟨S2097152, .i32⟩
  | 26 => ⟨S2097152x1, .i32⟩
  | 27 => ⟨S2097152x1, .i32⟩
  | 28 => ⟨S2097152x2, .i32⟩
  | 29 => ⟨S2097152x4, .f32⟩
  | 30 => ⟨S2097152x4, .f32⟩
  | 31 => ⟨S2097152x4, .f32⟩
  | 32 => ⟨S2097152x4, .f32⟩
  | 33 => ⟨S2097152x4, .f32⟩
  | 34 => ⟨S2097152x4, .f32⟩
  | 35 => ⟨S2097152x1, .f32⟩
  | 36 => ⟨S2097152, .f32⟩
  | 37 => ⟨S2097152, .f32⟩
  | 38 => ⟨S2097152x1, .f32⟩
  | 39 => ⟨S2097152, .f32⟩
  | 40 => ⟨S2097152x1, .f32⟩
  | 41 => ⟨S2097152, .f32⟩
  | 42 => ⟨S2097152, .f32⟩
  | 43 => ⟨S2097152, .f32⟩
  | 44 => ⟨S2097152x1, .f32⟩
  | 45 => ⟨S2097152, .f32⟩
  | 46 => ⟨S2097152, .f32⟩
  | 47 => ⟨S2097152, .f32⟩
  | 48 => ⟨S2097152x1, .f32⟩
  | 49 => ⟨S2097152, .f32⟩
  | 50 => ⟨S2097152, .f32⟩
  | 51 => ⟨S2097152x1, .f32⟩
  | 52 => ⟨S2097152, .f32⟩
  | 53 => ⟨S2097152, .f32⟩
  | 54 => ⟨S2097152, .f32⟩
  | 55 => ⟨S_, .f32⟩
  | 56 => ⟨S2097152, .f32⟩
  | 57 => ⟨S2097152, .f32⟩
  | 58 => ⟨S2097152x1, .f32⟩
  | 59 => ⟨S2097152x1, .f32⟩
  | 60 => ⟨S2097152x1, .f32⟩
  | 61 => ⟨S2097152x1, .f32⟩
  | 62 => ⟨S2097152x1, .f32⟩
  | 63 => ⟨S2097152x1, .f32⟩
  | 64 => ⟨S2097152x1, .f32⟩
  | 65 => ⟨S2097152x1, .f32⟩
  | 66 => ⟨S2097152x1, .f32⟩
  | 67 => ⟨S2097152x1, .f32⟩
  | 68 => ⟨S2097152x1, .f32⟩
  | 69 => ⟨S2097152x1, .f32⟩
  | 70 => ⟨S2097152x1, .f32⟩
  | 71 => ⟨S2097152x1, .f32⟩
  | 72 => ⟨S2097152x1, .f32⟩
  | 73 => ⟨S2097152x1, .f32⟩
  | 74 => ⟨S2097152x1, .f32⟩
  | 75 => ⟨S2097152x1, .f32⟩
  | 76 => ⟨S2097152x1, .f32⟩
  | 77 => ⟨S2097152x1, .f32⟩
  | 78 => ⟨S2097152x1, .f32⟩
  | 79 => ⟨S2097152x1, .f32⟩
  | 80 => ⟨S_, .f32⟩
  | 81 => ⟨S2097152x1, .f32⟩
  | 82 => ⟨S2097152x1, .f32⟩
  | 83 => ⟨S2097152x1, .f32⟩
  | 84 => ⟨S2097152x1, .f32⟩
  | 85 => ⟨S2097152x1, .f32⟩
  | 86 => ⟨S2097152x1, .f32⟩
  | 87 => ⟨S2097152x1, .f32⟩
  | 88 => ⟨S2097152x1, .f32⟩
  | 89 => ⟨S2097152x1, .f32⟩
  | 90 => ⟨S2097152x1, .f32⟩
  | 91 => ⟨S2097152x1, .f32⟩
  | 92 => ⟨S2097152x1, .f32⟩
  | 93 => ⟨S2097152x1, .f32⟩
  | 94 => ⟨S2097152x1, .f32⟩
  | 95 => ⟨S2097152x1, .f32⟩
  | 96 => ⟨S2097152, .f32⟩
  | 97 => ⟨S2097152x1, .f32⟩
  | 98 => ⟨S2097152, .f32⟩
  | 99 => ⟨S2097152, .f32⟩
  | 100 => ⟨S2097152x1, .f32⟩
  | 101 => ⟨S2097152, .f32⟩
  | 102 => ⟨S2097152, .f32⟩
  | 103 => ⟨S2097152, .f32⟩
  | 104 => ⟨S2097152x1, .f32⟩
  | 105 => ⟨S2097152x1, .f32⟩
  | 106 => ⟨S2097152x1, .f32⟩
  | 107 => ⟨S2097152x2, .f32⟩
  | _ => ⟨S2097152x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v27 : Ref sig .tc := ⟨.hbm, 63, rfl⟩
abbrev main_cst_8 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c : Ref sig .tc := ⟨.hbm, 71, rfl⟩
abbrev main_v34 : Ref sig .tc := ⟨.hbm, 72, rfl⟩
abbrev main_v35 : Ref sig .tc := ⟨.hbm, 73, rfl⟩
abbrev main_c_9 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_c_10 : Ref sig .tc := ⟨.hbm, 78, rfl⟩
abbrev main_v39 : Ref sig .tc := ⟨.hbm, 79, rfl⟩
abbrev main_v40 : Ref sig .tc := ⟨.hbm, 80, rfl⟩
abbrev main_c_11 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_12 : Ref sig .tc := ⟨.hbm, 91, rfl⟩
abbrev main_v50 : Ref sig .tc := ⟨.hbm, 92, rfl⟩
abbrev main_v51 : Ref sig .tc := ⟨.hbm, 93, rfl⟩
abbrev main_cst_13 : Ref sig .tc := ⟨.hbm, 94, rfl⟩
abbrev main_v52 : Ref sig .tc := ⟨.hbm, 95, rfl⟩
abbrev main_v53 : Ref sig .tc := ⟨.hbm, 96, rfl⟩
abbrev main_cst_14 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_15 : Ref sig .tc := ⟨.hbm, 103, rfl⟩
abbrev main_v59 : Ref sig .tc := ⟨.hbm, 104, rfl⟩
abbrev main_v60 : Ref sig .tc := ⟨.hbm, 105, rfl⟩
abbrev main_cst_16 : Ref sig .tc := ⟨.hbm, 106, rfl⟩
abbrev main_cst_17 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v61 : Ref sig .tc := ⟨.hbm, 113, rfl⟩
abbrev main_cst_18 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_c_19 : Ref sig .tc := ⟨.hbm, 119, rfl⟩
abbrev main_v66 : Ref sig .tc := ⟨.hbm, 120, rfl⟩
abbrev main_v67 : Ref sig .tc := ⟨.hbm, 121, rfl⟩
abbrev main_c_20 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_21 : Ref sig .tc := ⟨.hbm, 131, rfl⟩
abbrev main_v76 : Ref sig .tc := ⟨.hbm, 132, rfl⟩
abbrev main_v77 : Ref sig .tc := ⟨.hbm, 133, rfl⟩
abbrev main_cst_22 : Ref sig .tc := ⟨.hbm, 134, rfl⟩
abbrev main_v78 : Ref sig .tc := ⟨.hbm, 135, rfl⟩
abbrev main_v79 : Ref sig .tc := ⟨.hbm, 136, rfl⟩
abbrev main_cst_23 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_24 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_25 : Ref sig .tc := ⟨.hbm, 148, rfl⟩
abbrev main_cst_26 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_call6_v3 : Ref sig .tc := ⟨.hbm, 153, rfl⟩
abbrev main_call6_v4 : Ref sig .tc := ⟨.hbm, 154, rfl⟩
abbrev main_v89 : Ref sig .tc := ⟨.hbm, 155, rfl⟩
abbrev main_cst_27 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_28 : Ref sig .tc := ⟨.hbm, 161, rfl⟩
abbrev main_cst_29 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_v94 : Ref sig .tc := ⟨.hbm, 168, rfl⟩
abbrev main_cst_30 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_c_31 : Ref sig .tc := ⟨.hbm, 180, rfl⟩
abbrev main_v105 : Ref sig .tc := ⟨.hbm, 181, rfl⟩
abbrev main_v106 : Ref sig .tc := ⟨.hbm, 182, rfl⟩
abbrev main_c_32 : Ref sig .tc := ⟨.hbm, 183, rfl⟩
abbrev main_v107 : Ref sig .tc := ⟨.hbm, 184, rfl⟩
abbrev main_v108 : Ref sig .tc := ⟨.hbm, 185, rfl⟩
abbrev main_c_33 : Ref sig .tc := ⟨.hbm, 186, rfl⟩
abbrev main_v109 : Ref sig .tc := ⟨.hbm, 187, rfl⟩
abbrev main_v110 : Ref sig .tc := ⟨.hbm, 188, rfl⟩
abbrev main_c_34 : Ref sig .tc := ⟨.hbm, 189, rfl⟩
abbrev main_v111 : Ref sig .tc := ⟨.hbm, 190, rfl⟩
abbrev main_v112 : Ref sig .tc := ⟨.hbm, 191, rfl⟩
abbrev main_c_35 : Ref sig .tc := ⟨.hbm, 192, rfl⟩
abbrev main_v113 : Ref sig .tc := ⟨.hbm, 193, rfl⟩
abbrev main_v114 : Ref sig .tc := ⟨.hbm, 194, rfl⟩
abbrev main_c_36 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_c_37 : Ref sig .tc := ⟨.hbm, 199, rfl⟩
abbrev main_v118 : Ref sig .tc := ⟨.hbm, 200, rfl⟩
abbrev main_v119 : Ref sig .tc := ⟨.hbm, 201, rfl⟩
abbrev main_c_38 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_cst_39 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_40 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_c_41 : Ref sig .tc := ⟨.hbm, 220, rfl⟩
abbrev main_v135 : Ref sig .tc := ⟨.hbm, 221, rfl⟩
abbrev main_v136 : Ref sig .tc := ⟨.hbm, 222, rfl⟩
abbrev main_c_42 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_c_43 : Ref sig .tc := ⟨.hbm, 227, rfl⟩
abbrev main_v140 : Ref sig .tc := ⟨.hbm, 228, rfl⟩
abbrev main_v141 : Ref sig .tc := ⟨.hbm, 229, rfl⟩
abbrev main_c_44 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_cst_45 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_c_46 : Ref sig .tc := ⟨.hbm, 246, rfl⟩
abbrev main_v156 : Ref sig .tc := ⟨.hbm, 247, rfl⟩
abbrev main_v157 : Ref sig .tc := ⟨.hbm, 248, rfl⟩
abbrev main_c_47 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_c_48 : Ref sig .tc := ⟨.hbm, 253, rfl⟩
abbrev main_v161 : Ref sig .tc := ⟨.hbm, 254, rfl⟩
abbrev main_v162 : Ref sig .tc := ⟨.hbm, 255, rfl⟩
abbrev main_c_49 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_cst_50 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_c_51 : Ref sig .tc := ⟨.hbm, 272, rfl⟩
abbrev main_v177 : Ref sig .tc := ⟨.hbm, 273, rfl⟩
abbrev main_v178 : Ref sig .tc := ⟨.hbm, 274, rfl⟩
abbrev main_c_52 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_c_53 : Ref sig .tc := ⟨.hbm, 279, rfl⟩
abbrev main_v182 : Ref sig .tc := ⟨.hbm, 280, rfl⟩
abbrev main_v183 : Ref sig .tc := ⟨.hbm, 281, rfl⟩
abbrev main_c_54 : Ref sig .tc := ⟨.hbm, 282, rfl⟩
abbrev main_v184 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_cst_55 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_cst_56 : Ref sig .tc := ⟨.hbm, 303, rfl⟩
abbrev main_v203 : Ref sig .tc := ⟨.hbm, 304, rfl⟩
abbrev main_v204 : Ref sig .tc := ⟨.hbm, 305, rfl⟩
abbrev main_cst_57 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_v209 : Ref sig .tc := ⟨.hbm, 311, rfl⟩
abbrev main_v210 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_cst_58 : Ref sig .tc := ⟨.hbm, 320, rfl⟩
abbrev main_v218 : Ref sig .tc := ⟨.hbm, 321, rfl⟩
abbrev main_v219 : Ref sig .tc := ⟨.hbm, 322, rfl⟩
abbrev main_cst_59 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_cst_60 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_cst_61 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_cst_62 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_cst_63 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_cst_64 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_v257 : Ref sig .tc := ⟨.hbm, 366, rfl⟩
abbrev main_v258 : Ref sig .tc := ⟨.hbm, 367, rfl⟩
abbrev main_cst_65 : Ref sig .tc := ⟨.hbm, 368, rfl⟩
abbrev main_cst_66 : Ref sig .tc := ⟨.hbm, 369, rfl⟩
abbrev main_call8_v0 : Ref sig .tc := ⟨.hbm, 370, rfl⟩
abbrev main_call8_v1 : Ref sig .tc := ⟨.hbm, 371, rfl⟩
abbrev main_call8_v2 : Ref sig .tc := ⟨.hbm, 372, rfl⟩
abbrev main_call8_v3 : Ref sig .tc := ⟨.hbm, 373, rfl⟩
abbrev main_call8_v4 : Ref sig .tc := ⟨.hbm, 374, rfl⟩
abbrev main_v259 : Ref sig .tc := ⟨.hbm, 375, rfl⟩
abbrev main_cst_67 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_cst_68 : Ref sig .tc := ⟨.hbm, 381, rfl⟩
abbrev main_cst_69 : Ref sig .tc := ⟨.hbm, 382, rfl⟩
abbrev main_call9_v0 : Ref sig .tc := ⟨.hbm, 383, rfl⟩
abbrev main_call9_v1 : Ref sig .tc := ⟨.hbm, 384, rfl⟩
abbrev main_call9_v2 : Ref sig .tc := ⟨.hbm, 385, rfl⟩
abbrev main_call9_v3 : Ref sig .tc := ⟨.hbm, 386, rfl⟩
abbrev main_call9_v4 : Ref sig .tc := ⟨.hbm, 387, rfl⟩
abbrev main_v264 : Ref sig .tc := ⟨.hbm, 388, rfl⟩
abbrev main_cst_70 : Ref sig .tc := ⟨.hbm, 389, rfl⟩
abbrev main_v265 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_v273 : Ref sig .tc := ⟨.hbm, 398, rfl⟩
abbrev main_v274 : Ref sig .tc := ⟨.hbm, 399, rfl⟩
abbrev main_c_71 : Ref sig .tc := ⟨.hbm, 400, rfl⟩
abbrev main_v275 : Ref sig .tc := ⟨.hbm, 401, rfl⟩
abbrev main_v276 : Ref sig .tc := ⟨.hbm, 402, rfl⟩
abbrev main_c_72 : Ref sig .tc := ⟨.hbm, 403, rfl⟩
abbrev main_v277 : Ref sig .tc := ⟨.hbm, 404, rfl⟩
abbrev main_v278 : Ref sig .tc := ⟨.hbm, 405, rfl⟩
abbrev main_c_73 : Ref sig .tc := ⟨.hbm, 406, rfl⟩
abbrev main_v279 : Ref sig .tc := ⟨.hbm, 407, rfl⟩
abbrev main_v280 : Ref sig .tc := ⟨.hbm, 408, rfl⟩
abbrev main_c_74 : Ref sig .tc := ⟨.hbm, 409, rfl⟩
abbrev main_v281 : Ref sig .tc := ⟨.hbm, 410, rfl⟩
abbrev main_v282 : Ref sig .tc := ⟨.hbm, 411, rfl⟩
abbrev main_c_75 : Ref sig .tc := ⟨.hbm, 412, rfl⟩
abbrev main_v283 : Ref sig .tc := ⟨.hbm, 413, rfl⟩
abbrev main_v284 : Ref sig .tc := ⟨.hbm, 414, rfl⟩
abbrev main_c_76 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_c_77 : Ref sig .tc := ⟨.hbm, 419, rfl⟩
abbrev main_v288 : Ref sig .tc := ⟨.hbm, 420, rfl⟩
abbrev main_v289 : Ref sig .tc := ⟨.hbm, 421, rfl⟩
abbrev main_c_78 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_cst_79 : Ref sig .tc := ⟨.hbm, 430, rfl⟩
abbrev main_v297 : Ref sig .tc := ⟨.hbm, 431, rfl⟩
abbrev main_v298 : Ref sig .tc := ⟨.hbm, 432, rfl⟩
abbrev main_v299 : Ref sig .tc := ⟨.hbm, 433, rfl⟩
abbrev main_v300 : Ref sig .tc := ⟨.hbm, 434, rfl⟩
abbrev main_cst_80 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_c_81 : Ref sig .tc := ⟨.hbm, 440, rfl⟩
abbrev main_v305 : Ref sig .tc := ⟨.hbm, 441, rfl⟩
abbrev main_v306 : Ref sig .tc := ⟨.hbm, 442, rfl⟩
abbrev main_c_82 : Ref sig .tc := ⟨.hbm, 443, rfl⟩
abbrev main_v307 : Ref sig .tc := ⟨.hbm, 444, rfl⟩
abbrev main_v308 : Ref sig .tc := ⟨.hbm, 445, rfl⟩
abbrev main_v309 : Ref sig .tc := ⟨.hbm, 446, rfl⟩
abbrev main_c_83 : Ref sig .tc := ⟨.hbm, 447, rfl⟩
abbrev main_v310 : Ref sig .tc := ⟨.hbm, 448, rfl⟩
abbrev main_v311 : Ref sig .tc := ⟨.hbm, 449, rfl⟩
abbrev main_c_84 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_v318 : Ref sig .tc := ⟨.hbm, 457, rfl⟩
abbrev main_v319 : Ref sig .tc := ⟨.hbm, 458, rfl⟩
abbrev main_v320 : Ref sig .tc := ⟨.hbm, 459, rfl⟩
abbrev main_cst_85 : Ref sig .tc := ⟨.hbm, 460, rfl⟩
abbrev main_v321 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_c_86 : Ref sig .tc := ⟨.hbm, 466, rfl⟩
abbrev main_v326 : Ref sig .tc := ⟨.hbm, 467, rfl⟩
abbrev main_v327 : Ref sig .tc := ⟨.hbm, 468, rfl⟩
abbrev main_c_87 : Ref sig .tc := ⟨.hbm, 469, rfl⟩
abbrev main_v328 : Ref sig .tc := ⟨.hbm, 470, rfl⟩
abbrev main_v329 : Ref sig .tc := ⟨.hbm, 471, rfl⟩
abbrev main_v330 : Ref sig .tc := ⟨.hbm, 472, rfl⟩
abbrev main_c_88 : Ref sig .tc := ⟨.hbm, 473, rfl⟩
abbrev main_v331 : Ref sig .tc := ⟨.hbm, 474, rfl⟩
abbrev main_v332 : Ref sig .tc := ⟨.hbm, 475, rfl⟩
abbrev main_c_89 : Ref sig .tc := ⟨.hbm, 476, rfl⟩
abbrev main_v333 : Ref sig .tc := ⟨.hbm, 477, rfl⟩
abbrev main_v334 : Ref sig .tc := ⟨.hbm, 478, rfl⟩
abbrev main_v335 : Ref sig .tc := ⟨.hbm, 479, rfl⟩
abbrev main_v336 : Ref sig .tc := ⟨.hbm, 480, rfl⟩
abbrev main_v337 : Ref sig .tc := ⟨.hbm, 481, rfl⟩
abbrev main_v338 : Ref sig .tc := ⟨.hbm, 482, rfl⟩
abbrev main_v339 : Ref sig .tc := ⟨.hbm, 483, rfl⟩
abbrev main_cst_90 : Ref sig .tc := ⟨.hbm, 484, rfl⟩
abbrev main_v340 : Ref sig .tc := ⟨.hbm, 485, rfl⟩
abbrev main_v341 : Ref sig .tc := ⟨.hbm, 486, rfl⟩
abbrev main_v342 : Ref sig .tc := ⟨.hbm, 487, rfl⟩
abbrev main_v343 : Ref sig .tc := ⟨.hbm, 488, rfl⟩
abbrev main_v344 : Ref sig .tc := ⟨.hbm, 489, rfl⟩
abbrev main_v345 : Ref sig .tc := ⟨.hbm, 490, rfl⟩
abbrev main_v346 : Ref sig .tc := ⟨.hbm, 491, rfl⟩
abbrev main_c_91 : Ref sig .tc := ⟨.hbm, 492, rfl⟩
abbrev main_v347 : Ref sig .tc := ⟨.hbm, 493, rfl⟩
abbrev main_v348 : Ref sig .tc := ⟨.hbm, 494, rfl⟩
abbrev main_c_92 : Ref sig .tc := ⟨.hbm, 495, rfl⟩
abbrev main_v349 : Ref sig .tc := ⟨.hbm, 496, rfl⟩
abbrev main_v350 : Ref sig .tc := ⟨.hbm, 497, rfl⟩
abbrev main_v351 : Ref sig .tc := ⟨.hbm, 498, rfl⟩
abbrev main_c_93 : Ref sig .tc := ⟨.hbm, 499, rfl⟩
abbrev main_v352 : Ref sig .tc := ⟨.hbm, 500, rfl⟩
abbrev main_v353 : Ref sig .tc := ⟨.hbm, 501, rfl⟩
abbrev main_c_94 : Ref sig .tc := ⟨.hbm, 502, rfl⟩
abbrev main_v354 : Ref sig .tc := ⟨.hbm, 503, rfl⟩
abbrev main_v355 : Ref sig .tc := ⟨.hbm, 504, rfl⟩
abbrev main_v356 : Ref sig .tc := ⟨.hbm, 505, rfl⟩
abbrev main_v357 : Ref sig .tc := ⟨.hbm, 506, rfl⟩
abbrev main_v358 : Ref sig .tc := ⟨.hbm, 507, rfl⟩
abbrev main_v359 : Ref sig .tc := ⟨.hbm, 508, rfl⟩
abbrev main_v360 : Ref sig .tc := ⟨.hbm, 509, rfl⟩
abbrev main_v361 : Ref sig .tc := ⟨.hbm, 510, rfl⟩
abbrev main_v362 : Ref sig .tc := ⟨.hbm, 511, rfl⟩
abbrev main_v363 : Ref sig .tc := ⟨.hbm, 512, rfl⟩
abbrev main_v364 : Ref sig .tc := ⟨.hbm, 513, rfl⟩
abbrev main_v365 : Ref sig .tc := ⟨.hbm, 514, rfl⟩
abbrev main_v366 : Ref sig .tc := ⟨.hbm, 515, rfl⟩
abbrev main_cst_95 : Ref sig .tc := ⟨.hbm, 516, rfl⟩
abbrev main_cst_96 : Ref sig .tc := ⟨.hbm, 517, rfl⟩
abbrev main_call10_v0 : Ref sig .tc := ⟨.hbm, 518, rfl⟩
abbrev main_call10_v1 : Ref sig .tc := ⟨.hbm, 519, rfl⟩
abbrev main_call10_v2 : Ref sig .tc := ⟨.hbm, 520, rfl⟩
abbrev main_call10_v3 : Ref sig .tc := ⟨.hbm, 521, rfl⟩
abbrev main_call10_v4 : Ref sig .tc := ⟨.hbm, 522, rfl⟩
abbrev main_v367 : Ref sig .tc := ⟨.hbm, 523, rfl⟩
abbrev main_cst_97 : Ref sig .tc := ⟨.hbm, 524, rfl⟩
abbrev main_v368 : Ref sig .tc := ⟨.hbm, 525, rfl⟩
abbrev main_v369 : Ref sig .tc := ⟨.hbm, 526, rfl⟩
abbrev main_v370 : Ref sig .tc := ⟨.hbm, 527, rfl⟩
abbrev main_v371 : Ref sig .tc := ⟨.hbm, 528, rfl⟩
abbrev main_v372 : Ref sig .tc := ⟨.hbm, 529, rfl⟩
abbrev main_v373 : Ref sig .tc := ⟨.hbm, 530, rfl⟩
abbrev main_c_98 : Ref sig .tc := ⟨.hbm, 531, rfl⟩
abbrev main_v374 : Ref sig .tc := ⟨.hbm, 532, rfl⟩
abbrev main_v375 : Ref sig .tc := ⟨.hbm, 533, rfl⟩
abbrev main_c_99 : Ref sig .tc := ⟨.hbm, 534, rfl⟩
abbrev main_v376 : Ref sig .tc := ⟨.hbm, 535, rfl⟩
abbrev main_v377 : Ref sig .tc := ⟨.hbm, 536, rfl⟩
abbrev main_c_100 : Ref sig .tc := ⟨.hbm, 537, rfl⟩
abbrev main_v378 : Ref sig .tc := ⟨.hbm, 538, rfl⟩
abbrev main_v379 : Ref sig .tc := ⟨.hbm, 539, rfl⟩
abbrev main_c_101 : Ref sig .tc := ⟨.hbm, 540, rfl⟩
abbrev main_v380 : Ref sig .tc := ⟨.hbm, 541, rfl⟩
abbrev main_v381 : Ref sig .tc := ⟨.hbm, 542, rfl⟩
abbrev main_v382 : Ref sig .tc := ⟨.hbm, 543, rfl⟩
abbrev main_v383 : Ref sig .tc := ⟨.hbm, 544, rfl⟩
abbrev main_v384 : Ref sig .tc := ⟨.hbm, 545, rfl⟩
abbrev main_cst_102 : Ref sig .tc := ⟨.hbm, 546, rfl⟩
abbrev main_v385 : Ref sig .tc := ⟨.hbm, 547, rfl⟩
abbrev main_v386 : Ref sig .tc := ⟨.hbm, 548, rfl⟩
abbrev main_v387 : Ref sig .tc := ⟨.hbm, 549, rfl⟩
abbrev main_v388 : Ref sig .tc := ⟨.hbm, 550, rfl⟩
abbrev main_c_103 : Ref sig .tc := ⟨.hbm, 551, rfl⟩
abbrev main_v389 : Ref sig .tc := ⟨.hbm, 552, rfl⟩
abbrev main_v390 : Ref sig .tc := ⟨.hbm, 553, rfl⟩
abbrev main_c_104 : Ref sig .tc := ⟨.hbm, 554, rfl⟩
abbrev main_v391 : Ref sig .tc := ⟨.hbm, 555, rfl⟩
abbrev main_v392 : Ref sig .tc := ⟨.hbm, 556, rfl⟩
abbrev main_v393 : Ref sig .tc := ⟨.hbm, 557, rfl⟩
abbrev main_v394 : Ref sig .tc := ⟨.hbm, 558, rfl⟩
abbrev main_v395 : Ref sig .tc := ⟨.hbm, 559, rfl⟩
abbrev main_v396 : Ref sig .tc := ⟨.hbm, 560, rfl⟩
abbrev main_v397 : Ref sig .tc := ⟨.hbm, 561, rfl⟩
abbrev main_v398 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_cst_105 : Ref sig .tc := ⟨.hbm, 568, rfl⟩
abbrev main_v404 : Ref sig .tc := ⟨.hbm, 569, rfl⟩
abbrev main_v405 : Ref sig .tc := ⟨.hbm, 570, rfl⟩
abbrev main_cst_106 : Ref sig .tc := ⟨.hbm, 571, rfl⟩
abbrev main_v406 : Ref sig .tc := ⟨.hbm, 572, rfl⟩
abbrev main_v407 : Ref sig .tc := ⟨.hbm, 573, rfl⟩
abbrev main_cst_107 : Ref sig .tc := ⟨.hbm, 574, rfl⟩
abbrev main_v408 : Ref sig .tc := ⟨.hbm, 575, rfl⟩
abbrev main_v409 : Ref sig .tc := ⟨.hbm, 576, rfl⟩
abbrev main_v410 : Ref sig .tc := ⟨.hbm, 577, rfl⟩
abbrev main_v411 : Ref sig .tc := ⟨.hbm, 578, rfl⟩
abbrev main_v412 : Ref sig .tc := ⟨.hbm, 579, rfl⟩
abbrev main_cst_108 : Ref sig .tc := ⟨.hbm, 580, rfl⟩
abbrev main_v413 : Ref sig .tc := ⟨.hbm, 581, rfl⟩
abbrev main_v414 : Ref sig .tc := ⟨.hbm, 582, rfl⟩
abbrev main_v415 : Ref sig .tc := ⟨.hbm, 583, rfl⟩
abbrev main_v416 : Ref sig .tc := ⟨.hbm, 584, rfl⟩
abbrev main_cst_109 : Ref sig .tc := ⟨.hbm, 585, rfl⟩
abbrev main_cst_110 : Ref sig .tc := ⟨.hbm, 586, rfl⟩
abbrev main_call11_v0 : Ref sig .tc := ⟨.hbm, 587, rfl⟩
abbrev main_call11_v1 : Ref sig .tc := ⟨.hbm, 588, rfl⟩
abbrev main_call11_v2 : Ref sig .tc := ⟨.hbm, 589, rfl⟩
abbrev main_call11_v3 : Ref sig .tc := ⟨.hbm, 590, rfl⟩
abbrev main_call11_v4 : Ref sig .tc := ⟨.hbm, 591, rfl⟩
abbrev main_v417 : Ref sig .tc := ⟨.hbm, 592, rfl⟩
abbrev main_cst_111 : Ref sig .tc := ⟨.hbm, 593, rfl⟩
abbrev main_v418 : Ref sig .tc := ⟨.hbm, 594, rfl⟩
abbrev main_v419 : Ref sig .tc := ⟨.hbm, 595, rfl⟩
abbrev main_v420 : Ref sig .tc := ⟨.hbm, 596, rfl⟩
abbrev main_v421 : Ref sig .tc := ⟨.hbm, 597, rfl⟩
abbrev main_cst_112 : Ref sig .tc := ⟨.hbm, 598, rfl⟩
abbrev main_cst_113 : Ref sig .tc := ⟨.hbm, 599, rfl⟩
abbrev main_call12_v0 : Ref sig .tc := ⟨.hbm, 600, rfl⟩
abbrev main_call12_v1 : Ref sig .tc := ⟨.hbm, 601, rfl⟩
abbrev main_call12_v2 : Ref sig .tc := ⟨.hbm, 602, rfl⟩
abbrev main_call12_v3 : Ref sig .tc := ⟨.hbm, 603, rfl⟩
abbrev main_call12_v4 : Ref sig .tc := ⟨.hbm, 604, rfl⟩
abbrev main_v422 : Ref sig .tc := ⟨.hbm, 605, rfl⟩
abbrev main_cst_114 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_v429 : Ref sig .tc := ⟨.hbm, 613, rfl⟩
abbrev main_v430 : Ref sig .tc := ⟨.hbm, 614, rfl⟩
abbrev main_v431 : Ref sig .tc := ⟨.hbm, 615, rfl⟩
abbrev main_v432 : Ref sig .tc := ⟨.hbm, 616, rfl⟩
abbrev main_c_115 : Ref sig .tc := ⟨.hbm, 617, rfl⟩
abbrev main_v433 : Ref sig .tc := ⟨.hbm, 618, rfl⟩
abbrev main_v434 : Ref sig .tc := ⟨.hbm, 619, rfl⟩
abbrev main_c_116 : Ref sig .tc := ⟨.hbm, 620, rfl⟩
abbrev main_v435 : Ref sig .tc := ⟨.hbm, 621, rfl⟩
abbrev main_v436 : Ref sig .tc := ⟨.hbm, 622, rfl⟩
abbrev main_c_117 : Ref sig .tc := ⟨.hbm, 623, rfl⟩
abbrev main_v437 : Ref sig .tc := ⟨.hbm, 624, rfl⟩
abbrev main_v438 : Ref sig .tc := ⟨.hbm, 625, rfl⟩
abbrev main_c_118 : Ref sig .tc := ⟨.hbm, 626, rfl⟩
abbrev main_v439 : Ref sig .tc := ⟨.hbm, 627, rfl⟩
abbrev main_v440 : Ref sig .tc := ⟨.hbm, 628, rfl⟩
abbrev main_c_119 : Ref sig .tc := ⟨.hbm, 629, rfl⟩
abbrev main_v441 : Ref sig .tc := ⟨.hbm, 630, rfl⟩
abbrev main_v442 : Ref sig .tc := ⟨.hbm, 631, rfl⟩
abbrev main_c_120 : Ref sig .tc := ⟨.hbm, 632, rfl⟩
abbrev main_v443 : Ref sig .tc := ⟨.hbm, 633, rfl⟩
abbrev main_v444 : Ref sig .tc := ⟨.hbm, 634, rfl⟩
abbrev main_v445 : Ref sig .tc := ⟨.hbm, 635, rfl⟩
abbrev main_c_121 : Ref sig .tc := ⟨.hbm, 636, rfl⟩
abbrev main_v446 : Ref sig .tc := ⟨.hbm, 637, rfl⟩
abbrev main_v447 : Ref sig .tc := ⟨.hbm, 638, rfl⟩
abbrev main_c_122 : Ref sig .tc := ⟨.hbm, 639, rfl⟩
abbrev main_v448 : Ref sig .tc := ⟨.hbm, 640, rfl⟩
abbrev main_v449 : Ref sig .tc := ⟨.hbm, 641, rfl⟩
abbrev main_v450 : Ref sig .tc := ⟨.hbm, 642, rfl⟩
abbrev main_v451 : Ref sig .tc := ⟨.hbm, 643, rfl⟩
abbrev main_v452 : Ref sig .tc := ⟨.hbm, 644, rfl⟩
abbrev main_v453 : Ref sig .tc := ⟨.hbm, 645, rfl⟩
abbrev main_v454 : Ref sig .tc := ⟨.hbm, 646, rfl⟩
abbrev main_cst_123 : Ref sig .tc := ⟨.hbm, 647, rfl⟩
abbrev main_v455 : Ref sig .tc := ⟨.hbm, 648, rfl⟩
abbrev main_v456 : Ref sig .tc := ⟨.hbm, 649, rfl⟩
abbrev main_v457 : Ref sig .tc := ⟨.hbm, 650, rfl⟩
abbrev main_cst_124 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_c_125 : Ref sig .tc := ⟨.hbm, 655, rfl⟩
abbrev main_v461 : Ref sig .tc := ⟨.hbm, 656, rfl⟩
abbrev main_v462 : Ref sig .tc := ⟨.hbm, 657, rfl⟩
abbrev main_c_126 : Ref sig .tc := ⟨.hbm, 658, rfl⟩
abbrev main_v463 : Ref sig .tc := ⟨.hbm, 659, rfl⟩
abbrev main_v464 : Ref sig .tc := ⟨.hbm, 660, rfl⟩
abbrev main_v465 : Ref sig .tc := ⟨.hbm, 661, rfl⟩
abbrev main_c_127 : Ref sig .tc := ⟨.hbm, 662, rfl⟩
abbrev main_v466 : Ref sig .tc := ⟨.hbm, 663, rfl⟩
abbrev main_v467 : Ref sig .tc := ⟨.hbm, 664, rfl⟩
abbrev main_c_128 : Ref sig .tc := ⟨.hbm, 665, rfl⟩
abbrev main_v468 : Ref sig .tc := ⟨.hbm, 666, rfl⟩
abbrev main_v469 : Ref sig .tc := ⟨.hbm, 667, rfl⟩
abbrev main_v470 : Ref sig .tc := ⟨.hbm, 668, rfl⟩
abbrev main_v471 : Ref sig .tc := ⟨.hbm, 669, rfl⟩
abbrev main_v472 : Ref sig .tc := ⟨.hbm, 670, rfl⟩
abbrev main_v473 : Ref sig .tc := ⟨.hbm, 671, rfl⟩
abbrev main_v474 : Ref sig .tc := ⟨.hbm, 672, rfl⟩
abbrev main_v475 : Ref sig .tc := ⟨.hbm, 673, rfl⟩
abbrev main_cst_129 : Ref sig .tc := ⟨.hbm, 674, rfl⟩
abbrev main_v476 : Ref sig .tc := ⟨.hbm, 675, rfl⟩
abbrev main_v477 : Ref sig .tc := ⟨.hbm, 676, rfl⟩
abbrev main_v478 : Ref sig .tc := ⟨.hbm, 677, rfl⟩
abbrev main_v479 : Ref sig .tc := ⟨.hbm, 678, rfl⟩
abbrev main_c_130 : Ref sig .tc := ⟨.hbm, 679, rfl⟩
abbrev main_v480 : Ref sig .tc := ⟨.hbm, 680, rfl⟩
abbrev main_v481 : Ref sig .tc := ⟨.hbm, 681, rfl⟩
abbrev main_c_131 : Ref sig .tc := ⟨.hbm, 682, rfl⟩
abbrev main_v482 : Ref sig .tc := ⟨.hbm, 683, rfl⟩
abbrev main_v483 : Ref sig .tc := ⟨.hbm, 684, rfl⟩
abbrev main_v484 : Ref sig .tc := ⟨.hbm, 685, rfl⟩
abbrev main_c_132 : Ref sig .tc := ⟨.hbm, 686, rfl⟩
abbrev main_v485 : Ref sig .tc := ⟨.hbm, 687, rfl⟩
abbrev main_v486 : Ref sig .tc := ⟨.hbm, 688, rfl⟩
abbrev main_c_133 : Ref sig .tc := ⟨.hbm, 689, rfl⟩
abbrev main_v487 : Ref sig .tc := ⟨.hbm, 690, rfl⟩
abbrev main_v488 : Ref sig .tc := ⟨.hbm, 691, rfl⟩
abbrev main_v489 : Ref sig .tc := ⟨.hbm, 692, rfl⟩
abbrev main_v490 : Ref sig .tc := ⟨.hbm, 693, rfl⟩
abbrev main_v491 : Ref sig .tc := ⟨.hbm, 694, rfl⟩
abbrev main_v492 : Ref sig .tc := ⟨.hbm, 695, rfl⟩
abbrev main_v493 : Ref sig .tc := ⟨.hbm, 696, rfl⟩
abbrev main_cst_134 : Ref sig .tc := ⟨.hbm, 697, rfl⟩
abbrev main_v494 : Ref sig .tc := ⟨.hbm, 698, rfl⟩
abbrev main_v495 : Ref sig .tc := ⟨.hbm, 699, rfl⟩
abbrev main_v496 : Ref sig .tc := ⟨.hbm, 700, rfl⟩
abbrev main_v497 : Ref sig .tc := ⟨.hbm, 701, rfl⟩
abbrev main_v498 : Ref sig .tc := ⟨.hbm, 702, rfl⟩
abbrev main_c_135 : Ref sig .tc := ⟨.hbm, 703, rfl⟩
abbrev main_v499 : Ref sig .tc := ⟨.hbm, 704, rfl⟩
abbrev main_v500 : Ref sig .tc := ⟨.hbm, 705, rfl⟩
abbrev main_c_136 : Ref sig .tc := ⟨.hbm, 706, rfl⟩
abbrev main_v501 : Ref sig .tc := ⟨.hbm, 707, rfl⟩
abbrev main_v502 : Ref sig .tc := ⟨.hbm, 708, rfl⟩
abbrev main_v503 : Ref sig .tc := ⟨.hbm, 709, rfl⟩
abbrev main_c_137 : Ref sig .tc := ⟨.hbm, 710, rfl⟩
abbrev main_v504 : Ref sig .tc := ⟨.hbm, 711, rfl⟩
abbrev main_v505 : Ref sig .tc := ⟨.hbm, 712, rfl⟩
abbrev main_c_138 : Ref sig .tc := ⟨.hbm, 713, rfl⟩
abbrev main_v506 : Ref sig .tc := ⟨.hbm, 714, rfl⟩
abbrev main_v507 : Ref sig .tc := ⟨.hbm, 715, rfl⟩
abbrev main_v508 : Ref sig .tc := ⟨.hbm, 716, rfl⟩
abbrev main_v509 : Ref sig .tc := ⟨.hbm, 717, rfl⟩
abbrev main_v510 : Ref sig .tc := ⟨.hbm, 718, rfl⟩
abbrev main_v511 : Ref sig .tc := ⟨.hbm, 719, rfl⟩
abbrev main_v512 : Ref sig .tc := ⟨.hbm, 720, rfl⟩
abbrev main_v513 : Ref sig .tc := ⟨.hbm, 721, rfl⟩
abbrev main_v514 : Ref sig .tc := ⟨.hbm, 722, rfl⟩
abbrev main_v515 : Ref sig .tc := ⟨.hbm, 723, rfl⟩
abbrev main_cst_139 : Ref sig .tc := ⟨.hbm, 724, rfl⟩
abbrev main_v516 : Ref sig .tc := ⟨.hbm, 725, rfl⟩
abbrev main_v517 : Ref sig .tc := ⟨.hbm, 726, rfl⟩
abbrev main_cst_140 : Ref sig .tc := ⟨.hbm, 727, rfl⟩
abbrev main_v518 : Ref sig .tc := ⟨.hbm, 728, rfl⟩
abbrev main_v519 : Ref sig .tc := ⟨.hbm, 729, rfl⟩
abbrev main_cst_141 : Ref sig .tc := ⟨.hbm, 730, rfl⟩
abbrev main_v520 : Ref sig .tc := ⟨.hbm, 731, rfl⟩
abbrev main_v521 : Ref sig .tc := ⟨.hbm, 732, rfl⟩
abbrev main_v522 : Ref sig .tc := ⟨.hbm, 733, rfl⟩
abbrev main_v523 : Ref sig .tc := ⟨.hbm, 734, rfl⟩
abbrev main_v524 : Ref sig .tc := ⟨.hbm, 735, rfl⟩
abbrev main_cst_142 : Ref sig .tc := ⟨.hbm, 736, rfl⟩
abbrev main_v525 : Ref sig .tc := ⟨.hbm, 737, rfl⟩
abbrev main_v526 : Ref sig .tc := ⟨.hbm, 738, rfl⟩
abbrev main_v527 : Ref sig .tc := ⟨.hbm, 739, rfl⟩
abbrev main_v528 : Ref sig .tc := ⟨.hbm, 740, rfl⟩
abbrev main_cst_143 : Ref sig .tc := ⟨.hbm, 741, rfl⟩
abbrev main_cst_144 : Ref sig .tc := ⟨.hbm, 742, rfl⟩
abbrev main_call13_v0 : Ref sig .tc := ⟨.hbm, 743, rfl⟩
abbrev main_call13_v1 : Ref sig .tc := ⟨.hbm, 744, rfl⟩
abbrev main_call13_v2 : Ref sig .tc := ⟨.hbm, 745, rfl⟩
abbrev main_call13_v3 : Ref sig .tc := ⟨.hbm, 746, rfl⟩
abbrev main_call13_v4 : Ref sig .tc := ⟨.hbm, 747, rfl⟩
abbrev main_v529 : Ref sig .tc := ⟨.hbm, 748, rfl⟩
abbrev main_cst_145 : Ref sig .tc := ⟨.hbm, 749, rfl⟩
abbrev main_v530 : Ref sig .tc := ⟨.hbm, 750, rfl⟩
abbrev main_v531 : Ref sig .tc := ⟨.hbm, 751, rfl⟩
abbrev main_v532 : Ref sig .tc := ⟨.hbm, 752, rfl⟩
abbrev main_v533 : Ref sig .tc := ⟨.hbm, 753, rfl⟩
abbrev main_cst_146 : Ref sig .tc := ⟨.hbm, 754, rfl⟩
abbrev main_cst_147 : Ref sig .tc := ⟨.hbm, 755, rfl⟩
abbrev main_call14_v0 : Ref sig .tc := ⟨.hbm, 756, rfl⟩
abbrev main_call14_v1 : Ref sig .tc := ⟨.hbm, 757, rfl⟩
abbrev main_call14_v2 : Ref sig .tc := ⟨.hbm, 758, rfl⟩
abbrev main_call14_v3 : Ref sig .tc := ⟨.hbm, 759, rfl⟩
abbrev main_call14_v4 : Ref sig .tc := ⟨.hbm, 760, rfl⟩
abbrev main_v534 : Ref sig .tc := ⟨.hbm, 761, rfl⟩
abbrev main_cst_148 : Ref sig .tc := ⟨.hbm, 762, rfl⟩
abbrev main_v535 : Ref sig .tc := ⟨.hbm, 763, rfl⟩
abbrev main_v536 : Ref sig .tc := ⟨.hbm, 764, rfl⟩
abbrev main_v537 : Ref sig .tc := ⟨.hbm, 765, rfl⟩
abbrev main_v538 : Ref sig .tc := ⟨.hbm, 766, rfl⟩
abbrev main_v539 : Ref sig .tc := ⟨.hbm, 767, rfl⟩
abbrev main_v540 : Ref sig .tc := ⟨.hbm, 768, rfl⟩
abbrev main_v541 : Ref sig .tc := ⟨.hbm, 769, rfl⟩
abbrev main_v542 : Ref sig .tc := ⟨.hbm, 770, rfl⟩
abbrev main_v543 : Ref sig .tc := ⟨.hbm, 771, rfl⟩
abbrev main_v544 : Ref sig .tc := ⟨.hbm, 772, rfl⟩
abbrev main_c_149 : Ref sig .tc := ⟨.hbm, 773, rfl⟩
abbrev main_v545 : Ref sig .tc := ⟨.hbm, 774, rfl⟩
abbrev main_v546 : Ref sig .tc := ⟨.hbm, 775, rfl⟩
abbrev main_c_150 : Ref sig .tc := ⟨.hbm, 776, rfl⟩
abbrev main_v547 : Ref sig .tc := ⟨.hbm, 777, rfl⟩
abbrev main_v548 : Ref sig .tc := ⟨.hbm, 778, rfl⟩
abbrev main_c_151 : Ref sig .tc := ⟨.hbm, 779, rfl⟩
abbrev main_v549 : Ref sig .tc := ⟨.hbm, 780, rfl⟩
abbrev main_v550 : Ref sig .tc := ⟨.hbm, 781, rfl⟩
abbrev main_c_152 : Ref sig .tc := ⟨.hbm, 782, rfl⟩
abbrev main_v551 : Ref sig .tc := ⟨.hbm, 783, rfl⟩
abbrev main_v552 : Ref sig .tc := ⟨.hbm, 784, rfl⟩
abbrev main_c_153 : Ref sig .tc := ⟨.hbm, 785, rfl⟩
abbrev main_v553 : Ref sig .tc := ⟨.hbm, 786, rfl⟩
abbrev main_v554 : Ref sig .tc := ⟨.hbm, 787, rfl⟩
abbrev main_c_154 : Ref sig .tc := ⟨.hbm, 788, rfl⟩
abbrev main_v555 : Ref sig .tc := ⟨.hbm, 789, rfl⟩
abbrev main_v556 : Ref sig .tc := ⟨.hbm, 790, rfl⟩
abbrev main_v557 : Ref sig .tc := ⟨.hbm, 791, rfl⟩
abbrev main_c_155 : Ref sig .tc := ⟨.hbm, 792, rfl⟩
abbrev main_v558 : Ref sig .tc := ⟨.hbm, 793, rfl⟩
abbrev main_v559 : Ref sig .tc := ⟨.hbm, 794, rfl⟩
abbrev main_c_156 : Ref sig .tc := ⟨.hbm, 795, rfl⟩
abbrev main_v560 : Ref sig .tc := ⟨.hbm, 796, rfl⟩
abbrev main_v561 : Ref sig .tc := ⟨.hbm, 797, rfl⟩
abbrev main_v562 : Ref sig .tc := ⟨.hbm, 798, rfl⟩
abbrev main_v563 : Ref sig .tc := ⟨.hbm, 799, rfl⟩
abbrev main_v564 : Ref sig .tc := ⟨.hbm, 800, rfl⟩
abbrev main_v565 : Ref sig .tc := ⟨.hbm, 801, rfl⟩
abbrev main_v566 : Ref sig .tc := ⟨.hbm, 802, rfl⟩
abbrev main_cst_157 : Ref sig .tc := ⟨.hbm, 803, rfl⟩
abbrev main_v567 : Ref sig .tc := ⟨.hbm, 804, rfl⟩
abbrev main_v568 : Ref sig .tc := ⟨.hbm, 805, rfl⟩
abbrev main_v569 : Ref sig .tc := ⟨.hbm, 806, rfl⟩
abbrev main_v570 : Ref sig .tc := ⟨.hbm, 807, rfl⟩
abbrev main_cst_158 : Ref sig .tc := ⟨.hbm, 808, rfl⟩
abbrev main_v571 : Ref sig .tc := ⟨.hbm, 809, rfl⟩
abbrev main_v572 : Ref sig .tc := ⟨.hbm, 810, rfl⟩
abbrev main_v573 : Ref sig .tc := ⟨.hbm, 811, rfl⟩
abbrev main_v574 : Ref sig .tc := ⟨.hbm, 812, rfl⟩
abbrev main_c_159 : Ref sig .tc := ⟨.hbm, 813, rfl⟩
abbrev main_v575 : Ref sig .tc := ⟨.hbm, 814, rfl⟩
abbrev main_v576 : Ref sig .tc := ⟨.hbm, 815, rfl⟩
abbrev main_c_160 : Ref sig .tc := ⟨.hbm, 816, rfl⟩
abbrev main_v577 : Ref sig .tc := ⟨.hbm, 817, rfl⟩
abbrev main_v578 : Ref sig .tc := ⟨.hbm, 818, rfl⟩
abbrev main_v579 : Ref sig .tc := ⟨.hbm, 819, rfl⟩
abbrev main_c_161 : Ref sig .tc := ⟨.hbm, 820, rfl⟩
abbrev main_v580 : Ref sig .tc := ⟨.hbm, 821, rfl⟩
abbrev main_v581 : Ref sig .tc := ⟨.hbm, 822, rfl⟩
abbrev main_c_162 : Ref sig .tc := ⟨.hbm, 823, rfl⟩
abbrev main_v582 : Ref sig .tc := ⟨.hbm, 824, rfl⟩
abbrev main_v583 : Ref sig .tc := ⟨.hbm, 825, rfl⟩
abbrev main_v584 : Ref sig .tc := ⟨.hbm, 826, rfl⟩
abbrev main_v585 : Ref sig .tc := ⟨.hbm, 827, rfl⟩
abbrev main_v586 : Ref sig .tc := ⟨.hbm, 828, rfl⟩
abbrev main_v587 : Ref sig .tc := ⟨.hbm, 829, rfl⟩
abbrev main_v588 : Ref sig .tc := ⟨.hbm, 830, rfl⟩
abbrev main_v589 : Ref sig .tc := ⟨.hbm, 831, rfl⟩
abbrev main_v590 : Ref sig .tc := ⟨.hbm, 832, rfl⟩
abbrev main_cst_163 : Ref sig .tc := ⟨.hbm, 833, rfl⟩
abbrev main_v591 : Ref sig .tc := ⟨.hbm, 834, rfl⟩
abbrev main_v592 : Ref sig .tc := ⟨.hbm, 835, rfl⟩
abbrev main_v593 : Ref sig .tc := ⟨.hbm, 836, rfl⟩
abbrev main_v594 : Ref sig .tc := ⟨.hbm, 837, rfl⟩
abbrev main_v595 : Ref sig .tc := ⟨.hbm, 838, rfl⟩
abbrev main_c_164 : Ref sig .tc := ⟨.hbm, 839, rfl⟩
abbrev main_v596 : Ref sig .tc := ⟨.hbm, 840, rfl⟩
abbrev main_v597 : Ref sig .tc := ⟨.hbm, 841, rfl⟩
abbrev main_c_165 : Ref sig .tc := ⟨.hbm, 842, rfl⟩
abbrev main_v598 : Ref sig .tc := ⟨.hbm, 843, rfl⟩
abbrev main_v599 : Ref sig .tc := ⟨.hbm, 844, rfl⟩
abbrev main_v600 : Ref sig .tc := ⟨.hbm, 845, rfl⟩
abbrev main_c_166 : Ref sig .tc := ⟨.hbm, 846, rfl⟩
abbrev main_v601 : Ref sig .tc := ⟨.hbm, 847, rfl⟩
abbrev main_v602 : Ref sig .tc := ⟨.hbm, 848, rfl⟩
abbrev main_c_167 : Ref sig .tc := ⟨.hbm, 849, rfl⟩
abbrev main_v603 : Ref sig .tc := ⟨.hbm, 850, rfl⟩
abbrev main_v604 : Ref sig .tc := ⟨.hbm, 851, rfl⟩
abbrev main_v605 : Ref sig .tc := ⟨.hbm, 852, rfl⟩
abbrev main_v606 : Ref sig .tc := ⟨.hbm, 853, rfl⟩
abbrev main_v607 : Ref sig .tc := ⟨.hbm, 854, rfl⟩
abbrev main_v608 : Ref sig .tc := ⟨.hbm, 855, rfl⟩
abbrev main_v609 : Ref sig .tc := ⟨.hbm, 856, rfl⟩
abbrev main_cst_168 : Ref sig .tc := ⟨.hbm, 857, rfl⟩
abbrev main_v610 : Ref sig .tc := ⟨.hbm, 858, rfl⟩
abbrev main_v611 : Ref sig .tc := ⟨.hbm, 859, rfl⟩
abbrev main_v612 : Ref sig .tc := ⟨.hbm, 860, rfl⟩
abbrev main_v613 : Ref sig .tc := ⟨.hbm, 861, rfl⟩
abbrev main_v614 : Ref sig .tc := ⟨.hbm, 862, rfl⟩
abbrev main_v615 : Ref sig .tc := ⟨.hbm, 863, rfl⟩
abbrev main_v616 : Ref sig .tc := ⟨.hbm, 864, rfl⟩
abbrev main_c_169 : Ref sig .tc := ⟨.hbm, 865, rfl⟩
abbrev main_v617 : Ref sig .tc := ⟨.hbm, 866, rfl⟩
abbrev main_v618 : Ref sig .tc := ⟨.hbm, 867, rfl⟩
abbrev main_c_170 : Ref sig .tc := ⟨.hbm, 868, rfl⟩
abbrev main_v619 : Ref sig .tc := ⟨.hbm, 869, rfl⟩
abbrev main_v620 : Ref sig .tc := ⟨.hbm, 870, rfl⟩
abbrev main_v621 : Ref sig .tc := ⟨.hbm, 871, rfl⟩
abbrev main_c_171 : Ref sig .tc := ⟨.hbm, 872, rfl⟩
abbrev main_v622 : Ref sig .tc := ⟨.hbm, 873, rfl⟩
abbrev main_v623 : Ref sig .tc := ⟨.hbm, 874, rfl⟩
abbrev main_c_172 : Ref sig .tc := ⟨.hbm, 875, rfl⟩
abbrev main_v624 : Ref sig .tc := ⟨.hbm, 876, rfl⟩
abbrev main_v625 : Ref sig .tc := ⟨.hbm, 877, rfl⟩
abbrev main_v626 : Ref sig .tc := ⟨.hbm, 878, rfl⟩
abbrev main_v627 : Ref sig .tc := ⟨.hbm, 879, rfl⟩
abbrev main_v628 : Ref sig .tc := ⟨.hbm, 880, rfl⟩
abbrev main_v629 : Ref sig .tc := ⟨.hbm, 881, rfl⟩
abbrev main_v630 : Ref sig .tc := ⟨.hbm, 882, rfl⟩
abbrev main_v631 : Ref sig .tc := ⟨.hbm, 883, rfl⟩
abbrev main_v632 : Ref sig .tc := ⟨.hbm, 884, rfl⟩
abbrev main_v633 : Ref sig .tc := ⟨.hbm, 885, rfl⟩
abbrev main_v634 : Ref sig .tc := ⟨.hbm, 886, rfl⟩
abbrev main_v635 : Ref sig .tc := ⟨.hbm, 887, rfl⟩
abbrev main_v636 : Ref sig .tc := ⟨.hbm, 888, rfl⟩
abbrev main_v637 : Ref sig .tc := ⟨.hbm, 889, rfl⟩
abbrev main_v638 : Ref sig .tc := ⟨.hbm, 890, rfl⟩
abbrev main_v639 : Ref sig .tc := ⟨.hbm, 891, rfl⟩
abbrev main_v640 : Ref sig .tc := ⟨.hbm, 892, rfl⟩
abbrev main_v641 : Ref sig .tc := ⟨.hbm, 893, rfl⟩
abbrev main_v642 : Ref sig .tc := ⟨.hbm, 894, rfl⟩
abbrev main_cst_173 : Ref sig .tc := ⟨.hbm, 895, rfl⟩
abbrev main_v643 : Ref sig .tc := ⟨.hbm, 896, rfl⟩
abbrev main_v644 : Ref sig .tc := ⟨.hbm, 897, rfl⟩
abbrev main_cst_174 : Ref sig .tc := ⟨.hbm, 898, rfl⟩
abbrev main_v645 : Ref sig .tc := ⟨.hbm, 899, rfl⟩
abbrev main_v646 : Ref sig .tc := ⟨.hbm, 900, rfl⟩
abbrev main_cst_175 : Ref sig .tc := ⟨.hbm, 901, rfl⟩
abbrev main_v647 : Ref sig .tc := ⟨.hbm, 902, rfl⟩
abbrev main_v648 : Ref sig .tc := ⟨.hbm, 903, rfl⟩
abbrev main_v649 : Ref sig .tc := ⟨.hbm, 904, rfl⟩
abbrev main_v650 : Ref sig .tc := ⟨.hbm, 905, rfl⟩
abbrev main_v651 : Ref sig .tc := ⟨.hbm, 906, rfl⟩
abbrev main_cst_176 : Ref sig .tc := ⟨.hbm, 907, rfl⟩
abbrev main_v652 : Ref sig .tc := ⟨.hbm, 908, rfl⟩
abbrev main_v653 : Ref sig .tc := ⟨.hbm, 909, rfl⟩
abbrev main_v654 : Ref sig .tc := ⟨.hbm, 910, rfl⟩
abbrev main_v655 : Ref sig .tc := ⟨.hbm, 911, rfl⟩
abbrev main_cst_177 : Ref sig .tc := ⟨.hbm, 912, rfl⟩
abbrev main_cst_178 : Ref sig .tc := ⟨.hbm, 913, rfl⟩
abbrev main_call15_v0 : Ref sig .tc := ⟨.hbm, 914, rfl⟩
abbrev main_call15_v1 : Ref sig .tc := ⟨.hbm, 915, rfl⟩
abbrev main_call15_v2 : Ref sig .tc := ⟨.hbm, 916, rfl⟩
abbrev main_call15_v3 : Ref sig .tc := ⟨.hbm, 917, rfl⟩
abbrev main_call15_v4 : Ref sig .tc := ⟨.hbm, 918, rfl⟩
abbrev main_v656 : Ref sig .tc := ⟨.hbm, 919, rfl⟩
abbrev main_cst_179 : Ref sig .tc := ⟨.hbm, 920, rfl⟩
abbrev main_v657 : Ref sig .tc := ⟨.hbm, 921, rfl⟩
abbrev main_v658 : Ref sig .tc := ⟨.hbm, 922, rfl⟩
abbrev main_v659 : Ref sig .tc := ⟨.hbm, 923, rfl⟩
abbrev main_v660 : Ref sig .tc := ⟨.hbm, 924, rfl⟩
abbrev main_cst_180 : Ref sig .tc := ⟨.hbm, 925, rfl⟩
abbrev main_cst_181 : Ref sig .tc := ⟨.hbm, 926, rfl⟩
abbrev main_call16_v0 : Ref sig .tc := ⟨.hbm, 927, rfl⟩
abbrev main_call16_v1 : Ref sig .tc := ⟨.hbm, 928, rfl⟩
abbrev main_call16_v2 : Ref sig .tc := ⟨.hbm, 929, rfl⟩
abbrev main_call16_v3 : Ref sig .tc := ⟨.hbm, 930, rfl⟩
abbrev main_call16_v4 : Ref sig .tc := ⟨.hbm, 931, rfl⟩
abbrev main_v661 : Ref sig .tc := ⟨.hbm, 932, rfl⟩
abbrev main_cst_182 : Ref sig .tc := ⟨.hbm, 933, rfl⟩
abbrev main_v662 : Ref sig .tc := ⟨.hbm, 934, rfl⟩
abbrev main_v663 : Ref sig .tc := ⟨.hbm, 935, rfl⟩
abbrev main_v664 : Ref sig .tc := ⟨.hbm, 936, rfl⟩
abbrev main_v665 : Ref sig .tc := ⟨.hbm, 937, rfl⟩
abbrev main_v666 : Ref sig .tc := ⟨.hbm, 938, rfl⟩
abbrev main_v667 : Ref sig .tc := ⟨.hbm, 939, rfl⟩
abbrev main_v668 : Ref sig .tc := ⟨.hbm, 940, rfl⟩
abbrev main_v669 : Ref sig .tc := ⟨.hbm, 941, rfl⟩
abbrev main_v670 : Ref sig .tc := ⟨.hbm, 942, rfl⟩
abbrev main_v671 : Ref sig .tc := ⟨.hbm, 943, rfl⟩
abbrev main_c_183 : Ref sig .tc := ⟨.hbm, 944, rfl⟩
abbrev main_v672 : Ref sig .tc := ⟨.hbm, 945, rfl⟩
abbrev main_v673 : Ref sig .tc := ⟨.hbm, 946, rfl⟩
abbrev main_c_184 : Ref sig .tc := ⟨.hbm, 947, rfl⟩
abbrev main_v674 : Ref sig .tc := ⟨.hbm, 948, rfl⟩
abbrev main_v675 : Ref sig .tc := ⟨.hbm, 949, rfl⟩
abbrev main_c_185 : Ref sig .tc := ⟨.hbm, 950, rfl⟩
abbrev main_v676 : Ref sig .tc := ⟨.hbm, 951, rfl⟩
abbrev main_v677 : Ref sig .tc := ⟨.hbm, 952, rfl⟩
abbrev main_c_186 : Ref sig .tc := ⟨.hbm, 953, rfl⟩
abbrev main_v678 : Ref sig .tc := ⟨.hbm, 954, rfl⟩
abbrev main_v679 : Ref sig .tc := ⟨.hbm, 955, rfl⟩
abbrev main_c_187 : Ref sig .tc := ⟨.hbm, 956, rfl⟩
abbrev main_v680 : Ref sig .tc := ⟨.hbm, 957, rfl⟩
abbrev main_v681 : Ref sig .tc := ⟨.hbm, 958, rfl⟩
abbrev main_c_188 : Ref sig .tc := ⟨.hbm, 959, rfl⟩
abbrev main_v682 : Ref sig .tc := ⟨.hbm, 960, rfl⟩
abbrev main_v683 : Ref sig .tc := ⟨.hbm, 961, rfl⟩
abbrev main_v684 : Ref sig .tc := ⟨.hbm, 962, rfl⟩
abbrev main_c_189 : Ref sig .tc := ⟨.hbm, 963, rfl⟩
abbrev main_v685 : Ref sig .tc := ⟨.hbm, 964, rfl⟩
abbrev main_v686 : Ref sig .tc := ⟨.hbm, 965, rfl⟩
abbrev main_c_190 : Ref sig .tc := ⟨.hbm, 966, rfl⟩
abbrev main_v687 : Ref sig .tc := ⟨.hbm, 967, rfl⟩
abbrev main_v688 : Ref sig .tc := ⟨.hbm, 968, rfl⟩
abbrev main_v689 : Ref sig .tc := ⟨.hbm, 969, rfl⟩
abbrev main_v690 : Ref sig .tc := ⟨.hbm, 970, rfl⟩
abbrev main_v691 : Ref sig .tc := ⟨.hbm, 971, rfl⟩
abbrev main_v692 : Ref sig .tc := ⟨.hbm, 972, rfl⟩
abbrev main_v693 : Ref sig .tc := ⟨.hbm, 973, rfl⟩
abbrev main_cst_191 : Ref sig .tc := ⟨.hbm, 974, rfl⟩
abbrev main_v694 : Ref sig .tc := ⟨.hbm, 975, rfl⟩
abbrev main_v695 : Ref sig .tc := ⟨.hbm, 976, rfl⟩
abbrev main_v696 : Ref sig .tc := ⟨.hbm, 977, rfl⟩
abbrev main_v697 : Ref sig .tc := ⟨.hbm, 978, rfl⟩
abbrev main_cst_192 : Ref sig .tc := ⟨.hbm, 979, rfl⟩
abbrev main_v698 : Ref sig .tc := ⟨.hbm, 980, rfl⟩
abbrev main_v699 : Ref sig .tc := ⟨.hbm, 981, rfl⟩
abbrev main_v700 : Ref sig .tc := ⟨.hbm, 982, rfl⟩
abbrev main_v701 : Ref sig .tc := ⟨.hbm, 983, rfl⟩
abbrev main_c_193 : Ref sig .tc := ⟨.hbm, 984, rfl⟩
abbrev main_v702 : Ref sig .tc := ⟨.hbm, 985, rfl⟩
abbrev main_v703 : Ref sig .tc := ⟨.hbm, 986, rfl⟩
abbrev main_c_194 : Ref sig .tc := ⟨.hbm, 987, rfl⟩
abbrev main_v704 : Ref sig .tc := ⟨.hbm, 988, rfl⟩
abbrev main_v705 : Ref sig .tc := ⟨.hbm, 989, rfl⟩
abbrev main_v706 : Ref sig .tc := ⟨.hbm, 990, rfl⟩
abbrev main_c_195 : Ref sig .tc := ⟨.hbm, 991, rfl⟩
abbrev main_v707 : Ref sig .tc := ⟨.hbm, 992, rfl⟩
abbrev main_v708 : Ref sig .tc := ⟨.hbm, 993, rfl⟩
abbrev main_c_196 : Ref sig .tc := ⟨.hbm, 994, rfl⟩
abbrev main_v709 : Ref sig .tc := ⟨.hbm, 995, rfl⟩
abbrev main_v710 : Ref sig .tc := ⟨.hbm, 996, rfl⟩
abbrev main_v711 : Ref sig .tc := ⟨.hbm, 997, rfl⟩
abbrev main_v712 : Ref sig .tc := ⟨.hbm, 998, rfl⟩
abbrev main_v713 : Ref sig .tc := ⟨.hbm, 999, rfl⟩
abbrev main_v714 : Ref sig .tc := ⟨.hbm, 1000, rfl⟩
abbrev main_v715 : Ref sig .tc := ⟨.hbm, 1001, rfl⟩
abbrev main_v716 : Ref sig .tc := ⟨.hbm, 1002, rfl⟩
abbrev main_v717 : Ref sig .tc := ⟨.hbm, 1003, rfl⟩
abbrev main_cst_197 : Ref sig .tc := ⟨.hbm, 1004, rfl⟩
abbrev main_v718 : Ref sig .tc := ⟨.hbm, 1005, rfl⟩
abbrev main_v719 : Ref sig .tc := ⟨.hbm, 1006, rfl⟩
abbrev main_v720 : Ref sig .tc := ⟨.hbm, 1007, rfl⟩
abbrev main_v721 : Ref sig .tc := ⟨.hbm, 1008, rfl⟩
abbrev main_v722 : Ref sig .tc := ⟨.hbm, 1009, rfl⟩
abbrev main_c_198 : Ref sig .tc := ⟨.hbm, 1010, rfl⟩
abbrev main_v723 : Ref sig .tc := ⟨.hbm, 1011, rfl⟩
abbrev main_v724 : Ref sig .tc := ⟨.hbm, 1012, rfl⟩
abbrev main_c_199 : Ref sig .tc := ⟨.hbm, 1013, rfl⟩
abbrev main_v725 : Ref sig .tc := ⟨.hbm, 1014, rfl⟩
abbrev main_v726 : Ref sig .tc := ⟨.hbm, 1015, rfl⟩
abbrev main_v727 : Ref sig .tc := ⟨.hbm, 1016, rfl⟩
abbrev main_c_200 : Ref sig .tc := ⟨.hbm, 1017, rfl⟩
abbrev main_v728 : Ref sig .tc := ⟨.hbm, 1018, rfl⟩
abbrev main_v729 : Ref sig .tc := ⟨.hbm, 1019, rfl⟩
abbrev main_c_201 : Ref sig .tc := ⟨.hbm, 1020, rfl⟩
abbrev main_v730 : Ref sig .tc := ⟨.hbm, 1021, rfl⟩
abbrev main_v731 : Ref sig .tc := ⟨.hbm, 1022, rfl⟩
abbrev main_v732 : Ref sig .tc := ⟨.hbm, 1023, rfl⟩
abbrev main_v733 : Ref sig .tc := ⟨.hbm, 1024, rfl⟩
abbrev main_v734 : Ref sig .tc := ⟨.hbm, 1025, rfl⟩
abbrev main_v735 : Ref sig .tc := ⟨.hbm, 1026, rfl⟩
abbrev main_v736 : Ref sig .tc := ⟨.hbm, 1027, rfl⟩
abbrev main_cst_202 : Ref sig .tc := ⟨.hbm, 1028, rfl⟩
abbrev main_v737 : Ref sig .tc := ⟨.hbm, 1029, rfl⟩
abbrev main_v738 : Ref sig .tc := ⟨.hbm, 1030, rfl⟩
abbrev main_v739 : Ref sig .tc := ⟨.hbm, 1031, rfl⟩
abbrev main_v740 : Ref sig .tc := ⟨.hbm, 1032, rfl⟩
abbrev main_v741 : Ref sig .tc := ⟨.hbm, 1033, rfl⟩
abbrev main_v742 : Ref sig .tc := ⟨.hbm, 1034, rfl⟩
abbrev main_v743 : Ref sig .tc := ⟨.hbm, 1035, rfl⟩
abbrev main_c_203 : Ref sig .tc := ⟨.hbm, 1036, rfl⟩
abbrev main_v744 : Ref sig .tc := ⟨.hbm, 1037, rfl⟩
abbrev main_v745 : Ref sig .tc := ⟨.hbm, 1038, rfl⟩
abbrev main_c_204 : Ref sig .tc := ⟨.hbm, 1039, rfl⟩
abbrev main_v746 : Ref sig .tc := ⟨.hbm, 1040, rfl⟩
abbrev main_v747 : Ref sig .tc := ⟨.hbm, 1041, rfl⟩
abbrev main_v748 : Ref sig .tc := ⟨.hbm, 1042, rfl⟩
abbrev main_c_205 : Ref sig .tc := ⟨.hbm, 1043, rfl⟩
abbrev main_v749 : Ref sig .tc := ⟨.hbm, 1044, rfl⟩
abbrev main_v750 : Ref sig .tc := ⟨.hbm, 1045, rfl⟩
abbrev main_c_206 : Ref sig .tc := ⟨.hbm, 1046, rfl⟩
abbrev main_v751 : Ref sig .tc := ⟨.hbm, 1047, rfl⟩
abbrev main_v752 : Ref sig .tc := ⟨.hbm, 1048, rfl⟩
abbrev main_v753 : Ref sig .tc := ⟨.hbm, 1049, rfl⟩
abbrev main_v754 : Ref sig .tc := ⟨.hbm, 1050, rfl⟩
abbrev main_v755 : Ref sig .tc := ⟨.hbm, 1051, rfl⟩
abbrev main_v756 : Ref sig .tc := ⟨.hbm, 1052, rfl⟩
abbrev main_v757 : Ref sig .tc := ⟨.hbm, 1053, rfl⟩
abbrev main_v758 : Ref sig .tc := ⟨.hbm, 1054, rfl⟩
abbrev main_v759 : Ref sig .tc := ⟨.hbm, 1055, rfl⟩
abbrev main_v760 : Ref sig .tc := ⟨.hbm, 1056, rfl⟩
abbrev main_v761 : Ref sig .tc := ⟨.hbm, 1057, rfl⟩
abbrev main_v762 : Ref sig .tc := ⟨.hbm, 1058, rfl⟩
abbrev main_v763 : Ref sig .tc := ⟨.hbm, 1059, rfl⟩
abbrev main_v764 : Ref sig .tc := ⟨.hbm, 1060, rfl⟩
abbrev main_v765 : Ref sig .tc := ⟨.hbm, 1061, rfl⟩
abbrev main_v766 : Ref sig .tc := ⟨.hbm, 1062, rfl⟩
abbrev main_v767 : Ref sig .tc := ⟨.hbm, 1063, rfl⟩
abbrev main_v768 : Ref sig .tc := ⟨.hbm, 1064, rfl⟩
abbrev main_v769 : Ref sig .tc := ⟨.hbm, 1065, rfl⟩
abbrev main_v770 : Ref sig .tc := ⟨.hbm, 1066, rfl⟩
abbrev main_v771 : Ref sig .tc := ⟨.hbm, 1067, rfl⟩
abbrev main_v772 : Ref sig .tc := ⟨.hbm, 1068, rfl⟩
abbrev main_v773 : Ref sig .tc := ⟨.hbm, 1069, rfl⟩
abbrev main_v774 : Ref sig .tc := ⟨.hbm, 1070, rfl⟩
abbrev main_v775 : Ref sig .tc := ⟨.hbm, 1071, rfl⟩
abbrev main_v776 : Ref sig .tc := ⟨.hbm, 1072, rfl⟩
abbrev main_v777 : Ref sig .tc := ⟨.hbm, 1073, rfl⟩
abbrev main_v778 : Ref sig .tc := ⟨.hbm, 1074, rfl⟩
abbrev main_v779 : Ref sig .tc := ⟨.hbm, 1075, rfl⟩
abbrev main_v780 : Ref sig .tc := ⟨.hbm, 1076, rfl⟩
abbrev main_v781 : Ref sig .tc := ⟨.hbm, 1077, rfl⟩
abbrev main_v782 : Ref sig .tc := ⟨.hbm, 1078, rfl⟩
abbrev main_cst_207 : Ref sig .tc := ⟨.hbm, 1079, rfl⟩
abbrev main_v783 : Ref sig .tc := ⟨.hbm, 1080, rfl⟩
abbrev main_v784 : Ref sig .tc := ⟨.hbm, 1081, rfl⟩
abbrev main_v785 : Ref sig .tc := ⟨.hbm, 1082, rfl⟩
abbrev main_v786 : Ref sig .tc := ⟨.hbm, 1083, rfl⟩
abbrev main_v787 : Ref sig .tc := ⟨.hbm, 1084, rfl⟩
abbrev main_v788 : Ref sig .tc := ⟨.hbm, 1085, rfl⟩
abbrev main_v789 : Ref sig .tc := ⟨.hbm, 1086, rfl⟩
abbrev main_v790 : Ref sig .tc := ⟨.hbm, 1087, rfl⟩
abbrev main_v791 : Ref sig .tc := ⟨.hbm, 1088, rfl⟩
abbrev main_v792 : Ref sig .tc := ⟨.hbm, 1089, rfl⟩
abbrev main_v793 : Ref sig .tc := ⟨.hbm, 1090, rfl⟩
abbrev main_v794 : Ref sig .tc := ⟨.hbm, 1091, rfl⟩
abbrev main_v795 : Ref sig .tc := ⟨.hbm, 1092, rfl⟩
abbrev main_v796 : Ref sig .tc := ⟨.hbm, 1093, rfl⟩
abbrev main_v797 : Ref sig .tc := ⟨.hbm, 1094, rfl⟩
abbrev main_v798 : Ref sig .tc := ⟨.hbm, 1095, rfl⟩
abbrev main_v799 : Ref sig .tc := ⟨.hbm, 1096, rfl⟩
abbrev main_v800 : Ref sig .tc := ⟨.hbm, 1097, rfl⟩
abbrev main_v801 : Ref sig .tc := ⟨.hbm, 1098, rfl⟩
abbrev main_v802 : Ref sig .tc := ⟨.hbm, 1099, rfl⟩
abbrev main_v803 : Ref sig .tc := ⟨.hbm, 1100, rfl⟩
abbrev main_v804 : Ref sig .tc := ⟨.hbm, 1101, rfl⟩
abbrev main_v805 : Ref sig .tc := ⟨.hbm, 1102, rfl⟩
abbrev main_v806 : Ref sig .tc := ⟨.hbm, 1103, rfl⟩
abbrev main_cst_208 : Ref sig .tc := ⟨.hbm, 1104, rfl⟩
abbrev main_v807 : Ref sig .tc := ⟨.hbm, 1105, rfl⟩
abbrev main_v808 : Ref sig .tc := ⟨.hbm, 1106, rfl⟩
abbrev main_v809 : Ref sig .tc := ⟨.hbm, 1107, rfl⟩
abbrev main_v810 : Ref sig .tc := ⟨.hbm, 1108, rfl⟩
abbrev main_v811 : Ref sig .tc := ⟨.hbm, 1109, rfl⟩
abbrev main_v812 : Ref sig .tc := ⟨.hbm, 1110, rfl⟩
abbrev main_v813 : Ref sig .tc := ⟨.hbm, 1111, rfl⟩
abbrev main_v814 : Ref sig .tc := ⟨.hbm, 1112, rfl⟩
abbrev main_v815 : Ref sig .tc := ⟨.hbm, 1113, rfl⟩
abbrev main_v816 : Ref sig .tc := ⟨.hbm, 1114, rfl⟩
abbrev main_v817 : Ref sig .tc := ⟨.hbm, 1115, rfl⟩
abbrev main_v818 : Ref sig .tc := ⟨.hbm, 1116, rfl⟩
abbrev main_v819 : Ref sig .tc := ⟨.hbm, 1117, rfl⟩
abbrev main_v820 : Ref sig .tc := ⟨.hbm, 1118, rfl⟩
abbrev main_v821 : Ref sig .tc := ⟨.hbm, 1119, rfl⟩
abbrev main_v822 : Ref sig .tc := ⟨.hbm, 1120, rfl⟩
abbrev main_v823 : Ref sig .tc := ⟨.hbm, 1121, rfl⟩
abbrev main_v824 : Ref sig .tc := ⟨.hbm, 1122, rfl⟩
abbrev main_v825 : Ref sig .tc := ⟨.hbm, 1123, rfl⟩
abbrev main_v826 : Ref sig .tc := ⟨.hbm, 1124, rfl⟩
abbrev main_v827 : Ref sig .tc := ⟨.hbm, 1125, rfl⟩
abbrev main_v828 : Ref sig .tc := ⟨.hbm, 1126, rfl⟩
abbrev main_v829 : Ref sig .tc := ⟨.hbm, 1127, rfl⟩
abbrev main_v830 : Ref sig .tc := ⟨.hbm, 1128, rfl⟩
abbrev main_v831 : Ref sig .tc := ⟨.hbm, 1129, rfl⟩
abbrev main_v832 : Ref sig .tc := ⟨.hbm, 1130, rfl⟩
abbrev main_v833 : Ref sig .tc := ⟨.hbm, 1131, rfl⟩

abbrev nD : Nat := 1
abbrev τ : Topo := Topo.v7x

variable {F : FTy → Type} [FloatOps F]

class Facts₀ : Prop where
  slices_S2097152x2_S2097152x1_0_0 : S2097152x2.Slices ![0, 0] S2097152x1
  shapeCasts_S2097152x1_S2097152 : S2097152x1.ShapeCasts S2097152
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  bcast_S_S2048x2048x2 : S_.BroadcastsInDim S2048x2048x2 (![] : Fin 0 → Fin S2048x2048x2.rank)
  bcast_S_S2097152 : S_.BroadcastsInDim S2097152 (![] : Fin 0 → Fin S2097152.rank)
  slices_S2097152x2_S2097152x1_0_1 : S2097152x2.Slices ![0, 1] S2097152x1
  bcast_S_S2048x1 : S_.BroadcastsInDim S2048x1 (![] : Fin 0 → Fin S2048x1.rank)
  bcast_S_S64x64x3 : S_.BroadcastsInDim S64x64x3 (![] : Fin 0 → Fin S64x64x3.rank)
  bcast_S_S2097152x1 : S_.BroadcastsInDim S2097152x1 (![] : Fin 0 → Fin S2097152x1.rank)
  bcast_S2097152x1_S2097152x3_0_1 : S2097152x1.BroadcastsInDim S2097152x3 (![0, 1] : Fin 2 → Fin S2097152x3.rank)
  bcast_S2097152x1_S2097152x2_0_1 : S2097152x1.BroadcastsInDim S2097152x2 (![0, 1] : Fin 2 → Fin S2097152x2.rank)
  bcast_S_S32x32x1 : S_.BroadcastsInDim S32x32x1 (![] : Fin 0 → Fin S32x32x1.rank)
  bcast_S_S32x32x4 : S_.BroadcastsInDim S32x32x4 (![] : Fin 0 → Fin S32x32x4.rank)
  bcast_S2097152x1_S2097152x4_0_1 : S2097152x1.BroadcastsInDim S2097152x4 (![0, 1] : Fin 2 → Fin S2097152x4.rank)
  slices_S2097152x3_S2097152x1_0_0 : S2097152x3.Slices ![0, 0] S2097152x1
  slices_S2097152x3_S2097152x1_0_1 : S2097152x3.Slices ![0, 1] S2097152x1
  slices_S2097152x3_S2097152x1_0_2 : S2097152x3.Slices ![0, 2] S2097152x1
  slices_S2097152x4_S2097152x1_0_1 : S2097152x4.Slices ![0, 1] S2097152x1
  slices_S2097152x4_S2097152x1_0_2 : S2097152x4.Slices ![0, 2] S2097152x1
  slices_S2097152x4_S2097152x1_0_3 : S2097152x4.Slices ![0, 3] S2097152x1
  slices_S2097152x4_S2097152x1_0_0 : S2097152x4.Slices ![0, 0] S2097152x1
  gather_S2048x2048x2_S2097152x2_S2097152x2_1_01_n_n_01_1_112_wf : GatherDims.WF S2048x2048x2 S2097152x2 S2097152x2 [1] [0, 1] [] [0, 1] [] 1 ![1, 1, 2]
  gather_S2048x1_S2097152x1_S2097152x1_1_0_n_n_0_1_11_wf : GatherDims.WF S2048x1 S2097152x1 S2097152x1 [1] [0] [] [0] [] 1 ![1, 1]
  gather_S64x64x3_S2097152x2_S2097152x3_1_01_n_n_01_1_113_wf : GatherDims.WF S64x64x3 S2097152x2 S2097152x3 [1] [0, 1] [] [0, 1] [] 1 ![1, 1, 3]
  gather_S48x48x3_S2097152x2_S2097152x3_1_01_n_n_01_1_113_wf : GatherDims.WF S48x48x3 S2097152x2 S2097152x3 [1] [0, 1] [] [0, 1] [] 1 ![1, 1, 3]
  gather_S96x2_S2097152x1_S2097152x2_1_0_n_n_0_1_12_wf : GatherDims.WF S96x2 S2097152x1 S2097152x2 [1] [0] [] [0] [] 1 ![1, 2]
  gather_S32x32x1_S2097152x2_S2097152x1_1_01_n_n_01_1_111_wf : GatherDims.WF S32x32x1 S2097152x2 S2097152x1 [1] [0, 1] [] [0, 1] [] 1 ![1, 1, 1]
  gather_S32x32x4_S2097152x2_S2097152x4_1_01_n_n_01_1_114_wf : GatherDims.WF S32x32x4 S2097152x2 S2097152x4 [1] [0, 1] [] [0, 1] [] 1 ![1, 1, 4]

variable [Facts₀]

def gather_S2048x2048x2_S2097152x2_S2097152x2_1_01_n_n_01_1_112 : GatherDims S2048x2048x2 S2097152x2 S2097152x2 where
  offsetDims := [1]
  collapsedSliceDims := [0, 1]
  operandBatchingDims := []
  startIndicesBatchingDims := []
  startIndexMap := [0, 1]
  indexVectorDim := 1
  sliceSizes := ![1, 1, 2]
  wf := gather_S2048x2048x2_S2097152x2_S2097152x2_1_01_n_n_01_1_112_wf
def gather_S2048x1_S2097152x1_S2097152x1_1_0_n_n_0_1_11 : GatherDims S2048x1 S2097152x1 S2097152x1 where
  offsetDims := [1]
  collapsedSliceDims := [0]
  operandBatchingDims := []
  startIndicesBatchingDims := []
  startIndexMap := [0]
  indexVectorDim := 1
  sliceSizes := ![1, 1]
  wf := gather_S2048x1_S2097152x1_S2097152x1_1_0_n_n_0_1_11_wf
def gather_S64x64x3_S2097152x2_S2097152x3_1_01_n_n_01_1_113 : GatherDims S64x64x3 S2097152x2 S2097152x3 where
  offsetDims := [1]
  collapsedSliceDims := [0, 1]
  operandBatchingDims := []
  startIndicesBatchingDims := []
  startIndexMap := [0, 1]
  indexVectorDim := 1
  sliceSizes := ![1, 1, 3]
  wf := gather_S64x64x3_S2097152x2_S2097152x3_1_01_n_n_01_1_113_wf
def gather_S48x48x3_S2097152x2_S2097152x3_1_01_n_n_01_1_113 : GatherDims S48x48x3 S2097152x2 S2097152x3 where
  offsetDims := [1]
  collapsedSliceDims := [0, 1]
  operandBatchingDims := []
  startIndicesBatchingDims := []
  startIndexMap := [0, 1]
  indexVectorDim := 1
  sliceSizes := ![1, 1, 3]
  wf := gather_S48x48x3_S2097152x2_S2097152x3_1_01_n_n_01_1_113_wf
def gather_S96x2_S2097152x1_S2097152x2_1_0_n_n_0_1_12 : GatherDims S96x2 S2097152x1 S2097152x2 where
  offsetDims := [1]
  collapsedSliceDims := [0]
  operandBatchingDims := []
  startIndicesBatchingDims := []
  startIndexMap := [0]
  indexVectorDim := 1
  sliceSizes := ![1, 2]
  wf := gather_S96x2_S2097152x1_S2097152x2_1_0_n_n_0_1_12_wf
def gather_S32x32x1_S2097152x2_S2097152x1_1_01_n_n_01_1_111 : GatherDims S32x32x1 S2097152x2 S2097152x1 where
  offsetDims := [1]
  collapsedSliceDims := [0, 1]
  operandBatchingDims := []
  startIndicesBatchingDims := []
  startIndexMap := [0, 1]
  indexVectorDim := 1
  sliceSizes := ![1, 1, 1]
  wf := gather_S32x32x1_S2097152x2_S2097152x1_1_01_n_n_01_1_111_wf
def gather_S32x32x4_S2097152x2_S2097152x4_1_01_n_n_01_1_114 : GatherDims S32x32x4 S2097152x2 S2097152x4 where
  offsetDims := [1]
  collapsedSliceDims := [0, 1]
  operandBatchingDims := []
  startIndicesBatchingDims := []
  startIndexMap := [0, 1]
  indexVectorDim := 1
  sliceSizes := ![1, 1, 4]
  wf := gather_S32x32x4_S2097152x2_S2097152x4_1_01_n_n_01_1_114_wf

class Facts : Prop extends Facts₀ where

variable [Facts]
-- ==== Proof.KBody.lean ====
import proofs.«140692_j21234318312201_2_alg».proof.Proof.Gen.Kernel.Launch
import proofs.«140692_j21234318312201_2_alg».proof.Proof.Gen.Kernel.Skeleton
import proofs.«140692_j21234318312201_2_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r12_0 : Rect S12x16384 := Rect.unit ![0, 0] S1x16384.size inb_S12x16384_S1x16384_0_0
abbrev r12_1 : Rect S12x16384 := Rect.unit ![1, 0] S1x16384.size inb_S12x16384_S1x16384_1_0
abbrev r12_3 : Rect S12x16384 := Rect.unit ![3, 0] S1x16384.size inb_S12x16384_S1x16384_3_0
abbrev r12_4 : Rect S12x16384 := Rect.unit ![4, 0] S1x16384.size inb_S12x16384_S1x16384_4_0
abbrev r12_5 : Rect S12x16384 := Rect.unit ![5, 0] S1x16384.size inb_S12x16384_S1x16384_5_0
abbrev r12_6 : Rect S12x16384 := Rect.unit ![6, 0] S1x16384.size inb_S12x16384_S1x16384_6_0
abbrev r12_7 : Rect S12x16384 := Rect.unit ![7, 0] S1x16384.size inb_S12x16384_S1x16384_7_0
abbrev r12_8 : Rect S12x16384 := Rect.unit ![8, 0] S1x16384.size inb_S12x16384_S1x16384_8_0
abbrev r12_9 : Rect S12x16384 := Rect.unit ![9, 0] S1x16384.size inb_S12x16384_S1x16384_9_0
abbrev r12_10 : Rect S12x16384 := Rect.unit ![10, 0] S1x16384.size inb_S12x16384_S1x16384_10_0
abbrev r12_11 : Rect S12x16384 := Rect.unit ![11, 0] S1x16384.size inb_S12x16384_S1x16384_11_0
abbrev r3_0 : Rect S3x16384 := Rect.unit ![0, 0] S1x16384.size inb_S3x16384_S1x16384_0_0
abbrev r3_1 : Rect S3x16384 := Rect.unit ![1, 0] S1x16384.size inb_S3x16384_S1x16384_1_0
abbrev r3_2 : Rect S3x16384 := Rect.unit ![2, 0] S1x16384.size inb_S3x16384_S1x16384_2_0
abbrev r2_0 : Rect S2x16384 := Rect.unit ![0, 0] S1x16384.size inb_S2x16384_S1x16384_0_0
abbrev r2_1 : Rect S2x16384 := Rect.unit ![1, 0] S1x16384.size inb_S2x16384_S1x16384_1_0
abbrev r1_0 : Rect S1x16384 := Rect.unit ![0, 0] S1x16384.size inb_S1x16384_S1x16384_0_0
abbrev r4_0 : Rect S4x16384 := Rect.unit ![0, 0] S1x16384.size inb_S4x16384_S1x16384_0_0
abbrev r4_1 : Rect S4x16384 := Rect.unit ![1, 0] S1x16384.size inb_S4x16384_S1x16384_1_0
abbrev r4_2 : Rect S4x16384 := Rect.unit ![2, 0] S1x16384.size inb_S4x16384_S1x16384_2_0
abbrev r4_3 : Rect S4x16384 := Rect.unit ![3, 0] S1x16384.size inb_S4x16384_S1x16384_3_0

/-- Row 3 of the first input scales both quotients. -/
abbrev m5 (x0 : Vec F S12x16384 .f32) : FVec F S1x16384 .f32 := k0_pay4 (View.ld x0 r12_3)

abbrev m56 (x0 : Vec F S12x16384 .f32) : FVec F S1x16384 .f32 := k0_pay27 (k0_pay2 (View.ld x0 r12_0))

abbrev m62 (x0 : Vec F S12x16384 .f32) (x2 : Vec F S3x16384 .f32) : FVec F S1x16384 .f32 :=
  k0_pay28 (k0_pay2 (View.ld x0 r12_0)) (k0_pay3 (View.ld x0 r12_1)) (View.ld x2 r3_0) (View.ld x2 r3_1) (View.ld x2 r3_2)

/-- Row 0 of the output block, pointwise from rows of the seven input blocks. -/
noncomputable def outX (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    FVec F S1x16384 .f32 :=
  k0_pay31 (m5 x0) (k0_pay5 (View.ld x0 r12_4)) (k0_pay6 (View.ld x0 r12_5)) (k0_pay7 (View.ld x0 r12_6))
    (k0_pay9 (View.ld x0 r12_8)) (k0_pay10 (View.ld x0 r12_9)) (k0_pay11 (View.ld x0 r12_10)) (k0_pay12 (View.ld x0 r12_11))
    (k0_pay13 (View.ld x1 r3_0)) (k0_pay14 (View.ld x1 r3_1)) (k0_pay15 (View.ld x1 r3_2))
    (k0_pay18 (View.ld x4 r1_0))
    (k0_pay20 (View.ld x5 r4_1)) (k0_pay21 (View.ld x5 r4_2)) (k0_pay22 (View.ld x5 r4_3))
    (k0_pay23 (View.ld x6 r4_0)) (k0_pay25 (View.ld x6 r4_2))
    (m62 x0 x2)

/-- Row 1 of the output block. -/
noncomputable def outY (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    FVec F S1x16384 .f32 :=
  k0_pay1 (m5 x0) (k0_pay17 (View.ld x3 r2_1))
    (k0_pay32 (m5 x0) (k0_pay5 (View.ld x0 r12_4)) (k0_pay9 (View.ld x0 r12_8)) (k0_pay10 (View.ld x0 r12_9))
      (k0_pay11 (View.ld x0 r12_10)) (k0_pay12 (View.ld x0 r12_11)) (k0_pay18 (View.ld x4 r1_0))
      (k0_pay23 (View.ld x6 r4_0)) (k0_pay26 (View.ld x6 r4_3)) (m62 x0 x2))
    (k0_pay33 (k0_pay8 (View.ld x0 r12_7)) (k0_pay19 (View.ld x5 r4_0)) (k0_pay24 (View.ld x6 r4_1)))
    (k0_pay34 (k0_pay16 (View.ld x3 r2_0)) (m56 x0))

/-- The output block: the two rows as written pieces, last first. -/
def out0_7 (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    Vec F S2x16384 .f32 :=
  View.canon [⟨r2_1, outY x0 x1 x2 x3 x4 x5 x6⟩, ⟨r2_0, outX x0 x1 x2 x3 x4 x5 x6⟩]

/-- The two row rectangles tile the block, so every index lies in one. -/
theorem cover0_7 (p1 p0 : Vec F S1x16384 .f32) (y : S2x16384.Idx) :
    ∃ pc ∈ ([⟨r2_1, p1⟩, ⟨r2_0, p0⟩] : List (View.Piece (Elt F) S2x16384 .f32)), y ∈ pc.1.set :=
  View.cover_of_tiled [⟨r2_1, p1⟩, ⟨r2_0, p0⟩] S1x16384.size (by rfl) y

theorem r2_0_emb (q : Fin 16384) : r2_0.emb (ValueIdx.ix2 (0 : Fin 1) q) = ValueIdx.ix2 (0 : Fin 2) q :=
  Shape.idx_ext₂ rfl ((Nat.zero_add _).trans (Nat.one_mul _))

theorem r2_1_emb (q : Fin 16384) : r2_1.emb (ValueIdx.ix2 (0 : Fin 1) q) = ValueIdx.ix2 (1 : Fin 2) q :=
  Shape.idx_ext₂ rfl ((Nat.zero_add _).trans (Nat.one_mul _))

theorem row0_not_mem_r2_1 (q : Fin 16384) : ValueIdx.ix2 (0 : Fin 2) q ∉ r2_1.set := fun h =>
  Nat.not_succ_le_zero 0 (Rect.mem_set_unit.mp h 0).1

theorem canon_row0 (p1 p0 : Vec F S1x16384 .f32) (q : Fin 16384) :
    View.canon ([⟨r2_1, p1⟩, ⟨r2_0, p0⟩] : List (View.Piece (Elt F) S2x16384 .f32)) (ValueIdx.ix2 (0 : Fin 2) q)
      = p0 (ValueIdx.ix2 (0 : Fin 1) q) :=
  (View.canon_cons_of_not_mem (⟨r2_1, p1⟩ : View.Piece (Elt F) S2x16384 .f32) [⟨r2_0, p0⟩] (row0_not_mem_r2_1 q)).trans
    ((congrArg (View.canon ([⟨r2_0, p0⟩] : List (View.Piece (Elt F) S2x16384 .f32))) (r2_0_emb q).symm).trans
      (View.canon_cons_emb r2_0 p0 [] (ValueIdx.ix2 (0 : Fin 1) q)))

theorem canon_row1 (p1 p0 : Vec F S1x16384 .f32) (q : Fin 16384) :
    View.canon ([⟨r2_1, p1⟩, ⟨r2_0, p0⟩] : List (View.Piece (Elt F) S2x16384 .f32)) (ValueIdx.ix2 (1 : Fin 2) q)
      = p1 (ValueIdx.ix2 (0 : Fin 1) q) :=
  (congrArg (View.canon ([⟨r2_1, p1⟩, ⟨r2_0, p0⟩] : List (View.Piece (Elt F) S2x16384 .f32))) (r2_1_emb q).symm).trans
    (View.canon_cons_emb r2_1 p1 [⟨r2_0, p0⟩] (ValueIdx.ix2 (0 : Fin 1) q))

set_option maxHeartbeats 4000000 in
/-- The body returns every input block as it was and the output block at `out0_7` of them, whatever it held. -/
theorem sound_kernel (c : Dev nD) (E : Set ℕ) (i : grid0.Coords)
    (arg1 : Memref sig .tc .vmem S12x16384 .f32) (harg1 : arg1.IsWhole)
    (arg2 : Memref sig .tc .vmem S3x16384 .f32) (harg2 : arg2.IsWhole)
    (arg3 : Memref sig .tc .vmem S3x16384 .f32) (harg3 : arg3.IsWhole)
    (arg4 : Memref sig .tc .vmem S2x16384 .f32) (harg4 : arg4.IsWhole)
    (arg5 : Memref sig .tc .vmem S1x16384 .f32) (harg5 : arg5.IsWhole)
    (arg6 : Memref sig .tc .vmem S4x16384 .f32) (harg6 : arg6.IsWhole)
    (arg7 : Memref sig .tc .vmem S4x16384 .f32) (harg7 : arg7.IsWhole)
    (arg8 : Memref sig .tc .vmem S2x16384 .f32) (harg8 : arg8.IsWhole)
    (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E
          (cc0__compose_kernel i arg1 harg1 arg2 harg2 arg3 harg3 arg4 harg4 arg5 harg5 arg6 harg6 arg7 harg7 arg8 harg8) K := by
  simp only [cc0__compose_kernel_eq_skeleton]; unfold cc0__compose_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _)

end Cert.Kernel.Hand

end
-- ==== Proof.KMain.lean ====
import proofs.«140692_j21234318312201_2_alg».proof.Proof.Gen.Kernel.Launch
import proofs.«140692_j21234318312201_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.SL Idealize.SL.Sem
open Idealize.ShloMosaic.Pipeline (Dat)

variable {F : FTy → Type} [FloatOps F]

/-- The 17 launch arguments are the references of index below 17; every computed tensor value has a larger index. -/
abbrev Low (r : Ref sig .tc) : Prop := r.idx.val < 17

def Spares (P : Ref sig .tc → Prop) (op : HloOp τ sig (Elt F)) : Prop :=
  ∀ r, P r → Proc.devRef (τ := τ) .tc r ∉ op.writes

theorem spares_single {P : Ref sig .tc → Prop} {op : HloOp τ sig (Elt F)} (y : Ref sig .tc)
    (hw : op.writes = {Proc.devRef .tc y}) (hy : ¬ P y) : Spares P op := by
  intro r hr hmem
  rw [hw, Finset.mem_singleton] at hmem
  exact hy (Proc.devRef_injective _ hmem ▸ hr)

theorem after_flatten_spared {P : Ref sig .tc → Prop} (opss : List (List (HloOp τ sig (Elt F))))
    (W : Valuation τ sig (Elt F)) (h : ∀ ops ∈ opss, ∀ op ∈ ops, Spares P op) {r : Ref sig .tc} (hr : P r) :
    StableHlo.after opss.flatten W (Proc.devRef .tc r) = W (Proc.devRef .tc r) :=
  StableHlo.after_of_forall_not_mem _ _ fun op hop => by
    obtain ⟨ops, hops, hin⟩ := List.mem_flatten.mp hop
    exact h ops hops op hin r hr

def Tame (op : HloOp τ sig (Elt F)) : Prop := op.fresh = ∅ ∧ Spares Low op

theorem tame_cons {a : HloOp τ sig (Elt F)} {l : List (HloOp τ sig (Elt F))} (hf : a.fresh = ∅) (y : Ref sig .tc)
    (hw : a.writes = {Proc.devRef .tc y}) (hy : ¬ Low y) (hl : ∀ x ∈ l, Tame x) : ∀ x ∈ a :: l, Tame x :=
  List.forall_mem_cons.2 ⟨⟨hf, spares_single y hw hy⟩, hl⟩

local macro "tame_line" : tactic =>
  `(tactic| repeat (first | refine tame_cons rfl _ rfl (by decide) ?_ | exact List.forall_mem_nil _))

theorem hostOps1_tame : ∀ op ∈ (hostOps1 : List (HloOp τ sig (Elt F))), Tame op := by tame_line

variable (m : (ℓ : Loc nD τ sig) → Buf (Elt F) ℓ) (ρ : Dev nD → PrngReg)

abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34]

abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

set_option maxHeartbeats 40000000 in
theorem pre_tame : ∀ ops ∈ (pre : List (List (HloOp τ sig (Elt F)))), ∀ op ∈ ops, Tame op := by
  repeat (first | exact List.forall_mem_nil _ | refine List.forall_mem_cons.2 ⟨by tame_line, ?_⟩)

theorem pre_sub : (pre : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub⟩

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    pre_sub
    (List.forall_iff_forall_mem.2 fun ops hops => List.forall_iff_forall_mem.2 fun op hop => (pre_tame ops hops op hop).1)
    main_chain

theorem arr_not_low : ∀ w : Fin 8, ¬ Low (Pipeline.arrRef spec0 w) := by decide

theorem arr_ne_last : ∀ w : Fin 8, Pipeline.arrRef spec0 w ≠ main_v720 := by decide

theorem sfx_sub : ∀ ops ∈ ([hostOps1] : List (List (HloOp τ sig (Elt F)))), ∀ op ∈ ops,
    op.bufs ⊆ Pipeline.tailRefs sig Pipeline.Prefetch.none spec0 := by
  intro ops hops op hop
  obtain rfl := List.mem_singleton.1 hops
  rw [Pipeline.tailRefs_none spec0 winFacts0.arr_unscoped]
  exact Pipeline.sub_ucRefs op (List.forall_iff_forall_mem.1 hostOps1_sub op hop)

theorem sfx_fresh : ∀ ops ∈ ([hostOps1] : List (List (HloOp τ sig (Elt F)))), ∀ op ∈ ops, op.fresh = ∅ := by
  intro ops hops op hop
  obtain rfl := List.mem_singleton.1 hops
  exact (hostOps1_tame op hop).1

theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.1 hops
  obtain rfl := List.mem_singleton.1 hop
  exact spares_single (P := (· ≠ main_v720)) main_v720 rfl (fun h => h rfl) _ (arr_ne_last w)

/-- No operation before the region writes a launch argument: the region finds it as launched. -/
theorem V_low (c : Dev nD) {r : Ref sig .tc} (hr : Low r) : V m c r = m ((c : Thread nD τ).loc r) :=
  after_flatten_spared pre _ (fun ops hops op hop => (pre_tame ops hops op hop).2) hr

/-- Nor does the one after it, and no window's array is a launch argument: the program ends with it as launched. -/
theorem W_low (dats : (p : Fin 1) → (c : Dev nD) → Dat τ (Elt F) Unit ℕ (UR sig nD τ) ℕ (cfgs p) c) (c : Dev nD)
    {r : Ref sig .tc} (hr : Low r) :
    Pipeline.afterTail₀ cfgs dats 0 (V0 m) [hostOps1] c r = m ((c : Thread nD τ).loc r) := by
  unfold Pipeline.afterTail₀
  rw [after_flatten_spared [hostOps1] _ (List.forall_mem_singleton.2 fun op hop => (hostOps1_tame op hop).2) hr,
    Pipeline.withArrays_of_ne _ c (V0 m c) _ r (by exact fun w e => arr_not_low w (e ▸ hr))]
  exact V_low m c hr

/-- After the run a launch argument holds what the last stretch of host operations leaves in it. -/
theorem arg_kept (dats : (p : Fin 1) → (c : Dev nD) → Dat τ (Elt F) Unit ℕ (UR sig nD τ) ℕ (cfgs p) c)
    {r : PUnit × MemSt nD τ sig (Elt F)} (hpost : Pipeline.FramePost cfgs dats 0 (Pipeline.afterTail₀ cfgs dats 0 (V0 m) [hostOps1]) r)
    (c : Dev nD) {b : Ref sig .tc} (hb : Low b) (hs : b.isScoped = false) :
    r.2.mem ((c.tc : Thread nD τ).loc b) = m ((c.tc : Thread nD τ).loc b) :=
  ((hpost c).2 b (Pipeline.mem_restRefs_of b hs fun w (e : Pipeline.arrRef spec0 w = b) => arr_not_low w (e ▸ hb))).trans (W_low m dats c hb)

/-- The block of window `w` at grid point `t`, cut out of the array the region starts from. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KFrame.lean ====
import proofs.«140692_j21234318312201_2_alg».proof.Proof.KBody
import proofs.«140692_j21234318312201_2_alg».proof.Proof.KMain
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_of {c : Dev nD} (dat : Dat τ (Elt F) Unit ℕ (UR sig nD τ) ℕ cfg0 c) (w : Fin cfg0.W)
    (hA : dat.A w = V m c (Pipeline.arrRef spec0 w)) (t : Fin cfg0.N) (hf : (cfg0.win w).fetch t = true) (d) :
    dat.before w t d = (cfg0.win w).fill (cfg0.grid.coords t) d (iblk m c w t) := by
  rw [dat.before_fetched w t hf d]; unfold Dat.fetched Dat.blockOf iblk; rw [hA]

/-- The proof data the frame run is taken at, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_7 (c : Dev nD) (t : Fin cfg0.N) :
    (dats m 0 c).after 7 t = out0_7 (iblk m c 0 t) (iblk m c 1 t) (iblk m c 2 t) (iblk m c 3 t) (iblk m c 4 t) (iblk m c 5 t) (iblk m c 6 t) := by
  dsimp only [dats]

theorem before0_0 (c : Dev nD) (t : Fin cfg0.N) (d) : (dats m 0 c).before 0 t d = iblk m c 0 t :=
  before_of m (dats m 0 c) 0 (A_eq m c 0) t (fetch0_0 t) d
theorem before0_1 (c : Dev nD) (t : Fin cfg0.N) (d) : (dats m 0 c).before 1 t d = iblk m c 1 t :=
  before_of m (dats m 0 c) 1 (A_eq m c 1) t (fetch0_1 t) d
theorem before0_2 (c : Dev nD) (t : Fin cfg0.N) (d) : (dats m 0 c).before 2 t d = iblk m c 2 t :=
  before_of m (dats m 0 c) 2 (A_eq m c 2) t (fetch0_2 t) d
theorem before0_3 (c : Dev nD) (t : Fin cfg0.N) (d) : (dats m 0 c).before 3 t d = iblk m c 3 t :=
  before_of m (dats m 0 c) 3 (A_eq m c 3) t (fetch0_3 t) d
theorem before0_4 (c : Dev nD) (t : Fin cfg0.N) (d) : (dats m 0 c).before 4 t d = iblk m c 4 t :=
  before_of m (dats m 0 c) 4 (A_eq m c 4) t (fetch0_4 t) d
theorem before0_5 (c : Dev nD) (t : Fin cfg0.N) (d) : (dats m 0 c).before 5 t d = iblk m c 5 t :=
  before_of m (dats m 0 c) 5 (A_eq m c 5) t (fetch0_5 t) d
theorem before0_6 (c : Dev nD) (t : Fin cfg0.N) (d) : (dats m 0 c).before 6 t d = iblk m c 6 t :=
  before_of m (dats m 0 c) 6 (A_eq m c 6) t (fetch0_6 t) d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: its triple at the seven blocks, the invariant and what the core owes passing through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  iframe H0 H1 H2 H3 H4 H5 H6
  isplitl [H7]; · iexists _; iexact H7
  iintro ⟨H0, H1, H2, H3, H4, H5, H6, H7⟩
  iframe

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates from any memory and leaves each of its 17 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16)) :=
  (θ_run defs _ _).mono (fun r hpost c => by
    and_intros <;> exact arg_kept m (dats m) hpost c (by decide) (by decide)) (run_main m ρ)

end Cert.Kernel.Hand

end
-- ==== Proof.KIBody.lean ====
import proofs.«140692_j21234318312201_2_alg».proof.Proof.Gen.KernelIdeal.Launch
import proofs.«140692_j21234318312201_2_alg».proof.Proof.Gen.KernelIdeal.Skeleton
import proofs.«140692_j21234318312201_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r12_0 : Rect S12x16384 := Rect.unit ![0, 0] S1x16384.size inb_S12x16384_S1x16384_0_0
abbrev r12_1 : Rect S12x16384 := Rect.unit ![1, 0] S1x16384.size inb_S12x16384_S1x16384_1_0
abbrev r12_3 : Rect S12x16384 := Rect.unit ![3, 0] S1x16384.size inb_S12x16384_S1x16384_3_0
abbrev r12_4 : Rect S12x16384 := Rect.unit ![4, 0] S1x16384.size inb_S12x16384_S1x16384_4_0
abbrev r12_5 : Rect S12x16384 := Rect.unit ![5, 0] S1x16384.size inb_S12x16384_S1x16384_5_0
abbrev r12_6 : Rect S12x16384 := Rect.unit ![6, 0] S1x16384.size inb_S12x16384_S1x16384_6_0
abbrev r12_7 : Rect S12x16384 := Rect.unit ![7, 0] S1x16384.size inb_S12x16384_S1x16384_7_0
abbrev r12_8 : Rect S12x16384 := Rect.unit ![8, 0] S1x16384.size inb_S12x16384_S1x16384_8_0
abbrev r12_9 : Rect S12x16384 := Rect.unit ![9, 0] S1x16384.size inb_S12x16384_S1x16384_9_0
abbrev r12_10 : Rect S12x16384 := Rect.unit ![10, 0] S1x16384.size inb_S12x16384_S1x16384_10_0
abbrev r12_11 : Rect S12x16384 := Rect.unit ![11, 0] S1x16384.size inb_S12x16384_S1x16384_11_0
abbrev r3_0 : Rect S3x16384 := Rect.unit ![0, 0] S1x16384.size inb_S3x16384_S1x16384_0_0
abbrev r3_1 : Rect S3x16384 := Rect.unit ![1, 0] S1x16384.size inb_S3x16384_S1x16384_1_0
abbrev r3_2 : Rect S3x16384 := Rect.unit ![2, 0] S1x16384.size inb_S3x16384_S1x16384_2_0
abbrev r2_0 : Rect S2x16384 := Rect.unit ![0, 0] S1x16384.size inb_S2x16384_S1x16384_0_0
abbrev r2_1 : Rect S2x16384 := Rect.unit ![1, 0] S1x16384.size inb_S2x16384_S1x16384_1_0
abbrev r1_0 : Rect S1x16384 := Rect.unit ![0, 0] S1x16384.size inb_S1x16384_S1x16384_0_0
abbrev r4_0 : Rect S4x16384 := Rect.unit ![0, 0] S1x16384.size inb_S4x16384_S1x16384_0_0
abbrev r4_1 : Rect S4x16384 := Rect.unit ![1, 0] S1x16384.size inb_S4x16384_S1x16384_1_0
abbrev r4_2 : Rect S4x16384 := Rect.unit ![2, 0] S1x16384.size inb_S4x16384_S1x16384_2_0
abbrev r4_3 : Rect S4x16384 := Rect.unit ![3, 0] S1x16384.size inb_S4x16384_S1x16384_3_0

/-- Row 3 of the first input scales both quotients. -/
abbrev m5 (x0 : Vec F S12x16384 .f32) : FVec F S1x16384 .f32 := k0_pay4 (View.ld x0 r12_3)

abbrev m56 (x0 : Vec F S12x16384 .f32) : FVec F S1x16384 .f32 := k0_pay27 (k0_pay2 (View.ld x0 r12_0))

abbrev m62 (x0 : Vec F S12x16384 .f32) (x2 : Vec F S3x16384 .f32) : FVec F S1x16384 .f32 :=
  k0_pay28 (k0_pay2 (View.ld x0 r12_0)) (k0_pay3 (View.ld x0 r12_1)) (View.ld x2 r3_0) (View.ld x2 r3_1) (View.ld x2 r3_2)

/-- Row 0 of the output block, pointwise from rows of the seven input blocks. -/
noncomputable def outX (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    FVec F S1x16384 .f32 :=
  k0_pay31 (m5 x0) (k0_pay5 (View.ld x0 r12_4)) (k0_pay6 (View.ld x0 r12_5)) (k0_pay7 (View.ld x0 r12_6))
    (k0_pay9 (View.ld x0 r12_8)) (k0_pay10 (View.ld x0 r12_9)) (k0_pay11 (View.ld x0 r12_10)) (k0_pay12 (View.ld x0 r12_11))
    (k0_pay13 (View.ld x1 r3_0)) (k0_pay14 (View.ld x1 r3_1)) (k0_pay15 (View.ld x1 r3_2))
    (k0_pay18 (View.ld x4 r1_0))
    (k0_pay20 (View.ld x5 r4_1)) (k0_pay21 (View.ld x5 r4_2)) (k0_pay22 (View.ld x5 r4_3))
    (k0_pay23 (View.ld x6 r4_0)) (k0_pay25 (View.ld x6 r4_2))
    (m62 x0 x2)

/-- Row 1 of the output block. -/
noncomputable def outY (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    FVec F S1x16384 .f32 :=
  k0_pay1 (m5 x0) (k0_pay17 (View.ld x3 r2_1))
    (k0_pay32 (m5 x0) (k0_pay5 (View.ld x0 r12_4)) (k0_pay9 (View.ld x0 r12_8)) (k0_pay10 (View.ld x0 r12_9))
      (k0_pay11 (View.ld x0 r12_10)) (k0_pay12 (View.ld x0 r12_11)) (k0_pay18 (View.ld x4 r1_0))
      (k0_pay23 (View.ld x6 r4_0)) (k0_pay26 (View.ld x6 r4_3)) (m62 x0 x2))
    (k0_pay33 (k0_pay8 (View.ld x0 r12_7)) (k0_pay19 (View.ld x5 r4_0)) (k0_pay24 (View.ld x6 r4_1)))
    (k0_pay34 (k0_pay16 (View.ld x3 r2_0)) (m56 x0))

/-- The output block: the two rows as written pieces, last first. -/
def out0_7 (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32) :
    Vec F S2x16384 .f32 :=
  View.canon [⟨r2_1, outY x0 x1 x2 x3 x4 x5 x6⟩, ⟨r2_0, outX x0 x1 x2 x3 x4 x5 x6⟩]

/-- The two row rectangles tile the block, so every index lies in one. -/
theorem cover0_7 (p1 p0 : Vec F S1x16384 .f32) (y : S2x16384.Idx) :
    ∃ pc ∈ ([⟨r2_1, p1⟩, ⟨r2_0, p0⟩] : List (View.Piece (Elt F) S2x16384 .f32)), y ∈ pc.1.set :=
  View.cover_of_tiled [⟨r2_1, p1⟩, ⟨r2_0, p0⟩] S1x16384.size (by rfl) y

theorem r2_0_emb (q : Fin 16384) : r2_0.emb (ValueIdx.ix2 (0 : Fin 1) q) = ValueIdx.ix2 (0 : Fin 2) q :=
  Shape.idx_ext₂ rfl ((Nat.zero_add _).trans (Nat.one_mul _))

theorem r2_1_emb (q : Fin 16384) : r2_1.emb (ValueIdx.ix2 (0 : Fin 1) q) = ValueIdx.ix2 (1 : Fin 2) q :=
  Shape.idx_ext₂ rfl ((Nat.zero_add _).trans (Nat.one_mul _))

theorem row0_not_mem_r2_1 (q : Fin 16384) : ValueIdx.ix2 (0 : Fin 2) q ∉ r2_1.set := fun h =>
  Nat.not_succ_le_zero 0 (Rect.mem_set_unit.mp h 0).1

theorem canon_row0 (p1 p0 : Vec F S1x16384 .f32) (q : Fin 16384) :
    View.canon ([⟨r2_1, p1⟩, ⟨r2_0, p0⟩] : List (View.Piece (Elt F) S2x16384 .f32)) (ValueIdx.ix2 (0 : Fin 2) q)
      = p0 (ValueIdx.ix2 (0 : Fin 1) q) :=
  (View.canon_cons_of_not_mem (⟨r2_1, p1⟩ : View.Piece (Elt F) S2x16384 .f32) [⟨r2_0, p0⟩] (row0_not_mem_r2_1 q)).trans
    ((congrArg (View.canon ([⟨r2_0, p0⟩] : List (View.Piece (Elt F) S2x16384 .f32))) (r2_0_emb q).symm).trans
      (View.canon_cons_emb r2_0 p0 [] (ValueIdx.ix2 (0 : Fin 1) q)))

theorem canon_row1 (p1 p0 : Vec F S1x16384 .f32) (q : Fin 16384) :
    View.canon ([⟨r2_1, p1⟩, ⟨r2_0, p0⟩] : List (View.Piece (Elt F) S2x16384 .f32)) (ValueIdx.ix2 (1 : Fin 2) q)
      = p1 (ValueIdx.ix2 (0 : Fin 1) q) :=
  (congrArg (View.canon ([⟨r2_1, p1⟩, ⟨r2_0, p0⟩] : List (View.Piece (Elt F) S2x16384 .f32))) (r2_1_emb q).symm).trans
    (View.canon_cons_emb r2_1 p1 [⟨r2_0, p0⟩] (ValueIdx.ix2 (0 : Fin 1) q))

set_option maxHeartbeats 4000000 in
/-- The body returns every input block as it was and the output block at `out0_7` of them, whatever it held. -/
theorem sound_kernel (c : Dev nD) (E : Set ℕ) (i : grid0.Coords)
    (arg1 : Memref sig .tc .vmem S12x16384 .f32) (harg1 : arg1.IsWhole)
    (arg2 : Memref sig .tc .vmem S3x16384 .f32) (harg2 : arg2.IsWhole)
    (arg3 : Memref sig .tc .vmem S3x16384 .f32) (harg3 : arg3.IsWhole)
    (arg4 : Memref sig .tc .vmem S2x16384 .f32) (harg4 : arg4.IsWhole)
    (arg5 : Memref sig .tc .vmem S1x16384 .f32) (harg5 : arg5.IsWhole)
    (arg6 : Memref sig .tc .vmem S4x16384 .f32) (harg6 : arg6.IsWhole)
    (arg7 : Memref sig .tc .vmem S4x16384 .f32) (harg7 : arg7.IsWhole)
    (arg8 : Memref sig .tc .vmem S2x16384 .f32) (harg8 : arg8.IsWhole)
    (x0 : Vec F S12x16384 .f32) (x1 : Vec F S3x16384 .f32) (x2 : Vec F S3x16384 .f32)
    (x3 : Vec F S2x16384 .f32) (x4 : Vec F S1x16384 .f32) (x5 : Vec F S4x16384 .f32) (x6 : Vec F S4x16384 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out0_7 x0 x1 x2 x3 x4 x5 x6)) -∗ K ⟨⟩))
      ⊢ wp frame (wpE (defs₀ (F := F)) Variants.none c none) E
          (cc0__compose_kernel i arg1 harg1 arg2 harg2 arg3 harg3 arg4 harg4 arg5 harg5 arg6 harg6 arg7 harg7 arg8 harg8) K := by
  simp only [cc0__compose_kernel_eq_skeleton]; unfold cc0__compose_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _ _)

end Cert.KernelIdeal.Hand

end
-- ==== Proof.KIMain.lean ====
import proofs.«140692_j21234318312201_2_alg».proof.Proof.Gen.KernelIdeal.Launch
import proofs.«140692_j21234318312201_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.SL Idealize.SL.Sem
open Idealize.ShloMosaic.Pipeline (Dat)

variable {F : FTy → Type} [FloatOps F]

/-- The 17 launch arguments are the references of index below 17; every computed tensor value has a larger index. -/
abbrev Low (r : Ref sig .tc) : Prop := r.idx.val < 17

def Spares (P : Ref sig .tc → Prop) (op : HloOp τ sig (Elt F)) : Prop :=
  ∀ r, P r → Proc.devRef (τ := τ) .tc r ∉ op.writes

theorem spares_single {P : Ref sig .tc → Prop} {op : HloOp τ sig (Elt F)} (y : Ref sig .tc)
    (hw : op.writes = {Proc.devRef .tc y}) (hy : ¬ P y) : Spares P op := by
  intro r hr hmem
  rw [hw, Finset.mem_singleton] at hmem
  exact hy (Proc.devRef_injective _ hmem ▸ hr)

theorem after_flatten_spared {P : Ref sig .tc → Prop} (opss : List (List (HloOp τ sig (Elt F))))
    (W : Valuation τ sig (Elt F)) (h : ∀ ops ∈ opss, ∀ op ∈ ops, Spares P op) {r : Ref sig .tc} (hr : P r) :
    StableHlo.after opss.flatten W (Proc.devRef .tc r) = W (Proc.devRef .tc r) :=
  StableHlo.after_of_forall_not_mem _ _ fun op hop => by
    obtain ⟨ops, hops, hin⟩ := List.mem_flatten.mp hop
    exact h ops hops op hin r hr

def Tame (op : HloOp τ sig (Elt F)) : Prop := op.fresh = ∅ ∧ Spares Low op

theorem tame_cons {a : HloOp τ sig (Elt F)} {l : List (HloOp τ sig (Elt F))} (hf : a.fresh = ∅) (y : Ref sig .tc)
    (hw : a.writes = {Proc.devRef .tc y}) (hy : ¬ Low y) (hl : ∀ x ∈ l, Tame x) : ∀ x ∈ a :: l, Tame x :=
  List.forall_mem_cons.2 ⟨⟨hf, spares_single y hw hy⟩, hl⟩

local macro "tame_line" : tactic =>
  `(tactic| repeat (first | refine tame_cons rfl _ rfl (by decide) ?_ | exact List.forall_mem_nil _))

theorem hostOps1_tame : ∀ op ∈ (hostOps1 : List (HloOp τ sig (Elt F))), Tame op := by tame_line

variable (m : (ℓ : Loc nD τ sig) → Buf (Elt F) ℓ) (ρ : Dev nD → PrngReg)

abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34]

abbrev V0 (c : Dev nD) : Valuation τ sig (Elt F) := StableHlo.after (List.flatten pre) (fun b => m (c, b))

abbrev V (c : Dev nD) (b : Ref sig .tc) : Buf (Elt F) ((c : Thread nD τ).loc b) := V0 m c (Proc.devRef .tc b)

set_option maxHeartbeats 40000000 in
theorem pre_tame : ∀ ops ∈ (pre : List (List (HloOp τ sig (Elt F)))), ∀ op ∈ ops, Tame op := by
  repeat (first | exact List.forall_mem_nil _ | refine List.forall_mem_cons.2 ⟨by tame_line, ?_⟩)

theorem pre_sub : (pre : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub⟩

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    pre_sub
    (List.forall_iff_forall_mem.2 fun ops hops => List.forall_iff_forall_mem.2 fun op hop => (pre_tame ops hops op hop).1)
    main_chain

theorem arr_not_low : ∀ w : Fin 8, ¬ Low (Pipeline.arrRef spec0 w) := by decide

theorem arr_ne_last : ∀ w : Fin 8, Pipeline.arrRef spec0 w ≠ main_v720 := by decide

theorem sfx_sub : ∀ ops ∈ ([hostOps1] : List (List (HloOp τ sig (Elt F)))), ∀ op ∈ ops,
    op.bufs ⊆ Pipeline.tailRefs sig Pipeline.Prefetch.none spec0 := by
  intro ops hops op hop
  obtain rfl := List.mem_singleton.1 hops
  rw [Pipeline.tailRefs_none spec0 winFacts0.arr_unscoped]
  exact Pipeline.sub_ucRefs op (List.forall_iff_forall_mem.1 hostOps1_sub op hop)

theorem sfx_fresh : ∀ ops ∈ ([hostOps1] : List (List (HloOp τ sig (Elt F)))), ∀ op ∈ ops, op.fresh = ∅ := by
  intro ops hops op hop
  obtain rfl := List.mem_singleton.1 hops
  exact (hostOps1_tame op hop).1

theorem sfx_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.1 hops
  obtain rfl := List.mem_singleton.1 hop
  exact spares_single (P := (· ≠ main_v720)) main_v720 rfl (fun h => h rfl) _ (arr_ne_last w)

/-- No operation before the region writes a launch argument: the region finds it as launched. -/
theorem V_low (c : Dev nD) {r : Ref sig .tc} (hr : Low r) : V m c r = m ((c : Thread nD τ).loc r) :=
  after_flatten_spared pre _ (fun ops hops op hop => (pre_tame ops hops op hop).2) hr

/-- Nor does the one after it, and no window's array is a launch argument: the program ends with it as launched. -/
theorem W_low (dats : (p : Fin 1) → (c : Dev nD) → Dat τ (Elt F) Unit ℕ (UR sig nD τ) ℕ (cfgs p) c) (c : Dev nD)
    {r : Ref sig .tc} (hr : Low r) :
    Pipeline.afterTail₀ cfgs dats 0 (V0 m) [hostOps1] c r = m ((c : Thread nD τ).loc r) := by
  unfold Pipeline.afterTail₀
  rw [after_flatten_spared [hostOps1] _ (List.forall_mem_singleton.2 fun op hop => (hostOps1_tame op hop).2) hr,
    Pipeline.withArrays_of_ne _ c (V0 m c) _ r (by exact fun w e => arr_not_low w (e ▸ hr))]
  exact V_low m c hr

/-- After the run a launch argument holds what the last stretch of host operations leaves in it. -/
theorem arg_kept (dats : (p : Fin 1) → (c : Dev nD) → Dat τ (Elt F) Unit ℕ (UR sig nD τ) ℕ (cfgs p) c)
    {r : PUnit × MemSt nD τ sig (Elt F)} (hpost : Pipeline.FramePost cfgs dats 0 (Pipeline.afterTail₀ cfgs dats 0 (V0 m) [hostOps1]) r)
    (c : Dev nD) {b : Ref sig .tc} (hb : Low b) (hs : b.isScoped = false) :
    r.2.mem ((c.tc : Thread nD τ).loc b) = m ((c.tc : Thread nD τ).loc b) :=
  ((hpost c).2 b (Pipeline.mem_restRefs_of b hs fun w (e : Pipeline.arrRef spec0 w = b) => arr_not_low w (e ▸ hb))).trans (W_low m dats c hb)

/-- The block of window `w` at grid point `t`, cut out of the array the region starts from. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KIFrame.lean ====
import proofs.«140692_j21234318312201_2_alg».proof.Proof.KIBody
import proofs.«140692_j21234318312201_2_alg».proof.Proof.KIMain
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem before_of {c : Dev nD} (dat : Dat τ (Elt F) Unit ℕ (UR sig nD τ) ℕ cfg0 c) (w : Fin cfg0.W)
    (hA : dat.A w = V m c (Pipeline.arrRef spec0 w)) (t : Fin cfg0.N) (hf : (cfg0.win w).fetch t = true) (d) :
    dat.before w t d = (cfg0.win w).fill (cfg0.grid.coords t) d (iblk m c w t) := by
  rw [dat.before_fetched w t hf d]; unfold Dat.fetched Dat.blockOf iblk; rw [hA]

/-- The proof data the frame run is taken at, on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_7 (c : Dev nD) (t : Fin cfg0.N) :
    (dats m 0 c).after 7 t = out0_7 (iblk m c 0 t) (iblk m c 1 t) (iblk m c 2 t) (iblk m c 3 t) (iblk m c 4 t) (iblk m c 5 t) (iblk m c 6 t) := by
  dsimp only [dats]

theorem before0_0 (c : Dev nD) (t : Fin cfg0.N) (d) : (dats m 0 c).before 0 t d = iblk m c 0 t :=
  before_of m (dats m 0 c) 0 (A_eq m c 0) t (fetch0_0 t) d
theorem before0_1 (c : Dev nD) (t : Fin cfg0.N) (d) : (dats m 0 c).before 1 t d = iblk m c 1 t :=
  before_of m (dats m 0 c) 1 (A_eq m c 1) t (fetch0_1 t) d
theorem before0_2 (c : Dev nD) (t : Fin cfg0.N) (d) : (dats m 0 c).before 2 t d = iblk m c 2 t :=
  before_of m (dats m 0 c) 2 (A_eq m c 2) t (fetch0_2 t) d
theorem before0_3 (c : Dev nD) (t : Fin cfg0.N) (d) : (dats m 0 c).before 3 t d = iblk m c 3 t :=
  before_of m (dats m 0 c) 3 (A_eq m c 3) t (fetch0_3 t) d
theorem before0_4 (c : Dev nD) (t : Fin cfg0.N) (d) : (dats m 0 c).before 4 t d = iblk m c 4 t :=
  before_of m (dats m 0 c) 4 (A_eq m c 4) t (fetch0_4 t) d
theorem before0_5 (c : Dev nD) (t : Fin cfg0.N) (d) : (dats m 0 c).before 5 t d = iblk m c 5 t :=
  before_of m (dats m 0 c) 5 (A_eq m c 5) t (fetch0_5 t) d
theorem before0_6 (c : Dev nD) (t : Fin cfg0.N) (d) : (dats m 0 c).before 6 t d = iblk m c 6 t :=
  before_of m (dats m 0 c) 6 (A_eq m c 6) t (fetch0_6 t) d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 4000000 in
/-- The body at any point: its triple at the seven blocks, the invariant and what the core owes passing through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  iframe H0 H1 H2 H3 H4 H5 H6
  isplitl [H7]; · iexists _; iexact H7
  iintro ⟨H0, H1, H2, H3, H4, H5, H6, H7⟩
  iframe

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program terminates from any memory and leaves each of its 17 argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16)) :=
  (θ_run defs _ _).mono (fun r hpost c => by
    and_intros <;> exact arg_kept m (dats m) hpost c (by decide) (by decide)) (run_main m ρ)

end Cert.KernelIdeal.Hand

end
-- ==== Proof.LibPiece.lean ====
import Idealize.ShloMosaic.Lib.StableHlo.Run

namespace Cert.Hand

open Idealize.ShloMosaic Idealize.ShloMosaic.StableHlo Idealize.SL.Sem

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | _ :: l₁, l₂, _ => after_app l₁ l₂ _

/-- Operation by operation, `l` touches tensor-core buffers only, allocates nothing, and writes exactly the buffer of
    the matching reference of `W`, which satisfies `Q`. -/
def Piece (Q : Ref sig .tc → Prop) (l : List (HloOp τ sig Val)) (W : List (Ref sig .tc)) : Prop :=
  List.Forall₂ (fun op y => op.bufs ⊆ tcRefs τ sig ∧ op.fresh = ∅ ∧ op.writes = {Proc.devRef (τ := τ) .tc y} ∧ Q y) l W

namespace Piece

variable {Q : Ref sig .tc → Prop} {l l₁ l₂ : List (HloOp τ sig Val)} {W W₁ W₂ : List (Ref sig .tc)}

theorem append (h₁ : Piece Q l₁ W₁) (h₂ : Piece Q l₂ W₂) : Piece Q (l₁ ++ l₂) (W₁ ++ W₂) := by
  induction h₁ with
  | nil => exact h₂
  | cons h _ ih => exact .cons h ih

theorem take (h : Piece Q l W) (n : ℕ) : Piece Q (l.take n) (W.take n) := List.forall₂_take n h

theorem sub (h : Piece Q l W) : l.Forall fun op => op.bufs ⊆ tcRefs τ sig := by
  induction h with
  | nil => exact trivial
  | cons h _ ih => exact (List.forall_cons _ _ _).2 ⟨h.1, ih⟩

theorem fresh (h : Piece Q l W) : ∀ op ∈ l, op.fresh = ∅ := by
  induction h with
  | nil => exact fun _ h => nomatch h
  | cons h _ ih => exact List.forall_mem_cons.2 ⟨h.2.1, ih⟩

/-- A written buffer is the buffer of a reference of `W`, and that reference satisfies `Q`. -/
theorem mem_writes (h : Piece Q l W) : ∀ op ∈ l, ∀ b ∈ op.writes, ∃ y ∈ W, Q y ∧ b = Proc.devRef (τ := τ) .tc y := by
  induction h with
  | nil => exact fun _ h => nomatch h
  | cons h _ ih =>
    refine List.forall_mem_cons.2 ⟨fun b hb => ⟨_, List.mem_cons_self, h.2.2.2, ?_⟩, fun op hop b hb => ?_⟩
    · rwa [h.2.2.1, Finset.mem_singleton] at hb
    · obtain ⟨y, hy, e⟩ := ih op hop b hb
      exact ⟨y, List.mem_cons_of_mem _ hy, e⟩

/-- A buffer whose reference is not in `W` passes through the piece. -/
theorem keep (h : Piece Q l W) (X : Valuation τ sig Val) {r : Ref sig .tc} (hr : r ∉ W) :
    after l X (Proc.devRef .tc r) = X (Proc.devRef .tc r) :=
  after_of_forall_not_mem l X fun op hop hb => by
    obtain ⟨y, hy, _, e⟩ := h.mem_writes op hop _ hb
    exact hr (Proc.devRef_injective _ e ▸ hy)

/-- A buffer whose reference fails `Q` passes through the piece. -/
theorem keep_of (h : Piece Q l W) (X : Valuation τ sig Val) {r : Ref sig .tc} (hr : ¬ Q r) :
    after l X (Proc.devRef .tc r) = X (Proc.devRef .tc r) :=
  after_of_forall_not_mem l X fun op hop hb => by
    obtain ⟨y, _, hq, e⟩ := h.mem_writes op hop _ hb
    exact hr (Proc.devRef_injective _ e ▸ hq)

end Piece

/-- Walks a literal list of operations against the literal list of the references they write. -/
macro "piece_line" : tactic =>
  `(tactic| repeat (first | exact List.Forall₂.nil | refine List.Forall₂.cons ⟨by first | with_reducible exact unary_bufs_sub .. | with_reducible exact binary_bufs_sub .. | with_reducible exact nullary_bufs_sub .. | with_reducible exact ternary_bufs_sub .. | with_reducible exact reshape_bufs_sub .. | with_reducible exact nary_bufs_sub .. | with_reducible exact quaternary_bufs_sub .. | with_reducible exact binaryIndexed_bufs_sub .. | with_reducible exact unaryIndexed_bufs_sub .. | exact unary_bufs_sub .. | exact binary_bufs_sub .. | exact nullary_bufs_sub .. | exact ternary_bufs_sub .. | exact reshape_bufs_sub .. | exact nary_bufs_sub .. | exact quaternary_bufs_sub .. | exact binaryIndexed_bufs_sub .. | exact unaryIndexed_bufs_sub .., rfl, rfl, by decide⟩ ?_))

end Cert.Hand
-- ==== Proof.RefFrame.lean ====
import proofs.«140692_j21234318312201_2_alg».proof.Defs
import proofs.«140692_j21234318312201_2_alg».proof.Proof.RefRun

noncomputable section

namespace Cert.Proof.RefFrame

open Idealize.ShloMosaic Idealize.ShloMosaic.TcCoe Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefFrame

end
-- ==== Proof.KIFinal.lean ====
import proofs.«140692_j21234318312201_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Column `n` of the output array lies in the block of point `n / 16384`, at column `n % 16384` of it. -/
abbrev tOf (n : Fin 2097152) : Fin cfg0.N :=
  ⟨n.val / 16384, by have h := n.isLt; have e : cfg0.N = 128 := N_0; omega⟩

abbrev qOf (n : Fin 2097152) : Fin 16384 := ⟨n.val % 16384, Nat.mod_lt _ (by decide)⟩

theorem col_lt (t : Fin cfg0.N) (q : Fin 16384) : t.val * 16384 + q.val < 2097152 := by
  have ht := t.isLt; have e : cfg0.N = 128 := N_0; have hq := q.isLt; omega

/-- Every window's block index at point `t` is `(0, t)`. -/
theorem idx_facts : ∀ t : Fin cfg0.N,
    (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val) :=
  (by decide +kernel : ∀ t : Fin grid0.N, _)

/-- Element `(r, q)` of point `t`'s block is element `(r, 16384 t + q)` of the array, first for any contents `X`, then for what the region finds. -/
theorem blk_read0 (X : S12x2097152.Idx → Elt F .f32) (t : Fin cfg0.N) (r : Fin 12) (q : Fin 16384) :
    ((cfg0.win 0).blk t).view.read (Elt F) X (ValueIdx.ix2 r q) = X (ValueIdx.ix2 r ⟨t.val * 16384 + q.val, col_lt t q⟩) := by
  have e := (idx_facts t).1
  refine congrArg X (Shape.idx_ext₂ ?_ ?_)
  · show win0_0.index t (0 : Fin 2) * 12 + 1 * r.val = r.val; omega
  · show win0_0.index t (1 : Fin 2) * 16384 + 1 * q.val = t.val * 16384 + q.val; omega

theorem iblk_apply0 (c : Dev nD) (t : Fin cfg0.N) (r : Fin 12) (q : Fin 16384) :
    (iblk m c 0 t : Vec F S12x16384 .f32) (ValueIdx.ix2 r q)
      = (V m c main_v718 : S12x2097152.Idx → Elt F .f32) (ValueIdx.ix2 r ⟨t.val * 16384 + q.val, col_lt t q⟩) := by
  unfold iblk
  exact blk_read0 (V m c main_v718) t r q

theorem blk_read1 (X : S3x2097152.Idx → Elt F .f32) (t : Fin cfg0.N) (r : Fin 3) (q : Fin 16384) :
    ((cfg0.win 1).blk t).view.read (Elt F) X (ValueIdx.ix2 r q) = X (ValueIdx.ix2 r ⟨t.val * 16384 + q.val, col_lt t q⟩) := by
  have e := (idx_facts t).2.1
  refine congrArg X (Shape.idx_ext₂ ?_ ?_)
  · show win0_1.index t (0 : Fin 2) * 3 + 1 * r.val = r.val; omega
  · show win0_1.index t (1 : Fin 2) * 16384 + 1 * q.val = t.val * 16384 + q.val; omega

theorem iblk_apply1 (c : Dev nD) (t : Fin cfg0.N) (r : Fin 3) (q : Fin 16384) :
    (iblk m c 1 t : Vec F S3x16384 .f32) (ValueIdx.ix2 r q)
      = (V m c main_v193 : S3x2097152.Idx → Elt F .f32) (ValueIdx.ix2 r ⟨t.val * 16384 + q.val, col_lt t q⟩) := by
  unfold iblk
  exact blk_read1 (V m c main_v193) t r q

theorem blk_read2 (X : S3x2097152.Idx → Elt F .f32) (t : Fin cfg0.N) (r : Fin 3) (q : Fin 16384) :
    ((cfg0.win 2).blk t).view.read (Elt F) X (ValueIdx.ix2 r q) = X (ValueIdx.ix2 r ⟨t.val * 16384 + q.val, col_lt t q⟩) := by
  have e := (idx_facts t).2.2.1
  refine congrArg X (Shape.idx_ext₂ ?_ ?_)
  · show win0_2.index t (0 : Fin 2) * 3 + 1 * r.val = r.val; omega
  · show win0_2.index t (1 : Fin 2) * 16384 + 1 * q.val = t.val * 16384 + q.val; omega

theorem iblk_apply2 (c : Dev nD) (t : Fin cfg0.N) (r : Fin 3) (q : Fin 16384) :
    (iblk m c 2 t : Vec F S3x16384 .f32) (ValueIdx.ix2 r q)
      = (V m c main_v298 : S3x2097152.Idx → Elt F .f32) (ValueIdx.ix2 r ⟨t.val * 16384 + q.val, col_lt t q⟩) := by
  unfold iblk
  exact blk_read2 (V m c main_v298) t r q

theorem blk_read3 (X : S2x2097152.Idx → Elt F .f32) (t : Fin cfg0.N) (r : Fin 2) (q : Fin 16384) :
    ((cfg0.win 3).blk t).view.read (Elt F) X (ValueIdx.ix2 r q) = X (ValueIdx.ix2 r ⟨t.val * 16384 + q.val, col_lt t q⟩) := by
  have e := (idx_facts t).2.2.2.1
  refine congrArg X (Shape.idx_ext₂ ?_ ?_)
  · show win0_3.index t (0 : Fin 2) * 2 + 1 * r.val = r.val; omega
  · show win0_3.index t (1 : Fin 2) * 16384 + 1 * q.val = t.val * 16384 + q.val; omega

theorem iblk_apply3 (c : Dev nD) (t : Fin cfg0.N) (r : Fin 2) (q : Fin 16384) :
    (iblk m c 3 t : Vec F S2x16384 .f32) (ValueIdx.ix2 r q)
      = (V m c main_v330 : S2x2097152.Idx → Elt F .f32) (ValueIdx.ix2 r ⟨t.val * 16384 + q.val, col_lt t q⟩) := by
  unfold iblk
  exact blk_read3 (V m c main_v330) t r q

theorem blk_read4 (X : S1x2097152.Idx → Elt F .f32) (t : Fin cfg0.N) (r : Fin 1) (q : Fin 16384) :
    ((cfg0.win 4).blk t).view.read (Elt F) X (ValueIdx.ix2 r q) = X (ValueIdx.ix2 r ⟨t.val * 16384 + q.val, col_lt t q⟩) := by
  have e := (idx_facts t).2.2.2.2.1
  refine congrArg X (Shape.idx_ext₂ ?_ ?_)
  · show win0_4.index t (0 : Fin 2) * 1 + 1 * r.val = r.val; omega
  · show win0_4.index t (1 : Fin 2) * 16384 + 1 * q.val = t.val * 16384 + q.val; omega

theorem iblk_apply4 (c : Dev nD) (t : Fin cfg0.N) (r : Fin 1) (q : Fin 16384) :
    (iblk m c 4 t : Vec F S1x16384 .f32) (ValueIdx.ix2 r q)
      = (V m c main_v443 : S1x2097152.Idx → Elt F .f32) (ValueIdx.ix2 r ⟨t.val * 16384 + q.val, col_lt t q⟩) := by
  unfold iblk
  exact blk_read4 (V m c main_v443) t r q

theorem blk_read5 (X : S4x2097152.Idx → Elt F .f32) (t : Fin cfg0.N) (r : Fin 4) (q : Fin 16384) :
    ((cfg0.win 5).blk t).view.read (Elt F) X (ValueIdx.ix2 r q) = X (ValueIdx.ix2 r ⟨t.val * 16384 + q.val, col_lt t q⟩) := by
  have e := (idx_facts t).2.2.2.2.2.1
  refine congrArg X (Shape.idx_ext₂ ?_ ?_)
  · show win0_5.index t (0 : Fin 2) * 4 + 1 * r.val = r.val; omega
  · show win0_5.index t (1 : Fin 2) * 16384 + 1 * q.val = t.val * 16384 + q.val; omega

theorem iblk_apply5 (c : Dev nD) (t : Fin cfg0.N) (r : Fin 4) (q : Fin 16384) :
    (iblk m c 5 t : Vec F S4x16384 .f32) (ValueIdx.ix2 r q)
      = (V m c main_v563 : S4x2097152.Idx → Elt F .f32) (ValueIdx.ix2 r ⟨t.val * 16384 + q.val, col_lt t q⟩) := by
  unfold iblk
  exact blk_read5 (V m c main_v563) t r q

theorem blk_read6 (X : S4x2097152.Idx → Elt F .f32) (t : Fin cfg0.N) (r : Fin 4) (q : Fin 16384) :
    ((cfg0.win 6).blk t).view.read (Elt F) X (ValueIdx.ix2 r q) = X (ValueIdx.ix2 r ⟨t.val * 16384 + q.val, col_lt t q⟩) := by
  have e := (idx_facts t).2.2.2.2.2.2.1
  refine congrArg X (Shape.idx_ext₂ ?_ ?_)
  · show win0_6.index t (0 : Fin 2) * 4 + 1 * r.val = r.val; omega
  · show win0_6.index t (1 : Fin 2) * 16384 + 1 * q.val = t.val * 16384 + q.val; omega

theorem iblk_apply6 (c : Dev nD) (t : Fin cfg0.N) (r : Fin 4) (q : Fin 16384) :
    (iblk m c 6 t : Vec F S4x16384 .f32) (ValueIdx.ix2 r q)
      = (V m c main_v683 : S4x2097152.Idx → Elt F .f32) (ValueIdx.ix2 r ⟨t.val * 16384 + q.val, col_lt t q⟩) := by
  unfold iblk
  exact blk_read6 (V m c main_v683) t r q

theorem idx_inj7 (t t' : Fin cfg0.N) (h : win0_7.index t = win0_7.index t') : t = t' := by
  have e := (idx_facts t).2.2.2.2.2.2.2.2; have e' := (idx_facts t').2.2.2.2.2.2.2.2
  have h1 := congrFun h (1 : Fin 2)
  exact Fin.ext (by omega)

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem flushed7 (c : Dev nD) (t : Fin cfg0.N) :
    (dats m 0 c).flushed 7 t = out0_7 (iblk m c 0 t) (iblk m c 1 t) (iblk m c 2 t) (iblk m c 3 t) (iblk m c 4 t) (iblk m c 5 t) (iblk m c 6 t) := by
  show (cfg0.win 7).cut (grid0.coords t) ((dats m 0 c).after 7 t) = _
  rw [after0_7]
  rfl

theorem blk7_emb (n : Fin 2097152) (r : Fin 2) :
    ((cfg0.win 7).blk (tOf n)).view.emb (ValueIdx.ix2 r (qOf n)) = ValueIdx.ix2 r n := by
  have e := (idx_facts (tOf n)).2.2.2.2.2.2.2
  refine Shape.idx_ext₂ ?_ ?_
  · show win0_7.index (tOf n) (0 : Fin 2) * 2 + 1 * r.val = r.val; omega
  · show win0_7.index (tOf n) (1 : Fin 2) * 16384 + 1 * (n.val % 16384) = n.val
    have e1 : win0_7.index (tOf n) (1 : Fin 2) = n.val / 16384 := e.2
    omega

/-- Element `(r, n)` of the output array after the run is what its point's body computed there. -/
theorem arr7_apply (c : Dev nD) (n : Fin 2097152) (r : Fin 2) :
    ((dats m 0 c).arrAt 7 cfg0.N : S2x2097152.Idx → Elt F .f32) (ValueIdx.ix2 r n)
      = out0_7 (iblk m c 0 (tOf n)) (iblk m c 1 (tOf n)) (iblk m c 2 (tOf n)) (iblk m c 3 (tOf n)) (iblk m c 4 (tOf n)) (iblk m c 5 (tOf n)) (iblk m c 6 (tOf n)) (ValueIdx.ix2 r (qOf n)) := by
  have h := (dats m 0 c).arrAt_emb_eq_flushed 7 disjoint7 (tOf n) (flush0_7 (tOf n)) (ValueIdx.ix2 r (qOf n))
  rw [flushed7] at h
  exact (congrArg ((dats m 0 c).arrAt 7 cfg0.N) (blk7_emb n r).symm).trans (h.trans (cast_eq _ _))

/-- The result is the transpose of the output array after the run. -/
theorem tail_eq (c : Dev nD) :
    (Pipeline.afterTail₀ cfgs (dats m) 0 (V0 m) [hostOps1] c main_v720 : S2097152x2.Idx → Elt F .f32)
      = transpose S2097152x2 [1, 0] ((dats m 0 c).arrAt 7 cfg0.N : S2x2097152.Idx → Elt F .f32) transposes_S2x2097152_S2097152x2_1_0 := by
  unfold Pipeline.afterTail₀
  show StableHlo.after hostOps1 _ (Proc.devRef .tc main_v720) = _
  after_results
  exact congrArg (fun x => transpose S2097152x2 [1, 0] x transposes_S2x2097152_S2097152x2_1_0)
    (Pipeline.withArrays_arr spec0 launch0.win.arr_inj c (V0 m c) (fun w => (dats m 0 c).arrAt w cfg0.N) 7)

theorem transpose_ix2 (X : S2x2097152.Idx → Elt F .f32) (n : Fin 2097152) (r : Fin 2) :
    transpose S2097152x2 [1, 0] X transposes_S2x2097152_S2097152x2_1_0 (ValueIdx.ix2 n r) = X (ValueIdx.ix2 r n) :=
  transpose_apply [1, 0] X _ _ _ fun b => match b with | ⟨0, _⟩ => rfl | ⟨1, _⟩ => rfl

theorem final_apply (c : Dev nD) (n : Fin 2097152) (r : Fin 2) :
    (Pipeline.afterTail₀ cfgs (dats m) 0 (V0 m) [hostOps1] c main_v720 : S2097152x2.Idx → Elt F .f32) (ValueIdx.ix2 n r)
      = out0_7 (iblk m c 0 (tOf n)) (iblk m c 1 (tOf n)) (iblk m c 2 (tOf n)) (iblk m c 3 (tOf n)) (iblk m c 4 (tOf n)) (iblk m c 5 (tOf n)) (iblk m c 6 (tOf n)) (ValueIdx.ix2 r (qOf n)) :=
  (congrFun (tail_eq m c) (ValueIdx.ix2 n r)).trans
    ((transpose_ix2 ((dats m 0 c).arrAt 7 cfg0.N) n r).trans (arr7_apply m c n r))

theorem final_row0 (c : Dev nD) (n : Fin 2097152) :
    (Pipeline.afterTail₀ cfgs (dats m) 0 (V0 m) [hostOps1] c main_v720 : S2097152x2.Idx → Elt F .f32) (ValueIdx.ix2 n (0 : Fin 2))
      = outX (iblk m c 0 (tOf n)) (iblk m c 1 (tOf n)) (iblk m c 2 (tOf n)) (iblk m c 3 (tOf n)) (iblk m c 4 (tOf n)) (iblk m c 5 (tOf n)) (iblk m c 6 (tOf n)) (ValueIdx.ix2 (0 : Fin 1) (qOf n)) :=
  (final_apply m c n 0).trans (canon_row0 _ _ (qOf n))

theorem final_row1 (c : Dev nD) (n : Fin 2097152) :
    (Pipeline.afterTail₀ cfgs (dats m) 0 (V0 m) [hostOps1] c main_v720 : S2097152x2.Idx → Elt F .f32) (ValueIdx.ix2 n (1 : Fin 2))
      = outY (iblk m c 0 (tOf n)) (iblk m c 1 (tOf n)) (iblk m c 2 (tOf n)) (iblk m c 3 (tOf n)) (iblk m c 4 (tOf n)) (iblk m c 5 (tOf n)) (iblk m c 6 (tOf n)) (ValueIdx.ix2 (0 : Fin 1) (qOf n)) :=
  (final_apply m c n 1).trans (canon_row1 _ _ (qOf n))

/-- The program terminates with its result at what the last stretch computes and every argument array as launched. -/
theorem kernel_run : θ_run defs (onTc (τ := τ) (main (F := F))) ⟨m, fun _ => 0, ρ⟩ (fun r => ∀ c : Dev nD,
      r.2.mem ((c.tc : Thread nD τ).loc main_v720) = Pipeline.afterTail₀ cfgs (dats m) 0 (V0 m) [hostOps1] c main_v720 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16)) := by
  refine (θ_run defs _ _).mono (fun r hpost c => ?_) (run_main m ρ)
  refine ⟨(hpost c).2 _ (Pipeline.mem_restRefs_of _ (by decide) (by decide)),
    ?_⟩
  and_intros <;> exact arg_kept m (dats m) hpost c (by decide) (by decide)

end Cert.KernelIdeal.Hand

end
-- ==== Proof.KIBodyAt.lean ====
import proofs.«140692_j21234318312201_2_alg».proof.Proof.KIBody
import Idealize.ShloMosaic.Lib.Pipeline.Value
import Idealize.ShloMosaic.Lib.ValueIdx

noncomputable section

namespace Cert.KernelIdeal.Hand

open Idealize.ShloMosaic Idealize.ShloMosaic.ValueIdx Cert.KernelIdeal

/-- Row `k` of a block, read at column `q`, is the block at `(k, q)`: the row's rectangle sits at offsets `(k, 0)` with unit strides. -/
theorem ld_row {Val : EltTy → Type} {e : EltTy} {R N k : Nat}
    (inb : ∀ a, (![k, 0] : Fin 2 → Nat) a + (⟨2, ![1, N]⟩ : Shape).size a ≤ (⟨2, ![R, N]⟩ : Shape).size a)
    (x : (⟨2, ![R, N]⟩ : Shape).Idx → Val e) (q : Fin N) :
    View.ld x (Rect.unit (s := ⟨2, ![R, N]⟩) ![k, 0] (⟨2, ![1, N]⟩ : Shape).size inb) (ix2 (0 : Fin 1) q) = x (ix2 ⟨k, inb 0⟩ q) :=
  congrArg x (Shape.idx_ext₂ (Nat.add_zero k) ((Nat.zero_add _).trans (Nat.one_mul _)))

variable {F : FTy → Type} [FloatOps F]

theorem ld_r12_0 (x : Vec F S12x16384 .f32) (q : Fin 16384) : View.ld x r12_0 (ix2 0 q) = x (ix2 0 q) :=
  ld_row _ x q
theorem ld_r12_1 (x : Vec F S12x16384 .f32) (q : Fin 16384) : View.ld x r12_1 (ix2 0 q) = x (ix2 1 q) :=
  ld_row _ x q
theorem ld_r12_3 (x : Vec F S12x16384 .f32) (q : Fin 16384) : View.ld x r12_3 (ix2 0 q) = x (ix2 3 q) :=
  ld_row _ x q
theorem ld_r12_4 (x : Vec F S12x16384 .f32) (q : Fin 16384) : View.ld x r12_4 (ix2 0 q) = x (ix2 4 q) :=
  ld_row _ x q
theorem ld_r12_5 (x : Vec F S12x16384 .f32) (q : Fin 16384) : View.ld x r12_5 (ix2 0 q) = x (ix2 5 q) :=
  ld_row _ x q
theorem ld_r12_6 (x : Vec F S12x16384 .f32) (q : Fin 16384) : View.ld x r12_6 (ix2 0 q) = x (ix2 6 q) :=
  ld_row _ x q
theorem ld_r12_7 (x : Vec F S12x16384 .f32) (q : Fin 16384) : View.ld x r12_7 (ix2 0 q) = x (ix2 7 q) :=
  ld_row _ x q
theorem ld_r12_8 (x : Vec F S12x16384 .f32) (q : Fin 16384) : View.ld x r12_8 (ix2 0 q) = x (ix2 8 q) :=
  ld_row _ x q
theorem ld_r12_9 (x : Vec F S12x16384 .f32) (q : Fin 16384) : View.ld x r12_9 (ix2 0 q) = x (ix2 9 q) :=
  ld_row _ x q
theorem ld_r12_10 (x : Vec F S12x16384 .f32) (q : Fin 16384) : View.ld x r12_10 (ix2 0 q) = x (ix2 10 q) :=
  ld_row _ x q
theorem ld_r12_11 (x : Vec F S12x16384 .f32) (q : Fin 16384) : View.ld x r12_11 (ix2 0 q) = x (ix2 11 q) :=
  ld_row _ x q
theorem ld_r3_0 (x : Vec F S3x16384 .f32) (q : Fin 16384) : View.ld x r3_0 (ix2 0 q) = x (ix2 0 q) :=
  ld_row _ x q
theorem ld_r3_1 (x : Vec F S3x16384 .f32) (q : Fin 16384) : View.ld x r3_1 (ix2 0 q) = x (ix2 1 q) :=
  ld_row _ x q
theorem ld_r3_2 (x : Vec F S3x16384 .f32) (q : Fin 16384) : View.ld x r3_2 (ix2 0 q) = x (ix2 2 q) :=
  ld_row _ x q
theorem ld_r2_0 (x : Vec F S2x16384 .f32) (q : Fin 16384) : View.ld x r2_0 (ix2 0 q) = x (ix2 0 q) :=
  ld_row _ x q
theorem ld_r2_1 (x : Vec F S2x16384 .f32) (q : Fin 16384) : View.ld x r2_1 (ix2 0 q) = x (ix2 1 q) :=
  ld_row _ x q
theorem ld_r1_0 (x : Vec F S1x16384 .f32) (q : Fin 16384) : View.ld x r1_0 (ix2 0 q) = x (ix2 0 q) :=
  ld_row _ x q
theorem ld_r4_0 (x : Vec F S4x16384 .f32) (q : Fin 16384) : View.ld x r4_0 (ix2 0 q) = x (ix2 0 q) :=
  ld_row _ x q
theorem ld_r4_1 (x : Vec F S4x16384 .f32) (q : Fin 16384) : View.ld x r4_1 (ix2 0 q) = x (ix2 1 q) :=
  ld_row _ x q
theorem ld_r4_2 (x : Vec F S4x16384 .f32) (q : Fin 16384) : View.ld x r4_2 (ix2 0 q) = x (ix2 2 q) :=
  ld_row _ x q
theorem ld_r4_3 (x : Vec F S4x16384 .f32) (q : Fin 16384) : View.ld x r4_3 (ix2 0 q) = x (ix2 3 q) :=
  ld_row _ x q

end Cert.KernelIdeal.Hand

end
-- ==== Proof.KIKeep.lean ====
/- Which references each stretch of host operations before the region writes; the thirty-five stretches joined into nine groups, one per table lookup; the contents at the region's entry as the groups run in order from the launch contents. -/
import proofs.«140692_j21234318312201_2_alg».proof.Proof.KIMain
import proofs.«140692_j21234318312201_2_alg».proof.Proof.LibPiece
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo Cert.Hand

variable {F : FTy → Type} [FloatOps F]

abbrev High (r : Ref sig .tc) : Prop := 17 ≤ r.idx.val

abbrev kw0 : List (Ref sig .tc) := [main_v0, main_v1, main_v2, main_v3, main_v4, main_v5, main_v6, main_v7, main_v8, main_v9, main_v10, main_v11, main_v12, main_cst, main_cst_0]
theorem hostOps0_ok : Piece High (hostOps0 (F := F)) kw0 := by piece_line
abbrev kw1 : List (Ref sig .tc) := [main_call0_v0, main_call0_v1, main_call0_v2, main_call0_v3, main_call0_v4, main_v13]
theorem hostOps0_1_ok : Piece High (hostOps0_1 (F := F)) kw1 := by piece_line
abbrev kw2 : List (Ref sig .tc) := [main_cst_1, main_v14, main_v15, main_cst_2, main_cst_3]
theorem hostOps0_2_ok : Piece High (hostOps0_2 (F := F)) kw2 := by piece_line
abbrev kw3 : List (Ref sig .tc) := [main_call1_v0, main_call1_v1, main_call1_v2, main_call1_v3, main_call1_v4, main_v16]
theorem hostOps0_3_ok : Piece High (hostOps0_3 (F := F)) kw3 := by piece_line
abbrev kw4 : List (Ref sig .tc) := [main_cst_4, main_v17, main_v18]
theorem hostOps0_4_ok : Piece High (hostOps0_4 (F := F)) kw4 := by piece_line
abbrev kw5 : List (Ref sig .tc) := [main_v19]
theorem hostOps0_5_ok : Piece High (hostOps0_5 (F := F)) kw5 := by piece_line
abbrev kw6 : List (Ref sig .tc) := [main_v20]
theorem hostOps0_6_ok : Piece High (hostOps0_6 (F := F)) kw6 := by piece_line
abbrev kw7 : List (Ref sig .tc) := [main_v21]
theorem hostOps0_7_ok : Piece High (hostOps0_7 (F := F)) kw7 := by piece_line
abbrev kw8 : List (Ref sig .tc) := [main_v22, main_c, main_v23, main_v24, main_v25, main_v26, main_c_5, main_v27, main_v28, main_c_6, main_v29, main_v30, main_v31, main_v32, main_v33, main_cst_7, main_v34, main_v35, main_cst_8, main_v36, main_v37, main_cst_9, main_v38, main_v39, main_v40, main_v41, main_v42, main_cst_10, main_v43, main_v44, main_v45, main_v46, main_v47, main_v48, main_v49, main_v50, main_v51, main_cst_11, main_v52, main_v53, main_cst_12, main_v54, main_v55, main_cst_13, main_v56, main_v57, main_v58, main_v59, main_v60, main_cst_14, main_v61, main_v62, main_cst_15, main_cst_16]
theorem hostOps0_8_ok : Piece High (hostOps0_8 (F := F)) kw8 := by piece_line
abbrev kw9 : List (Ref sig .tc) := [main_call4_v0, main_call4_v1, main_call4_v2, main_call4_v3, main_call4_v4, main_v63]
theorem hostOps0_9_ok : Piece High (hostOps0_9 (F := F)) kw9 := by piece_line
abbrev kw10 : List (Ref sig .tc) := [main_cst_17, main_v64, main_v65]
theorem hostOps0_10_ok : Piece High (hostOps0_10 (F := F)) kw10 := by piece_line
abbrev kw11 : List (Ref sig .tc) := [main_v66]
theorem hostOps0_11_ok : Piece High (hostOps0_11 (F := F)) kw11 := by piece_line
abbrev kw12 : List (Ref sig .tc) := [main_v67, main_c_18, main_v68, main_v69, main_c_19, main_v70, main_v71, main_v72, main_v73, main_v74, main_v75, main_v76, main_v77, main_cst_20, main_v78, main_v79, main_cst_21, main_v80, main_v81, main_cst_22, main_v82, main_v83, main_v84, main_v85, main_v86, main_cst_23, main_v87, main_v88, main_cst_24, main_cst_25]
theorem hostOps0_12_ok : Piece High (hostOps0_12 (F := F)) kw12 := by piece_line
abbrev kw13 : List (Ref sig .tc) := [main_call6_v0, main_call6_v1, main_call6_v2, main_call6_v3, main_call6_v4, main_v89]
theorem hostOps0_13_ok : Piece High (hostOps0_13 (F := F)) kw13 := by piece_line
abbrev kw14 : List (Ref sig .tc) := [main_cst_26, main_v90, main_v91, main_cst_27, main_cst_28]
theorem hostOps0_14_ok : Piece High (hostOps0_14 (F := F)) kw14 := by piece_line
abbrev kw15 : List (Ref sig .tc) := [main_call7_v0, main_call7_v1, main_call7_v2, main_call7_v3, main_call7_v4, main_v92]
theorem hostOps0_15_ok : Piece High (hostOps0_15 (F := F)) kw15 := by piece_line
abbrev kw16 : List (Ref sig .tc) := [main_cst_29, main_v93, main_v94, main_v95, main_v96, main_v97, main_v98, main_v99, main_v100, main_v101, main_v102, main_c_30, main_v103, main_v104, main_c_31, main_v105, main_v106, main_c_32, main_v107, main_v108, main_c_33, main_v109, main_v110, main_c_34, main_v111, main_v112, main_c_35, main_v113, main_v114, main_v115, main_c_36, main_v116, main_v117, main_c_37, main_v118, main_v119, main_v120, main_v121, main_v122, main_v123, main_v124, main_cst_38, main_v125, main_v126, main_v127, main_v128, main_cst_39, main_v129, main_v130, main_v131, main_v132, main_c_40, main_v133, main_v134, main_c_41, main_v135, main_v136, main_v137, main_c_42, main_v138, main_v139, main_c_43, main_v140, main_v141, main_v142, main_v143, main_v144, main_v145, main_v146, main_v147, main_v148, main_cst_44, main_v149, main_v150, main_v151, main_v152, main_v153, main_c_45, main_v154, main_v155, main_c_46, main_v156, main_v157, main_v158, main_c_47, main_v159, main_v160, main_c_48, main_v161, main_v162, main_v163, main_v164, main_v165, main_v166, main_v167, main_cst_49, main_v168, main_v169, main_v170, main_v171, main_v172, main_v173, main_v174, main_c_50, main_v175, main_v176, main_c_51, main_v177, main_v178, main_v179, main_c_52, main_v180, main_v181, main_c_53, main_v182, main_v183, main_v184, main_v185, main_v186, main_v187, main_v188, main_v189, main_v190, main_v191, main_v192, main_v193, main_cst_54, main_cst_55]
theorem hostOps0_16_ok : Piece High (hostOps0_16 (F := F)) kw16 := by piece_line
abbrev kw17 : List (Ref sig .tc) := [main_call8_v0, main_call8_v1, main_call8_v2, main_call8_v3, main_call8_v4, main_v194]
theorem hostOps0_17_ok : Piece High (hostOps0_17 (F := F)) kw17 := by piece_line
abbrev kw18 : List (Ref sig .tc) := [main_cst_56, main_v195, main_v196, main_cst_57, main_cst_58]
theorem hostOps0_18_ok : Piece High (hostOps0_18 (F := F)) kw18 := by piece_line
abbrev kw19 : List (Ref sig .tc) := [main_call9_v0, main_call9_v1, main_call9_v2, main_call9_v3, main_call9_v4, main_v197]
theorem hostOps0_19_ok : Piece High (hostOps0_19 (F := F)) kw19 := by piece_line
abbrev kw20 : List (Ref sig .tc) := [main_cst_59, main_v198, main_v199, main_v200, main_v201, main_v202, main_v203, main_v204, main_v205, main_v206, main_v207, main_c_60, main_v208, main_v209, main_c_61, main_v210, main_v211, main_c_62, main_v212, main_v213, main_c_63, main_v214, main_v215, main_c_64, main_v216, main_v217, main_c_65, main_v218, main_v219, main_v220, main_c_66, main_v221, main_v222, main_c_67, main_v223, main_v224, main_v225, main_v226, main_v227, main_v228, main_v229, main_cst_68, main_v230, main_v231, main_v232, main_v233, main_cst_69, main_v234, main_v235, main_v236, main_v237, main_c_70, main_v238, main_v239, main_c_71, main_v240, main_v241, main_v242, main_c_72, main_v243, main_v244, main_c_73, main_v245, main_v246, main_v247, main_v248, main_v249, main_v250, main_v251, main_v252, main_v253, main_cst_74, main_v254, main_v255, main_v256, main_v257, main_v258, main_c_75, main_v259, main_v260, main_c_76, main_v261, main_v262, main_v263, main_c_77, main_v264, main_v265, main_c_78, main_v266, main_v267, main_v268, main_v269, main_v270, main_v271, main_v272, main_cst_79, main_v273, main_v274, main_v275, main_v276, main_v277, main_v278, main_v279, main_c_80, main_v280, main_v281, main_c_81, main_v282, main_v283, main_v284, main_c_82, main_v285, main_v286, main_c_83, main_v287, main_v288, main_v289, main_v290, main_v291, main_v292, main_v293, main_v294, main_v295, main_v296, main_v297, main_v298, main_cst_84, main_cst_85]
theorem hostOps0_20_ok : Piece High (hostOps0_20 (F := F)) kw20 := by piece_line
abbrev kw21 : List (Ref sig .tc) := [main_call10_v0, main_call10_v1, main_call10_v2, main_call10_v3, main_call10_v4, main_v299]
theorem hostOps0_21_ok : Piece High (hostOps0_21 (F := F)) kw21 := by piece_line
abbrev kw22 : List (Ref sig .tc) := [main_cst_86, main_v300, main_v301, main_v302, main_v303, main_v304, main_v305, main_c_87, main_v306, main_v307, main_c_88, main_v308, main_v309, main_c_89, main_v310, main_v311, main_c_90, main_v312, main_v313, main_v314, main_v315, main_v316, main_cst_91, main_v317, main_v318, main_v319, main_v320, main_c_92, main_v321, main_v322, main_c_93, main_v323, main_v324, main_v325, main_v326, main_v327, main_v328, main_v329, main_v330, main_v331, main_v332, main_v333, main_v334, main_v335, main_cst_94, main_v336, main_v337, main_cst_95, main_v338, main_v339, main_cst_96, main_v340, main_v341, main_v342, main_v343, main_v344, main_cst_97, main_v345, main_v346, main_cst_98, main_cst_99]
theorem hostOps0_22_ok : Piece High (hostOps0_22 (F := F)) kw22 := by piece_line
abbrev kw23 : List (Ref sig .tc) := [main_call11_v0, main_call11_v1, main_call11_v2, main_call11_v3, main_call11_v4, main_v347]
theorem hostOps0_23_ok : Piece High (hostOps0_23 (F := F)) kw23 := by piece_line
abbrev kw24 : List (Ref sig .tc) := [main_cst_100, main_v348, main_v349, main_cst_101, main_cst_102]
theorem hostOps0_24_ok : Piece High (hostOps0_24 (F := F)) kw24 := by piece_line
abbrev kw25 : List (Ref sig .tc) := [main_call12_v0, main_call12_v1, main_call12_v2, main_call12_v3, main_call12_v4, main_v350]
theorem hostOps0_25_ok : Piece High (hostOps0_25 (F := F)) kw25 := by piece_line
abbrev kw26 : List (Ref sig .tc) := [main_cst_103, main_v351, main_v352, main_v353, main_v354, main_v355, main_v356, main_v357, main_v358, main_v359, main_v360, main_c_104, main_v361, main_v362, main_c_105, main_v363, main_v364, main_c_106, main_v365, main_v366, main_c_107, main_v367, main_v368, main_c_108, main_v369, main_v370, main_c_109, main_v371, main_v372, main_v373, main_c_110, main_v374, main_v375, main_c_111, main_v376, main_v377, main_v378, main_v379, main_v380, main_v381, main_v382, main_cst_112, main_v383, main_v384, main_v385, main_cst_113, main_v386, main_v387, main_v388, main_c_114, main_v389, main_v390, main_c_115, main_v391, main_v392, main_v393, main_c_116, main_v394, main_v395, main_c_117, main_v396, main_v397, main_v398, main_v399, main_v400, main_v401, main_v402, main_v403, main_cst_118, main_v404, main_v405, main_v406, main_v407, main_c_119, main_v408, main_v409, main_c_120, main_v410, main_v411, main_v412, main_c_121, main_v413, main_v414, main_c_122, main_v415, main_v416, main_v417, main_v418, main_v419, main_v420, main_v421, main_cst_123, main_v422, main_v423, main_v424, main_v425, main_v426, main_c_124, main_v427, main_v428, main_c_125, main_v429, main_v430, main_v431, main_c_126, main_v432, main_v433, main_c_127, main_v434, main_v435, main_v436, main_v437, main_v438, main_v439, main_v440, main_v441, main_v442, main_v443, main_v444, main_v445, main_v446, main_v447, main_cst_128, main_v448, main_v449, main_cst_129, main_v450, main_v451, main_cst_130, main_v452, main_v453, main_v454, main_v455, main_v456, main_cst_131, main_v457, main_v458, main_cst_132, main_cst_133]
theorem hostOps0_26_ok : Piece High (hostOps0_26 (F := F)) kw26 := by piece_line
abbrev kw27 : List (Ref sig .tc) := [main_call13_v0, main_call13_v1, main_call13_v2, main_call13_v3, main_call13_v4, main_v459]
theorem hostOps0_27_ok : Piece High (hostOps0_27 (F := F)) kw27 := by piece_line
abbrev kw28 : List (Ref sig .tc) := [main_cst_134, main_v460, main_v461, main_cst_135, main_cst_136]
theorem hostOps0_28_ok : Piece High (hostOps0_28 (F := F)) kw28 := by piece_line
abbrev kw29 : List (Ref sig .tc) := [main_call14_v0, main_call14_v1, main_call14_v2, main_call14_v3, main_call14_v4, main_v462]
theorem hostOps0_29_ok : Piece High (hostOps0_29 (F := F)) kw29 := by piece_line
abbrev kw30 : List (Ref sig .tc) := [main_cst_137, main_v463, main_v464, main_v465, main_v466, main_v467, main_v468, main_v469, main_v470, main_v471, main_v472, main_c_138, main_v473, main_v474, main_c_139, main_v475, main_v476, main_c_140, main_v477, main_v478, main_c_141, main_v479, main_v480, main_c_142, main_v481, main_v482, main_c_143, main_v483, main_v484, main_v485, main_c_144, main_v486, main_v487, main_c_145, main_v488, main_v489, main_v490, main_v491, main_v492, main_v493, main_v494, main_cst_146, main_v495, main_v496, main_v497, main_v498, main_cst_147, main_v499, main_v500, main_v501, main_v502, main_c_148, main_v503, main_v504, main_c_149, main_v505, main_v506, main_v507, main_c_150, main_v508, main_v509, main_c_151, main_v510, main_v511, main_v512, main_v513, main_v514, main_v515, main_v516, main_v517, main_v518, main_cst_152, main_v519, main_v520, main_v521, main_v522, main_v523, main_c_153, main_v524, main_v525, main_c_154, main_v526, main_v527, main_v528, main_c_155, main_v529, main_v530, main_c_156, main_v531, main_v532, main_v533, main_v534, main_v535, main_v536, main_v537, main_cst_157, main_v538, main_v539, main_v540, main_v541, main_v542, main_v543, main_v544, main_c_158, main_v545, main_v546, main_c_159, main_v547, main_v548, main_v549, main_c_160, main_v550, main_v551, main_c_161, main_v552, main_v553, main_v554, main_v555, main_v556, main_v557, main_v558, main_v559, main_v560, main_v561, main_v562, main_v563, main_v564, main_v565, main_v566, main_v567, main_cst_162, main_v568, main_v569, main_cst_163, main_v570, main_v571, main_cst_164, main_v572, main_v573, main_v574, main_v575, main_v576, main_cst_165, main_v577, main_v578, main_cst_166, main_cst_167]
theorem hostOps0_30_ok : Piece High (hostOps0_30 (F := F)) kw30 := by piece_line
abbrev kw31 : List (Ref sig .tc) := [main_call15_v0, main_call15_v1, main_call15_v2, main_call15_v3, main_call15_v4, main_v579]
theorem hostOps0_31_ok : Piece High (hostOps0_31 (F := F)) kw31 := by piece_line
abbrev kw32 : List (Ref sig .tc) := [main_cst_168, main_v580, main_v581, main_cst_169, main_cst_170]
theorem hostOps0_32_ok : Piece High (hostOps0_32 (F := F)) kw32 := by piece_line
abbrev kw33 : List (Ref sig .tc) := [main_call16_v0, main_call16_v1, main_call16_v2, main_call16_v3, main_call16_v4, main_v582]
theorem hostOps0_33_ok : Piece High (hostOps0_33 (F := F)) kw33 := by piece_line
abbrev kw34 : List (Ref sig .tc) := [main_cst_171, main_v583, main_v584, main_v585, main_v586, main_v587, main_v588, main_v589, main_v590, main_v591, main_v592, main_c_172, main_v593, main_v594, main_c_173, main_v595, main_v596, main_c_174, main_v597, main_v598, main_c_175, main_v599, main_v600, main_c_176, main_v601, main_v602, main_c_177, main_v603, main_v604, main_v605, main_c_178, main_v606, main_v607, main_c_179, main_v608, main_v609, main_v610, main_v611, main_v612, main_v613, main_v614, main_cst_180, main_v615, main_v616, main_v617, main_v618, main_cst_181, main_v619, main_v620, main_v621, main_v622, main_c_182, main_v623, main_v624, main_c_183, main_v625, main_v626, main_v627, main_c_184, main_v628, main_v629, main_c_185, main_v630, main_v631, main_v632, main_v633, main_v634, main_v635, main_v636, main_v637, main_v638, main_cst_186, main_v639, main_v640, main_v641, main_v642, main_v643, main_c_187, main_v644, main_v645, main_c_188, main_v646, main_v647, main_v648, main_c_189, main_v649, main_v650, main_c_190, main_v651, main_v652, main_v653, main_v654, main_v655, main_v656, main_v657, main_cst_191, main_v658, main_v659, main_v660, main_v661, main_v662, main_v663, main_v664, main_c_192, main_v665, main_v666, main_c_193, main_v667, main_v668, main_v669, main_c_194, main_v670, main_v671, main_c_195, main_v672, main_v673, main_v674, main_v675, main_v676, main_v677, main_v678, main_v679, main_v680, main_v681, main_v682, main_v683, main_v684, main_v685, main_v686, main_v687, main_v688, main_v689, main_v690, main_v691, main_v692, main_v693, main_v694, main_v695, main_v696, main_v697, main_v698, main_v699, main_v700, main_v701, main_v702, main_v703, main_v704, main_v705, main_v706, main_v707, main_v708, main_v709, main_v710, main_v711, main_v712, main_v713, main_v714, main_v715, main_v716, main_v717, main_v718]
theorem hostOps0_34_ok : Piece High (hostOps0_34 (F := F)) kw34 := by piece_line

abbrev kg0 : List (HloOp τ sig (Elt F)) := hostOps0
abbrev kwg0 : List (Ref sig .tc) := kw0
theorem kg0_ok : Piece High (kg0 (F := F)) kwg0 :=
  hostOps0_ok
abbrev kg1 : List (HloOp τ sig (Elt F)) := hostOps0_1 ++ (hostOps0_2 ++ (hostOps0_3 ++ (hostOps0_4 ++ (hostOps0_5 ++ (hostOps0_6 ++ (hostOps0_7 ++ (hostOps0_8)))))))
abbrev kwg1 : List (Ref sig .tc) := kw1 ++ (kw2 ++ (kw3 ++ (kw4 ++ (kw5 ++ (kw6 ++ (kw7 ++ (kw8)))))))
theorem kg1_ok : Piece High (kg1 (F := F)) kwg1 :=
  hostOps0_1_ok.append (hostOps0_2_ok.append (hostOps0_3_ok.append (hostOps0_4_ok.append (hostOps0_5_ok.append (hostOps0_6_ok.append (hostOps0_7_ok.append (hostOps0_8_ok)))))))
abbrev kg2 : List (HloOp τ sig (Elt F)) := hostOps0_9 ++ (hostOps0_10 ++ (hostOps0_11 ++ (hostOps0_12)))
abbrev kwg2 : List (Ref sig .tc) := kw9 ++ (kw10 ++ (kw11 ++ (kw12)))
theorem kg2_ok : Piece High (kg2 (F := F)) kwg2 :=
  hostOps0_9_ok.append (hostOps0_10_ok.append (hostOps0_11_ok.append (hostOps0_12_ok)))
abbrev kg3 : List (HloOp τ sig (Elt F)) := hostOps0_13 ++ (hostOps0_14 ++ (hostOps0_15 ++ (hostOps0_16)))
abbrev kwg3 : List (Ref sig .tc) := kw13 ++ (kw14 ++ (kw15 ++ (kw16)))
theorem kg3_ok : Piece High (kg3 (F := F)) kwg3 :=
  hostOps0_13_ok.append (hostOps0_14_ok.append (hostOps0_15_ok.append (hostOps0_16_ok)))
abbrev kg4 : List (HloOp τ sig (Elt F)) := hostOps0_17 ++ (hostOps0_18 ++ (hostOps0_19 ++ (hostOps0_20)))
abbrev kwg4 : List (Ref sig .tc) := kw17 ++ (kw18 ++ (kw19 ++ (kw20)))
theorem kg4_ok : Piece High (kg4 (F := F)) kwg4 :=
  hostOps0_17_ok.append (hostOps0_18_ok.append (hostOps0_19_ok.append (hostOps0_20_ok)))
abbrev kg5 : List (HloOp τ sig (Elt F)) := hostOps0_21 ++ (hostOps0_22)
abbrev kwg5 : List (Ref sig .tc) := kw21 ++ (kw22)
theorem kg5_ok : Piece High (kg5 (F := F)) kwg5 :=
  hostOps0_21_ok.append (hostOps0_22_ok)
abbrev kg6 : List (HloOp τ sig (Elt F)) := hostOps0_23 ++ (hostOps0_24 ++ (hostOps0_25 ++ (hostOps0_26)))
abbrev kwg6 : List (Ref sig .tc) := kw23 ++ (kw24 ++ (kw25 ++ (kw26)))
theorem kg6_ok : Piece High (kg6 (F := F)) kwg6 :=
  hostOps0_23_ok.append (hostOps0_24_ok.append (hostOps0_25_ok.append (hostOps0_26_ok)))
abbrev kg7 : List (HloOp τ sig (Elt F)) := hostOps0_27 ++ (hostOps0_28 ++ (hostOps0_29 ++ (hostOps0_30)))
abbrev kwg7 : List (Ref sig .tc) := kw27 ++ (kw28 ++ (kw29 ++ (kw30)))
theorem kg7_ok : Piece High (kg7 (F := F)) kwg7 :=
  hostOps0_27_ok.append (hostOps0_28_ok.append (hostOps0_29_ok.append (hostOps0_30_ok)))
abbrev kg8 : List (HloOp τ sig (Elt F)) := hostOps0_31 ++ (hostOps0_32 ++ (hostOps0_33 ++ (hostOps0_34)))
abbrev kwg8 : List (Ref sig .tc) := kw31 ++ (kw32 ++ (kw33 ++ (kw34)))
theorem kg8_ok : Piece High (kg8 (F := F)) kwg8 :=
  hostOps0_31_ok.append (hostOps0_32_ok.append (hostOps0_33_ok.append (hostOps0_34_ok)))

variable (m : (ℓ : Loc nD τ sig) → Buf (Elt F) ℓ)

theorem V0_groups (c : Dev nD) :
    V0 m c = after kg8 (after kg7 (after kg6 (after kg5 (after kg4 (after kg3 (after kg2 (after kg1 (after kg0 (fun b => m (c, b)))))))))) := by
  simp only [V0, pre, List.flatten_cons, List.flatten_nil, List.append_nil, kg0, kg1, kg2, kg3, kg4, kg5, kg6, kg7, kg8, after_app]

end Cert.KernelIdeal.Hand

end
-- ==== Proof.LibLayoutIx.lean ====
import Idealize.ShloMosaic.Lib.ValueLayout

namespace Cert.LibLayoutIx

open Idealize.ShloMosaic Idealize.ShloMosaic.ValueIdx

variable {α : Type}

/-- A coordinate on an axis of extent one is zero, so either way a broadcast reads the coordinate. -/
theorem val_eq_ite_unit {N : Nat} (n : Fin N) : n.val = if N = 1 then 0 else n.val := by
  have := n.isLt
  split <;> omega

theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) fun | ⟨0, _⟩ => val_eq_ite_unit n

theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) fun | ⟨0, _⟩ => val_eq_ite_unit n

theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) fun | ⟨0, _⟩ => rfl | ⟨1, _⟩ => val_eq_ite_unit n

theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) fun | ⟨0, _⟩ => val_eq_ite_unit n | ⟨1, _⟩ => rfl

theorem slice_col_lt {N C k : Nat} (h : (⟨2, ![N, C]⟩ : Shape).Slices ![0, k] ⟨2, ![N, 1]⟩) : k < C := h.2 1

theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  slice2_axis1_apply k x h n z _ (by have := z.isLt; show k = k + z.val; omega)

theorem slice_row_lt {R N k : Nat} (h : (⟨2, ![R, N]⟩ : Shape).Slices ![k, 0] ⟨2, ![1, N]⟩) : k < R := h.2 0

theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  slice2_axis0_apply k x h z n _ (by have := z.isLt; show k = k + z.val; omega)

theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    exact Nat.mul_one n.val)

theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_1a_a_apply x h n

/-- Row `f` of a `[U, V, L]` table flattened to `[U * V, L]` is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, Nat.div_lt_of_lt_mul (Nat.mul_comm U V ▸ f.isLt)⟩
          ⟨f.val % V, Nat.mod_lt _ (Nat.pos_of_lt_mul_left f.isLt)⟩ l) :=
  shapeCast_apply x h _ _ (by
    rw [Shape.rowMajor_val_three, Shape.rowMajor_val_two]
    show (f.val / V * V + f.val % V) * L + l.val = f.val * L + l.val
    rw [Nat.div_add_mod'])

theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_table x h f l

theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_ix2_apply x h c n

theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) fun | ⟨0, _⟩ => rfl | ⟨1, _⟩ => rfl | ⟨2, _⟩ => rfl

theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) fun | ⟨0, _⟩ => rfl | ⟨1, _⟩ => rfl

theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun | ⟨0, _⟩, _ => rfl | ⟨1, _⟩, hc => absurd rfl hc) rfl

section Rows12
variable {N : Nat} (u0 u1 u2 u3 u4 u5 u6 u7 u8 u9 u10 u11 : (⟨2, ![1, N]⟩ : Shape).Idx → α)

set_option quotPrecheck false in
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- Row `R` of twelve one-row pieces joined along axis 0 is the piece at position `R`: the `R` pieces before it are one row each. -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun | ⟨0, _⟩, hc => absurd rfl hc | ⟨1, _⟩, _ => rfl) rfl

theorem concatenate_rows12_num_0 (n : Fin N) :
    concatenate ⟨2, ![12, N]⟩ 0 rows12 h (ix2 (0 : Fin 12) n) = u0 (ix2 0 n) :=
  concatenate_rows12_at u0 u1 u2 u3 u4 u5 u6 u7 u8 u9 u10 u11 h 0 (by decide) u0 rfl rfl n

theorem concatenate_rows12_num_1 (n : Fin N) :
    concatenate ⟨2, ![12, N]⟩ 0 rows12 h (ix2 (1 : Fin 12) n) = u1 (ix2 0 n) :=
  concatenate_rows12_at u0 u1 u2 u3 u4 u5 u6 u7 u8 u9 u10 u11 h 1 (by decide) u1 rfl rfl n

theorem concatenate_rows12_num_2 (n : Fin N) :
    concatenate ⟨2, ![12, N]⟩ 0 rows12 h (ix2 (2 : Fin 12) n) = u2 (ix2 0 n) :=
  concatenate_rows12_at u0 u1 u2 u3 u4 u5 u6 u7 u8 u9 u10 u11 h 2 (by decide) u2 rfl rfl n

theorem concatenate_rows12_num_3 (n : Fin N) :
    concatenate ⟨2, ![12, N]⟩ 0 rows12 h (ix2 (3 : Fin 12) n) = u3 (ix2 0 n) :=
  concatenate_rows12_at u0 u1 u2 u3 u4 u5 u6 u7 u8 u9 u10 u11 h 3 (by decide) u3 rfl rfl n

theorem concatenate_rows12_num_4 (n : Fin N) :
    concatenate ⟨2, ![12, N]⟩ 0 rows12 h (ix2 (4 : Fin 12) n) = u4 (ix2 0 n) :=
  concatenate_rows12_at u0 u1 u2 u3 u4 u5 u6 u7 u8 u9 u10 u11 h 4 (by decide) u4 rfl rfl n

theorem concatenate_rows12_num_5 (n : Fin N) :
    concatenate ⟨2, ![12, N]⟩ 0 rows12 h (ix2 (5 : Fin 12) n) = u5 (ix2 0 n) :=
  concatenate_rows12_at u0 u1 u2 u3 u4 u5 u6 u7 u8 u9 u10 u11 h 5 (by decide) u5 rfl rfl n

theorem concatenate_rows12_num_6 (n : Fin N) :
    concatenate ⟨2, ![12, N]⟩ 0 rows12 h (ix2 (6 : Fin 12) n) = u6 (ix2 0 n) :=
  concatenate_rows12_at u0 u1 u2 u3 u4 u5 u6 u7 u8 u9 u10 u11 h 6 (by decide) u6 rfl rfl n

theorem concatenate_rows12_num_7 (n : Fin N) :
    concatenate ⟨2, ![12, N]⟩ 0 rows12 h (ix2 (7 : Fin 12) n) = u7 (ix2 0 n) :=
  concatenate_rows12_at u0 u1 u2 u3 u4 u5 u6 u7 u8 u9 u10 u11 h 7 (by decide) u7 rfl rfl n

theorem concatenate_rows12_num_8 (n : Fin N) :
    concatenate ⟨2, ![12, N]⟩ 0 rows12 h (ix2 (8 : Fin 12) n) = u8 (ix2 0 n) :=
  concatenate_rows12_at u0 u1 u2 u3 u4 u5 u6 u7 u8 u9 u10 u11 h 8 (by decide) u8 rfl rfl n

theorem concatenate_rows12_num_9 (n : Fin N) :
    concatenate ⟨2, ![12, N]⟩ 0 rows12 h (ix2 (9 : Fin 12) n) = u9 (ix2 0 n) :=
  concatenate_rows12_at u0 u1 u2 u3 u4 u5 u6 u7 u8 u9 u10 u11 h 9 (by decide) u9 rfl rfl n

theorem concatenate_rows12_num_10 (n : Fin N) :
    concatenate ⟨2, ![12, N]⟩ 0 rows12 h (ix2 (10 : Fin 12) n) = u10 (ix2 0 n) :=
  concatenate_rows12_at u0 u1 u2 u3 u4 u5 u6 u7 u8 u9 u10 u11 h 10 (by decide) u10 rfl rfl n

theorem concatenate_rows12_num_11 (n : Fin N) :
    concatenate ⟨2, ![12, N]⟩ 0 rows12 h (ix2 (11 : Fin 12) n) = u11 (ix2 0 n) :=
  concatenate_rows12_at u0 u1 u2 u3 u4 u5 u6 u7 u8 u9 u10 u11 h 11 (by decide) u11 rfl rfl n

end Rows12

section Pointwise
variable {s : Shape} {φ : FTy} {w : Nat}

theorem host_divf_apply (a b : FVec Ideal s φ) (i : s.Idx) : Host.divf a b i = Ideal.div (a i) (b i) := rfl
theorem host_floor_apply (a : FVec Ideal s φ) (i : s.Idx) : Host.floor a i = Ideal.liftRound Int.floor (a i) := rfl
theorem host_roundeven_apply (a : FVec Ideal s φ) (i : s.Idx) :
    Host.roundeven a i = Ideal.liftRound Ideal.roundHalfEven (a i) := rfl
theorem host_absf_apply (a : FVec Ideal s φ) (i : s.Idx) : Host.absf a i = max (a i) (-(a i)) := rfl
theorem fptosi_apply (v : Nat) (a : FVec Ideal s φ) (i : s.Idx) : fptosi v a i = Ideal.fptosi v (a i) := rfl
theorem addi_apply (x y : IVec s w) (i : s.Idx) : addi x y i = IntOp.addi (x i) (y i) := rfl
theorem muli_apply (x y : IVec s w) (i : s.Idx) : muli x y i = IntOp.muli (x i) (y i) := rfl
theorem minsi_apply (x y : IVec s w) (i : s.Idx) : minsi x y i = IntOp.minsi (x i) (y i) := rfl
theorem cmpi_apply (p : CmpIPredicate) (x y : IVec s w) (i : s.Idx) : cmpi p x y i = IntOp.cmpi p (x i) (y i) := rfl

end Pointwise

end Cert.LibLayoutIx
-- ==== Proof.LibClampIx.lean ====
namespace Cert.Hand

/-- Where a signed index word lands on an axis of `U` places once clamped into it. -/
def clampIx (U : Nat) (hU : 0 < U) (w : BitVec 32) : Fin U := ⟨min w.toInt.toNat (U - 1), by omega⟩

theorem clampIx_val_of_mem (U : Nat) (hU : 0 < U) (w : BitVec 32) (h0 : 0 ≤ w.toInt) (hlt : w.toInt < (U : Int)) :
    (clampIx U hU w).val = w.toInt.toNat := by
  show min w.toInt.toNat (U - 1) = _
  omega

theorem slt_zero_of_nonneg (w : BitVec 32) (h0 : 0 ≤ w.toInt) : BitVec.slt w 0#32 = false := by
  simp only [BitVec.slt, BitVec.toInt_zero]
  exact decide_eq_false (by omega)

end Cert.Hand
-- ==== Proof.LibGatherAt.lean ====
import proofs.«140692_j21234318312201_2_alg».proof.Proof.LibClampIx
import Idealize.ShloMosaic.Lib.ValueIdx

namespace Cert.Hand

open Idealize.ShloMosaic Idealize.ShloMosaic.ValueIdx

section Axis
variable {s si t : Shape} (d : GatherDims s si t) {w : Nat} (j : t.Idx) (idx : IVec si w) (a : Fin s.rank)

/-- On an offset axis outside the start-index map the operand index is the result's coordinate on the matching offset axis. -/
theorem operandIdx_offset (hm : a ∉ d.startIndexMap) (hb : a ∉ d.operandBatchingDims) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a hb]
  unfold GatherDims.start GatherDims.offCoord
  rw [dif_neg hm, dif_pos hk, Nat.add_zero, Nat.zero_add]

/-- On a collapsed axis the start-index map names, the operand index is that component of the start index, read signed and clamped. -/
theorem operandIdx_start (hm : a ∈ d.startIndexMap) (hb : a ∉ d.operandBatchingDims) (hk : a ∉ d.sKept) :
    (d.operandIdx j idx a).val
      = min (idx (d.siIdx j ⟨d.startIndexMap.idxOf a, List.idxOf_lt_length_iff.2 hm⟩)).toInt.toNat
          (s.size a - d.sliceSizes a) := by
  show d.start j idx a + d.batchCoord j a + d.offCoord j a = _
  rw [d.batchCoord_eq_zero j a hb, d.offCoord_eq_zero j a hk, Nat.add_zero]
  unfold GatherDims.start
  rw [dif_pos hm]

end Axis

section LUV
variable {α : Type} {L U V N : Nat}

abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ :=
  ⟨[0], [1, 2], [], [], [1, 2], 1, ![L, 1, 1], wf⟩

theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  have hsi c : (dimsLUV L U V N wf).siIdx (ix2 l n) c = ix2 n c := by
    funext b; refine Fin.ext ?_
    match b with
    | ⟨0, _⟩ => rfl
    | ⟨1, _⟩ => rfl
  unfold Host.gather
  congr 1; funext a; refine Fin.ext ?_
  match a with
  | ⟨0, _⟩ =>
    exact operandIdx_offset (dimsLUV L U V N wf) _ _ _ (by decide : (0 : Fin 3) ∉ ([1, 2] : List (Fin 3)))
      List.not_mem_nil (by decide : (0 : Fin 3) ∈ ([0] : List (Fin 3)))
  | ⟨1, _⟩ =>
    exact (operandIdx_start (dimsLUV L U V N wf) _ _ _ (by decide : (1 : Fin 3) ∈ ([1, 2] : List (Fin 3)))
      List.not_mem_nil (by decide : (1 : Fin 3) ∉ ([0] : List (Fin 3)))).trans (by rw [hsi]; rfl)
  | ⟨2, _⟩ =>
    exact (operandIdx_start (dimsLUV L U V N wf) _ _ _ (by decide : (2 : Fin 3) ∈ ([1, 2] : List (Fin 3)))
      List.not_mem_nil (by decide : (2 : Fin 3) ∉ ([0] : List (Fin 3)))).trans (by rw [hsi]; rfl)

end LUV

section LU
variable {α : Type} {L U N : Nat}

abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ :=
  ⟨[0], [1], [], [], [1], 1, ![L, 1], wf⟩

theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  have hsi c : (dimsLU L U N wf).siIdx (ix2 l n) c = ix2 n c := by
    funext b; refine Fin.ext ?_
    match b with
    | ⟨0, _⟩ => rfl
    | ⟨1, _⟩ => rfl
  unfold Host.gather
  congr 1; funext a; refine Fin.ext ?_
  match a with
  | ⟨0, _⟩ =>
    exact operandIdx_offset (dimsLU L U N wf) _ _ _ (by decide : (0 : Fin 2) ∉ ([1] : List (Fin 2)))
      List.not_mem_nil (by decide : (0 : Fin 2) ∈ ([0] : List (Fin 2)))
  | ⟨1, _⟩ =>
    exact (operandIdx_start (dimsLU L U N wf) _ _ _ (by decide : (1 : Fin 2) ∈ ([1] : List (Fin 2)))
      List.not_mem_nil (by decide : (1 : Fin 2) ∉ ([0] : List (Fin 2)))).trans (by rw [hsi]; rfl)

end LU

section UL
variable {α : Type} {U L N : Nat}

abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ :=
  ⟨[1], [0], [], [], [0], 1, ![1, L], wf⟩

theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  have hsi c : (dimsUL U L N wf).siIdx (ix2 n l) c = ix2 n c := by
    funext b; refine Fin.ext ?_
    match b with
    | ⟨0, _⟩ => rfl
    | ⟨1, _⟩ => rfl
  unfold Host.gather
  congr 1; funext a; refine Fin.ext ?_
  match a with
  | ⟨0, _⟩ =>
    exact (operandIdx_start (dimsUL U L N wf) _ _ _ (by decide : (0 : Fin 2) ∈ ([0] : List (Fin 2)))
      List.not_mem_nil (by decide : (0 : Fin 2) ∉ ([1] : List (Fin 2)))).trans (by rw [hsi]; rfl)
  | ⟨1, _⟩ =>
    exact operandIdx_offset (dimsUL U L N wf) _ _ _ (by decide : (1 : Fin 2) ∉ ([0] : List (Fin 2)))
      List.not_mem_nil (by decide : (1 : Fin 2) ∈ ([1] : List (Fin 2)))

end UL

section UVL
variable {α : Type} {U V L N : Nat}

abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ :=
  ⟨[1], [0, 1], [], [], [0, 1], 1, ![1, 1, L], wf⟩

theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  have hsi c : (dimsUVL U V L N wf).siIdx (ix2 n l) c = ix2 n c := by
    funext b; refine Fin.ext ?_
    match b with
    | ⟨0, _⟩ => rfl
    | ⟨1, _⟩ => rfl
  unfold Host.gather
  congr 1; funext a; refine Fin.ext ?_
  match a with
  | ⟨0, _⟩ =>
    exact (operandIdx_start (dimsUVL U V L N wf) _ _ _ (by decide : (0 : Fin 3) ∈ ([0, 1] : List (Fin 3)))
      List.not_mem_nil (by decide : (0 : Fin 3) ∉ ([2] : List (Fin 3)))).trans (by rw [hsi]; rfl)
  | ⟨1, _⟩ =>
    exact (operandIdx_start (dimsUVL U V L N wf) _ _ _ (by decide : (1 : Fin 3) ∈ ([0, 1] : List (Fin 3)))
      List.not_mem_nil (by decide : (1 : Fin 3) ∉ ([2] : List (Fin 3)))).trans (by rw [hsi]; rfl)
  | ⟨2, _⟩ =>
    exact operandIdx_offset (dimsUVL U V L N wf) _ _ _ (by decide : (2 : Fin 3) ∉ ([0, 1] : List (Fin 3)))
      List.not_mem_nil (by decide : (2 : Fin 3) ∈ ([2] : List (Fin 3)))

end UVL

end Cert.Hand
-- ==== Proof.GatherK.lean ====
import proofs.«140692_j21234318312201_2_alg».proof.KernelIdeal
import proofs.«140692_j21234318312201_2_alg».proof.Proof.LibClampIx
import proofs.«140692_j21234318312201_2_alg».proof.Proof.LibGatherAt
import proofs.«140692_j21234318312201_2_alg».proof.Proof.LibLayoutIx
import Idealize.ShloMosaic.Lib.StableHlo.Run
import Idealize.ShloMosaic.Lib.Pipeline.Value
import Idealize.ShloMosaic.Lib.ValueIdx
import Idealize.ShloMosaic.PureOps.Ideal

namespace Cert.KernelIdeal.Hand
open Idealize.ShloMosaic Idealize.ShloMosaic.TcCoe Idealize.SL.Sem Idealize.ShloMosaic.StableHlo Idealize.ShloMosaic.ValueIdx
open Cert.KernelIdeal Cert.LibLayoutIx Cert.Hand

variable {α : Type} [Cert.KernelIdeal.Facts]

theorem gather_S3x64x64_apply (x : S3x64x64.Idx → α) (idx : IVec S2097152x2 32) (l : Fin 3) (n : Fin 2097152) :
    Host.gather gather_S3x64x64_S2097152x2_S3x2097152_0_12_n_n_12_1_311 x idx (ix2 l n)
      = x (ix3 l (clampIx 64 (by decide) (idx (ix2 n 0))) (clampIx 64 (by decide) (idx (ix2 n 1)))) :=
  gather_LUV_apply (by decide) (by decide)
    Facts₀.gather_S3x64x64_S2097152x2_S3x2097152_0_12_n_n_12_1_311_wf x idx l n

theorem gather_S3x48x48_apply (x : S3x48x48.Idx → α) (idx : IVec S2097152x2 32) (l : Fin 3) (n : Fin 2097152) :
    Host.gather gather_S3x48x48_S2097152x2_S3x2097152_0_12_n_n_12_1_311 x idx (ix2 l n)
      = x (ix3 l (clampIx 48 (by decide) (idx (ix2 n 0))) (clampIx 48 (by decide) (idx (ix2 n 1)))) :=
  gather_LUV_apply (by decide) (by decide)
    Facts₀.gather_S3x48x48_S2097152x2_S3x2097152_0_12_n_n_12_1_311_wf x idx l n

theorem gather_S1x32x32_apply (x : S1x32x32.Idx → α) (idx : IVec S2097152x2 32) (l : Fin 1) (n : Fin 2097152) :
    Host.gather gather_S1x32x32_S2097152x2_S1x2097152_0_12_n_n_12_1_111 x idx (ix2 l n)
      = x (ix3 l (clampIx 32 (by decide) (idx (ix2 n 0))) (clampIx 32 (by decide) (idx (ix2 n 1)))) :=
  gather_LUV_apply (by decide) (by decide)
    Facts₀.gather_S1x32x32_S2097152x2_S1x2097152_0_12_n_n_12_1_111_wf x idx l n

theorem gather_S4x32x32_apply (x : S4x32x32.Idx → α) (idx : IVec S2097152x2 32) (l : Fin 4) (n : Fin 2097152) :
    Host.gather gather_S4x32x32_S2097152x2_S4x2097152_0_12_n_n_12_1_411 x idx (ix2 l n)
      = x (ix3 l (clampIx 32 (by decide) (idx (ix2 n 0))) (clampIx 32 (by decide) (idx (ix2 n 1)))) :=
  gather_LUV_apply (by decide) (by decide)
    Facts₀.gather_S4x32x32_S2097152x2_S4x2097152_0_12_n_n_12_1_411_wf x idx l n

theorem gather_S2x96_apply (x : S2x96.Idx → α) (idx : IVec S2097152x1 32) (l : Fin 2) (n : Fin 2097152) :
    Host.gather gather_S2x96_S2097152x1_S2x2097152_0_1_n_n_1_1_21 x idx (ix2 l n)
      = x (ix2 l (clampIx 96 (by decide) (idx (ix2 n 0)))) :=
  gather_LU_apply (by decide) Facts₀.gather_S2x96_S2097152x1_S2x2097152_0_1_n_n_1_1_21_wf x idx l n

theorem gather_S1x2048_apply (x : S1x2048.Idx → α) (idx : IVec S2097152x1 32) (l : Fin 1) (n : Fin 2097152) :
    Host.gather gather_S1x2048_S2097152x1_S1x2097152_0_1_n_n_1_1_11 x idx (ix2 l n)
      = x (ix2 l (clampIx 2048 (by decide) (idx (ix2 n 0)))) :=
  gather_LU_apply (by decide) Facts₀.gather_S1x2048_S2097152x1_S1x2097152_0_1_n_n_1_1_11_wf x idx l n

theorem gather_S4194304x2_apply (x : S4194304x2.Idx → α) (idx : IVec S2097152x1 32) (n : Fin 2097152) (l : Fin 2) :
    Host.gather gather_S4194304x2_S2097152x1_S2097152x2_1_0_n_n_0_1_12 x idx (ix2 n l)
      = x (ix2 (clampIx 4194304 (by decide) (idx (ix2 n 0))) l) :=
  gather_UL_apply (by decide) Facts₀.gather_S4194304x2_S2097152x1_S2097152x2_1_0_n_n_0_1_12_wf x idx n l

/-- Writing contents through a typed reference and reading them back gives them unchanged. -/
theorem ofBuf_toBuf {T : BufTy} (x : TRef sig T) (v : T.Contents (Elt Ideal)) : x.ofBuf (x.toBuf v) = v := by
  obtain ⟨r, h, _, _⟩ := x; subst h; rfl

/-- A list of operations read at one index: each result at its own buffer, every other buffer unchanged. -/
syntax "value_simp" (" [" Lean.Parser.Tactic.simpLemma,* "]")? : tactic
macro_rules
  | `(tactic| value_simp) => `(tactic| value_simp [id_eq])
  | `(tactic| value_simp [$ls,*]) =>
    `(tactic| simp (disch := decide) only [after_cons, after_nil, nullary_result', unary_result', binary_result', ternary_result',
      quaternary_result', reshape_result', nary4_result', nary_result', unaryIndexed_result', binaryIndexed_result',
      nullary_result_ne', unary_result_ne', binary_result_ne', ternary_result_ne', quaternary_result_ne', reshape_result_ne',
      nary_result_ne', unaryIndexed_result_ne', binaryIndexed_result_ne', ofBuf_toBuf, addf_apply, mulf_apply, subf_apply,
      divf_apply, maximumf_apply, minimumf_apply, constant_apply, select_apply, broadcast_apply, id_eq, broadcastInDim_scalar,
      broadcastInDim_col, broadcastInDim_row, broadcastInDim_rows, broadcastInDim_cols, extractStridedSlice_col,
      extractStridedSlice_row, shapeCast_col, shapeCast_row, transpose_10, transpose_201, concatenate_cols_zero,
      concatenate_cols_one, host_divf_apply, host_floor_apply, host_roundeven_apply, host_absf_apply, fptosi_apply,
      constantI_apply, addi_apply, muli_apply, minsi_apply, cmpi_apply, Fin.mk_zero, Fin.mk_one, $ls,*])

end Cert.KernelIdeal.Hand
-- ==== Proof.Spec.lean ====
import Idealize.ShloMosaic.PureOps.Ideal
import proofs.«140692_j21234318312201_2_alg».proof.Proof.LibClampIx

noncomputable section

namespace Cert.Spec

open Idealize.ShloMosaic Cert.Hand

/-- A 32-bit float literal as an extended real. -/
abbrev lit (b : BitVec 32) : EReal := Ideal.ofBits .f32 b

/-- Clip into `[0, c]`, `c` the float just below one. -/
def clipc (x : EReal) : EReal := min (lit 0x3F7FFFEF#32) (max (lit 0x00000000#32) x)

abbrev flr (x : EReal) : EReal := Ideal.liftRound Int.floor x

/-- The triangle wave of period 2: `2 · |x/2 − ⌊x/2 + 1/2⌋|`. -/
def tri (x : EReal) : EReal :=
  lit 0x40000000#32 * (max (Ideal.div x (lit 0x40000000#32) - flr (Ideal.div x (lit 0x40000000#32) + lit 0x3F000000#32))
    (-(Ideal.div x (lit 0x40000000#32) - flr (Ideal.div x (lit 0x40000000#32) + lit 0x3F000000#32))))

/-- A negative index word counts from the end of an axis whose extent is the word `Uw`. -/
def wrap (Uw w : BitVec 32) : BitVec 32 := Scalar.select (IntOp.cmpi .slt w 0#32) (IntOp.addi w Uw) w

/-- The cell of an axis of extent `U` an index word names: wrapped, then clamped. -/
def cell (U : Nat) (hU : 0 < U) (Uw w : BitVec 32) : Fin U := clampIx U hU (wrap Uw w)

/-- The lower neighbour of a scaled coordinate: its floor as a signed word. -/
def lo (uu : EReal) : BitVec 32 := Ideal.fptosi 32 (flr uu)

/-- The upper neighbour: one more, capped at the last index `Lw`. -/
def hi (Lw : BitVec 32) (uu : EReal) : BitVec 32 := IntOp.minsi (IntOp.addi (lo uu) 1#32) Lw

def frac (uu : EReal) : EReal := uu - flr uu

/-- The linear blend of the two neighbouring cells along one axis. -/
def bil1 (U : Nat) (hU : 0 < U) (Lw Uw : BitVec 32) (T : Fin U → EReal) (uu : EReal) : EReal :=
  T (cell U hU Uw (lo uu)) * (lit 0x3F800000#32 - frac uu) + T (cell U hU Uw (hi Lw uu)) * frac uu

/-- The bilinear blend of the four neighbouring cells, summed in the order (lo, lo), (hi, lo), (lo, hi), (hi, hi). -/
def bil2 (U V : Nat) (hU : 0 < U) (hV : 0 < V) (LUw Uw LVw Vw : BitVec 32) (T : Fin U → Fin V → EReal) (uu vv : EReal) : EReal :=
  T (cell U hU Uw (lo uu)) (cell V hV Vw (lo vv)) * (lit 0x3F800000#32 - frac uu) * (lit 0x3F800000#32 - frac vv)
    + T (cell U hU Uw (hi LUw uu)) (cell V hV Vw (lo vv)) * frac uu * (lit 0x3F800000#32 - frac vv)
    + T (cell U hU Uw (lo uu)) (cell V hV Vw (hi LVw vv)) * (lit 0x3F800000#32 - frac uu) * frac vv
    + T (cell U hU Uw (hi LUw uu)) (cell V hV Vw (hi LVw vv)) * frac uu * frac vv

end Cert.Spec

end
-- ==== Proof.KIVal0.lean ====
import proofs.«140692_j21234318312201_2_alg».proof.Proof.KIKeep
import proofs.«140692_j21234318312201_2_alg».proof.Proof.LibLayoutIx
import proofs.«140692_j21234318312201_2_alg».proof.Proof.GatherK
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

private theorem ty_v8 : main_v8.ty.shape = S2097152 := rfl
private theorem ty_v10 : main_v10.ty.shape = S2097152 := rfl
private theorem ty_v12 : main_v12.ty.shape = S2097152 := rfl

theorem kg0_cst (X : Valuation τ sig (Elt Ideal)) :
    (StableHlo.after (kg0 (F := Ideal)) X (Proc.devRef .tc main_cst) : S_.Idx → EReal) ix0 = lit 0x00000000#32 := by
  dsimp only [kg0, hostOps0]; after_results_simp
  simp only [constant_apply]

theorem kg0_cst_0 (X : Valuation τ sig (Elt Ideal)) :
    (StableHlo.after (kg0 (F := Ideal)) X (Proc.devRef .tc main_cst_0) : S_.Idx → EReal) ix0 = lit 0x3F7FFFEF#32 := by
  dsimp only [kg0, hostOps0]; after_results_simp
  simp only [constant_apply]

theorem kg0_v8 (X : Valuation τ sig (Elt Ideal)) (n : Fin 2097152) :
    (StableHlo.after (kg0 (F := Ideal)) X (Proc.devRef .tc main_v8) : S2097152.Idx → EReal) (ix1 n)
      = (X (Proc.devRef .tc main_arg0) : S2097152x2.Idx → EReal) (ix2 n 0) := by
  dsimp only [kg0, hostOps0]; after_results_simp
  dsimp only [ty_v8]
  simp only [shapeCast_col, extractStridedSlice_col]
  rfl

theorem kg0_v10 (X : Valuation τ sig (Elt Ideal)) (n : Fin 2097152) :
    (StableHlo.after (kg0 (F := Ideal)) X (Proc.devRef .tc main_v10) : S2097152.Idx → EReal) (ix1 n)
      = (X (Proc.devRef .tc main_arg1) : S2097152x2.Idx → EReal) (ix2 n 0) := by
  dsimp only [kg0, hostOps0]; after_results_simp
  dsimp only [ty_v10]
  simp only [shapeCast_col, extractStridedSlice_col]
  rfl

theorem kg0_v12 (X : Valuation τ sig (Elt Ideal)) (n : Fin 2097152) :
    (StableHlo.after (kg0 (F := Ideal)) X (Proc.devRef .tc main_v12) : S2097152.Idx → EReal) (ix1 n)
      = (X (Proc.devRef .tc main_arg4) : S2097152x2.Idx → EReal) (ix2 n 0) := by
  dsimp only [kg0, hostOps0]; after_results_simp
  dsimp only [ty_v12]
  simp only [shapeCast_col, extractStridedSlice_col]
  rfl

theorem kg0_v0 (X : Valuation τ sig (Elt Ideal)) (z : Fin 1) (u : Fin 2048) :
    (StableHlo.after (kg0 (F := Ideal)) X (Proc.devRef .tc main_v0) : S1x2048.Idx → EReal) (ix2 z u)
      = (X (Proc.devRef .tc main_arg10) : S2048x1.Idx → EReal) (ix2 u z) := by
  dsimp only [kg0, hostOps0]; after_results_simp
  simp only [transpose_10]

theorem kg0_v1 (X : Valuation τ sig (Elt Ideal)) (l : Fin 3) (u v : Fin 64) :
    (StableHlo.after (kg0 (F := Ideal)) X (Proc.devRef .tc main_v1) : S3x64x64.Idx → EReal) (ix3 l u v)
      = (X (Proc.devRef .tc main_arg11) : S64x64x3.Idx → EReal) (ix3 u v l) := by
  dsimp only [kg0, hostOps0]; after_results_simp
  simp only [transpose_201]

theorem kg0_v2 (X : Valuation τ sig (Elt Ideal)) (l : Fin 3) (u v : Fin 48) :
    (StableHlo.after (kg0 (F := Ideal)) X (Proc.devRef .tc main_v2) : S3x48x48.Idx → EReal) (ix3 l u v)
      = (X (Proc.devRef .tc main_arg12) : S48x48x3.Idx → EReal) (ix3 u v l) := by
  dsimp only [kg0, hostOps0]; after_results_simp
  simp only [transpose_201]

theorem kg0_v3 (X : Valuation τ sig (Elt Ideal)) (l : Fin 2) (u : Fin 96) :
    (StableHlo.after (kg0 (F := Ideal)) X (Proc.devRef .tc main_v3) : S2x96.Idx → EReal) (ix2 l u)
      = (X (Proc.devRef .tc main_arg13) : S96x2.Idx → EReal) (ix2 u l) := by
  dsimp only [kg0, hostOps0]; after_results_simp
  simp only [transpose_10]

theorem kg0_v4 (X : Valuation τ sig (Elt Ideal)) (l : Fin 1) (u v : Fin 32) :
    (StableHlo.after (kg0 (F := Ideal)) X (Proc.devRef .tc main_v4) : S1x32x32.Idx → EReal) (ix3 l u v)
      = (X (Proc.devRef .tc main_arg14) : S32x32x1.Idx → EReal) (ix3 u v l) := by
  dsimp only [kg0, hostOps0]; after_results_simp
  simp only [transpose_201]

theorem kg0_v5 (X : Valuation τ sig (Elt Ideal)) (l : Fin 4) (u v : Fin 32) :
    (StableHlo.after (kg0 (F := Ideal)) X (Proc.devRef .tc main_v5) : S4x32x32.Idx → EReal) (ix3 l u v)
      = (X (Proc.devRef .tc main_arg15) : S32x32x4.Idx → EReal) (ix3 u v l) := by
  dsimp only [kg0, hostOps0]; after_results_simp
  simp only [transpose_201]

theorem kg0_v6 (X : Valuation τ sig (Elt Ideal)) (l : Fin 4) (u v : Fin 32) :
    (StableHlo.after (kg0 (F := Ideal)) X (Proc.devRef .tc main_v6) : S4x32x32.Idx → EReal) (ix3 l u v)
      = (X (Proc.devRef .tc main_arg16) : S32x32x4.Idx → EReal) (ix3 u v l) := by
  dsimp only [kg0, hostOps0]; after_results_simp
  simp only [transpose_201]

private theorem ty_v26 : main_v26.ty.shape = S4194304x2 := rfl
private theorem ty_v47 : main_v47.ty.shape = S2097152 := rfl
private theorem ty_v49 : main_v49.ty.shape = S2097152 := rfl
private theorem ty_v51 : main_v51.ty.shape = S2097152 := rfl
private theorem ofBuf_v15 (h1 h2 h3) (v : main_v15.ty.Contents (Elt Ideal)) :
    (TRef.of (T := ⟨S2097152, .f32⟩) main_v15 h1 h2 h3).ofBuf v = v := rfl
private theorem ofBuf_v18 (h1 h2 h3) (v : main_v18.ty.Contents (Elt Ideal)) :
    (TRef.of (T := ⟨S2097152, .f32⟩) main_v18 h1 h2 h3).ofBuf v = v := rfl
private theorem toBuf_v13 (h1 h2 h3) (v : (⟨S2097152, .f32⟩ : BufTy).Contents (Elt Ideal)) :
    (TRef.of (T := ⟨S2097152, .f32⟩) main_v13 h1 h2 h3).toBuf v = v := rfl
private theorem toBuf_v16 (h1 h2 h3) (v : (⟨S2097152, .f32⟩ : BufTy).Contents (Elt Ideal)) :
    (TRef.of (T := ⟨S2097152, .f32⟩) main_v16 h1 h2 h3).toBuf v = v := rfl
private theorem toBuf_v19 (h1 h2 h3) (v : (⟨S2097152, .f32⟩ : BufTy).Contents (Elt Ideal)) :
    (TRef.of (T := ⟨S2097152, .f32⟩) main_v19 h1 h2 h3).toBuf v = v := rfl
private theorem toBuf_v21 (h1 h2 h3) (v : (⟨S2097152, .f32⟩ : BufTy).Contents (Elt Ideal)) :
    (TRef.of (T := ⟨S2097152, .f32⟩) main_v21 h1 h2 h3).toBuf v = v := rfl

local macro "value_simp1" : tactic => `(tactic| value_simp [ty_v26, ty_v47, ty_v49, ty_v51, ofBuf_v15, ofBuf_v18, toBuf_v13, toBuf_v16, toBuf_v19, toBuf_v21, gather_S4194304x2_apply, shapeCast_table_2048])

set_option maxHeartbeats 8000000 in
theorem kg1_cst_15 (X : Valuation τ sig (Elt Ideal)) :
    (StableHlo.after (kg1 (F := Ideal)) X (Proc.devRef .tc main_cst_15) : S_.Idx → EReal) ix0 = lit 0x00000000#32 := by
  simp only [kg1, after_app]; dsimp only [hostOps0_1, hostOps0_2, hostOps0_3, hostOps0_4, hostOps0_5, hostOps0_6, hostOps0_7, hostOps0_8]; value_simp1

set_option maxHeartbeats 8000000 in
theorem kg1_cst_16 (X : Valuation τ sig (Elt Ideal)) :
    (StableHlo.after (kg1 (F := Ideal)) X (Proc.devRef .tc main_cst_16) : S_.Idx → EReal) ix0 = lit 0x3F7FFFEF#32 := by
  simp only [kg1, after_app]; dsimp only [hostOps0_1, hostOps0_2, hostOps0_3, hostOps0_4, hostOps0_5, hostOps0_6, hostOps0_7, hostOps0_8]; value_simp1

set_option maxHeartbeats 8000000 in
theorem kg1_v51 (X : Valuation τ sig (Elt Ideal)) (n : Fin 2097152) :
    (StableHlo.after (kg1 (F := Ideal)) X (Proc.devRef .tc main_v51) : S2097152.Idx → EReal) (ix1 n)
      = (X (Proc.devRef .tc main_arg5) : S2097152x2.Idx → EReal) (ix2 n 1) := by
  simp only [kg1, after_app]; dsimp only [hostOps0_1, hostOps0_2, hostOps0_3, hostOps0_4, hostOps0_5, hostOps0_6, hostOps0_7, hostOps0_8]; value_simp1 <;> try rfl

set_option maxHeartbeats 8000000 in
theorem kg1_v62 (X : Valuation τ sig (Elt Ideal)) (z : Fin 1) (u : Fin 2048) :
    (StableHlo.after (kg1 (F := Ideal)) X (Proc.devRef .tc main_v62) : S1x2048.Idx → EReal) (ix2 z u)
      = tri ((X (Proc.devRef .tc main_v0) : S1x2048.Idx → EReal) (ix2 z u)) := by
  simp only [kg1, after_app]; dsimp only [hostOps0_1, hostOps0_2, hostOps0_3, hostOps0_4, hostOps0_5, hostOps0_6, hostOps0_7, hostOps0_8]; value_simp1 <;> try rfl

set_option maxHeartbeats 16000000 in
theorem kg1_v47 (X : Valuation τ sig (Elt Ideal)) (n : Fin 2097152) :
    (StableHlo.after (kg1 (F := Ideal)) X (Proc.devRef .tc main_v47) : S2097152.Idx → EReal) (ix1 n)
      = tri ((X (Proc.devRef .tc main_arg9) : S2048x2048x2.Idx → EReal)
          (ix3 ⟨(cell 4194304 (by decide) 4194304#32 (IntOp.addi (IntOp.muli
            (Ideal.fptosi 32 (Ideal.liftRound Ideal.roundHalfEven (min ((show S_.Idx → EReal from X (Proc.devRef .tc main_cst_0)) ix0) (max ((show S_.Idx → EReal from X (Proc.devRef .tc main_cst)) ix0) ((show S2097152.Idx → EReal from X (Proc.devRef .tc main_v8)) (ix1 n))) * lit 0x44FFE000#32))) 2048#32)
            (Ideal.fptosi 32 (Ideal.liftRound Ideal.roundHalfEven (clipc ((show S2097152.Idx → EReal from X (Proc.devRef .tc main_v10)) (ix1 n)) * lit 0x44FFE000#32))))).val / 2048, by omega⟩
            ⟨(cell 4194304 (by decide) 4194304#32 (IntOp.addi (IntOp.muli
            (Ideal.fptosi 32 (Ideal.liftRound Ideal.roundHalfEven (min ((show S_.Idx → EReal from X (Proc.devRef .tc main_cst_0)) ix0) (max ((show S_.Idx → EReal from X (Proc.devRef .tc main_cst)) ix0) ((show S2097152.Idx → EReal from X (Proc.devRef .tc main_v8)) (ix1 n))) * lit 0x44FFE000#32))) 2048#32)
            (Ideal.fptosi 32 (Ideal.liftRound Ideal.roundHalfEven (clipc ((show S2097152.Idx → EReal from X (Proc.devRef .tc main_v10)) (ix1 n)) * lit 0x44FFE000#32))))).val % 2048, by omega⟩ 0)) := by
  simp only [kg1, after_app]; dsimp only [hostOps0_1, hostOps0_2, hostOps0_3, hostOps0_4, hostOps0_5, hostOps0_6, hostOps0_7, hostOps0_8]; value_simp1 <;> try rfl

set_option maxHeartbeats 16000000 in
theorem kg1_v49 (X : Valuation τ sig (Elt Ideal)) (n : Fin 2097152) :
    (StableHlo.after (kg1 (F := Ideal)) X (Proc.devRef .tc main_v49) : S2097152.Idx → EReal) (ix1 n)
      = tri ((X (Proc.devRef .tc main_arg9) : S2048x2048x2.Idx → EReal)
          (ix3 ⟨(cell 4194304 (by decide) 4194304#32 (IntOp.addi (IntOp.muli
            (Ideal.fptosi 32 (Ideal.liftRound Ideal.roundHalfEven (min ((show S_.Idx → EReal from X (Proc.devRef .tc main_cst_0)) ix0) (max ((show S_.Idx → EReal from X (Proc.devRef .tc main_cst)) ix0) ((show S2097152.Idx → EReal from X (Proc.devRef .tc main_v8)) (ix1 n))) * lit 0x44FFE000#32))) 2048#32)
            (Ideal.fptosi 32 (Ideal.liftRound Ideal.roundHalfEven (clipc ((show S2097152.Idx → EReal from X (Proc.devRef .tc main_v10)) (ix1 n)) * lit 0x44FFE000#32))))).val / 2048, by omega⟩
            ⟨(cell 4194304 (by decide) 4194304#32 (IntOp.addi (IntOp.muli
            (Ideal.fptosi 32 (Ideal.liftRound Ideal.roundHalfEven (min ((show S_.Idx → EReal from X (Proc.devRef .tc main_cst_0)) ix0) (max ((show S_.Idx → EReal from X (Proc.devRef .tc main_cst)) ix0) ((show S2097152.Idx → EReal from X (Proc.devRef .tc main_v8)) (ix1 n))) * lit 0x44FFE000#32))) 2048#32)
            (Ideal.fptosi 32 (Ideal.liftRound Ideal.roundHalfEven (clipc ((show S2097152.Idx → EReal from X (Proc.devRef .tc main_v10)) (ix1 n)) * lit 0x44FFE000#32))))).val % 2048, by omega⟩ 1)) := by
  simp only [kg1, after_app]; dsimp only [hostOps0_1, hostOps0_2, hostOps0_3, hostOps0_4, hostOps0_5, hostOps0_6, hostOps0_7, hostOps0_8]; value_simp1 <;> try rfl

private theorem ty_v75 : main_v75.ty.shape = S2097152 := rfl
private theorem ty_v77 : main_v77.ty.shape = S2097152 := rfl
private theorem ofBuf_v65 (h1 h2 h3) (v : main_v65.ty.Contents (Elt Ideal)) :
    (TRef.of (T := ⟨S2097152, .f32⟩) main_v65 h1 h2 h3).ofBuf v = v := rfl
private theorem toBuf_v63 (h1 h2 h3) (v : (⟨S2097152, .f32⟩ : BufTy).Contents (Elt Ideal)) :
    (TRef.of (T := ⟨S2097152, .f32⟩) main_v63 h1 h2 h3).toBuf v = v := rfl
private theorem toBuf_v66 (h1 h2 h3) (v : (⟨S2097152, .f32⟩ : BufTy).Contents (Elt Ideal)) :
    (TRef.of (T := ⟨S2097152, .f32⟩) main_v66 h1 h2 h3).toBuf v = v := rfl

local macro "value_simp2" : tactic => `(tactic| value_simp [ty_v75, ty_v77, ofBuf_v65, toBuf_v63, toBuf_v66, gather_S1x2048_apply])

theorem kg2_cst_24 (X : Valuation τ sig (Elt Ideal)) :
    (StableHlo.after (kg2 (F := Ideal)) X (Proc.devRef .tc main_cst_24) : S_.Idx → EReal) ix0 = lit 0x00000000#32 := by
  simp only [kg2, after_app]; dsimp only [hostOps0_9, hostOps0_10, hostOps0_11, hostOps0_12]; value_simp2

theorem kg2_cst_25 (X : Valuation τ sig (Elt Ideal)) :
    (StableHlo.after (kg2 (F := Ideal)) X (Proc.devRef .tc main_cst_25) : S_.Idx → EReal) ix0 = lit 0x3F7FFFEF#32 := by
  simp only [kg2, after_app]; dsimp only [hostOps0_9, hostOps0_10, hostOps0_11, hostOps0_12]; value_simp2

theorem kg2_v77 (X : Valuation τ sig (Elt Ideal)) (n : Fin 2097152) :
    (StableHlo.after (kg2 (F := Ideal)) X (Proc.devRef .tc main_v77) : S2097152.Idx → EReal) (ix1 n)
      = (X (Proc.devRef .tc main_arg5) : S2097152x2.Idx → EReal) (ix2 n 0) := by
  simp only [kg2, after_app]; dsimp only [hostOps0_9, hostOps0_10, hostOps0_11, hostOps0_12]; value_simp2 <;> try rfl

theorem kg2_v88 (X : Valuation τ sig (Elt Ideal)) (l : Fin 3) (u v : Fin 64) :
    (StableHlo.after (kg2 (F := Ideal)) X (Proc.devRef .tc main_v88) : S3x64x64.Idx → EReal) (ix3 l u v)
      = tri ((X (Proc.devRef .tc main_v1) : S3x64x64.Idx → EReal) (ix3 l u v)) := by
  simp only [kg2, after_app]; dsimp only [hostOps0_9, hostOps0_10, hostOps0_11, hostOps0_12]; value_simp2 <;> try rfl

theorem kg2_v75 (X : Valuation τ sig (Elt Ideal)) (n : Fin 2097152) :
    (StableHlo.after (kg2 (F := Ideal)) X (Proc.devRef .tc main_v75) : S2097152.Idx → EReal) (ix1 n)
      = (X (Proc.devRef .tc main_v62) : S1x2048.Idx → EReal) (ix2 0 (cell 2048 (by decide) 2048#32
          (Ideal.fptosi 32 (Ideal.liftRound Ideal.roundHalfEven
            (min ((show S_.Idx → EReal from X (Proc.devRef .tc main_cst_16)) ix0)
                (max ((show S_.Idx → EReal from X (Proc.devRef .tc main_cst_15)) ix0)
                  ((show S2097152.Idx → EReal from X (Proc.devRef .tc main_v51)) (ix1 n))) * lit 0x44FFE000#32))))) := by
  simp only [kg2, after_app]; dsimp only [hostOps0_9, hostOps0_10, hostOps0_11, hostOps0_12]; value_simp2 <;> try rfl

end Cert.KernelIdeal.Hand
end
-- ==== Proof.KIVal1.lean ====
import proofs.«140692_j21234318312201_2_alg».proof.Proof.KIKeep
import proofs.«140692_j21234318312201_2_alg».proof.Proof.LibLayoutIx
import proofs.«140692_j21234318312201_2_alg».proof.Proof.GatherK
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

private theorem toBuf_v89 (h1 h2 h3) (v : (⟨S2097152, .f32⟩ : BufTy).Contents (Elt Ideal)) :
    (TRef.of (T := ⟨S2097152, .f32⟩) main_v89 h1 h2 h3).toBuf v = v := rfl
private theorem toBuf_v92 (h1 h2 h3) (v : (⟨S2097152, .f32⟩ : BufTy).Contents (Elt Ideal)) :
    (TRef.of (T := ⟨S2097152, .f32⟩) main_v92 h1 h2 h3).toBuf v = v := rfl

theorem kg3_cst_54 (X : Valuation τ sig (Elt Ideal)) :
    ((StableHlo.after (kg3 (F := Ideal)) X (Proc.devRef .tc main_cst_54) : S_.Idx → EReal)) ix0 = lit 0x00000000#32 := by
  simp only [kg3, after_app]; dsimp only [hostOps0_16]; after_results_simp
  simp only [constant_apply]

theorem kg3_cst_55 (X : Valuation τ sig (Elt Ideal)) :
    ((StableHlo.after (kg3 (F := Ideal)) X (Proc.devRef .tc main_cst_55) : S_.Idx → EReal)) ix0 = lit 0x3F7FFFEF#32 := by
  simp only [kg3, after_app]; dsimp only [hostOps0_16]; after_results_simp
  simp only [constant_apply]

set_option maxHeartbeats 8000000 in
/-- Channel l of the two-axis blend over the 64 × 64 table: each coordinate clipped, then scaled by 63. -/
theorem kg3_v193 (X : Valuation τ sig (Elt Ideal)) (l : Fin 3) (n : Fin 2097152) :
    ((StableHlo.after (kg3 (F := Ideal)) X (Proc.devRef .tc main_v193) : S3x2097152.Idx → EReal)) (ix2 l n)
      = bil2 64 64 (by decide) (by decide) 63#32 64#32 63#32 64#32
          (fun u v => (show S3x64x64.Idx → EReal from X (Proc.devRef .tc main_v88)) (ix3 l u v))
          (min ((show S_.Idx → EReal from X (Proc.devRef .tc main_cst_25)) ix0) (max ((show S_.Idx → EReal from X (Proc.devRef .tc main_cst_24)) ix0) ((show S2097152.Idx → EReal from X (Proc.devRef .tc main_v8)) (ix1 n)))
            * lit 0x427C0000#32)
          (clipc ((show S2097152.Idx → EReal from X (Proc.devRef .tc main_v77)) (ix1 n)) * lit 0x427C0000#32) := by
  simp only [kg3, after_app]; dsimp only [hostOps0_13, hostOps0_14, hostOps0_15, hostOps0_16]
  value_simp [toBuf_v89, toBuf_v92, gather_S3x64x64_apply, clipc] <;> try rfl

private theorem toBuf_v194 (h1 h2 h3) (v : (⟨S2097152, .f32⟩ : BufTy).Contents (Elt Ideal)) :
    (TRef.of (T := ⟨S2097152, .f32⟩) main_v194 h1 h2 h3).toBuf v = v := rfl
private theorem toBuf_v197 (h1 h2 h3) (v : (⟨S2097152, .f32⟩ : BufTy).Contents (Elt Ideal)) :
    (TRef.of (T := ⟨S2097152, .f32⟩) main_v197 h1 h2 h3).toBuf v = v := rfl

theorem kg4_cst_84 (X : Valuation τ sig (Elt Ideal)) :
    ((StableHlo.after (kg4 (F := Ideal)) X (Proc.devRef .tc main_cst_84) : S_.Idx → EReal)) ix0 = lit 0x00000000#32 := by
  simp only [kg4, after_app]; dsimp only [hostOps0_20]; after_results_simp
  simp only [constant_apply]

theorem kg4_cst_85 (X : Valuation τ sig (Elt Ideal)) :
    ((StableHlo.after (kg4 (F := Ideal)) X (Proc.devRef .tc main_cst_85) : S_.Idx → EReal)) ix0 = lit 0x3F7FFFEF#32 := by
  simp only [kg4, after_app]; dsimp only [hostOps0_20]; after_results_simp
  simp only [constant_apply]

set_option maxHeartbeats 8000000 in
/-- The same blend over the 48 × 48 table, the coordinates scaled by 47. -/
theorem kg4_v298 (X : Valuation τ sig (Elt Ideal)) (l : Fin 3) (n : Fin 2097152) :
    ((StableHlo.after (kg4 (F := Ideal)) X (Proc.devRef .tc main_v298) : S3x2097152.Idx → EReal)) (ix2 l n)
      = bil2 48 48 (by decide) (by decide) 47#32 48#32 47#32 48#32
          (fun u v => (show S3x48x48.Idx → EReal from X (Proc.devRef .tc main_v2)) (ix3 l u v))
          (min ((show S_.Idx → EReal from X (Proc.devRef .tc main_cst_55)) ix0) (max ((show S_.Idx → EReal from X (Proc.devRef .tc main_cst_54)) ix0) ((show S2097152.Idx → EReal from X (Proc.devRef .tc main_v47)) (ix1 n)))
            * lit 0x423C0000#32)
          (clipc ((show S2097152.Idx → EReal from X (Proc.devRef .tc main_v49)) (ix1 n)) * lit 0x423C0000#32) := by
  simp only [kg4, after_app]; dsimp only [hostOps0_17, hostOps0_18, hostOps0_19, hostOps0_20]
  value_simp [toBuf_v194, toBuf_v197, gather_S3x48x48_apply, clipc] <;> try rfl

end Cert.KernelIdeal.Hand
end
-- ==== Proof.KIVal2.lean ====
import proofs.«140692_j21234318312201_2_alg».proof.Proof.KIKeep
import proofs.«140692_j21234318312201_2_alg».proof.Proof.LibLayoutIx
import proofs.«140692_j21234318312201_2_alg».proof.Proof.GatherK
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.KernelIdeal.Hand Cert.LibLayoutIx Cert.Hand Cert.Spec

variable [Cert.KernelIdeal.Facts]

local notation:70 a:70 " ⋆ " b:71 => @HMul.hMul EReal EReal EReal _ a b
local notation "emin" => @min EReal _
local notation "emax" => @max EReal _

private theorem toBuf_v299 (h1 h2 h3) (v : (⟨S2097152, .f32⟩ : BufTy).Contents (Elt Ideal)) :
    (TRef.of (T := ⟨S2097152, .f32⟩) main_v299 h1 h2 h3).toBuf v = v := rfl
private theorem shapeCast_v332 (x : main_v331.ty.Contents (Elt Ideal)) (h : main_v331.ty.shape.ShapeCasts main_v332.ty.shape) :
    shapeCast main_v332.ty.shape x h = shapeCast S2097152 (show S2097152x1.Idx → EReal from x) h := rfl
private theorem shapeCast_v334 (x : main_v333.ty.Contents (Elt Ideal)) (h : main_v333.ty.shape.ShapeCasts main_v334.ty.shape) :
    shapeCast main_v334.ty.shape x h = shapeCast S2097152 (show S2097152x1.Idx → EReal from x) h := rfl

theorem kg5_cst_98 (X : Valuation τ sig (Elt Ideal)) :
    (StableHlo.after (kg5 (F := Ideal)) X (Proc.devRef .tc main_cst_98) : S_.Idx → EReal) ix0 = lit 0x00000000#32 := by
  simp only [kg5, after_app]; dsimp only [hostOps0_21, hostOps0_22]; after_results_simp
  simp only [constant_apply]

theorem kg5_cst_99 (X : Valuation τ sig (Elt Ideal)) :
    (StableHlo.after (kg5 (F := Ideal)) X (Proc.devRef .tc main_cst_99) : S_.Idx → EReal) ix0 = lit 0x3F7FFFEF#32 := by
  simp only [kg5, after_app]; dsimp only [hostOps0_21, hostOps0_22]; after_results_simp
  simp only [constant_apply]

theorem kg5_v335 (X : Valuation τ sig (Elt Ideal)) (n : Fin 2097152) :
    (StableHlo.after (kg5 (F := Ideal)) X (Proc.devRef .tc main_v335) : S2097152.Idx → EReal) (ix1 n)
      = (X (Proc.devRef .tc main_arg2) : S2097152x2.Idx → EReal) (ix2 n 0)
        ⋆ (X (Proc.devRef .tc main_arg2) : S2097152x2.Idx → EReal) (ix2 n 1) := by
  simp only [kg5, after_app]; dsimp only [hostOps0_21, hostOps0_22]; after_results_simp
  simp only [mulf_apply, shapeCast_v332, shapeCast_v334, shapeCast_col, extractStridedSlice_col]
  <;> try rfl

theorem kg5_v346 (X : Valuation τ sig (Elt Ideal)) (l : Fin 1) (u v : Fin 32) :
    (StableHlo.after (kg5 (F := Ideal)) X (Proc.devRef .tc main_v346) : S1x32x32.Idx → EReal) (ix3 l u v)
      = tri ((X (Proc.devRef .tc main_v4) : S1x32x32.Idx → EReal) (ix3 l u v)) := by
  simp only [kg5, after_app]; dsimp only [hostOps0_21, hostOps0_22]; after_results_simp
  simp only [mulf_apply, addf_apply, subf_apply, constant_apply, broadcastInDim_scalar, host_divf_apply, host_floor_apply,
    host_absf_apply, tri]
  <;> try rfl

set_option maxHeartbeats 4000000 in
theorem kg5_v330 (X : Valuation τ sig (Elt Ideal)) (l : Fin 2) (n : Fin 2097152) :
    (StableHlo.after (kg5 (F := Ideal)) X (Proc.devRef .tc main_v330) : S2x2097152.Idx → EReal) (ix2 l n)
      = bil1 96 (by decide) 95#32 96#32 (fun u => (X (Proc.devRef .tc main_v3) : S2x96.Idx → EReal) (ix2 l u))
          (emin ((X (Proc.devRef .tc main_cst_85) : S_.Idx → EReal) ix0)
              (emax ((X (Proc.devRef .tc main_cst_84) : S_.Idx → EReal) ix0)
                ((X (Proc.devRef .tc main_v75) : S2097152.Idx → EReal) (ix1 n)))
            ⋆ lit 0x42BE0000#32) := by
  simp only [kg5, after_app]; dsimp only [hostOps0_21, hostOps0_22]; after_results_simp
  simp only [ofBuf_toBuf, toBuf_v299, id_eq]
  simp only [addf_apply, mulf_apply, subf_apply, maximumf_apply, minimumf_apply, broadcastInDim_scalar, constant_apply,
    constantI_apply, host_floor_apply, fptosi_apply, addi_apply, minsi_apply, cmpi_apply, select_apply, broadcastInDim_col,
    broadcastInDim_row, broadcastInDim_rows, gather_S2x96_apply]
  <;> try rfl

private theorem toBuf_v347 (h1 h2 h3) (v : (⟨S2097152, .f32⟩ : BufTy).Contents (Elt Ideal)) :
    (TRef.of (T := ⟨S2097152, .f32⟩) main_v347 h1 h2 h3).toBuf v = v := rfl
private theorem toBuf_v350 (h1 h2 h3) (v : (⟨S2097152, .f32⟩ : BufTy).Contents (Elt Ideal)) :
    (TRef.of (T := ⟨S2097152, .f32⟩) main_v350 h1 h2 h3).toBuf v = v := rfl
private theorem shapeCast_v445 (x : main_v444.ty.Contents (Elt Ideal)) (h : main_v444.ty.shape.ShapeCasts main_v445.ty.shape) :
    shapeCast main_v445.ty.shape x h = shapeCast S2097152 (show S2097152x1.Idx → EReal from x) h := rfl
private theorem shapeCast_v447 (x : main_v446.ty.Contents (Elt Ideal)) (h : main_v446.ty.shape.ShapeCasts main_v447.ty.shape) :
    shapeCast main_v447.ty.shape x h = shapeCast S2097152 (show S2097152x1.Idx → EReal from x) h := rfl

theorem kg6_cst_132 (X : Valuation τ sig (Elt Ideal)) :
    (StableHlo.after (kg6 (F := Ideal)) X (Proc.devRef .tc main_cst_132) : S_.Idx → EReal) ix0 = lit 0x00000000#32 := by
  simp only [kg6, after_app]; dsimp only [hostOps0_23, hostOps0_24, hostOps0_25, hostOps0_26]; after_results_simp
  simp only [constant_apply]

theorem kg6_cst_133 (X : Valuation τ sig (Elt Ideal)) :
    (StableHlo.after (kg6 (F := Ideal)) X (Proc.devRef .tc main_cst_133) : S_.Idx → EReal) ix0 = lit 0x3F7FFFEF#32 := by
  simp only [kg6, after_app]; dsimp only [hostOps0_23, hostOps0_24, hostOps0_25, hostOps0_26]; after_results_simp
  simp only [constant_apply]

theorem kg6_v445 (X : Valuation τ sig (Elt Ideal)) (n : Fin 2097152) :
    (StableHlo.after (kg6 (F := Ideal)) X (Proc.devRef .tc main_v445) : S2097152.Idx → EReal) (ix1 n)
      = (X (Proc.devRef .tc main_arg2) : S2097152x2.Idx → EReal) (ix2 n 0) := by
  simp only [kg6, after_app]; dsimp only [hostOps0_23, hostOps0_24, hostOps0_25, hostOps0_26]; after_results_simp
  simp only [shapeCast_v445, shapeCast_col, extractStridedSlice_col]
  <;> try rfl

theorem kg6_v447 (X : Valuation τ sig (Elt Ideal)) (n : Fin 2097152) :
    (StableHlo.after (kg6 (F := Ideal)) X (Proc.devRef .tc main_v447) : S2097152.Idx → EReal) (ix1 n)
      = (X (Proc.devRef .tc main_arg2) : S2097152x2.Idx → EReal) (ix2 n 1) := by
  simp only [kg6, after_app]; dsimp only [hostOps0_23, hostOps0_24, hostOps0_25, hostOps0_26]; after_results_simp
  simp only [shapeCast_v447, shapeCast_col, extractStridedSlice_col]
  <;> try rfl

theorem kg6_v458 (X : Valuation τ sig (Elt Ideal)) (l : Fin 4) (u v : Fin 32) :
    (StableHlo.after (kg6 (F := Ideal)) X (Proc.devRef .tc main_v458) : S4x32x32.Idx → EReal) (ix3 l u v)
      = tri ((X (Proc.devRef .tc main_v5) : S4x32x32.Idx → EReal) (ix3 l u v)) := by
  simp only [kg6, after_app]; dsimp only [hostOps0_23, hostOps0_24, hostOps0_25, hostOps0_26]; after_results_simp
  simp only [mulf_apply, addf_apply, subf_apply, constant_apply, broadcastInDim_scalar, host_divf_apply, host_floor_apply,
    host_absf_apply, tri]
  <;> try rfl

set_option maxHeartbeats 8000000 in
theorem kg6_v443 (X : Valuation τ sig (Elt Ideal)) (l : Fin 1) (n : Fin 2097152) :
    (StableHlo.after (kg6 (F := Ideal)) X (Proc.devRef .tc main_v443) : S1x2097152.Idx → EReal) (ix2 l n)
      = bil2 32 32 (by decide) (by decide) 31#32 32#32 31#32 32#32
          (fun u v => (X (Proc.devRef .tc main_v346) : S1x32x32.Idx → EReal) (ix3 l u v))
          (emin ((X (Proc.devRef .tc main_cst_99) : S_.Idx → EReal) ix0)
              (emax ((X (Proc.devRef .tc main_cst_98) : S_.Idx → EReal) ix0)
                ((X (Proc.devRef .tc main_v335) : S2097152.Idx → EReal) (ix1 n)))
            ⋆ lit 0x41F80000#32)
          (clipc ((X (Proc.devRef .tc main_v47) : S2097152.Idx → EReal) (ix1 n)) ⋆ lit 0x41F80000#32) := by
  simp only [kg6, after_app]; dsimp only [hostOps0_23, hostOps0_24, hostOps0_25, hostOps0_26]; after_results_simp
  simp only [ofBuf_toBuf, toBuf_v347, toBuf_v350, id_eq]
  value_simp [toBuf_v347, toBuf_v350, gather_S1x32x32_apply, clipc] <;> try rfl

end Cert.KernelIdeal.Hand
end
-- ==== Proof.SpecRow.lean ====
import proofs.«140692_j21234318312201_2_alg».proof.Proof.Spec
import Idealize.ShloMosaic.Lib.ValueIdx

noncomputable section

namespace Cert.SpecRow

open Idealize.ShloMosaic Idealize.ShloMosaic.ValueIdx Cert.Hand Cert.Spec

/-- An `(N, 2)` input array at the ideal values. -/
abbrev In := (⟨2, ![2097152, 2]⟩ : Shape).Idx → EReal

variable (roughNoh anisoToh nDotLV metalLoh subCg : In)
variable (tRA : (⟨3, ![2048, 2048, 2]⟩ : Shape).Idx → EReal) (tCg : (⟨2, ![2048, 1]⟩ : Shape).Idx → EReal)
variable (tRS : (⟨3, ![64, 64, 3]⟩ : Shape).Idx → EReal) (tRAD : (⟨3, ![48, 48, 3]⟩ : Shape).Idx → EReal)
variable (tCgD : (⟨2, ![96, 2]⟩ : Shape).Idx → EReal) (tLVR : (⟨3, ![32, 32, 1]⟩ : Shape).Idx → EReal)
variable (tLV tNHL : (⟨3, ![32, 32, 4]⟩ : Shape).Idx → EReal)
variable (n : Fin 2097152)

/-- Nearest cell on an axis of 2048 cells, as a word: the clipped coordinate times 2047, rounded half to even. -/
def nearW (x : EReal) : BitVec 32 := Ideal.fptosi 32 (Ideal.liftRound Ideal.roundHalfEven (clipc x * lit 0x44FFE000#32))

/-- The eight table lookups of row `n`: a nearest-cell read (`ra`, `cg`) or a blend of neighbouring cells, each at clipped and scaled coordinates. -/
def ra (l : Fin 2) : EReal :=
  tri (tRA (ix3 (cell 2048 (by decide) 2048#32 (nearW (roughNoh (ix2 n 0)))) (cell 2048 (by decide) 2048#32 (nearW (anisoToh (ix2 n 0)))) l))

def cg : EReal := tri (tCg (ix2 (cell 2048 (by decide) 2048#32 (nearW (subCg (ix2 n 1)))) 0))

def rs (l : Fin 3) : EReal :=
  bil2 64 64 (by decide) (by decide) 63#32 64#32 63#32 64#32 (fun u v => tri (tRS (ix3 u v l)))
    (clipc (roughNoh (ix2 n 0)) * lit 0x427C0000#32) (clipc (subCg (ix2 n 0)) * lit 0x427C0000#32)

def rac (l : Fin 3) : EReal :=
  bil2 48 48 (by decide) (by decide) 47#32 48#32 47#32 48#32 (fun u v => tRAD (ix3 u v l))
    (clipc (ra roughNoh anisoToh tRA n 0) * lit 0x423C0000#32) (clipc (ra roughNoh anisoToh tRA n 1) * lit 0x423C0000#32)

def cgc (l : Fin 2) : EReal :=
  bil1 96 (by decide) 95#32 96#32 (fun u => tCgD (ix2 u l)) (clipc (cg subCg tCg n) * lit 0x42BE0000#32)

def vt : EReal :=
  bil2 32 32 (by decide) (by decide) 31#32 32#32 31#32 32#32 (fun u v => tri (tLVR (ix3 u v 0)))
    (clipc (nDotLV (ix2 n 0) * nDotLV (ix2 n 1)) * lit 0x41F80000#32) (clipc (ra roughNoh anisoToh tRA n 0) * lit 0x41F80000#32)

def nlv (l : Fin 4) : EReal :=
  bil2 32 32 (by decide) (by decide) 31#32 32#32 31#32 32#32 (fun u v => tri (tLV (ix3 u v l)))
    (clipc (nDotLV (ix2 n 0)) * lit 0x41F80000#32) (clipc (nDotLV (ix2 n 1)) * lit 0x41F80000#32)

def nhl (l : Fin 4) : EReal :=
  bil2 32 32 (by decide) (by decide) 31#32 32#32 31#32 32#32 (fun u v => tri (tNHL (ix3 u v l)))
    (clipc (metalLoh (ix2 n 1)) * lit 0x41F80000#32) (clipc (nDotLV (ix2 n 0)) * lit 0x41F80000#32)

variable (spst shst lumCs : In)

/-- The weights and the distribution term `1/4 / (nDotLV₁ · den²)` that combine the lookups. -/
def noh2 : EReal := roughNoh (ix2 n 1) * roughNoh (ix2 n 1)

def den : EReal :=
  rac roughNoh anisoToh tRA tRAD n 0 * (anisoToh (ix2 n 1) * anisoToh (ix2 n 1))
    + rac roughNoh anisoToh tRA tRAD n 1 * noh2 roughNoh n
    + rac roughNoh anisoToh tRA tRAD n 2

def dTerm : EReal :=
  Ideal.div (lit 0x3E800000#32) (nDotLV (ix2 n 1) * (den roughNoh anisoToh tRA tRAD n * den roughNoh anisoToh tRA tRAD n))

def rsCd (l : Fin 3) : EReal :=
  rs roughNoh subCg tRS n l * ((lit 0x3F800000#32 - metalLoh (ix2 n 0)) * lumCs (ix2 n 0))

def cm0 : EReal :=
  spst (ix2 n 0) * lit 0x3DCCCCCD#32 * (lit 0x3F800000#32 - metalLoh (ix2 n 0)) * spst (ix2 n 1) + metalLoh (ix2 n 0) * lumCs (ix2 n 0)

def cm1 : EReal :=
  spst (ix2 n 0) * lit 0x3DCCCCCD#32 * (lit 0x3F800000#32 - metalLoh (ix2 n 0)) * (lit 0x3F800000#32 - spst (ix2 n 1))

def cs0 : EReal := shst (ix2 n 0) * (lit 0x3F800000#32 - metalLoh (ix2 n 0)) * shst (ix2 n 1)

def cs1 : EReal := shst (ix2 n 0) * (lit 0x3F800000#32 - metalLoh (ix2 n 0)) * (lit 0x3F800000#32 - shst (ix2 n 1))

def cc : EReal := lit 0x3D800000#32 * lumCs (ix2 n 1)

/-- The two results of row `n`. -/
def rowX : EReal :=
  rsCd roughNoh metalLoh subCg tRS n lumCs 0 * metalLoh (ix2 n 1) * nlv nDotLV tLV n 1
    + rsCd roughNoh metalLoh subCg tRS n lumCs 1 * nlv nDotLV tLV n 2
    + rsCd roughNoh metalLoh subCg tRS n lumCs 2 * nlv nDotLV tLV n 3
    + cm0 metalLoh n spst lumCs * vt roughNoh anisoToh nDotLV tRA tLVR n * nhl nDotLV metalLoh tNHL n 2
        * dTerm roughNoh anisoToh nDotLV tRA tRAD n
    + cs0 metalLoh n shst * nhl nDotLV metalLoh tNHL n 0

def rowY : EReal :=
  ((lit 0x3F800000#32 - cm1 metalLoh n spst) * nhl nDotLV metalLoh tNHL n 3 + cm1 metalLoh n spst)
      * vt roughNoh anisoToh nDotLV tRA tLVR n * dTerm roughNoh anisoToh nDotLV tRA tRAD n
    + cs1 metalLoh n shst * nhl nDotLV metalLoh tNHL n 0
    + Ideal.div (cc n lumCs * nhl nDotLV metalLoh tNHL n 1 * nlv nDotLV tLV n 0)
        (nDotLV (ix2 n 1) * (cgc subCg tCg tCgD n 0 * noh2 roughNoh n + cgc subCg tCg tCgD n 1))

end Cert.SpecRow

end
-- ==== Proof.LibNearestCell.lean ====
import proofs.«140692_j21234318312201_2_alg».proof.Proof.Spec
import proofs.«140692_j21234318312201_2_alg».proof.Proof.LibClampIx
import Idealize.ShloMosaic.PureOps.Ideal.Laws

noncomputable section

namespace Cert.Spec

open Idealize.ShloMosaic Cert.Hand

/-- A word on its axis names itself: counting from the end applies to negative words only, and the clamp changes nothing. -/
theorem cell_val_of_mem (U : Nat) (hU : 0 < U) (Uw w : BitVec 32) (h0 : 0 ≤ w.toInt) (hlt : w.toInt < (U : Int)) :
    (cell U hU Uw w).val = w.toInt.toNat := by
  have hc : IntOp.cmpi .slt w 0#32 = 0#1 := by
    show BitVec.ofBool (w.slt 0#32) = 0#1
    rw [slt_zero_of_nonneg w h0]; rfl
  have hw : wrap Uw w = w := by unfold wrap Scalar.select; rw [hc]; exact if_neg (by decide)
  unfold cell
  rw [hw]
  exact clampIx_val_of_mem U hU w h0 hlt

theorem toInt_eq_toNat_of_nonneg (w : BitVec 32) (h0 : 0 ≤ w.toInt) : w.toInt = (w.toNat : Int) := by
  have hlt := w.isLt
  rw [BitVec.toInt_eq_toNat_cond] at h0 ⊢
  by_cases hc : 2 * w.toNat < 2 ^ 32
  · rw [if_pos hc]
  · rw [if_neg hc] at h0; omega

/-- For two words on an axis of 2048 cells the flat word `u · 2048 + v` stays below `2 ^ 22`: no 32-bit wrap-around. -/
theorem flat_toInt (ui vi : BitVec 32) (hu0 : 0 ≤ ui.toInt) (hu : ui.toInt < 2048) (hv0 : 0 ≤ vi.toInt)
    (hv : vi.toInt < 2048) :
    (IntOp.addi (IntOp.muli ui 2048#32) vi).toInt = ui.toInt * 2048 + vi.toInt := by
  unfold IntOp.addi IntOp.muli
  have eu := toInt_eq_toNat_of_nonneg ui hu0
  have ev := toInt_eq_toNat_of_nonneg vi hv0
  have hfn : (ui * 2048#32 + vi).toNat = ui.toNat * 2048 + vi.toNat := by
    rw [BitVec.toNat_add, BitVec.toNat_mul]
    show (ui.toNat * 2048 % 2 ^ 32 + vi.toNat) % 2 ^ 32 = _
    omega
  rw [BitVec.toInt_eq_toNat_cond, if_pos (by rw [hfn]; omega), hfn, eu, ev]
  omega

/-- The flat word names cell `u · 2048 + v` of the flattened table; its quotient and remainder by 2048 give the pair back. -/
theorem table_flat {α : Type} (T : Fin 2048 → Fin 2048 → α) (ui vi : BitVec 32) (hu0 : 0 ≤ ui.toInt)
    (hu : ui.toInt < 2048) (hv0 : 0 ≤ vi.toInt) (hv : vi.toInt < 2048) (h : 0 < 4194304) (h' : 0 < 2048)
    (hq : (cell 4194304 h 4194304#32 (IntOp.addi (IntOp.muli ui 2048#32) vi)).val / 2048 < 2048)
    (hr : (cell 4194304 h 4194304#32 (IntOp.addi (IntOp.muli ui 2048#32) vi)).val % 2048 < 2048) :
    T ⟨(cell 4194304 h 4194304#32 (IntOp.addi (IntOp.muli ui 2048#32) vi)).val / 2048, hq⟩
        ⟨(cell 4194304 h 4194304#32 (IntOp.addi (IntOp.muli ui 2048#32) vi)).val % 2048, hr⟩
      = T (cell 2048 h' 2048#32 ui) (cell 2048 h' 2048#32 vi) := by
  have hf := flat_toInt ui vi hu0 hu hv0 hv
  have hc := cell_val_of_mem 4194304 h 4194304#32 (IntOp.addi (IntOp.muli ui 2048#32) vi) (by omega) (by omega)
  have eu := cell_val_of_mem 2048 h' 2048#32 ui hu0 (by omega)
  have ev := cell_val_of_mem 2048 h' 2048#32 vi hv0 (by omega)
  exact congrArg₂ T (Fin.ext (by show _ / 2048 = _; omega)) (Fin.ext (by show _ % 2048 = _; omega))

theorem lit_zero : lit 0x00000000#32 = 0 := Ideal.ofBits_zero_f32

theorem lit_c : lit 0x3F7FFFEF#32 = ((16777199 / 16777216 : ℝ) : EReal) := by
  simp [lit, Ideal.ofBits, Ideal.ieee, -EReal.coe_mul]; norm_num

theorem lit_2047 : lit 0x44FFE000#32 = ((2047 : ℝ) : EReal) := by
  simp [lit, Ideal.ofBits, Ideal.ieee, -EReal.coe_mul]; norm_num

/-- Whatever the coordinate, an infinity included, clipping puts it at a real number of `[0, c]`. -/
theorem clipc_mem (x : EReal) : ∃ r : ℝ, 0 ≤ r ∧ r ≤ 16777199 / 16777216 ∧ clipc x = (r : EReal) := by
  unfold clipc
  rw [lit_c, lit_zero]
  induction x using EReal.rec with
  | bot =>
    refine ⟨0, le_refl _, by norm_num, ?_⟩
    rw [max_eq_left bot_le, min_eq_right (by exact_mod_cast (by norm_num : (0 : ℝ) ≤ 16777199 / 16777216))]
    rfl
  | coe a =>
    refine ⟨min (16777199 / 16777216) (max 0 a), le_min (by norm_num) (le_max_left _ _), min_le_left _ _, ?_⟩
    rw [← EReal.coe_zero, ← Monotone.map_max EReal.coe_strictMono.monotone,
      ← Monotone.map_min EReal.coe_strictMono.monotone]
  | top =>
    refine ⟨16777199 / 16777216, by norm_num, le_refl _, ?_⟩
    rw [max_eq_right le_top, min_eq_left le_top]

theorem roundHalfEven_mem (r : ℝ) (h0 : 0 ≤ r) (h1 : r < 2047) :
    0 ≤ Ideal.roundHalfEven r ∧ Ideal.roundHalfEven r ≤ 2047 := by
  have hf0 : 0 ≤ ⌊r⌋ := Int.floor_nonneg.2 h0
  have hf1 : ⌊r⌋ < 2047 := Int.floor_lt.2 (by exact_mod_cast h1)
  unfold Ideal.roundHalfEven
  simp only []
  split_ifs <;> constructor <;> omega

theorem fptosi_int (k : ℤ) (h0 : 0 ≤ k) (h1 : k < 2048) :
    (Ideal.fptosi 32 (((k : ℝ)) : EReal)).toInt = k := by
  unfold Ideal.fptosi
  rw [Ideal.toIntClamped_coe, if_pos (by exact_mod_cast h0), Int.floor_intCast]
  have hp : ((2 ^ (32 - 1) : Nat) : Int) = 2147483648 := by norm_num
  rw [hp, min_eq_right (by omega), max_eq_right (by omega)]
  exact BitVec.toInt_ofInt_eq_self (by decide) (by norm_num; omega) (by norm_num; omega)

/-- A clipped coordinate scaled by 2047 lies in `[0, 2047)`, so its nearest integer is a cell of an axis of 2048 cells. -/
theorem nearest_word_mem (x : EReal) :
    0 ≤ (Ideal.fptosi 32 (Ideal.liftRound Ideal.roundHalfEven (clipc x * lit 0x44FFE000#32))).toInt
      ∧ (Ideal.fptosi 32 (Ideal.liftRound Ideal.roundHalfEven (clipc x * lit 0x44FFE000#32))).toInt < 2048 := by
  obtain ⟨r, h0, h1, hr⟩ := clipc_mem x
  rw [hr, lit_2047, ← EReal.coe_mul, Ideal.liftRound_coe]
  have hm := roundHalfEven_mem (r * 2047) (by positivity) (by linarith)
  rw [fptosi_int _ hm.1 (by omega)]
  exact ⟨hm.1, by omega⟩

end Cert.Spec

end
-- ==== Proof.KIValue.lean ====
import proofs.«140692_j21234318312201_2_alg».proof.Proof.KIVal0
import proofs.«140692_j21234318312201_2_alg».proof.Proof.KIVal1
import proofs.«140692_j21234318312201_2_alg».proof.Proof.KIVal2
import proofs.«140692_j21234318312201_2_alg».proof.Proof.SpecRow
import proofs.«140692_j21234318312201_2_alg».proof.Proof.LibNearestCell
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

theorem K_ra0 (W : Valuation τ sig (Elt Ideal)) (n : Fin 2097152) :
    (StableHlo.after (kg1 (F := Ideal)) (StableHlo.after (kg0 (F := Ideal)) W) (Proc.devRef .tc main_v47) : S2097152.Idx → EReal) (ix1 n)
      = Cert.SpecRow.ra (roughNoh := (show S2097152x2.Idx → EReal from W (Proc.devRef .tc main_arg0)))
          (anisoToh := (show S2097152x2.Idx → EReal from W (Proc.devRef .tc main_arg1)))
          (tRA := (show S2048x2048x2.Idx → EReal from W (Proc.devRef .tc main_arg9))) n 0 := by
  rw [kg1_v47 _ n]
  dsimp only
  simp (disch := decide) only [kg0_cst _, kg0_cst_0 _, kg0_v8 _, kg0_v10 _, kg0_ok.keep]
  unfold Cert.SpecRow.ra Cert.SpecRow.nearW
  exact congrArg tri (table_flat (fun a b => (W (Proc.devRef .tc main_arg9) : S2048x2048x2.Idx → EReal) (ix3 a b 0)) _ _
    (nearest_word_mem _).1 (nearest_word_mem _).2 (nearest_word_mem _).1 (nearest_word_mem _).2 _ _ _ _)

theorem K_ra1 (W : Valuation τ sig (Elt Ideal)) (n : Fin 2097152) :
    (StableHlo.after (kg1 (F := Ideal)) (StableHlo.after (kg0 (F := Ideal)) W) (Proc.devRef .tc main_v49) : S2097152.Idx → EReal) (ix1 n)
      = Cert.SpecRow.ra (roughNoh := (show S2097152x2.Idx → EReal from W (Proc.devRef .tc main_arg0)))
          (anisoToh := (show S2097152x2.Idx → EReal from W (Proc.devRef .tc main_arg1)))
          (tRA := (show S2048x2048x2.Idx → EReal from W (Proc.devRef .tc main_arg9))) n 1 := by
  rw [kg1_v49 _ n]
  dsimp only
  simp (disch := decide) only [kg0_cst _, kg0_cst_0 _, kg0_v8 _, kg0_v10 _, kg0_ok.keep]
  unfold Cert.SpecRow.ra Cert.SpecRow.nearW
  exact congrArg tri (table_flat (fun a b => (W (Proc.devRef .tc main_arg9) : S2048x2048x2.Idx → EReal) (ix3 a b 1)) _ _
    (nearest_word_mem _).1 (nearest_word_mem _).2 (nearest_word_mem _).1 (nearest_word_mem _).2 _ _ _ _)

theorem K_cg (W : Valuation τ sig (Elt Ideal)) (n : Fin 2097152) :
    (StableHlo.after (kg2 (F := Ideal)) (StableHlo.after (kg1 (F := Ideal)) (StableHlo.after (kg0 (F := Ideal)) W)) (Proc.devRef .tc main_v75) : S2097152.Idx → EReal) (ix1 n)
      = Cert.SpecRow.cg (subCg := (show S2097152x2.Idx → EReal from W (Proc.devRef .tc main_arg5))) (tCg := (show S2048x1.Idx → EReal from W (Proc.devRef .tc main_arg10))) n := by
  rw [kg2_v75 _ n]
  dsimp only
  simp (disch := decide) only [kg1_cst_15 _, kg1_cst_16 _, kg1_v51 _, kg1_v62 _, kg0_v0 _, kg0_ok.keep]
  unfold Cert.SpecRow.cg Cert.SpecRow.nearW
  rfl

theorem V_rs (W : Valuation τ sig (Elt Ideal)) (l : Fin 3) (n : Fin 2097152) :
    (StableHlo.after (kg8 (F := Ideal)) (StableHlo.after (kg7 (F := Ideal)) (StableHlo.after (kg6 (F := Ideal)) (StableHlo.after (kg5 (F := Ideal)) (StableHlo.after (kg4 (F := Ideal)) (StableHlo.after (kg3 (F := Ideal)) (StableHlo.after (kg2 (F := Ideal)) (StableHlo.after (kg1 (F := Ideal)) (StableHlo.after (kg0 (F := Ideal)) W)))))))) (Proc.devRef .tc main_v193) : S3x2097152.Idx → EReal) (ix2 l n)
      = Cert.SpecRow.rs (roughNoh := (show S2097152x2.Idx → EReal from W (Proc.devRef .tc main_arg0))) (subCg := (show S2097152x2.Idx → EReal from W (Proc.devRef .tc main_arg5)))
          (tRS := (show S64x64x3.Idx → EReal from W (Proc.devRef .tc main_arg11))) n l := by
  simp (disch := decide) only [kg4_ok.keep, kg5_ok.keep, kg6_ok.keep, kg7_ok.keep, kg8_ok.keep]
  rw [kg3_v193 _ l n]
  dsimp only
  simp (disch := decide) only [kg2_cst_24 _, kg2_cst_25 _, kg2_v77 _, kg2_v88 _, kg0_v8 _, kg0_v1 _, kg0_ok.keep, kg1_ok.keep, kg2_ok.keep]
  unfold Cert.SpecRow.rs
  rfl

theorem V_rac (W : Valuation τ sig (Elt Ideal)) (l : Fin 3) (n : Fin 2097152) :
    (StableHlo.after (kg8 (F := Ideal)) (StableHlo.after (kg7 (F := Ideal)) (StableHlo.after (kg6 (F := Ideal)) (StableHlo.after (kg5 (F := Ideal)) (StableHlo.after (kg4 (F := Ideal)) (StableHlo.after (kg3 (F := Ideal)) (StableHlo.after (kg2 (F := Ideal)) (StableHlo.after (kg1 (F := Ideal)) (StableHlo.after (kg0 (F := Ideal)) W)))))))) (Proc.devRef .tc main_v298) : S3x2097152.Idx → EReal) (ix2 l n)
      = Cert.SpecRow.rac (roughNoh := (show S2097152x2.Idx → EReal from W (Proc.devRef .tc main_arg0))) (anisoToh := (show S2097152x2.Idx → EReal from W (Proc.devRef .tc main_arg1)))
          (tRA := (show S2048x2048x2.Idx → EReal from W (Proc.devRef .tc main_arg9))) (tRAD := (show S48x48x3.Idx → EReal from W (Proc.devRef .tc main_arg12))) n l := by
  simp (disch := decide) only [kg5_ok.keep, kg6_ok.keep, kg7_ok.keep, kg8_ok.keep]
  rw [kg4_v298 _ l n]
  dsimp only
  simp (disch := decide) only [kg3_cst_54 _, kg3_cst_55 _, K_ra0 W n, K_ra1 W n, kg0_v2 _, kg1_ok.keep, kg2_ok.keep, kg3_ok.keep]
  unfold Cert.SpecRow.rac
  rfl

theorem V_cgc (W : Valuation τ sig (Elt Ideal)) (l : Fin 2) (n : Fin 2097152) :
    (StableHlo.after (kg8 (F := Ideal)) (StableHlo.after (kg7 (F := Ideal)) (StableHlo.after (kg6 (F := Ideal)) (StableHlo.after (kg5 (F := Ideal)) (StableHlo.after (kg4 (F := Ideal)) (StableHlo.after (kg3 (F := Ideal)) (StableHlo.after (kg2 (F := Ideal)) (StableHlo.after (kg1 (F := Ideal)) (StableHlo.after (kg0 (F := Ideal)) W)))))))) (Proc.devRef .tc main_v330) : S2x2097152.Idx → EReal) (ix2 l n)
      = Cert.SpecRow.cgc (subCg := (show S2097152x2.Idx → EReal from W (Proc.devRef .tc main_arg5))) (tCg := (show S2048x1.Idx → EReal from W (Proc.devRef .tc main_arg10)))
          (tCgD := (show S96x2.Idx → EReal from W (Proc.devRef .tc main_arg13))) n l := by
  simp (disch := decide) only [kg6_ok.keep, kg7_ok.keep, kg8_ok.keep]
  rw [kg5_v330 _ l n]
  simp (disch := decide) only [kg4_cst_84 _, kg4_cst_85 _, K_cg W n, kg0_v3 _, kg1_ok.keep, kg2_ok.keep, kg3_ok.keep, kg4_ok.keep]
  unfold Cert.SpecRow.cgc
  rfl

end Cert.KernelIdeal.Hand
end
-- ==== Proof.KIVal3.lean ====
import proofs.«140692_j21234318312201_2_alg».proof.Proof.KIKeep
import proofs.«140692_j21234318312201_2_alg».proof.Proof.LibLayoutIx
import proofs.«140692_j21234318312201_2_alg».proof.Proof.GatherK
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

local macro "run_at_index" : tactic => `(tactic| value_simp [gather_S4x32x32_apply])

private theorem shapeCast_v565 (x : main_v564.ty.Contents (Elt Ideal)) (h : main_v564.ty.shape.ShapeCasts main_v565.ty.shape) :
    shapeCast main_v565.ty.shape x h = shapeCast S2097152 (show S2097152x1.Idx → EReal from x) h := rfl
private theorem shapeCast_v567 (x : main_v566.ty.Contents (Elt Ideal)) (h : main_v566.ty.shape.ShapeCasts main_v567.ty.shape) :
    shapeCast main_v567.ty.shape x h = shapeCast S2097152 (show S2097152x1.Idx → EReal from x) h := rfl

theorem kg7_cst_166 (X : Valuation τ sig (Elt Ideal)) :
    ((StableHlo.after (kg7 (F := Ideal)) X (Proc.devRef .tc main_cst_166) : S_.Idx → EReal)) ix0 = lit 0x00000000#32 := by
  simp only [kg7, after_app]; dsimp only [hostOps0_27, hostOps0_28, hostOps0_29, hostOps0_30]
  run_at_index <;> try rfl

theorem kg7_cst_167 (X : Valuation τ sig (Elt Ideal)) :
    ((StableHlo.after (kg7 (F := Ideal)) X (Proc.devRef .tc main_cst_167) : S_.Idx → EReal)) ix0 = lit 0x3F7FFFEF#32 := by
  simp only [kg7, after_app]; dsimp only [hostOps0_27, hostOps0_28, hostOps0_29, hostOps0_30]
  run_at_index <;> try rfl

theorem kg7_v565 (X : Valuation τ sig (Elt Ideal)) (n : Fin 2097152) :
    ((StableHlo.after (kg7 (F := Ideal)) X (Proc.devRef .tc main_v565) : S2097152.Idx → EReal)) (ix1 n)
      = ((X (Proc.devRef .tc main_arg4) : S2097152x2.Idx → EReal)) (ix2 n 1) := by
  simp only [kg7, after_app]; dsimp only [hostOps0_27, hostOps0_28, hostOps0_29, hostOps0_30]
  value_simp [shapeCast_v565] <;> try rfl

theorem kg7_v567 (X : Valuation τ sig (Elt Ideal)) (n : Fin 2097152) :
    ((StableHlo.after (kg7 (F := Ideal)) X (Proc.devRef .tc main_v567) : S2097152.Idx → EReal)) (ix1 n)
      = ((X (Proc.devRef .tc main_arg2) : S2097152x2.Idx → EReal)) (ix2 n 0) := by
  simp only [kg7, after_app]; dsimp only [hostOps0_27, hostOps0_28, hostOps0_29, hostOps0_30]
  value_simp [shapeCast_v567] <;> try rfl

theorem kg7_v578 (X : Valuation τ sig (Elt Ideal)) (l : Fin 4) (a b : Fin 32) :
    ((StableHlo.after (kg7 (F := Ideal)) X (Proc.devRef .tc main_v578) : S4x32x32.Idx → EReal)) (ix3 l a b)
      = tri (((X (Proc.devRef .tc main_v6) : S4x32x32.Idx → EReal)) (ix3 l a b)) := by
  simp only [kg7, after_app]; dsimp only [hostOps0_27, hostOps0_28, hostOps0_29, hostOps0_30]
  run_at_index <;> try rfl

private theorem k7p_toBuf_v459 (h1 h2 h3) (v : (⟨S2097152, .f32⟩ : BufTy).Contents (Elt Ideal)) :
    (TRef.of (T := ⟨S2097152, .f32⟩) main_v459 h1 h2 h3).toBuf v = v := rfl
private theorem k7p_toBuf_v462 (h1 h2 h3) (v : (⟨S2097152, .f32⟩ : BufTy).Contents (Elt Ideal)) :
    (TRef.of (T := ⟨S2097152, .f32⟩) main_v462 h1 h2 h3).toBuf v = v := rfl

private theorem k7p_v461 (X : Valuation τ sig (Elt Ideal)) (n : Fin 2097152) :
    ((StableHlo.after (hostOps0_29 (F := Ideal)) (StableHlo.after hostOps0_28 (StableHlo.after hostOps0_27 X)) (Proc.devRef .tc main_v461) : S2097152.Idx → EReal)) (ix1 n) = min (((show S_.Idx → EReal from X (Proc.devRef .tc main_cst_133)) ix0)) (max (((show S_.Idx → EReal from X (Proc.devRef .tc main_cst_132)) ix0)) (((show S2097152.Idx → EReal from X (Proc.devRef .tc main_v445)) (ix1 n)))) * lit 0x41F80000#32 := by
  dsimp only [hostOps0_27, hostOps0_28, hostOps0_29]
  value_simp [k7p_toBuf_v459, k7p_toBuf_v462] <;> try rfl

private theorem k7p_v462 (X : Valuation τ sig (Elt Ideal)) (n : Fin 2097152) :
    ((StableHlo.after (hostOps0_29 (F := Ideal)) (StableHlo.after hostOps0_28 (StableHlo.after hostOps0_27 X)) (Proc.devRef .tc main_v462) : S2097152.Idx → EReal)) (ix1 n) = clipc (((show S2097152.Idx → EReal from X (Proc.devRef .tc main_v447)) (ix1 n))) := by
  dsimp only [hostOps0_27, hostOps0_28, hostOps0_29]
  value_simp [k7p_toBuf_v459, k7p_toBuf_v462] <;> try rfl

private def k30a : List (HloOp τ sig (Elt Ideal)) := (hostOps0_30 (F := Ideal)).take 23
private def k30b : List (HloOp τ sig (Elt Ideal)) := ((hostOps0_30 (F := Ideal)).drop 23).take 54
private def k30c : List (HloOp τ sig (Elt Ideal)) := ((hostOps0_30 (F := Ideal)).drop 23).drop 54

private theorem k30_cut : hostOps0_30 (F := Ideal) = k30a ++ (k30b ++ k30c) := by
  simp only [k30a, k30b, k30c, List.take_append_drop]

/-- A buffer a cut of the lookup's operations does not write passes through the cut. -/
private theorem k30a_keep (Y : Valuation τ sig (Elt Ideal)) {r : Ref sig .tc} (h : r ∉ kw30.take 23) :
    StableHlo.after k30a Y (Proc.devRef .tc r) = Y (Proc.devRef .tc r) := (hostOps0_30_ok.take 23).keep Y h
private theorem k30b_keep (Y : Valuation τ sig (Elt Ideal)) {r : Ref sig .tc} (h : r ∉ (kw30.drop 23).take 54) :
    StableHlo.after k30b Y (Proc.devRef .tc r) = Y (Proc.devRef .tc r) :=
  Piece.keep (List.forall₂_take 54 (List.forall₂_drop 23 hostOps0_30_ok)) Y h

private theorem k30a_v468 (Y : Valuation τ sig (Elt Ideal)) (n : Fin 2097152) :
    ((StableHlo.after k30a Y (Proc.devRef .tc main_v468) : S1x2097152.Idx → EReal)) (ix2 0 n) = frac ((show S2097152.Idx → EReal from Y (Proc.devRef .tc main_v461)) (ix1 n)) := by
  dsimp only [k30a, hostOps0_30, List.take, List.drop]
  run_at_index <;> try rfl
private theorem k30a_v470 (Y : Valuation τ sig (Elt Ideal)) (n : Fin 2097152) :
    ((StableHlo.after k30a Y (Proc.devRef .tc main_v470) : S1x2097152.Idx → EReal)) (ix2 0 n) = frac (((show S2097152.Idx → EReal from Y (Proc.devRef .tc main_v462)) (ix1 n)) * lit 0x41F80000#32) := by
  dsimp only [k30a, hostOps0_30, List.take, List.drop]
  run_at_index <;> try rfl
private theorem k30a_v471 (Y : Valuation τ sig (Elt Ideal)) (n : Fin 2097152) :
    ((StableHlo.after k30a Y (Proc.devRef .tc main_v471) : S2097152.Idx → BitVec 32)) (ix1 n) = lo ((show S2097152.Idx → EReal from Y (Proc.devRef .tc main_v461)) (ix1 n)) := by
  dsimp only [k30a, hostOps0_30, List.take, List.drop]
  run_at_index <;> try rfl
private theorem k30a_v472 (Y : Valuation τ sig (Elt Ideal)) (n : Fin 2097152) :
    ((StableHlo.after k30a Y (Proc.devRef .tc main_v472) : S2097152.Idx → BitVec 32)) (ix1 n) = lo (((show S2097152.Idx → EReal from Y (Proc.devRef .tc main_v462)) (ix1 n)) * lit 0x41F80000#32) := by
  dsimp only [k30a, hostOps0_30, List.take, List.drop]
  run_at_index <;> try rfl
private theorem k30a_v476 (Y : Valuation τ sig (Elt Ideal)) (n : Fin 2097152) :
    ((StableHlo.after k30a Y (Proc.devRef .tc main_v476) : S2097152.Idx → BitVec 32)) (ix1 n) = hi 31#32 ((show S2097152.Idx → EReal from Y (Proc.devRef .tc main_v461)) (ix1 n)) := by
  dsimp only [k30a, hostOps0_30, List.take, List.drop]
  run_at_index <;> try rfl
private theorem k30a_v480 (Y : Valuation τ sig (Elt Ideal)) (n : Fin 2097152) :
    ((StableHlo.after k30a Y (Proc.devRef .tc main_v480) : S2097152.Idx → BitVec 32)) (ix1 n) = hi 31#32 (((show S2097152.Idx → EReal from Y (Proc.devRef .tc main_v462)) (ix1 n)) * lit 0x41F80000#32) := by
  dsimp only [k30a, hostOps0_30, List.take, List.drop]
  run_at_index <;> try rfl

set_option maxHeartbeats 4000000 in
private theorem k30b_v523 (Y : Valuation τ sig (Elt Ideal)) (l : Fin 4) (n : Fin 2097152) :
    ((StableHlo.after k30b Y (Proc.devRef .tc main_v523) : S4x2097152.Idx → EReal)) (ix2 l n)
      = ((show S4x32x32.Idx → EReal from Y (Proc.devRef .tc main_v458)) (ix3 l (cell 32 (by decide) 32#32 ((show S2097152.Idx → BitVec 32 from Y (Proc.devRef .tc main_v471)) (ix1 n))) (cell 32 (by decide) 32#32 ((show S2097152.Idx → BitVec 32 from Y (Proc.devRef .tc main_v472)) (ix1 n))))) * (lit 0x3F800000#32 - ((show S1x2097152.Idx → EReal from Y (Proc.devRef .tc main_v468)) (ix2 0 n))) * (lit 0x3F800000#32 - ((show S1x2097152.Idx → EReal from Y (Proc.devRef .tc main_v470)) (ix2 0 n)))
        + ((show S4x32x32.Idx → EReal from Y (Proc.devRef .tc main_v458)) (ix3 l (cell 32 (by decide) 32#32 ((show S2097152.Idx → BitVec 32 from Y (Proc.devRef .tc main_v476)) (ix1 n))) (cell 32 (by decide) 32#32 ((show S2097152.Idx → BitVec 32 from Y (Proc.devRef .tc main_v472)) (ix1 n))))) * ((show S1x2097152.Idx → EReal from Y (Proc.devRef .tc main_v468)) (ix2 0 n)) * (lit 0x3F800000#32 - ((show S1x2097152.Idx → EReal from Y (Proc.devRef .tc main_v470)) (ix2 0 n))) := by
  dsimp only [k30b, hostOps0_30, List.take, List.drop]
  run_at_index <;> try rfl

set_option maxHeartbeats 4000000 in
private theorem k30c_v563 (Y : Valuation τ sig (Elt Ideal)) (l : Fin 4) (n : Fin 2097152) :
    ((StableHlo.after k30c Y (Proc.devRef .tc main_v563) : S4x2097152.Idx → EReal)) (ix2 l n)
      = ((show S4x2097152.Idx → EReal from Y (Proc.devRef .tc main_v523)) (ix2 l n))
        + ((show S4x32x32.Idx → EReal from Y (Proc.devRef .tc main_v458)) (ix3 l (cell 32 (by decide) 32#32 ((show S2097152.Idx → BitVec 32 from Y (Proc.devRef .tc main_v471)) (ix1 n))) (cell 32 (by decide) 32#32 ((show S2097152.Idx → BitVec 32 from Y (Proc.devRef .tc main_v480)) (ix1 n))))) * (lit 0x3F800000#32 - ((show S1x2097152.Idx → EReal from Y (Proc.devRef .tc main_v468)) (ix2 0 n))) * ((show S1x2097152.Idx → EReal from Y (Proc.devRef .tc main_v470)) (ix2 0 n))
        + ((show S4x32x32.Idx → EReal from Y (Proc.devRef .tc main_v458)) (ix3 l (cell 32 (by decide) 32#32 ((show S2097152.Idx → BitVec 32 from Y (Proc.devRef .tc main_v476)) (ix1 n))) (cell 32 (by decide) 32#32 ((show S2097152.Idx → BitVec 32 from Y (Proc.devRef .tc main_v480)) (ix1 n))))) * ((show S1x2097152.Idx → EReal from Y (Proc.devRef .tc main_v468)) (ix2 0 n)) * ((show S1x2097152.Idx → EReal from Y (Proc.devRef .tc main_v470)) (ix2 0 n)) := by
  dsimp only [k30c, hostOps0_30, List.take, List.drop]
  run_at_index <;> try rfl

set_option maxHeartbeats 4000000 in
/-- The two-axis blend over the first four-channel 32 × 32 table: the three cuts of its operations, then the two clips. -/
theorem kg7_v563 (X : Valuation τ sig (Elt Ideal)) (l : Fin 4) (n : Fin 2097152) :
    ((StableHlo.after (kg7 (F := Ideal)) X (Proc.devRef .tc main_v563) : S4x2097152.Idx → EReal)) (ix2 l n)
      = bil2 32 32 (by decide) (by decide) 31#32 32#32 31#32 32#32
          (fun a b => ((show S4x32x32.Idx → EReal from X (Proc.devRef .tc main_v458)) (ix3 l a b)))
          (min (((show S_.Idx → EReal from X (Proc.devRef .tc main_cst_133)) ix0)) (max (((show S_.Idx → EReal from X (Proc.devRef .tc main_cst_132)) ix0)) (((show S2097152.Idx → EReal from X (Proc.devRef .tc main_v445)) (ix1 n)))) * lit 0x41F80000#32)
          (clipc (((show S2097152.Idx → EReal from X (Proc.devRef .tc main_v447)) (ix1 n))) * lit 0x41F80000#32) := by
  simp only [kg7, after_app]
  rw [k30_cut, after_app, after_app, k30c_v563]
  dsimp only
  rw [k30b_v523]
  dsimp only
  rw [k30b_keep _ (r := main_v458) (by decide), k30b_keep _ (r := main_v468) (by decide), k30b_keep _ (r := main_v470) (by decide), k30b_keep _ (r := main_v471) (by decide), k30b_keep _ (r := main_v476) (by decide), k30b_keep _ (r := main_v480) (by decide)]
  rw [k30a_v468, k30a_v470, k30a_v471, k30a_v472, k30a_v476, k30a_v480, k30a_keep _ (r := main_v458) (by decide)]
  dsimp only
  rw [k7p_v461, k7p_v462, hostOps0_29_ok.keep _ (r := main_v458) (by decide), hostOps0_28_ok.keep _ (r := main_v458) (by decide), hostOps0_27_ok.keep _ (r := main_v458) (by decide)]
  rfl

end Cert.KernelIdeal.Hand
end
-- ==== Proof.KIVal4.lean ====
import proofs.«140692_j21234318312201_2_alg».proof.Proof.KIKeep
import proofs.«140692_j21234318312201_2_alg».proof.Proof.LibLayoutIx
import proofs.«140692_j21234318312201_2_alg».proof.Proof.GatherK
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

private theorem ty_v685 : main_v685.ty.shape = S2097152 := rfl
private theorem ty_v687 : main_v687.ty.shape = S2097152 := rfl
private theorem ty_v689 : main_v689.ty.shape = S2097152 := rfl
private theorem ty_v691 : main_v691.ty.shape = S2097152 := rfl
private theorem ty_v693 : main_v693.ty.shape = S2097152 := rfl
private theorem ty_v695 : main_v695.ty.shape = S2097152 := rfl
private theorem ty_v697 : main_v697.ty.shape = S2097152 := rfl
private theorem ty_v699 : main_v699.ty.shape = S2097152 := rfl
private theorem ty_v701 : main_v701.ty.shape = S2097152 := rfl
private theorem ty_v703 : main_v703.ty.shape = S2097152 := rfl
private theorem ty_v705 : main_v705.ty.shape = S2097152 := rfl
private theorem toBuf_v579 (h1 h2 h3) (v : (⟨S2097152, .f32⟩ : BufTy).Contents (Elt Ideal)) :
    (TRef.of (T := ⟨S2097152, .f32⟩) main_v579 h1 h2 h3).toBuf v = v := rfl
private theorem toBuf_v582 (h1 h2 h3) (v : (⟨S2097152, .f32⟩ : BufTy).Contents (Elt Ideal)) :
    (TRef.of (T := ⟨S2097152, .f32⟩) main_v582 h1 h2 h3).toBuf v = v := rfl

local macro "value_simp8" : tactic => `(tactic| value_simp [ty_v685, ty_v687, ty_v689, ty_v691, ty_v693, ty_v695, ty_v697, ty_v699, ty_v701, ty_v703, ty_v705, toBuf_v579, toBuf_v582, gather_S4x32x32_apply, Matrix.cons_val, concatenate_rows12_num_0, concatenate_rows12_num_1, concatenate_rows12_num_2, concatenate_rows12_num_3, concatenate_rows12_num_4, concatenate_rows12_num_5, concatenate_rows12_num_6, concatenate_rows12_num_7, concatenate_rows12_num_8, concatenate_rows12_num_9, concatenate_rows12_num_10, concatenate_rows12_num_11])

set_option maxHeartbeats 64000000 in
/-- Channel l of the two-axis blend over the last 32 × 32 table: each coordinate clipped, then scaled by 31. -/
theorem kg8_v683 (X : Valuation τ sig (Elt Ideal)) (l : Fin 4) (n : Fin 2097152) :
    (StableHlo.after (kg8 (F := Ideal)) X (Proc.devRef .tc main_v683) : S4x2097152.Idx → EReal) (ix2 l n)
      = bil2 32 32 (by decide) (by decide) 31#32 32#32 31#32 32#32
          (fun u v => (show S4x32x32.Idx → EReal from X (Proc.devRef .tc main_v578)) (ix3 l u v))
          (min ((show S_.Idx → EReal from X (Proc.devRef .tc main_cst_167)) ix0) (max ((show S_.Idx → EReal from X (Proc.devRef .tc main_cst_166)) ix0) ((show S2097152.Idx → EReal from X (Proc.devRef .tc main_v565)) (ix1 n))) * lit 0x41F80000#32)
          (clipc ((show S2097152.Idx → EReal from X (Proc.devRef .tc main_v567)) (ix1 n)) * lit 0x41F80000#32) := by
  simp only [kg8, after_app]; dsimp only [hostOps0_31, hostOps0_32, hostOps0_33, hostOps0_34]; value_simp8 <;> try rfl

/-- The contents when the last 35 operations, which stack twelve columns as rows, begin. -/
private abbrev pre8 (X : Valuation τ sig (Elt Ideal)) : Valuation τ sig (Elt Ideal) :=
  after (List.take 126 (hostOps0_34 (F := Ideal))) (after hostOps0_33 (after hostOps0_32 (after hostOps0_31 X)))

private theorem kg8_cut (X : Valuation τ sig (Elt Ideal)) :
    after (kg8 (F := Ideal)) X = after (List.drop 126 (hostOps0_34 (F := Ideal))) (pre8 X) := by
  simp only [kg8, after_app]
  rw [pre8, ← after_app (List.take 126 (hostOps0_34 (F := Ideal))) (List.drop 126 (hostOps0_34 (F := Ideal))), List.take_append_drop]

/-- Nothing before the stack writes a column it reads. -/
private theorem through8 (X : Valuation τ sig (Elt Ideal)) {r : Ref sig .tc}
    (h : r ∉ kw31 ++ (kw32 ++ (kw33 ++ kw34.take 126))) : pre8 X (Proc.devRef .tc r) = X (Proc.devRef .tc r) := by
  simpa only [pre8, after_app] using
    (hostOps0_31_ok.append (hostOps0_32_ok.append (hostOps0_33_ok.append (hostOps0_34_ok.take 126)))).keep X h

theorem kg8_v718_0 (X : Valuation τ sig (Elt Ideal)) (n : Fin 2097152) :
    (StableHlo.after (kg8 (F := Ideal)) X (Proc.devRef .tc main_v718) : S12x2097152.Idx → EReal) (ix2 (0 : Fin 12) n)
      = (X (Proc.devRef .tc main_arg0) : S2097152x2.Idx → EReal) (ix2 n 1) := by
  rw [kg8_cut, ← through8 X (r := main_arg0) (by decide)]; generalize pre8 X = Z
  dsimp only [hostOps0_34]; simp only [List.drop_succ_cons, List.drop_zero]; value_simp8 <;> try rfl

theorem kg8_v718_1 (X : Valuation τ sig (Elt Ideal)) (n : Fin 2097152) :
    (StableHlo.after (kg8 (F := Ideal)) X (Proc.devRef .tc main_v718) : S12x2097152.Idx → EReal) (ix2 (1 : Fin 12) n)
      = (X (Proc.devRef .tc main_arg1) : S2097152x2.Idx → EReal) (ix2 n 1) := by
  rw [kg8_cut, ← through8 X (r := main_arg1) (by decide)]; generalize pre8 X = Z
  dsimp only [hostOps0_34]; simp only [List.drop_succ_cons, List.drop_zero]; value_simp8 <;> try rfl

theorem kg8_v718_2 (X : Valuation τ sig (Elt Ideal)) (n : Fin 2097152) :
    (StableHlo.after (kg8 (F := Ideal)) X (Proc.devRef .tc main_v718) : S12x2097152.Idx → EReal) (ix2 (2 : Fin 12) n)
      = (X (Proc.devRef .tc main_arg2) : S2097152x2.Idx → EReal) (ix2 n 0) := by
  rw [kg8_cut, ← through8 X (r := main_arg2) (by decide)]; generalize pre8 X = Z
  dsimp only [hostOps0_34]; simp only [List.drop_succ_cons, List.drop_zero]; value_simp8 <;> try rfl

theorem kg8_v718_3 (X : Valuation τ sig (Elt Ideal)) (n : Fin 2097152) :
    (StableHlo.after (kg8 (F := Ideal)) X (Proc.devRef .tc main_v718) : S12x2097152.Idx → EReal) (ix2 (3 : Fin 12) n)
      = (X (Proc.devRef .tc main_arg2) : S2097152x2.Idx → EReal) (ix2 n 1) := by
  rw [kg8_cut, ← through8 X (r := main_arg2) (by decide)]; generalize pre8 X = Z
  dsimp only [hostOps0_34]; simp only [List.drop_succ_cons, List.drop_zero]; value_simp8 <;> try rfl

theorem kg8_v718_4 (X : Valuation τ sig (Elt Ideal)) (n : Fin 2097152) :
    (StableHlo.after (kg8 (F := Ideal)) X (Proc.devRef .tc main_v718) : S12x2097152.Idx → EReal) (ix2 (4 : Fin 12) n)
      = (X (Proc.devRef .tc main_v12) : S2097152.Idx → EReal) (ix1 n) := by
  rw [kg8_cut, ← through8 X (r := main_v12) (by decide)]; generalize pre8 X = Z
  dsimp only [hostOps0_34]; simp only [List.drop_succ_cons, List.drop_zero]; value_simp8 <;> try rfl

theorem kg8_v718_5 (X : Valuation τ sig (Elt Ideal)) (n : Fin 2097152) :
    (StableHlo.after (kg8 (F := Ideal)) X (Proc.devRef .tc main_v718) : S12x2097152.Idx → EReal) (ix2 (5 : Fin 12) n)
      = (X (Proc.devRef .tc main_arg4) : S2097152x2.Idx → EReal) (ix2 n 1) := by
  rw [kg8_cut, ← through8 X (r := main_arg4) (by decide)]; generalize pre8 X = Z
  dsimp only [hostOps0_34]; simp only [List.drop_succ_cons, List.drop_zero]; value_simp8 <;> try rfl

theorem kg8_v718_6 (X : Valuation τ sig (Elt Ideal)) (n : Fin 2097152) :
    (StableHlo.after (kg8 (F := Ideal)) X (Proc.devRef .tc main_v718) : S12x2097152.Idx → EReal) (ix2 (6 : Fin 12) n)
      = (X (Proc.devRef .tc main_arg8) : S2097152x2.Idx → EReal) (ix2 n 0) := by
  rw [kg8_cut, ← through8 X (r := main_arg8) (by decide)]; generalize pre8 X = Z
  dsimp only [hostOps0_34]; simp only [List.drop_succ_cons, List.drop_zero]; value_simp8 <;> try rfl

theorem kg8_v718_7 (X : Valuation τ sig (Elt Ideal)) (n : Fin 2097152) :
    (StableHlo.after (kg8 (F := Ideal)) X (Proc.devRef .tc main_v718) : S12x2097152.Idx → EReal) (ix2 (7 : Fin 12) n)
      = (X (Proc.devRef .tc main_arg8) : S2097152x2.Idx → EReal) (ix2 n 1) := by
  rw [kg8_cut, ← through8 X (r := main_arg8) (by decide)]; generalize pre8 X = Z
  dsimp only [hostOps0_34]; simp only [List.drop_succ_cons, List.drop_zero]; value_simp8 <;> try rfl

theorem kg8_v718_8 (X : Valuation τ sig (Elt Ideal)) (n : Fin 2097152) :
    (StableHlo.after (kg8 (F := Ideal)) X (Proc.devRef .tc main_v718) : S12x2097152.Idx → EReal) (ix2 (8 : Fin 12) n)
      = (X (Proc.devRef .tc main_arg6) : S2097152x2.Idx → EReal) (ix2 n 0) := by
  rw [kg8_cut, ← through8 X (r := main_arg6) (by decide)]; generalize pre8 X = Z
  dsimp only [hostOps0_34]; simp only [List.drop_succ_cons, List.drop_zero]; value_simp8 <;> try rfl

theorem kg8_v718_9 (X : Valuation τ sig (Elt Ideal)) (n : Fin 2097152) :
    (StableHlo.after (kg8 (F := Ideal)) X (Proc.devRef .tc main_v718) : S12x2097152.Idx → EReal) (ix2 (9 : Fin 12) n)
      = (X (Proc.devRef .tc main_arg6) : S2097152x2.Idx → EReal) (ix2 n 1) := by
  rw [kg8_cut, ← through8 X (r := main_arg6) (by decide)]; generalize pre8 X = Z
  dsimp only [hostOps0_34]; simp only [List.drop_succ_cons, List.drop_zero]; value_simp8 <;> try rfl

theorem kg8_v718_10 (X : Valuation τ sig (Elt Ideal)) (n : Fin 2097152) :
    (StableHlo.after (kg8 (F := Ideal)) X (Proc.devRef .tc main_v718) : S12x2097152.Idx → EReal) (ix2 (10 : Fin 12) n)
      = (X (Proc.devRef .tc main_arg7) : S2097152x2.Idx → EReal) (ix2 n 0) := by
  rw [kg8_cut, ← through8 X (r := main_arg7) (by decide)]; generalize pre8 X = Z
  dsimp only [hostOps0_34]; simp only [List.drop_succ_cons, List.drop_zero]; value_simp8 <;> try rfl

theorem kg8_v718_11 (X : Valuation τ sig (Elt Ideal)) (n : Fin 2097152) :
    (StableHlo.after (kg8 (F := Ideal)) X (Proc.devRef .tc main_v718) : S12x2097152.Idx → EReal) (ix2 (11 : Fin 12) n)
      = (X (Proc.devRef .tc main_arg7) : S2097152x2.Idx → EReal) (ix2 n 1) := by
  rw [kg8_cut, ← through8 X (r := main_arg7) (by decide)]; generalize pre8 X = Z
  dsimp only [hostOps0_34]; simp only [List.drop_succ_cons, List.drop_zero]; value_simp8 <;> try rfl

end Cert.KernelIdeal.Hand
end
-- ==== Proof.KIValueB.lean ====
import proofs.«140692_j21234318312201_2_alg».proof.Proof.KIValue
import proofs.«140692_j21234318312201_2_alg».proof.Proof.KIVal0
import proofs.«140692_j21234318312201_2_alg».proof.Proof.KIVal2
import proofs.«140692_j21234318312201_2_alg».proof.Proof.KIVal3
import proofs.«140692_j21234318312201_2_alg».proof.Proof.KIVal4
import proofs.«140692_j21234318312201_2_alg».proof.Proof.SpecRow
import Idealize.ShloMosaic.Lib.StableHlo.Run
import Idealize.ShloMosaic.Lib.ValueIdx

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.LibLayoutIx Cert.Hand Cert.Spec

variable [Cert.KernelIdeal.Facts]

theorem V_vt_of (W : Valuation τ sig (Elt Ideal)) (n : Fin 2097152)
    (hra : (after kg1 (after kg0 (W)) (Proc.devRef .tc main_v47) : S2097152.Idx → EReal) (ix1 n)
      = Cert.SpecRow.ra (roughNoh := (show S2097152x2.Idx → EReal from W (Proc.devRef .tc main_arg0))) (anisoToh := (show S2097152x2.Idx → EReal from W (Proc.devRef .tc main_arg1)))
          (tRA := (show S2048x2048x2.Idx → EReal from W (Proc.devRef .tc main_arg9))) n 0) :
    (after kg8 (after kg7 (after kg6 (after kg5 (after kg4 (after kg3 (after kg2 (after kg1 (after kg0 (W))))))))) (Proc.devRef .tc main_v443) : S1x2097152.Idx → EReal) (ix2 0 n)
      = Cert.SpecRow.vt (roughNoh := (show S2097152x2.Idx → EReal from W (Proc.devRef .tc main_arg0))) (anisoToh := (show S2097152x2.Idx → EReal from W (Proc.devRef .tc main_arg1)))
          (nDotLV := (show S2097152x2.Idx → EReal from W (Proc.devRef .tc main_arg2))) (tRA := (show S2048x2048x2.Idx → EReal from W (Proc.devRef .tc main_arg9)))
          (tLVR := (show S32x32x1.Idx → EReal from W (Proc.devRef .tc main_arg14))) n := by
  simp (disch := decide) only [kg7_ok.keep, kg8_ok.keep]
  rw [kg6_v443]
  simp (disch := decide) only [kg5_cst_99 _, kg5_cst_98 _, kg5_v335 _, kg5_v346 _, kg0_v4 _, kg0_ok.keep, kg1_ok.keep, kg2_ok.keep, kg3_ok.keep, kg4_ok.keep, kg5_ok.keep, hra]
  rfl

theorem V_vt (W : Valuation τ sig (Elt Ideal)) (n : Fin 2097152) :
    (after kg8 (after kg7 (after kg6 (after kg5 (after kg4 (after kg3 (after kg2 (after kg1 (after kg0 (W))))))))) (Proc.devRef .tc main_v443) : S1x2097152.Idx → EReal) (ix2 0 n)
      = Cert.SpecRow.vt (roughNoh := (show S2097152x2.Idx → EReal from W (Proc.devRef .tc main_arg0))) (anisoToh := (show S2097152x2.Idx → EReal from W (Proc.devRef .tc main_arg1)))
          (nDotLV := (show S2097152x2.Idx → EReal from W (Proc.devRef .tc main_arg2))) (tRA := (show S2048x2048x2.Idx → EReal from W (Proc.devRef .tc main_arg9)))
          (tLVR := (show S32x32x1.Idx → EReal from W (Proc.devRef .tc main_arg14))) n :=
  V_vt_of W n (K_ra0 W n)

theorem V_nlv (W : Valuation τ sig (Elt Ideal)) (l : Fin 4) (n : Fin 2097152) :
    (after kg8 (after kg7 (after kg6 (after kg5 (after kg4 (after kg3 (after kg2 (after kg1 (after kg0 (W))))))))) (Proc.devRef .tc main_v563) : S4x2097152.Idx → EReal) (ix2 l n)
      = Cert.SpecRow.nlv (nDotLV := (show S2097152x2.Idx → EReal from W (Proc.devRef .tc main_arg2))) (tLV := (show S32x32x4.Idx → EReal from W (Proc.devRef .tc main_arg15))) n l := by
  rw [kg8_ok.keep _ (r := main_v563) (by decide), kg7_v563]
  simp (disch := decide) only [kg6_cst_133 _, kg6_cst_132 _, kg6_v445 _, kg6_v447 _, kg6_v458 _, kg0_v5 _, kg0_ok.keep, kg1_ok.keep, kg2_ok.keep, kg3_ok.keep, kg4_ok.keep, kg5_ok.keep]
  rfl

theorem V_nhl (W : Valuation τ sig (Elt Ideal)) (l : Fin 4) (n : Fin 2097152) :
    (after kg8 (after kg7 (after kg6 (after kg5 (after kg4 (after kg3 (after kg2 (after kg1 (after kg0 (W))))))))) (Proc.devRef .tc main_v683) : S4x2097152.Idx → EReal) (ix2 l n)
      = Cert.SpecRow.nhl (nDotLV := (show S2097152x2.Idx → EReal from W (Proc.devRef .tc main_arg2))) (metalLoh := (show S2097152x2.Idx → EReal from W (Proc.devRef .tc main_arg4)))
          (tNHL := (show S32x32x4.Idx → EReal from W (Proc.devRef .tc main_arg16))) n l := by
  rw [kg8_v683]
  simp (disch := decide) only [kg7_cst_167 _, kg7_cst_166 _, kg7_v565 _, kg7_v567 _, kg7_v578 _, kg0_v6 _, kg0_ok.keep, kg1_ok.keep, kg2_ok.keep, kg3_ok.keep, kg4_ok.keep, kg5_ok.keep, kg6_ok.keep]
  rfl

end Cert.KernelIdeal.Hand
end
-- ==== Proof.KIRows.lean ====
import proofs.«140692_j21234318312201_2_alg».proof.Proof.KIFinal
import proofs.«140692_j21234318312201_2_alg».proof.Proof.KIBodyAt
import proofs.«140692_j21234318312201_2_alg».proof.Proof.KIKeep
import proofs.«140692_j21234318312201_2_alg».proof.Proof.KIValue
import proofs.«140692_j21234318312201_2_alg».proof.Proof.KIValueB
import proofs.«140692_j21234318312201_2_alg».proof.Proof.KIVal4
import proofs.«140692_j21234318312201_2_alg».proof.Proof.SpecRow
import Idealize.ShloMosaic.Lib.Pipeline.Value
import Idealize.ShloMosaic.Lib.ValueIdx

set_option maxRecDepth 16384

noncomputable section
namespace Cert.KernelIdeal.Hand
open Idealize.ShloMosaic Idealize.ShloMosaic.TcCoe Idealize.SL.Sem Idealize.ShloMosaic.StableHlo Idealize.ShloMosaic.ValueIdx
open Cert.KernelIdeal Cert.KernelIdeal.Gen Cert.Hand Cert.Spec

variable [Cert.KernelIdeal.Facts]
variable (m : (ℓ : Loc nD τ sig) → Buf (Elt Ideal) ℓ) (c : Dev nD) (n : Fin 2097152)

theorem col_self (n : Fin 2097152) (h : n.val / 16384 * 16384 + n.val % 16384 < 2097152) :
    (⟨n.val / 16384 * 16384 + n.val % 16384, h⟩ : Fin 2097152) = n := by
  apply Fin.ext; show n.val / 16384 * 16384 + n.val % 16384 = n.val; omega

private theorem mid17 (Y : Valuation τ sig (Elt Ideal)) {r : Ref sig .tc}
    (h : r ∉ kwg1 ++ (kwg2 ++ (kwg3 ++ (kwg4 ++ (kwg5 ++ (kwg6 ++ kwg7)))))) :
    (StableHlo.after (kg7 (F := Ideal)) (StableHlo.after (kg6 (F := Ideal)) (StableHlo.after (kg5 (F := Ideal)) (StableHlo.after (kg4 (F := Ideal)) (StableHlo.after (kg3 (F := Ideal)) (StableHlo.after (kg2 (F := Ideal)) (StableHlo.after (kg1 (F := Ideal)) Y))))))) (Proc.devRef .tc r) = Y (Proc.devRef .tc r) := by
  simpa only [after_app] using
    (kg1_ok.append (kg2_ok.append (kg3_ok.append (kg4_ok.append (kg5_ok.append (kg6_ok.append kg7_ok)))))).keep Y h

private theorem below8 (M : Valuation τ sig (Elt Ideal)) {r : Ref sig .tc} (h0 : r ∉ kw0)
    (h : r ∉ kwg1 ++ (kwg2 ++ (kwg3 ++ (kwg4 ++ (kwg5 ++ (kwg6 ++ kwg7)))))) :
    (StableHlo.after (kg7 (F := Ideal)) (StableHlo.after (kg6 (F := Ideal)) (StableHlo.after (kg5 (F := Ideal)) (StableHlo.after (kg4 (F := Ideal)) (StableHlo.after (kg3 (F := Ideal)) (StableHlo.after (kg2 (F := Ideal)) (StableHlo.after (kg1 (F := Ideal)) (StableHlo.after (kg0 (F := Ideal)) M)))))))) (Proc.devRef .tc r) = M (Proc.devRef .tc r) := by
  rw [mid17 _ h, kg0_ok.keep _ h0]

theorem E_row0 :
    ((V0 m c (Proc.devRef .tc main_v718) : S12x2097152.Idx → EReal)) (ix2 0 n) = (show Cert.SpecRow.In from m ((c : Thread nD τ).loc main_arg0)) (ix2 n 1) := by
  rw [V0_groups, kg8_v718_0, below8 _ (r := main_arg0) (by decide) (by decide)]
  all_goals rfl
theorem E_row1 :
    ((V0 m c (Proc.devRef .tc main_v718) : S12x2097152.Idx → EReal)) (ix2 1 n) = (show Cert.SpecRow.In from m ((c : Thread nD τ).loc main_arg1)) (ix2 n 1) := by
  rw [V0_groups, kg8_v718_1, below8 _ (r := main_arg1) (by decide) (by decide)]
  all_goals rfl
theorem E_row2 :
    ((V0 m c (Proc.devRef .tc main_v718) : S12x2097152.Idx → EReal)) (ix2 2 n) = (show Cert.SpecRow.In from m ((c : Thread nD τ).loc main_arg2)) (ix2 n 0) := by
  rw [V0_groups, kg8_v718_2, below8 _ (r := main_arg2) (by decide) (by decide)]
  all_goals rfl
theorem E_row3 :
    ((V0 m c (Proc.devRef .tc main_v718) : S12x2097152.Idx → EReal)) (ix2 3 n) = (show Cert.SpecRow.In from m ((c : Thread nD τ).loc main_arg2)) (ix2 n 1) := by
  rw [V0_groups, kg8_v718_3, below8 _ (r := main_arg2) (by decide) (by decide)]
  all_goals rfl
theorem E_row4 :
    ((V0 m c (Proc.devRef .tc main_v718) : S12x2097152.Idx → EReal)) (ix2 4 n) = (show Cert.SpecRow.In from m ((c : Thread nD τ).loc main_arg4)) (ix2 n 0) := by
  rw [V0_groups, kg8_v718_4, mid17 _ (r := main_v12) (by decide), kg0_v12]
  all_goals rfl
theorem E_row5 :
    ((V0 m c (Proc.devRef .tc main_v718) : S12x2097152.Idx → EReal)) (ix2 5 n) = (show Cert.SpecRow.In from m ((c : Thread nD τ).loc main_arg4)) (ix2 n 1) := by
  rw [V0_groups, kg8_v718_5, below8 _ (r := main_arg4) (by decide) (by decide)]
  all_goals rfl
theorem E_row6 :
    ((V0 m c (Proc.devRef .tc main_v718) : S12x2097152.Idx → EReal)) (ix2 6 n) = (show Cert.SpecRow.In from m ((c : Thread nD τ).loc main_arg8)) (ix2 n 0) := by
  rw [V0_groups, kg8_v718_6, below8 _ (r := main_arg8) (by decide) (by decide)]
  all_goals rfl
theorem E_row7 :
    ((V0 m c (Proc.devRef .tc main_v718) : S12x2097152.Idx → EReal)) (ix2 7 n) = (show Cert.SpecRow.In from m ((c : Thread nD τ).loc main_arg8)) (ix2 n 1) := by
  rw [V0_groups, kg8_v718_7, below8 _ (r := main_arg8) (by decide) (by decide)]
  all_goals rfl
theorem E_row8 :
    ((V0 m c (Proc.devRef .tc main_v718) : S12x2097152.Idx → EReal)) (ix2 8 n) = (show Cert.SpecRow.In from m ((c : Thread nD τ).loc main_arg6)) (ix2 n 0) := by
  rw [V0_groups, kg8_v718_8, below8 _ (r := main_arg6) (by decide) (by decide)]
  all_goals rfl
theorem E_row9 :
    ((V0 m c (Proc.devRef .tc main_v718) : S12x2097152.Idx → EReal)) (ix2 9 n) = (show Cert.SpecRow.In from m ((c : Thread nD τ).loc main_arg6)) (ix2 n 1) := by
  rw [V0_groups, kg8_v718_9, below8 _ (r := main_arg6) (by decide) (by decide)]
  all_goals rfl
theorem E_row10 :
    ((V0 m c (Proc.devRef .tc main_v718) : S12x2097152.Idx → EReal)) (ix2 10 n) = (show Cert.SpecRow.In from m ((c : Thread nD τ).loc main_arg7)) (ix2 n 0) := by
  rw [V0_groups, kg8_v718_10, below8 _ (r := main_arg7) (by decide) (by decide)]
  all_goals rfl
theorem E_row11 :
    ((V0 m c (Proc.devRef .tc main_v718) : S12x2097152.Idx → EReal)) (ix2 11 n) = (show Cert.SpecRow.In from m ((c : Thread nD τ).loc main_arg7)) (ix2 n 1) := by
  rw [V0_groups, kg8_v718_11, below8 _ (r := main_arg7) (by decide) (by decide)]
  all_goals rfl

theorem E_rs (l : Fin 3) :
    ((V0 m c (Proc.devRef .tc main_v193) : S3x2097152.Idx → EReal)) (ix2 l n)
      = Cert.SpecRow.rs (roughNoh := (show Cert.SpecRow.In from m ((c : Thread nD τ).loc main_arg0))) (subCg := (show Cert.SpecRow.In from m ((c : Thread nD τ).loc main_arg5))) (tRS := (show (⟨3, ![64, 64, 3]⟩ : Shape).Idx → EReal from m ((c : Thread nD τ).loc main_arg11))) (n := n) l := by
  rw [V0_groups]
  exact V_rs (fun b => m (c, b)) l n

theorem E_rac (l : Fin 3) :
    ((V0 m c (Proc.devRef .tc main_v298) : S3x2097152.Idx → EReal)) (ix2 l n)
      = Cert.SpecRow.rac (roughNoh := (show Cert.SpecRow.In from m ((c : Thread nD τ).loc main_arg0))) (anisoToh := (show Cert.SpecRow.In from m ((c : Thread nD τ).loc main_arg1))) (tRA := (show (⟨3, ![2048, 2048, 2]⟩ : Shape).Idx → EReal from m ((c : Thread nD τ).loc main_arg9))) (tRAD := (show (⟨3, ![48, 48, 3]⟩ : Shape).Idx → EReal from m ((c : Thread nD τ).loc main_arg12))) (n := n) l := by
  rw [V0_groups]
  exact V_rac (fun b => m (c, b)) l n

theorem E_cgc (l : Fin 2) :
    ((V0 m c (Proc.devRef .tc main_v330) : S2x2097152.Idx → EReal)) (ix2 l n)
      = Cert.SpecRow.cgc (subCg := (show Cert.SpecRow.In from m ((c : Thread nD τ).loc main_arg5))) (tCg := (show (⟨2, ![2048, 1]⟩ : Shape).Idx → EReal from m ((c : Thread nD τ).loc main_arg10))) (tCgD := (show (⟨2, ![96, 2]⟩ : Shape).Idx → EReal from m ((c : Thread nD τ).loc main_arg13))) (n := n) l := by
  rw [V0_groups]
  exact V_cgc (fun b => m (c, b)) l n

theorem E_vt  :
    ((V0 m c (Proc.devRef .tc main_v443) : S1x2097152.Idx → EReal)) (ix2 0 n)
      = Cert.SpecRow.vt (roughNoh := (show Cert.SpecRow.In from m ((c : Thread nD τ).loc main_arg0))) (anisoToh := (show Cert.SpecRow.In from m ((c : Thread nD τ).loc main_arg1))) (nDotLV := (show Cert.SpecRow.In from m ((c : Thread nD τ).loc main_arg2))) (tRA := (show (⟨3, ![2048, 2048, 2]⟩ : Shape).Idx → EReal from m ((c : Thread nD τ).loc main_arg9))) (tLVR := (show (⟨3, ![32, 32, 1]⟩ : Shape).Idx → EReal from m ((c : Thread nD τ).loc main_arg14))) (n := n) := by
  rw [V0_groups]
  exact V_vt (fun b => m (c, b)) n

theorem E_nlv (l : Fin 4) :
    ((V0 m c (Proc.devRef .tc main_v563) : S4x2097152.Idx → EReal)) (ix2 l n)
      = Cert.SpecRow.nlv (nDotLV := (show Cert.SpecRow.In from m ((c : Thread nD τ).loc main_arg2))) (tLV := (show (⟨3, ![32, 32, 4]⟩ : Shape).Idx → EReal from m ((c : Thread nD τ).loc main_arg15))) (n := n) l := by
  rw [V0_groups]
  exact V_nlv (fun b => m (c, b)) l n

theorem E_nhl (l : Fin 4) :
    ((V0 m c (Proc.devRef .tc main_v683) : S4x2097152.Idx → EReal)) (ix2 l n)
      = Cert.SpecRow.nhl (nDotLV := (show Cert.SpecRow.In from m ((c : Thread nD τ).loc main_arg2))) (metalLoh := (show Cert.SpecRow.In from m ((c : Thread nD τ).loc main_arg4))) (tNHL := (show (⟨3, ![32, 32, 4]⟩ : Shape).Idx → EReal from m ((c : Thread nD τ).loc main_arg16))) (n := n) l := by
  rw [V0_groups]
  exact V_nhl (fun b => m (c, b)) l n

set_option maxHeartbeats 8000000 in

theorem ker_x :
    (Pipeline.afterTail₀ cfgs (dats m) 0 (V0 m) [hostOps1] c main_v720 : S2097152x2.Idx → EReal) (ix2 n (0 : Fin 2))
      = Cert.SpecRow.rowX (roughNoh := (show Cert.SpecRow.In from m ((c : Thread nD τ).loc main_arg0))) (anisoToh := (show Cert.SpecRow.In from m ((c : Thread nD τ).loc main_arg1))) (nDotLV := (show Cert.SpecRow.In from m ((c : Thread nD τ).loc main_arg2))) (metalLoh := (show Cert.SpecRow.In from m ((c : Thread nD τ).loc main_arg4))) (subCg := (show Cert.SpecRow.In from m ((c : Thread nD τ).loc main_arg5))) (tRA := (show (⟨3, ![2048, 2048, 2]⟩ : Shape).Idx → EReal from m ((c : Thread nD τ).loc main_arg9))) (tRS := (show (⟨3, ![64, 64, 3]⟩ : Shape).Idx → EReal from m ((c : Thread nD τ).loc main_arg11))) (tRAD := (show (⟨3, ![48, 48, 3]⟩ : Shape).Idx → EReal from m ((c : Thread nD τ).loc main_arg12))) (tLVR := (show (⟨3, ![32, 32, 1]⟩ : Shape).Idx → EReal from m ((c : Thread nD τ).loc main_arg14))) (tLV := (show (⟨3, ![32, 32, 4]⟩ : Shape).Idx → EReal from m ((c : Thread nD τ).loc main_arg15))) (tNHL := (show (⟨3, ![32, 32, 4]⟩ : Shape).Idx → EReal from m ((c : Thread nD τ).loc main_arg16))) (n := n) (spst := (show Cert.SpecRow.In from m ((c : Thread nD τ).loc main_arg6))) (shst := (show Cert.SpecRow.In from m ((c : Thread nD τ).loc main_arg7))) (lumCs := (show Cert.SpecRow.In from m ((c : Thread nD τ).loc main_arg8))) := by
  rw [final_row0]
  simp only [outX, m5, m56, m62, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34,
    shapeCast_self, mulf_apply, addf_apply, subf_apply, divf_apply, broadcast_apply]
  repeat rw [ld_r12_0]
  repeat rw [ld_r12_1]
  repeat rw [ld_r12_3]
  repeat rw [ld_r12_4]
  repeat rw [ld_r12_5]
  repeat rw [ld_r12_6]
  repeat rw [ld_r12_7]
  repeat rw [ld_r12_8]
  repeat rw [ld_r12_9]
  repeat rw [ld_r12_10]
  repeat rw [ld_r12_11]
  repeat rw [ld_r3_0]
  repeat rw [ld_r3_1]
  repeat rw [ld_r3_2]
  repeat rw [ld_r2_0]
  repeat rw [ld_r2_1]
  repeat rw [ld_r1_0]
  repeat rw [ld_r4_0]
  repeat rw [ld_r4_1]
  repeat rw [ld_r4_2]
  repeat rw [ld_r4_3]
  simp only [iblk_apply0, iblk_apply1, iblk_apply2, iblk_apply3, iblk_apply4, iblk_apply5, iblk_apply6, col_self]
  dsimp only [V]
  rw [E_rs m c n 0, E_rs m c n 1, E_rs m c n 2, E_rac m c n 0, E_rac m c n 1, E_rac m c n 2, E_vt m c n,
    E_nlv m c n 1, E_nlv m c n 2, E_nlv m c n 3, E_nhl m c n 0, E_nhl m c n 2,
    E_row0 m c n, E_row1 m c n, E_row3 m c n, E_row4 m c n, E_row5 m c n, E_row6 m c n, E_row8 m c n, E_row9 m c n,
    E_row10 m c n, E_row11 m c n]
  rfl

set_option maxHeartbeats 8000000 in

theorem ker_y :
    (Pipeline.afterTail₀ cfgs (dats m) 0 (V0 m) [hostOps1] c main_v720 : S2097152x2.Idx → EReal) (ix2 n (1 : Fin 2))
      = Cert.SpecRow.rowY (roughNoh := (show Cert.SpecRow.In from m ((c : Thread nD τ).loc main_arg0))) (anisoToh := (show Cert.SpecRow.In from m ((c : Thread nD τ).loc main_arg1))) (nDotLV := (show Cert.SpecRow.In from m ((c : Thread nD τ).loc main_arg2))) (metalLoh := (show Cert.SpecRow.In from m ((c : Thread nD τ).loc main_arg4))) (subCg := (show Cert.SpecRow.In from m ((c : Thread nD τ).loc main_arg5))) (tRA := (show (⟨3, ![2048, 2048, 2]⟩ : Shape).Idx → EReal from m ((c : Thread nD τ).loc main_arg9))) (tCg := (show (⟨2, ![2048, 1]⟩ : Shape).Idx → EReal from m ((c : Thread nD τ).loc main_arg10))) (tRAD := (show (⟨3, ![48, 48, 3]⟩ : Shape).Idx → EReal from m ((c : Thread nD τ).loc main_arg12))) (tCgD := (show (⟨2, ![96, 2]⟩ : Shape).Idx → EReal from m ((c : Thread nD τ).loc main_arg13))) (tLVR := (show (⟨3, ![32, 32, 1]⟩ : Shape).Idx → EReal from m ((c : Thread nD τ).loc main_arg14))) (tLV := (show (⟨3, ![32, 32, 4]⟩ : Shape).Idx → EReal from m ((c : Thread nD τ).loc main_arg15))) (tNHL := (show (⟨3, ![32, 32, 4]⟩ : Shape).Idx → EReal from m ((c : Thread nD τ).loc main_arg16))) (n := n) (spst := (show Cert.SpecRow.In from m ((c : Thread nD τ).loc main_arg6))) (shst := (show Cert.SpecRow.In from m ((c : Thread nD τ).loc main_arg7))) (lumCs := (show Cert.SpecRow.In from m ((c : Thread nD τ).loc main_arg8))) := by
  rw [final_row1]
  simp only [outY, m5, m56, m62, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34,
    shapeCast_self, mulf_apply, addf_apply, subf_apply, divf_apply, broadcast_apply]
  repeat rw [ld_r12_0]
  repeat rw [ld_r12_1]
  repeat rw [ld_r12_3]
  repeat rw [ld_r12_4]
  repeat rw [ld_r12_5]
  repeat rw [ld_r12_6]
  repeat rw [ld_r12_7]
  repeat rw [ld_r12_8]
  repeat rw [ld_r12_9]
  repeat rw [ld_r12_10]
  repeat rw [ld_r12_11]
  repeat rw [ld_r3_0]
  repeat rw [ld_r3_1]
  repeat rw [ld_r3_2]
  repeat rw [ld_r2_0]
  repeat rw [ld_r2_1]
  repeat rw [ld_r1_0]
  repeat rw [ld_r4_0]
  repeat rw [ld_r4_1]
  repeat rw [ld_r4_2]
  repeat rw [ld_r4_3]
  simp only [iblk_apply0, iblk_apply1, iblk_apply2, iblk_apply3, iblk_apply4, iblk_apply5, iblk_apply6, col_self]
  dsimp only [V]
  rw [E_rac m c n 0, E_rac m c n 1, E_rac m c n 2, E_cgc m c n 0, E_cgc m c n 1, E_vt m c n,
    E_nlv m c n 0, E_nhl m c n 0, E_nhl m c n 1, E_nhl m c n 3,
    E_row0 m c n, E_row1 m c n, E_row3 m c n, E_row4 m c n, E_row7 m c n, E_row8 m c n, E_row9 m c n,
    E_row10 m c n, E_row11 m c n]
  rfl

end Cert.KernelIdeal.Hand
end
-- ==== Proof.GatherR.lean ====
import proofs.«140692_j21234318312201_2_alg».proof.ReferenceIdeal
import proofs.«140692_j21234318312201_2_alg».proof.Proof.LibClampIx
import proofs.«140692_j21234318312201_2_alg».proof.Proof.LibGatherAt
import Idealize.ShloMosaic.Lib.ValueIdx

namespace Cert.ReferenceIdeal.Hand

open Cert.ReferenceIdeal Idealize.ShloMosaic Idealize.ShloMosaic.ValueIdx Cert.Hand

variable {α : Type} [Cert.ReferenceIdeal.Facts]

theorem gather_S64x64x3_apply (x : S64x64x3.Idx → α) (idx : IVec S2097152x2 32) (n : Fin 2097152) (l : Fin 3) :
    Host.gather gather_S64x64x3_S2097152x2_S2097152x3_1_01_n_n_01_1_113 x idx (ix2 n l)
      = x (ix3 (clampIx 64 (by decide) (idx (ix2 n 0))) (clampIx 64 (by decide) (idx (ix2 n 1))) l) :=
  gather_UVL_apply _ _ _ x idx n l

theorem gather_S48x48x3_apply (x : S48x48x3.Idx → α) (idx : IVec S2097152x2 32) (n : Fin 2097152) (l : Fin 3) :
    Host.gather gather_S48x48x3_S2097152x2_S2097152x3_1_01_n_n_01_1_113 x idx (ix2 n l)
      = x (ix3 (clampIx 48 (by decide) (idx (ix2 n 0))) (clampIx 48 (by decide) (idx (ix2 n 1))) l) :=
  gather_UVL_apply _ _ _ x idx n l

theorem gather_S32x32x1_apply (x : S32x32x1.Idx → α) (idx : IVec S2097152x2 32) (n : Fin 2097152) (l : Fin 1) :
    Host.gather gather_S32x32x1_S2097152x2_S2097152x1_1_01_n_n_01_1_111 x idx (ix2 n l)
      = x (ix3 (clampIx 32 (by decide) (idx (ix2 n 0))) (clampIx 32 (by decide) (idx (ix2 n 1))) l) :=
  gather_UVL_apply _ _ _ x idx n l

theorem gather_S32x32x4_apply (x : S32x32x4.Idx → α) (idx : IVec S2097152x2 32) (n : Fin 2097152) (l : Fin 4) :
    Host.gather gather_S32x32x4_S2097152x2_S2097152x4_1_01_n_n_01_1_114 x idx (ix2 n l)
      = x (ix3 (clampIx 32 (by decide) (idx (ix2 n 0))) (clampIx 32 (by decide) (idx (ix2 n 1))) l) :=
  gather_UVL_apply _ _ _ x idx n l

theorem gather_S2048x2048x2_apply (x : S2048x2048x2.Idx → α) (idx : IVec S2097152x2 32) (n : Fin 2097152)
    (l : Fin 2) :
    Host.gather gather_S2048x2048x2_S2097152x2_S2097152x2_1_01_n_n_01_1_112 x idx (ix2 n l)
      = x (ix3 (clampIx 2048 (by decide) (idx (ix2 n 0))) (clampIx 2048 (by decide) (idx (ix2 n 1))) l) :=
  gather_UVL_apply _ _ _ x idx n l

theorem gather_S96x2_apply (x : S96x2.Idx → α) (idx : IVec S2097152x1 32) (n : Fin 2097152) (l : Fin 2) :
    Host.gather gather_S96x2_S2097152x1_S2097152x2_1_0_n_n_0_1_12 x idx (ix2 n l)
      = x (ix2 (clampIx 96 (by decide) (idx (ix2 n 0))) l) :=
  gather_UL_apply _ _ x idx n l

theorem gather_S2048x1_apply (x : S2048x1.Idx → α) (idx : IVec S2097152x1 32) (n : Fin 2097152) (l : Fin 1) :
    Host.gather gather_S2048x1_S2097152x1_S2097152x1_1_0_n_n_0_1_11 x idx (ix2 n l)
      = x (ix2 (clampIx 2048 (by decide) (idx (ix2 n 0))) l) :=
  gather_UL_apply _ _ x idx n l

end Cert.ReferenceIdeal.Hand
-- ==== Proof.RefVal0.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.ValueIdx

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

private theorem ty_v1 : main_v1.ty.shape = S2097152 := rfl
private theorem ty_v3 : main_v3.ty.shape = S2097152 := rfl
private theorem ty_v8 : main_v8.ty.shape = S2097152 := rfl
private theorem ty_v21 : main_v21.ty.shape = S2097152 := rfl
private theorem ty_v26 : main_v26.ty.shape = S2097152 := rfl
private theorem ty_v49 : main_v49.ty.shape = S2097152 := rfl
private theorem ty_v88 : main_v88.ty.shape = S2097152 := rfl

/-- An element of a group's result is found by unfolding the group operation by operation; at a literal reference a typed reference's transport is the identity. -/
local macro "value_simp" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
      ty_v1, ty_v3, ty_v8, ty_v21, ty_v26, ty_v49, ty_v88, TRef.ofBuf, TRef.toBuf, cast_cast, cast_eq, gather_S2048x2048x2_apply, gather_S2048x1_apply,
      addf_apply, mulf_apply, subf_apply, divf_apply, maximumf_apply, minimumf_apply, constant_apply, select_apply, broadcast_apply, id_eq,
      broadcastInDim_scalar, broadcastInDim_col, broadcastInDim_row, broadcastInDim_rows, broadcastInDim_cols, extractStridedSlice_col, extractStridedSlice_row,
      shapeCast_col, shapeCast_row, transpose_10, transpose_201, concatenate_cols_zero, concatenate_cols_one, host_divf_apply, host_floor_apply,
      host_roundeven_apply, host_absf_apply, fptosi_apply, constantI_apply, addi_apply, muli_apply, minsi_apply, cmpi_apply, Fin.mk_zero, Fin.mk_one])

theorem rg0_cst_3 (X : Valuation τ sig (Elt Ideal)) :
    (StableHlo.after (rg0 (F := Ideal)) X (Proc.devRef .tc main_cst_3) : S_.Idx → EReal) ix0 = lit 0x00000000#32 := by
  dsimp only [rg0, pc0]; value_simp

theorem rg0_cst_4 (X : Valuation τ sig (Elt Ideal)) :
    (StableHlo.after (rg0 (F := Ideal)) X (Proc.devRef .tc main_cst_4) : S_.Idx → EReal) ix0 = lit 0x3F7FFFEF#32 := by
  dsimp only [rg0, pc0]; value_simp

theorem rg0_v6_0 (X : Valuation τ sig (Elt Ideal)) (n : Fin 2097152) :
    (StableHlo.after (rg0 (F := Ideal)) X (Proc.devRef .tc main_v6) : S2097152x2.Idx → EReal) (ix2 n 0)
      = (X (Proc.devRef .tc main_arg0) : S2097152x2.Idx → EReal) (ix2 n 0) := by
  dsimp only [rg0, pc0]; value_simp <;> try rfl

theorem rg0_v6_1 (X : Valuation τ sig (Elt Ideal)) (n : Fin 2097152) :
    (StableHlo.after (rg0 (F := Ideal)) X (Proc.devRef .tc main_v6) : S2097152x2.Idx → EReal) (ix2 n 1)
      = (X (Proc.devRef .tc main_arg1) : S2097152x2.Idx → EReal) (ix2 n 0) := by
  dsimp only [rg0, pc0]; value_simp <;> try rfl

theorem rg0_v21 (X : Valuation τ sig (Elt Ideal)) (n : Fin 2097152) :
    (StableHlo.after (rg0 (F := Ideal)) X (Proc.devRef .tc main_v21) : S2097152.Idx → EReal) (ix1 n)
      = (X (Proc.devRef .tc main_arg0) : S2097152x2.Idx → EReal) (ix2 n 0) := by
  dsimp only [rg0, pc0]; value_simp <;> try rfl

theorem rg0_v8 (X : Valuation τ sig (Elt Ideal)) (n : Fin 2097152) :
    (StableHlo.after (rg0 (F := Ideal)) X (Proc.devRef .tc main_v8) : S2097152.Idx → EReal) (ix1 n)
      = (X (Proc.devRef .tc main_arg4) : S2097152x2.Idx → EReal) (ix2 n 0) := by
  dsimp only [rg0, pc0]; value_simp <;> try rfl

theorem rg0_v19 (X : Valuation τ sig (Elt Ideal)) (u v : Fin 2048) (l : Fin 2) :
    (StableHlo.after (rg0 (F := Ideal)) X (Proc.devRef .tc main_v19) : S2048x2048x2.Idx → EReal) (ix3 u v l)
      = tri ((X (Proc.devRef .tc main_arg9) : S2048x2048x2.Idx → EReal) (ix3 u v l)) := by
  dsimp only [rg0, pc0]; value_simp <;> try rfl

set_option maxHeartbeats 8000000 in
theorem rg1_cst_16 (X : Valuation τ sig (Elt Ideal)) :
    (StableHlo.after (rg1 (F := Ideal)) X (Proc.devRef .tc main_cst_16) : S_.Idx → EReal) ix0 = lit 0x00000000#32 := by
  simp only [rg1, after_app]; dsimp only [pc1, pc2, pc3, pc4, pc5, pc6, pc7, pc8, pc9]; value_simp

set_option maxHeartbeats 8000000 in
theorem rg1_cst_17 (X : Valuation τ sig (Elt Ideal)) :
    (StableHlo.after (rg1 (F := Ideal)) X (Proc.devRef .tc main_cst_17) : S_.Idx → EReal) ix0 = lit 0x3F7FFFEF#32 := by
  simp only [rg1, after_app]; dsimp only [pc1, pc2, pc3, pc4, pc5, pc6, pc7, pc8, pc9]; value_simp

set_option maxHeartbeats 8000000 in
theorem rg1_v49 (X : Valuation τ sig (Elt Ideal)) (n : Fin 2097152) :
    (StableHlo.after (rg1 (F := Ideal)) X (Proc.devRef .tc main_v49) : S2097152.Idx → EReal) (ix1 n)
      = (X (Proc.devRef .tc main_arg5) : S2097152x2.Idx → EReal) (ix2 n 1) := by
  simp only [rg1, after_app]; dsimp only [pc1, pc2, pc3, pc4, pc5, pc6, pc7, pc8, pc9]; value_simp <;> try rfl

set_option maxHeartbeats 8000000 in
theorem rg1_v60 (X : Valuation τ sig (Elt Ideal)) (u : Fin 2048) (z : Fin 1) :
    (StableHlo.after (rg1 (F := Ideal)) X (Proc.devRef .tc main_v60) : S2048x1.Idx → EReal) (ix2 u z)
      = tri ((X (Proc.devRef .tc main_arg10) : S2048x1.Idx → EReal) (ix2 u z)) := by
  simp only [rg1, after_app]; dsimp only [pc1, pc2, pc3, pc4, pc5, pc6, pc7, pc8, pc9]; value_simp <;> try rfl

set_option maxHeartbeats 16000000 in
theorem rg1_v47 (X : Valuation τ sig (Elt Ideal)) (n : Fin 2097152) (l : Fin 2) :
    (StableHlo.after (rg1 (F := Ideal)) X (Proc.devRef .tc main_v47) : S2097152x2.Idx → EReal) (ix2 n l)
      = (X (Proc.devRef .tc main_v19) : S2048x2048x2.Idx → EReal)
          (ix3 (cell 2048 (by decide) 2048#32 (Ideal.fptosi 32 (Ideal.liftRound Ideal.roundHalfEven (min ((show S_.Idx → EReal from X (Proc.devRef .tc main_cst_4)) ix0) (max ((show S_.Idx → EReal from X (Proc.devRef .tc main_cst_3)) ix0) ((show S2097152.Idx → EReal from X (Proc.devRef .tc main_v21)) (ix1 n))) * lit 0x44FFE000#32))))
            (cell 2048 (by decide) 2048#32 (Ideal.fptosi 32 (Ideal.liftRound Ideal.roundHalfEven (clipc ((show S2097152x2.Idx → EReal from X (Proc.devRef .tc main_v6)) (ix2 n 1)) * lit 0x44FFE000#32)))) l) := by
  simp only [rg1, after_app]; dsimp only [pc1, pc2, pc3, pc4, pc5, pc6, pc7, pc8, pc9]; value_simp <;> try rfl

theorem rg2_cst_25 (X : Valuation τ sig (Elt Ideal)) :
    (StableHlo.after (rg2 (F := Ideal)) X (Proc.devRef .tc main_cst_25) : S_.Idx → EReal) ix0 = lit 0x00000000#32 := by
  simp only [rg2, after_app]; dsimp only [pc10, pc11, pc12, pc13]; value_simp

theorem rg2_cst_26 (X : Valuation τ sig (Elt Ideal)) :
    (StableHlo.after (rg2 (F := Ideal)) X (Proc.devRef .tc main_cst_26) : S_.Idx → EReal) ix0 = lit 0x3F7FFFEF#32 := by
  simp only [rg2, after_app]; dsimp only [pc10, pc11, pc12, pc13]; value_simp

theorem rg2_v75_1 (X : Valuation τ sig (Elt Ideal)) (n : Fin 2097152) :
    (StableHlo.after (rg2 (F := Ideal)) X (Proc.devRef .tc main_v75) : S2097152x2.Idx → EReal) (ix2 n 1)
      = (X (Proc.devRef .tc main_arg5) : S2097152x2.Idx → EReal) (ix2 n 0) := by
  simp only [rg2, after_app]; dsimp only [pc10, pc11, pc12, pc13]; value_simp <;> try rfl

theorem rg2_v88 (X : Valuation τ sig (Elt Ideal)) (n : Fin 2097152) :
    (StableHlo.after (rg2 (F := Ideal)) X (Proc.devRef .tc main_v88) : S2097152.Idx → EReal) (ix1 n)
      = (X (Proc.devRef .tc main_v6) : S2097152x2.Idx → EReal) (ix2 n 0) := by
  simp only [rg2, after_app]; dsimp only [pc10, pc11, pc12, pc13]; value_simp <;> try rfl

theorem rg2_v86 (X : Valuation τ sig (Elt Ideal)) (u v : Fin 64) (l : Fin 3) :
    (StableHlo.after (rg2 (F := Ideal)) X (Proc.devRef .tc main_v86) : S64x64x3.Idx → EReal) (ix3 u v l)
      = tri ((X (Proc.devRef .tc main_arg11) : S64x64x3.Idx → EReal) (ix3 u v l)) := by
  simp only [rg2, after_app]; dsimp only [pc10, pc11, pc12, pc13]; value_simp <;> try rfl

theorem rg2_v72 (X : Valuation τ sig (Elt Ideal)) (n : Fin 2097152) (z : Fin 1) :
    (StableHlo.after (rg2 (F := Ideal)) X (Proc.devRef .tc main_v72) : S2097152x1.Idx → EReal) (ix2 n z)
      = (X (Proc.devRef .tc main_v60) : S2048x1.Idx → EReal) (ix2 (cell 2048 (by decide) 2048#32
          (Ideal.fptosi 32 (Ideal.liftRound Ideal.roundHalfEven
            (min ((show S_.Idx → EReal from X (Proc.devRef .tc main_cst_17)) ix0)
                (max ((show S_.Idx → EReal from X (Proc.devRef .tc main_cst_16)) ix0)
                  ((show S2097152.Idx → EReal from X (Proc.devRef .tc main_v49)) (ix1 n))) * lit 0x44FFE000#32)))) z) := by
  simp only [rg2, after_app]; dsimp only [pc10, pc11, pc12, pc13]; value_simp <;> try rfl

end Cert.ReferenceIdeal.Hand
end
-- ==== Proof.RefVal1.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

/-- A clip is pointwise: a maximum with one broadcast scalar, then a minimum with another. -/
theorem p22_v259 (X : Valuation τ sig (Elt Ideal)) (n : Fin 2097152) :
    ((StableHlo.after (pc22 (F := Ideal)) X (Proc.devRef .tc main_v259) : S2097152.Idx → EReal)) (ix1 n)
      = min ((show S_.Idx → EReal from X (Proc.devRef .tc main_cst_66)) ix0) (max ((show S_.Idx → EReal from X (Proc.devRef .tc main_cst_65)) ix0) ((show S2097152.Idx → EReal from X (Proc.devRef .tc main_v258)) (ix1 n))) := by
  dsimp only [pc22]; after_results_simp
  simp only [TRef.ofBuf, TRef.toBuf, cast_cast, cast_eq, id_eq]
  simp only [maximumf_apply, minimumf_apply, broadcastInDim_scalar] <;> try rfl

theorem p23_v261 (X : Valuation τ sig (Elt Ideal)) (n : Fin 2097152) :
    ((StableHlo.after (pc23 (F := Ideal)) X (Proc.devRef .tc main_v261) : S2097152.Idx → EReal)) (ix1 n)
      = (show S2097152.Idx → EReal from X (Proc.devRef .tc main_v259)) (ix1 n) * lit 0x423C0000#32 := by
  dsimp only [pc23]; after_results_simp
  simp only [mulf_apply, constant_apply, broadcastInDim_scalar] <;> try rfl

theorem p23_v263 (X : Valuation τ sig (Elt Ideal)) (n : Fin 2097152) :
    ((StableHlo.after (pc23 (F := Ideal)) X (Proc.devRef .tc main_v263) : S2097152.Idx → EReal)) (ix1 n)
      = (show S2097152x2.Idx → EReal from X (Proc.devRef .tc main_v47)) (ix2 n 1) := by
  dsimp only [pc23]; after_results_simp
  erw [shapeCast_col]; simp only [extractStridedSlice_col] <;> try rfl

theorem p23_cst_68 (X : Valuation τ sig (Elt Ideal)) :
    ((StableHlo.after (pc23 (F := Ideal)) X (Proc.devRef .tc main_cst_68) : S_.Idx → EReal)) ix0 = lit 0x00000000#32 := by
  dsimp only [pc23]; after_results_simp
  simp only [constant_apply] <;> try rfl

theorem p23_cst_69 (X : Valuation τ sig (Elt Ideal)) :
    ((StableHlo.after (pc23 (F := Ideal)) X (Proc.devRef .tc main_cst_69) : S_.Idx → EReal)) ix0 = lit 0x3F7FFFEF#32 := by
  dsimp only [pc23]; after_results_simp
  simp only [constant_apply] <;> try rfl

theorem p24_v264 (X : Valuation τ sig (Elt Ideal)) (n : Fin 2097152) :
    ((StableHlo.after (pc24 (F := Ideal)) X (Proc.devRef .tc main_v264) : S2097152.Idx → EReal)) (ix1 n)
      = min ((show S_.Idx → EReal from X (Proc.devRef .tc main_cst_69)) ix0) (max ((show S_.Idx → EReal from X (Proc.devRef .tc main_cst_68)) ix0) ((show S2097152.Idx → EReal from X (Proc.devRef .tc main_v263)) (ix1 n))) := by
  dsimp only [pc24]; after_results_simp
  simp only [TRef.ofBuf, TRef.toBuf, cast_cast, cast_eq, id_eq]
  simp only [maximumf_apply, minimumf_apply, broadcastInDim_scalar] <;> try rfl

set_option maxHeartbeats 8000000 in
theorem p25_27_v365 (X : Valuation τ sig (Elt Ideal)) (n : Fin 2097152) (l : Fin 3) :
    ((StableHlo.after (pc27 (F := Ideal)) (StableHlo.after (pc26 (F := Ideal)) (StableHlo.after (pc25 (F := Ideal)) X))
        (Proc.devRef .tc main_v365) : S2097152x3.Idx → EReal)) (ix2 n l)
      = bil2 48 48 (by decide) (by decide) 47#32 48#32 47#32 48#32
          (fun u v => (show S48x48x3.Idx → EReal from X (Proc.devRef .tc main_arg12)) (ix3 u v l))
          ((show S2097152.Idx → EReal from X (Proc.devRef .tc main_v261)) (ix1 n))
          ((show S2097152.Idx → EReal from X (Proc.devRef .tc main_v264)) (ix1 n) * lit 0x423C0000#32) := by
  dsimp only [pc25, pc26, pc27]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    addf_apply, mulf_apply, subf_apply, maximumf_apply, minimumf_apply, constant_apply, select_apply, broadcast_apply,
    broadcastInDim_scalar, broadcastInDim_col, broadcastInDim_row, broadcastInDim_rows, broadcastInDim_cols,
    concatenate_cols_zero, concatenate_cols_one, host_floor_apply, fptosi_apply, constantI_apply, addi_apply, minsi_apply, cmpi_apply, gather_S48x48x3_apply] <;> try rfl

/-- The pieces joined: a buffer that a piece does not write passes through it unchanged. -/
theorem rg4_v365 (X : Valuation τ sig (Elt Ideal)) (n : Fin 2097152) (l : Fin 3) :
    ((StableHlo.after (rg4 (F := Ideal)) X (Proc.devRef .tc main_v365) : S2097152x3.Idx → EReal)) (ix2 n l)
      = bil2 48 48 (by decide) (by decide) 47#32 48#32 47#32 48#32
          (fun u v => (show S48x48x3.Idx → EReal from X (Proc.devRef .tc main_arg12)) (ix3 u v l))
          (min ((show S_.Idx → EReal from X (Proc.devRef .tc main_cst_66)) ix0) (max ((show S_.Idx → EReal from X (Proc.devRef .tc main_cst_65)) ix0) ((show S2097152.Idx → EReal from X (Proc.devRef .tc main_v258)) (ix1 n)))
            * lit 0x423C0000#32)
          (clipc ((show S2097152x2.Idx → EReal from X (Proc.devRef .tc main_v47)) (ix2 n 1)) * lit 0x423C0000#32) := by
  simp only [rg4, after_app]
  refine (p25_27_v365 _ n l).trans ?_
  have e1 := p22_v259 X n
  have e2 := p23_v261 (StableHlo.after (pc22 (F := Ideal)) X) n
  have e3 := p23_v263 (StableHlo.after (pc22 (F := Ideal)) X) n
  have e4 := p23_cst_68 (StableHlo.after (pc22 (F := Ideal)) X)
  have e5 := p23_cst_69 (StableHlo.after (pc22 (F := Ideal)) X)
  have e6 := p24_v264 (StableHlo.after (pc23 (F := Ideal)) (StableHlo.after (pc22 (F := Ideal)) X)) n
  simp only [] at e1 e2 e3 e6
  simp only [pc24_ok.keep _ (r := main_arg12) (by decide), pc23_ok.keep _ (r := main_arg12) (by decide),
    pc22_ok.keep _ (r := main_arg12) (by decide), pc24_ok.keep _ (r := main_v261) (by decide),
    pc22_ok.keep _ (r := main_v47) (by decide), e1, e2, e3, e4, e5, e6, clipc]

theorem rg4_cst_95 (X : Valuation τ sig (Elt Ideal)) :
    ((StableHlo.after (rg4 (F := Ideal)) X (Proc.devRef .tc main_cst_95) : S_.Idx → EReal)) ix0 = lit 0x00000000#32 := by
  simp only [rg4, after_app]; dsimp only [pc22, pc23, pc24, pc25, pc26, pc27]; after_results_simp
  simp only [constant_apply] <;> try rfl

theorem rg4_cst_96 (X : Valuation τ sig (Elt Ideal)) :
    ((StableHlo.after (rg4 (F := Ideal)) X (Proc.devRef .tc main_cst_96) : S_.Idx → EReal)) ix0 = lit 0x3F7FFFEF#32 := by
  simp only [rg4, after_app]; dsimp only [pc22, pc23, pc24, pc25, pc26, pc27]; after_results_simp
  simp only [constant_apply] <;> try rfl

theorem rg4_v366 (X : Valuation τ sig (Elt Ideal)) (n : Fin 2097152) :
    ((StableHlo.after (rg4 (F := Ideal)) X (Proc.devRef .tc main_v366) : S2097152.Idx → EReal)) (ix1 n)
      = (show S2097152x1.Idx → EReal from X (Proc.devRef .tc main_v72)) (ix2 n 0) := by
  simp only [rg4, after_app]; dsimp only [pc22, pc23, pc24, pc25, pc26, pc27]; after_results_simp
  erw [shapeCast_col] <;> try rfl

end Cert.ReferenceIdeal.Hand
end
-- ==== Proof.RefVal2.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

local notation:70 a:70 " ⋆ " b:71 => @HMul.hMul EReal EReal EReal _ a b
local notation "emin" => @min EReal _
local notation "emax" => @max EReal _

theorem rg5_cst_109 (X : Valuation τ sig (Elt Ideal)) :
    (StableHlo.after (rg5 (F := Ideal)) X (Proc.devRef .tc main_cst_109) : S_.Idx → EReal) ix0 = lit 0x00000000#32 := by
  simp only [rg5, after_app]; dsimp only [pc28, pc29, pc30]; after_results_simp
  simp only [constant_apply]

theorem rg5_cst_110 (X : Valuation τ sig (Elt Ideal)) :
    (StableHlo.after (rg5 (F := Ideal)) X (Proc.devRef .tc main_cst_110) : S_.Idx → EReal) ix0 = lit 0x3F7FFFEF#32 := by
  simp only [rg5, after_app]; dsimp only [pc28, pc29, pc30]; after_results_simp
  simp only [constant_apply]

theorem rg5_v403_one (X : Valuation τ sig (Elt Ideal)) (n : Fin 2097152) :
    (StableHlo.after (rg5 (F := Ideal)) X (Proc.devRef .tc main_v403) : S2097152x2.Idx → EReal) (ix2 n 1)
      = (X (Proc.devRef .tc main_v47) : S2097152x2.Idx → EReal) (ix2 n 0) := by
  simp only [rg5, after_app]; dsimp only [pc28, pc29, pc30]
  (repeat (first | after_results_simp | simp only [concatenate_cols_one, extractStridedSlice_col])) <;> try rfl

theorem rg5_v416 (X : Valuation τ sig (Elt Ideal)) (n : Fin 2097152) :
    (StableHlo.after (rg5 (F := Ideal)) X (Proc.devRef .tc main_v416) : S2097152.Idx → EReal) (ix1 n)
      = (X (Proc.devRef .tc main_arg2) : S2097152x2.Idx → EReal) (ix2 n 0)
        ⋆ (X (Proc.devRef .tc main_arg2) : S2097152x2.Idx → EReal) (ix2 n 1) := by
  simp only [rg5, after_app]; dsimp only [pc28, pc29, pc30]
  (repeat (first | after_results_simp | erw [shapeCast_col] | simp only [extractStridedSlice_col, Fin.mk_zero, concatenate_cols_zero, mulf_apply])) <;> try rfl

theorem rg5_v414 (X : Valuation τ sig (Elt Ideal)) (u v : Fin 32) (l : Fin 1) :
    (StableHlo.after (rg5 (F := Ideal)) X (Proc.devRef .tc main_v414) : S32x32x1.Idx → EReal) (ix3 u v l)
      = tri ((X (Proc.devRef .tc main_arg14) : S32x32x1.Idx → EReal) (ix3 u v l)) := by
  simp only [rg5, after_app]; dsimp only [pc28, pc29, pc30]; after_results_simp
  simp only [mulf_apply, addf_apply, subf_apply, constant_apply, broadcastInDim_scalar, host_divf_apply, host_floor_apply,
    host_absf_apply, tri] <;> try rfl

set_option maxHeartbeats 4000000 in
/-- The gather reads the table at the clamped floor cell and its upper neighbour; everything around it is pointwise. -/
theorem rg5_v398 (X : Valuation τ sig (Elt Ideal)) (n : Fin 2097152) (l : Fin 2) :
    (StableHlo.after (rg5 (F := Ideal)) X (Proc.devRef .tc main_v398) : S2097152x2.Idx → EReal) (ix2 n l)
      = bil1 96 (by decide) 95#32 96#32 (fun u => (X (Proc.devRef .tc main_arg13) : S96x2.Idx → EReal) (ix2 u l))
          (emin ((X (Proc.devRef .tc main_cst_96) : S_.Idx → EReal) ix0)
              (emax ((X (Proc.devRef .tc main_cst_95) : S_.Idx → EReal) ix0)
                ((X (Proc.devRef .tc main_v366) : S2097152.Idx → EReal) (ix1 n)))
            ⋆ lit 0x42BE0000#32) := by
  simp only [rg5, after_app]; dsimp only [pc28, pc29, pc30]; after_results_simp
  simp only [TRef.ofBuf, TRef.toBuf, cast_cast, cast_eq, id_eq, addf_apply, mulf_apply, subf_apply, maximumf_apply, minimumf_apply, broadcastInDim_scalar, constant_apply,
    constantI_apply, host_floor_apply, fptosi_apply, addi_apply, minsi_apply, cmpi_apply, select_apply, broadcastInDim_col,
    broadcastInDim_cols, gather_S96x2_apply] <;> try rfl

end Cert.ReferenceIdeal.Hand
end
-- ==== Proof.RefVal3.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

local syntax "run_at_index" (" [" Lean.Parser.Tactic.simpLemma,* "]")? : tactic
macro_rules
  | `(tactic| run_at_index) => `(tactic| run_at_index [id_eq])
  | `(tactic| run_at_index [$ls,*]) =>
    `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      addf_apply, mulf_apply, subf_apply, divf_apply, maximumf_apply, minimumf_apply, constant_apply, select_apply, broadcast_apply,
    broadcastInDim_scalar, broadcastInDim_col, broadcastInDim_row, broadcastInDim_rows, broadcastInDim_cols, extractStridedSlice_col, extractStridedSlice_row,
    shapeCast_col, shapeCast_row, transpose_10, transpose_201, concatenate_cols_zero, concatenate_cols_one, host_divf_apply, host_floor_apply,
    host_roundeven_apply, host_absf_apply, fptosi_apply, constantI_apply, addi_apply, muli_apply, minsi_apply, cmpi_apply, id_eq,
      gather_S32x32x4_apply, $ls,*])

private theorem shapeCast_v533 (x : main_v532.ty.Contents (Elt Ideal)) (h : main_v532.ty.shape.ShapeCasts main_v533.ty.shape) :
    shapeCast main_v533.ty.shape x h = shapeCast S2097152 (show S2097152x1.Idx → EReal from x) h := rfl
private theorem shapeCast_v637 (x : main_v636.ty.Contents (Elt Ideal)) (h : main_v636.ty.shape.ShapeCasts main_v637.ty.shape) :
    shapeCast main_v637.ty.shape x h = shapeCast S2097152 (show S2097152x1.Idx → EReal from x) h := rfl
private theorem shapeCast_v639 (x : main_v638.ty.Contents (Elt Ideal)) (h : main_v638.ty.shape.ShapeCasts main_v639.ty.shape) :
    shapeCast main_v639.ty.shape x h = shapeCast S2097152 (show S2097152x1.Idx → EReal from x) h := rfl
private theorem shapeCast_v655 (x : main_v654.ty.Contents (Elt Ideal)) (h : main_v654.ty.shape.ShapeCasts main_v655.ty.shape) :
    shapeCast main_v655.ty.shape x h = shapeCast S2097152 (show S2097152x1.Idx → EReal from x) h := rfl

private theorem concatenate_cols_zero_at {α : Type} {N : Nat} (a b : (⟨2, ![N, 1]⟩ : Shape).Idx → α)
    (h : Shape.Concatenates [⟨2, ![N, 1]⟩, ⟨2, ![N, 1]⟩] ⟨2, ![N, 2]⟩ 1) (n : Fin N) (h0 : 0 < 2) :
    concatenate ⟨2, ![N, 2]⟩ 1 [⟨⟨2, ![N, 1]⟩, a⟩, ⟨⟨2, ![N, 1]⟩, b⟩] h (ix2 n ⟨0, h0⟩) = a (ix2 n 0) :=
  concatenate_cols_zero a b h n

theorem rg7_cst_177 (X : Valuation τ sig (Elt Ideal)) :
    ((StableHlo.after (rg7 (F := Ideal)) X (Proc.devRef .tc main_cst_177) : S_.Idx → EReal)) ix0 = lit 0x00000000#32 := by
  simp only [rg7, after_app]; dsimp only [pc38, pc39, pc40, pc41, pc42, pc43]
  run_at_index <;> try rfl

theorem rg7_cst_178 (X : Valuation τ sig (Elt Ideal)) :
    ((StableHlo.after (rg7 (F := Ideal)) X (Proc.devRef .tc main_cst_178) : S_.Idx → EReal)) ix0 = lit 0x3F7FFFEF#32 := by
  simp only [rg7, after_app]; dsimp only [pc38, pc39, pc40, pc41, pc42, pc43]
  run_at_index <;> try rfl

theorem rg7_v642_1 (X : Valuation τ sig (Elt Ideal)) (n : Fin 2097152) :
    ((StableHlo.after (rg7 (F := Ideal)) X (Proc.devRef .tc main_v642) : S2097152x2.Idx → EReal)) (ix2 n 1) = ((show S2097152x2.Idx → EReal from X (Proc.devRef .tc main_arg2)) (ix2 n 0)) := by
  simp only [rg7, after_app]; dsimp only [pc38, pc39, pc40, pc41, pc42, pc43]
  run_at_index [shapeCast_v637, shapeCast_v639] <;> try rfl

theorem rg7_v655 (X : Valuation τ sig (Elt Ideal)) (n : Fin 2097152) :
    ((StableHlo.after (rg7 (F := Ideal)) X (Proc.devRef .tc main_v655) : S2097152.Idx → EReal)) (ix1 n) = ((show S2097152x2.Idx → EReal from X (Proc.devRef .tc main_arg4)) (ix2 n 1)) := by
  simp only [rg7, after_app]; dsimp only [pc38, pc39, pc40, pc41, pc42, pc43]
  run_at_index [shapeCast_v637, shapeCast_v639, shapeCast_v655, concatenate_cols_zero_at] <;> try rfl

theorem rg7_v653 (X : Valuation τ sig (Elt Ideal)) (a b : Fin 32) (l : Fin 4) :
    ((StableHlo.after (rg7 (F := Ideal)) X (Proc.devRef .tc main_v653) : S32x32x4.Idx → EReal)) (ix3 a b l) = tri ((show S32x32x4.Idx → EReal from X (Proc.devRef .tc main_arg16)) (ix3 a b l)) := by
  simp only [rg7, after_app]; dsimp only [pc38, pc39, pc40, pc41, pc42, pc43]
  run_at_index <;> try rfl

set_option maxHeartbeats 4000000 in
theorem rg7_v635 (X : Valuation τ sig (Elt Ideal)) (n : Fin 2097152) (l : Fin 4) :
    ((StableHlo.after (rg7 (F := Ideal)) X (Proc.devRef .tc main_v635) : S2097152x4.Idx → EReal)) (ix2 n l)
      = bil2 32 32 (by decide) (by decide) 31#32 32#32 31#32 32#32
          (fun a b => ((show S32x32x4.Idx → EReal from X (Proc.devRef .tc main_v526)) (ix3 a b l)))
          (min ((show S_.Idx → EReal from X (Proc.devRef .tc main_cst_144)) ix0) (max ((show S_.Idx → EReal from X (Proc.devRef .tc main_cst_143)) ix0) ((show S2097152.Idx → EReal from X (Proc.devRef .tc main_v528)) (ix1 n))) * lit 0x41F80000#32)
          (clipc ((show S2097152x2.Idx → EReal from X (Proc.devRef .tc main_arg2)) (ix2 n 1)) * lit 0x41F80000#32) := by
  simp only [rg7, after_app]; dsimp only [pc38, pc39, pc40, pc41, pc42, pc43]
  run_at_index [cast_eq, shapeCast_v533] <;> try rfl

end Cert.ReferenceIdeal.Hand
end
-- ==== Proof.RefVal4.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.ValueIdx
import Idealize.ShloMosaic.Lib.StableHlo.Run

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

private theorem shapeCast_v660 (x : main_v659.ty.Contents (Elt Ideal)) (h : main_v659.ty.shape.ShapeCasts main_v660.ty.shape) :
    shapeCast main_v660.ty.shape x h = shapeCast S2097152 (show S2097152x1.Idx → EReal from x) h := rfl
private theorem shapeCast_v764 (x : main_v763.ty.Contents (Elt Ideal)) (h : main_v763.ty.shape.ShapeCasts main_v764.ty.shape) :
    shapeCast main_v764.ty.shape x h = shapeCast S2097152 (show S2097152x1.Idx → EReal from x) h := rfl
private theorem shapeCast_v767 (x : main_v766.ty.Contents (Elt Ideal)) (h : main_v766.ty.shape.ShapeCasts main_v767.ty.shape) :
    shapeCast main_v767.ty.shape x h = shapeCast S2097152 (show S2097152x1.Idx → EReal from x) h := rfl
private theorem shapeCast_v769 (x : main_v768.ty.Contents (Elt Ideal)) (h : main_v768.ty.shape.ShapeCasts main_v769.ty.shape) :
    shapeCast main_v769.ty.shape x h = shapeCast S2097152 (show S2097152x1.Idx → EReal from x) h := rfl
private theorem shapeCast_v773 (x : main_v772.ty.Contents (Elt Ideal)) (h : main_v772.ty.shape.ShapeCasts main_v773.ty.shape) :
    shapeCast main_v773.ty.shape x h = shapeCast S2097152 (show S2097152x1.Idx → EReal from x) h := rfl
private theorem shapeCast_v777 (x : main_v776.ty.Contents (Elt Ideal)) (h : main_v776.ty.shape.ShapeCasts main_v777.ty.shape) :
    shapeCast main_v777.ty.shape x h = shapeCast S2097152 (show S2097152x1.Idx → EReal from x) h := rfl
private theorem shapeCast_v780 (x : main_v779.ty.Contents (Elt Ideal)) (h : main_v779.ty.shape.ShapeCasts main_v780.ty.shape) :
    shapeCast main_v780.ty.shape x h = shapeCast S2097152 (show S2097152x1.Idx → EReal from x) h := rfl
private theorem shapeCast_v822 (x : main_v821.ty.Contents (Elt Ideal)) (h : main_v821.ty.shape.ShapeCasts main_v822.ty.shape) :
    shapeCast main_v822.ty.shape x h = shapeCast S2097152 (show S2097152x1.Idx → EReal from x) h := rfl
private theorem shapeCast_v824 (x : main_v823.ty.Contents (Elt Ideal)) (h : main_v823.ty.shape.ShapeCasts main_v824.ty.shape) :
    shapeCast main_v824.ty.shape x h = shapeCast S2097152 (show S2097152x1.Idx → EReal from x) h := rfl
private theorem shapeCast_v827 (x : main_v826.ty.Contents (Elt Ideal)) (h : main_v826.ty.shape.ShapeCasts main_v827.ty.shape) :
    shapeCast main_v827.ty.shape x h = shapeCast S2097152 (show S2097152x1.Idx → EReal from x) h := rfl

abbrev rg8_blendOps : List (HloOp τ sig (Elt Ideal)) :=
  pc44 ++ (pc45 ++ (pc46 ++ (pc47 ++ (pc48 ++ (pc49 ++ (pc50 (F := Ideal)).take 12)))))

abbrev rg8_combOps : List (HloOp τ sig (Elt Ideal)) := (pc50 (F := Ideal)).drop 12 ++ pc51

theorem rg8_split (X : Valuation τ sig (Elt Ideal)) :
    StableHlo.after (rg8 (F := Ideal)) X = StableHlo.after rg8_combOps (StableHlo.after rg8_blendOps X) := by
  have h50 : ∀ V : Valuation τ sig (Elt Ideal), StableHlo.after (pc50 (F := Ideal)) V
      = StableHlo.after ((pc50 (F := Ideal)).drop 12) (StableHlo.after ((pc50 (F := Ideal)).take 12) V) := fun V => by
    rw [← after_app, List.take_append_drop]
  simp only [rg8, rg8_blendOps, rg8_combOps, after_app]
  rw [h50]

section Exprs
variable (X : Valuation τ sig (Elt Ideal)) (n : Fin 2097152)

abbrev rg8_uu : EReal :=
  min ((show S_.Idx → EReal from X (Proc.devRef .tc main_cst_178)) (ix0))
      (max ((show S_.Idx → EReal from X (Proc.devRef .tc main_cst_177)) (ix0))
        ((show S2097152.Idx → EReal from X (Proc.devRef .tc main_v655)) (ix1 n))) * lit 0x41F80000#32

abbrev rg8_vv : EReal :=
  clipc ((show S2097152x2.Idx → EReal from X (Proc.devRef .tc main_v642)) (ix2 n 1)) * lit 0x41F80000#32

abbrev rg8_nhl (l : Fin 4) : EReal :=
  bil2 32 32 (by decide) (by decide) 31#32 32#32 31#32 32#32
    (fun u v => (show S32x32x4.Idx → EReal from X (Proc.devRef .tc main_v653)) (ix3 u v l)) (rg8_uu X n) (rg8_vv X n)

abbrev rg8_noh2 : EReal :=
  (show S2097152x2.Idx → EReal from X (Proc.devRef .tc main_arg0)) (ix2 n 1) * (show S2097152x2.Idx → EReal from X (Proc.devRef .tc main_arg0)) (ix2 n 1)

abbrev rg8_den : EReal :=
  (show S2097152x3.Idx → EReal from X (Proc.devRef .tc main_v365)) (ix2 n 0) * ((show S2097152x2.Idx → EReal from X (Proc.devRef .tc main_arg1)) (ix2 n 1) * (show S2097152x2.Idx → EReal from X (Proc.devRef .tc main_arg1)) (ix2 n 1))
    + (show S2097152x3.Idx → EReal from X (Proc.devRef .tc main_v365)) (ix2 n 1) * rg8_noh2 X n
    + (show S2097152x3.Idx → EReal from X (Proc.devRef .tc main_v365)) (ix2 n 2)

abbrev rg8_dTerm : EReal :=
  Ideal.div (lit 0x3E800000#32) ((show S2097152x2.Idx → EReal from X (Proc.devRef .tc main_arg2)) (ix2 n 1) * (rg8_den X n * rg8_den X n))

abbrev rg8_xOf (nhl : Fin 4 → EReal) : EReal :=
  (show S2097152x3.Idx → EReal from X (Proc.devRef .tc main_v256)) (ix2 n 0) * (show S2097152x2.Idx → EReal from X (Proc.devRef .tc main_arg4)) (ix2 n 1) * (show S2097152x4.Idx → EReal from X (Proc.devRef .tc main_v635)) (ix2 n 1)
      + (show S2097152x3.Idx → EReal from X (Proc.devRef .tc main_v256)) (ix2 n 1) * (show S2097152x4.Idx → EReal from X (Proc.devRef .tc main_v635)) (ix2 n 2)
      + (show S2097152x3.Idx → EReal from X (Proc.devRef .tc main_v256)) (ix2 n 2) * (show S2097152x4.Idx → EReal from X (Proc.devRef .tc main_v635)) (ix2 n 3)
      + (show S2097152x1.Idx → EReal from X (Proc.devRef .tc main_v215)) (ix2 n 0) * (show S2097152x1.Idx → EReal from X (Proc.devRef .tc main_v515)) (ix2 n 0) * nhl 2 * rg8_dTerm X n
      + (show S2097152x1.Idx → EReal from X (Proc.devRef .tc main_v237)) (ix2 n 0) * nhl 0

abbrev rg8_yOf (nhl : Fin 4 → EReal) : EReal :=
  ((lit 0x3F800000#32 - (show S2097152x1.Idx → EReal from X (Proc.devRef .tc main_v228)) (ix2 n 0)) * nhl 3 + (show S2097152x1.Idx → EReal from X (Proc.devRef .tc main_v228)) (ix2 n 0))
        * (show S2097152x1.Idx → EReal from X (Proc.devRef .tc main_v515)) (ix2 n 0) * rg8_dTerm X n
      + (show S2097152x1.Idx → EReal from X (Proc.devRef .tc main_v248)) (ix2 n 0) * nhl 0
      + Ideal.div ((show S2097152x1.Idx → EReal from X (Proc.devRef .tc main_v253)) (ix2 n 0) * nhl 1 * (show S2097152x4.Idx → EReal from X (Proc.devRef .tc main_v635)) (ix2 n 0))
          ((show S2097152x2.Idx → EReal from X (Proc.devRef .tc main_arg2)) (ix2 n 1) * ((show S2097152x2.Idx → EReal from X (Proc.devRef .tc main_v398)) (ix2 n 0) * rg8_noh2 X n + (show S2097152x2.Idx → EReal from X (Proc.devRef .tc main_v398)) (ix2 n 1)))

end Exprs

set_option maxHeartbeats 16000000 in
theorem rg8_blend_v762 (X : Valuation τ sig (Elt Ideal)) (n : Fin 2097152) (l : Fin 4) :
    ((StableHlo.after rg8_blendOps X (Proc.devRef .tc main_v762) : S2097152x4.Idx → EReal)) (ix2 n l)
      = rg8_nhl X n l := by
  dsimp only [rg8_blendOps, pc44, pc45, pc46, pc47, pc48, pc49, pc50]
  simp (disch := decide) only [List.take_succ_cons, List.take_zero, List.nil_append, List.cons_append, after_cons,
    after_nil, nullary_result', unary_result', binary_result', ternary_result', reshape_result', nullary_result_ne',
    unary_result_ne', binary_result_ne', ternary_result_ne', reshape_result_ne', cast_eq, id_eq, shapeCast_v660,
    addf_apply, mulf_apply, subf_apply, maximumf_apply, minimumf_apply, constant_apply, select_apply,
    broadcastInDim_scalar, broadcastInDim_col, broadcastInDim_cols, extractStridedSlice_col, shapeCast_col,
    concatenate_cols_zero, concatenate_cols_one, host_floor_apply, fptosi_apply, constantI_apply, addi_apply,
    minsi_apply, cmpi_apply, gather_S32x32x4_apply]
  rfl

set_option maxHeartbeats 16000000 in
theorem rg8_comb (Y : Valuation τ sig (Elt Ideal)) (n : Fin 2097152) :
    ((StableHlo.after rg8_combOps Y (Proc.devRef .tc main_v833) : S2097152x2.Idx → EReal)) (ix2 n 0)
      = rg8_xOf Y n (fun k => (show S2097152x4.Idx → EReal from Y (Proc.devRef .tc main_v762)) (ix2 n k)) ∧
    ((StableHlo.after rg8_combOps Y (Proc.devRef .tc main_v833) : S2097152x2.Idx → EReal)) (ix2 n 1)
      = rg8_yOf Y n (fun k => (show S2097152x4.Idx → EReal from Y (Proc.devRef .tc main_v762)) (ix2 n k)) := by
  dsimp only [rg8_combOps, pc50, pc51]
  constructor <;>
    simp (disch := decide) only [List.drop_succ_cons, List.drop_zero, List.nil_append, List.cons_append, after_cons,
      after_nil, nullary_result', unary_result', binary_result', reshape_result', nullary_result_ne',
      unary_result_ne', binary_result_ne', reshape_result_ne', shapeCast_v764, shapeCast_v767, shapeCast_v769,
      shapeCast_v773, shapeCast_v777, shapeCast_v780, shapeCast_v822, shapeCast_v824, shapeCast_v827, addf_apply,
      mulf_apply, subf_apply, constant_apply, broadcastInDim_scalar, broadcastInDim_col, extractStridedSlice_col,
      shapeCast_col, concatenate_cols_zero, concatenate_cols_one, host_divf_apply] <;> rfl

theorem rg8_blend_ok : Piece High rg8_blendOps (wl44 ++ (wl45 ++ (wl46 ++ (wl47 ++ (wl48 ++ (wl49 ++ wl50.take 12)))))) :=
  pc44_ok.append (pc45_ok.append (pc46_ok.append (pc47_ok.append (pc48_ok.append (pc49_ok.append (pc50_ok.take 12))))))

set_option maxHeartbeats 4000000 in
theorem rg8_v833_x (X : Valuation τ sig (Elt Ideal)) (n : Fin 2097152) :
    ((StableHlo.after (rg8 (F := Ideal)) X (Proc.devRef .tc main_v833) : S2097152x2.Idx → EReal)) (ix2 n 0)
      = rg8_xOf X n (rg8_nhl X n) := by
  rw [rg8_split]
  refine (rg8_comb (StableHlo.after rg8_blendOps X) n).1.trans ?_
  dsimp only [rg8_xOf, rg8_dTerm, rg8_den, rg8_noh2]
  have hA : ∀ l, StableHlo.after rg8_blendOps X (Proc.devRef .tc main_v762) (ix2 n l) = rg8_nhl X n l :=
    rg8_blend_v762 X n
  rw [hA 2, hA 0]
  have k (r : Ref sig .tc) := rg8_blend_ok.keep X (r := r)
  rw [k main_arg0 (by decide), k main_arg1 (by decide), k main_arg2 (by decide), k main_arg4 (by decide),
    k main_v365 (by decide), k main_v256 (by decide), k main_v635 (by decide), k main_v215 (by decide),
    k main_v515 (by decide), k main_v237 (by decide)]

set_option maxHeartbeats 4000000 in
theorem rg8_v833_y (X : Valuation τ sig (Elt Ideal)) (n : Fin 2097152) :
    ((StableHlo.after (rg8 (F := Ideal)) X (Proc.devRef .tc main_v833) : S2097152x2.Idx → EReal)) (ix2 n 1)
      = rg8_yOf X n (rg8_nhl X n) := by
  rw [rg8_split]
  refine (rg8_comb (StableHlo.after rg8_blendOps X) n).2.trans ?_
  dsimp only [rg8_yOf, rg8_dTerm, rg8_den, rg8_noh2]
  have hA : ∀ l, StableHlo.after rg8_blendOps X (Proc.devRef .tc main_v762) (ix2 n l) = rg8_nhl X n l :=
    rg8_blend_v762 X n
  rw [hA 3, hA 0, hA 1]
  have k (r : Ref sig .tc) := rg8_blend_ok.keep X (r := r)
  rw [k main_arg0 (by decide), k main_arg1 (by decide), k main_arg2 (by decide), k main_v365 (by decide),
    k main_v398 (by decide), k main_v635 (by decide), k main_v228 (by decide), k main_v515 (by decide),
    k main_v248 (by decide), k main_v253 (by decide)]

end Cert.ReferenceIdeal.Hand
end
-- ==== Proof.RefVal5.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.ValueIdx
import Idealize.ShloMosaic.Lib.StableHlo.Run

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

theorem rg3_cst_65 (X : Valuation τ sig (Elt Ideal)) :
    ((StableHlo.after (rg3 (F := Ideal)) X (Proc.devRef .tc main_cst_65) : S_.Idx → EReal)) (ix0) = lit 0x00000000#32 := by
  simp only [rg3, after_app]; dsimp only [pc14, pc15, pc16, pc17, pc18, pc19, pc20, pc21]; after_results_simp
  rfl

theorem rg3_cst_66 (X : Valuation τ sig (Elt Ideal)) :
    ((StableHlo.after (rg3 (F := Ideal)) X (Proc.devRef .tc main_cst_66) : S_.Idx → EReal)) (ix0) = lit 0x3F7FFFEF#32 := by
  simp only [rg3, after_app]; dsimp only [pc14, pc15, pc16, pc17, pc18, pc19, pc20, pc21]; after_results_simp
  rfl

/-- A column cut out of a two-column array and laid out flat reads row n of that column. -/
theorem rg3_v258 (X : Valuation τ sig (Elt Ideal)) (n : Fin 2097152) :
    ((StableHlo.after (rg3 (F := Ideal)) X (Proc.devRef .tc main_v258) : S2097152.Idx → EReal)) (ix1 n)
      = (show S2097152x2.Idx → EReal from X (Proc.devRef .tc main_v47)) (ix2 n 0) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

set_option maxHeartbeats 8000000 in
theorem rg3_v215 (X : Valuation τ sig (Elt Ideal)) (n : Fin 2097152) :
    ((StableHlo.after (rg3 (F := Ideal)) X (Proc.devRef .tc main_v215) : S2097152x1.Idx → EReal)) (ix2 n 0)
      = (show S2097152x2.Idx → EReal from X (Proc.devRef .tc main_arg6)) (ix2 n 0) * lit 0x3DCCCCCD#32 * (lit 0x3F800000#32 - (show S2097152.Idx → EReal from X (Proc.devRef .tc main_v8)) (ix1 n))
            * (show S2097152x2.Idx → EReal from X (Proc.devRef .tc main_arg6)) (ix2 n 1)
          + (show S2097152.Idx → EReal from X (Proc.devRef .tc main_v8)) (ix1 n) * (show S2097152x2.Idx → EReal from X (Proc.devRef .tc main_arg8)) (ix2 n 0) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

set_option maxHeartbeats 8000000 in
theorem rg3_v228 (X : Valuation τ sig (Elt Ideal)) (n : Fin 2097152) :
    ((StableHlo.after (rg3 (F := Ideal)) X (Proc.devRef .tc main_v228) : S2097152x1.Idx → EReal)) (ix2 n 0)
      = (show S2097152x2.Idx → EReal from X (Proc.devRef .tc main_arg6)) (ix2 n 0) * lit 0x3DCCCCCD#32 * (lit 0x3F800000#32 - (show S2097152.Idx → EReal from X (Proc.devRef .tc main_v8)) (ix1 n))
            * (lit 0x3F800000#32 - (show S2097152x2.Idx → EReal from X (Proc.devRef .tc main_arg6)) (ix2 n 1)) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

set_option maxHeartbeats 8000000 in
theorem rg3_v237 (X : Valuation τ sig (Elt Ideal)) (n : Fin 2097152) :
    ((StableHlo.after (rg3 (F := Ideal)) X (Proc.devRef .tc main_v237) : S2097152x1.Idx → EReal)) (ix2 n 0)
      = (show S2097152x2.Idx → EReal from X (Proc.devRef .tc main_arg7)) (ix2 n 0) * (lit 0x3F800000#32 - (show S2097152.Idx → EReal from X (Proc.devRef .tc main_v8)) (ix1 n))
            * (show S2097152x2.Idx → EReal from X (Proc.devRef .tc main_arg7)) (ix2 n 1) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

set_option maxHeartbeats 8000000 in
theorem rg3_v248 (X : Valuation τ sig (Elt Ideal)) (n : Fin 2097152) :
    ((StableHlo.after (rg3 (F := Ideal)) X (Proc.devRef .tc main_v248) : S2097152x1.Idx → EReal)) (ix2 n 0)
      = (show S2097152x2.Idx → EReal from X (Proc.devRef .tc main_arg7)) (ix2 n 0) * (lit 0x3F800000#32 - (show S2097152.Idx → EReal from X (Proc.devRef .tc main_v8)) (ix1 n))
            * (lit 0x3F800000#32 - (show S2097152x2.Idx → EReal from X (Proc.devRef .tc main_arg7)) (ix2 n 1)) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

theorem rg3_v253 (X : Valuation τ sig (Elt Ideal)) (n : Fin 2097152) :
    ((StableHlo.after (rg3 (F := Ideal)) X (Proc.devRef .tc main_v253) : S2097152x1.Idx → EReal)) (ix2 n 0)
      = lit 0x3D800000#32 * (show S2097152x2.Idx → EReal from X (Proc.devRef .tc main_arg8)) (ix2 n 1) := by
  simp only [rg3, after_app]; dsimp only [pc14, pc15, pc16, pc17, pc18, pc19, pc20, pc21]; after_results_simp
  (repeat (first | erw [shapeCast_col] | simp only [addf_apply, mulf_apply, subf_apply, constant_apply, broadcastInDim_scalar, broadcastInDim_col, extractStridedSlice_col])) <;> try rfl

end Cert.ReferenceIdeal.Hand
end
-- ==== Proof.RefVal5b.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

private theorem shapeCast_v93 (x : main_v92.ty.Contents (Elt Ideal)) (h : main_v92.ty.shape.ShapeCasts main_v93.ty.shape) :
    shapeCast main_v93.ty.shape x h = shapeCast S2097152 (show S2097152x1.Idx → EReal from x) h := rfl
private theorem shapeCast_v199 (x : main_v198.ty.Contents (Elt Ideal)) (h : main_v198.ty.shape.ShapeCasts main_v199.ty.shape) :
    shapeCast main_v199.ty.shape x h = shapeCast S2097152 (show S2097152x1.Idx → EReal from x) h := rfl

set_option maxHeartbeats 16000000 in
/-- The four corner reads of the gather, each weighted by a product of one-axis weights, then scaled pointwise. -/
theorem rg3_v256 (X : Valuation τ sig (Elt Ideal)) (n : Fin 2097152) (l : Fin 3) :
    ((StableHlo.after (rg3 (F := Ideal)) X (Proc.devRef .tc main_v256) : S2097152x3.Idx → EReal)) (ix2 n l)
      = bil2 64 64 (by decide) (by decide) 63#32 64#32 63#32 64#32
          (fun a b => (show S64x64x3.Idx → EReal from X (Proc.devRef .tc main_v86)) (ix3 a b l))
          (min ((show S_.Idx → EReal from X (Proc.devRef .tc main_cst_26)) (ix0)) (max ((show S_.Idx → EReal from X (Proc.devRef .tc main_cst_25)) (ix0)) ((show S2097152.Idx → EReal from X (Proc.devRef .tc main_v88)) (ix1 n))) * lit 0x427C0000#32)
          (clipc ((show S2097152x2.Idx → EReal from X (Proc.devRef .tc main_v75)) (ix2 n 1)) * lit 0x427C0000#32)
        * ((lit 0x3F800000#32 - (show S2097152.Idx → EReal from X (Proc.devRef .tc main_v8)) (ix1 n)) * (show S2097152x2.Idx → EReal from X (Proc.devRef .tc main_arg8)) (ix2 n 0)) := by
  simp only [rg3, after_app]; dsimp only [pc14, pc15, pc16, pc17, pc18, pc19, pc20, pc21]; after_results_simp
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
    TRef.ofBuf, TRef.toBuf, cast_cast, cast_eq, shapeCast_v93, shapeCast_v199, id_eq,
    addf_apply, mulf_apply, subf_apply, maximumf_apply, minimumf_apply, broadcastInDim_scalar, constant_apply,
    constantI_apply, host_floor_apply, fptosi_apply, addi_apply, minsi_apply, cmpi_apply, select_apply, broadcastInDim_col,
    broadcastInDim_cols, extractStridedSlice_col, shapeCast_col, Fin.mk_zero, Fin.mk_one, concatenate_cols_zero, concatenate_cols_one,
    gather_S64x64x3_apply, clipc] <;> try rfl

end Cert.ReferenceIdeal.Hand
end
-- ==== Proof.RefVal6.lean ====
import proofs.«140692_j21234318312201_2_alg».proof.Proof.RefRun
import proofs.«140692_j21234318312201_2_alg».proof.Proof.LibLayoutIx
import proofs.«140692_j21234318312201_2_alg».proof.Proof.GatherR
import proofs.«140692_j21234318312201_2_alg».proof.Proof.Spec
import Idealize.ShloMosaic.Lib.ValueIdx
import Idealize.ShloMosaic.Lib.StableHlo.Run

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

private theorem shapeCast_v421 (x : main_v420.ty.Contents (Elt Ideal)) (h : main_v420.ty.shape.ShapeCasts main_v421.ty.shape) :
    shapeCast main_v421.ty.shape x h = shapeCast S2097152 (x : S2097152x1.Idx → EReal) h := rfl
private theorem shapeCast_v528 (x : main_v527.ty.Contents (Elt Ideal)) (h : main_v527.ty.shape.ShapeCasts main_v528.ty.shape) :
    shapeCast main_v528.ty.shape x h = shapeCast S2097152 (x : S2097152x1.Idx → EReal) h := rfl

theorem rg6_cst_143 (X : Valuation τ sig (Elt Ideal)) :
    (StableHlo.after (rg6 (F := Ideal)) X (Proc.devRef .tc main_cst_143) : S_.Idx → EReal) ix0
      = lit 0x00000000#32 := by
  simp only [rg6, after_app]
  dsimp only [pc31, pc32, pc33, pc34, pc35, pc36, pc37]
  after_results_simp
  simp only [constant_apply]

theorem rg6_cst_144 (X : Valuation τ sig (Elt Ideal)) :
    (StableHlo.after (rg6 (F := Ideal)) X (Proc.devRef .tc main_cst_144) : S_.Idx → EReal) ix0
      = lit 0x3F7FFFEF#32 := by
  simp only [rg6, after_app]
  dsimp only [pc31, pc32, pc33, pc34, pc35, pc36, pc37]
  after_results_simp
  simp only [constant_apply]

theorem rg6_v528 (X : Valuation τ sig (Elt Ideal)) (n : Fin 2097152) :
    (StableHlo.after (rg6 (F := Ideal)) X (Proc.devRef .tc main_v528) : S2097152.Idx → EReal) (ix1 n)
      = (X (Proc.devRef .tc main_arg2) : S2097152x2.Idx → EReal) (ix2 n 0) := by
  simp only [rg6, after_app]
  dsimp only [pc31, pc32, pc33, pc34, pc35, pc36, pc37]
  after_results_simp
  simp only [shapeCast_v528, shapeCast_col, extractStridedSlice_col]
  rfl

theorem rg6_v526 (X : Valuation τ sig (Elt Ideal)) (j : S32x32x4.Idx) :
    (StableHlo.after (rg6 (F := Ideal)) X (Proc.devRef .tc main_v526) : S32x32x4.Idx → EReal) j
      = tri ((X (Proc.devRef .tc main_arg15) : S32x32x4.Idx → EReal) j) := by
  simp only [rg6, after_app]
  dsimp only [pc31, pc32, pc33, pc34, pc35, pc36, pc37]
  after_results_simp
  simp only [mulf_apply, addf_apply, subf_apply, broadcastInDim_scalar, constant_apply, host_divf_apply, host_floor_apply,
    host_absf_apply]
  rfl

set_option maxHeartbeats 8000000 in
theorem rg6_v515 (X : Valuation τ sig (Elt Ideal)) (n : Fin 2097152) (l : Fin 1) :
    (StableHlo.after (rg6 (F := Ideal)) X (Proc.devRef .tc main_v515) : S2097152x1.Idx → EReal) (ix2 n l)
      = bil2 32 32 (by decide) (by decide) 31#32 32#32 31#32 32#32
          (fun a b => (show S32x32x1.Idx → EReal from X (Proc.devRef .tc main_v414)) (ix3 a b l))
          (min ((show S_.Idx → EReal from X (Proc.devRef .tc main_cst_110)) ix0)
              (max ((show S_.Idx → EReal from X (Proc.devRef .tc main_cst_109)) ix0)
                ((show S2097152.Idx → EReal from X (Proc.devRef .tc main_v416)) (ix1 n))) * lit 0x41F80000#32)
          (clipc ((show S2097152x2.Idx → EReal from X (Proc.devRef .tc main_v403)) (ix2 n 1)) * lit 0x41F80000#32) := by
  simp only [rg6, after_app]
  rw [pc37_ok.keep _ (by decide)]
  dsimp only [pc31, pc32, pc33, pc34, pc35, pc36]
  simp (disch := decide) only [after_cons, after_nil, nullary_result', unary_result', binary_result', ternary_result',
    reshape_result', nullary_result_ne', unary_result_ne', binary_result_ne', ternary_result_ne', reshape_result_ne',
    cast_eq, id_eq, addf_apply, mulf_apply, subf_apply, maximumf_apply, minimumf_apply, constant_apply, select_apply,
    broadcastInDim_scalar, broadcastInDim_col, extractStridedSlice_col, shapeCast_v421, shapeCast_col,
    concatenate_cols_zero, concatenate_cols_one, host_floor_apply, fptosi_apply, constantI_apply, addi_apply,
    minsi_apply, cmpi_apply, gather_S32x32x1_apply]
  rfl

end Cert.ReferenceIdeal.Hand
end
-- ==== Proof.RefValue.lean ====
import proofs.«140692_j21234318312201_2_alg».proof.Proof.RefVal0
import proofs.«140692_j21234318312201_2_alg».proof.Proof.RefVal1
import proofs.«140692_j21234318312201_2_alg».proof.Proof.RefVal2
import proofs.«140692_j21234318312201_2_alg».proof.Proof.RefVal3
import proofs.«140692_j21234318312201_2_alg».proof.Proof.RefVal4
import proofs.«140692_j21234318312201_2_alg».proof.Proof.RefVal5
import proofs.«140692_j21234318312201_2_alg».proof.Proof.RefVal5b
import proofs.«140692_j21234318312201_2_alg».proof.Proof.RefVal6
import proofs.«140692_j21234318312201_2_alg».proof.Proof.SpecRow
import Idealize.ShloMosaic.Lib.ValueIdx
import Idealize.ShloMosaic.Lib.StableHlo.Run

set_option maxRecDepth 16384

noncomputable section
namespace Cert.ReferenceIdeal.Hand
open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.ValueP Cert.LibLayoutIx Cert.Hand Cert.Spec

variable [Cert.ReferenceIdeal.Facts]

section
variable (W : Valuation τ sig (Elt Ideal)) (n : Fin 2097152)

local notation "W₁" => StableHlo.after (rg0 (F := Ideal)) W
local notation "W₂" => StableHlo.after (rg1 (F := Ideal)) W₁
local notation "W₃" => StableHlo.after (rg2 (F := Ideal)) W₂
local notation "W₄" => StableHlo.after (rg3 (F := Ideal)) W₃
local notation "W₅" => StableHlo.after (rg4 (F := Ideal)) W₄
local notation "W₆" => StableHlo.after (rg5 (F := Ideal)) W₅
local notation "W₇" => StableHlo.after (rg6 (F := Ideal)) W₆
local notation "W₈" => StableHlo.after (rg7 (F := Ideal)) W₇

set_option quotPrecheck false
local notation "aRoughNoh" => (show SpecRow.In from W (Proc.devRef .tc main_arg0))
local notation "aAnisoToh" => (show SpecRow.In from W (Proc.devRef .tc main_arg1))
local notation "aNDotLV" => (show SpecRow.In from W (Proc.devRef .tc main_arg2))
local notation "aMetalLoh" => (show SpecRow.In from W (Proc.devRef .tc main_arg4))
local notation "aSubCg" => (show SpecRow.In from W (Proc.devRef .tc main_arg5))
local notation "aSpst" => (show SpecRow.In from W (Proc.devRef .tc main_arg6))
local notation "aShst" => (show SpecRow.In from W (Proc.devRef .tc main_arg7))
local notation "aLumCs" => (show SpecRow.In from W (Proc.devRef .tc main_arg8))
local notation "aTRA" => (show S2048x2048x2.Idx → EReal from W (Proc.devRef .tc main_arg9))
local notation "aTCg" => (show S2048x1.Idx → EReal from W (Proc.devRef .tc main_arg10))
local notation "aTRS" => (show S64x64x3.Idx → EReal from W (Proc.devRef .tc main_arg11))
local notation "aTRAD" => (show S48x48x3.Idx → EReal from W (Proc.devRef .tc main_arg12))
local notation "aTCgD" => (show S96x2.Idx → EReal from W (Proc.devRef .tc main_arg13))
local notation "aTLVR" => (show S32x32x1.Idx → EReal from W (Proc.devRef .tc main_arg14))
local notation "aTLV" => (show S32x32x4.Idx → EReal from W (Proc.devRef .tc main_arg15))
local notation "aTNHL" => (show S32x32x4.Idx → EReal from W (Proc.devRef .tc main_arg16))

theorem ref_ra (l : Fin 2) :
    ((W₂ (Proc.devRef .tc main_v47) : S2097152x2.Idx → EReal)) (ix2 n l) = SpecRow.ra aRoughNoh aAnisoToh aTRA n l := by
  rw [rg1_v47]; dsimp only
  rw [rg0_v19, rg0_cst_4, rg0_cst_3, rg0_v21, rg0_v6_1]
  rfl

theorem ref_cg :
    ((W₃ (Proc.devRef .tc main_v72) : S2097152x1.Idx → EReal)) (ix2 n 0) = SpecRow.cg aSubCg aTCg n := by
  rw [rg2_v72]; dsimp only
  rw [rg1_v60, rg1_cst_17, rg1_cst_16, rg1_v49]
  simp (disch := decide) only [rg0_ok.keep]
  rfl

theorem ref_rac (l : Fin 3) :
    ((W₅ (Proc.devRef .tc main_v365) : S2097152x3.Idx → EReal)) (ix2 n l)
      = SpecRow.rac aRoughNoh aAnisoToh aTRA aTRAD n l := by
  rw [rg4_v365]; dsimp only
  rw [rg3_cst_66, rg3_cst_65, rg3_v258]; dsimp only
  simp (disch := decide) only [rg0_ok.keep, rg1_ok.keep, rg2_ok.keep, rg3_ok.keep, ref_ra W n]
  rfl

theorem ref_cgc (l : Fin 2) :
    ((W₆ (Proc.devRef .tc main_v398) : S2097152x2.Idx → EReal)) (ix2 n l) = SpecRow.cgc aSubCg aTCg aTCgD n l := by
  rw [rg5_v398]; dsimp only
  rw [rg4_cst_96, rg4_cst_95, rg4_v366]; dsimp only
  simp (disch := decide) only [rg0_ok.keep, rg1_ok.keep, rg2_ok.keep, rg3_ok.keep, rg4_ok.keep, ref_cg W n]
  rfl

theorem ref_vt :
    ((W₇ (Proc.devRef .tc main_v515) : S2097152x1.Idx → EReal)) (ix2 n 0)
      = SpecRow.vt aRoughNoh aAnisoToh aNDotLV aTRA aTLVR n := by
  rw [rg6_v515]; dsimp only
  rw [rg5_cst_110, rg5_cst_109, rg5_v416, rg5_v403_one]
  simp (disch := decide) only [rg5_v414 _, rg0_ok.keep, rg1_ok.keep, rg2_ok.keep, rg3_ok.keep, rg4_ok.keep, ref_ra W n]
  rfl

theorem ref_nlv (l : Fin 4) :
    ((StableHlo.after (rg7 (F := Ideal)) W₇ (Proc.devRef .tc main_v635) : S2097152x4.Idx → EReal)) (ix2 n l)
      = SpecRow.nlv (nDotLV := aNDotLV) (tLV := aTLV) n l := by
  rw [rg7_v635]; dsimp only
  rw [rg6_cst_144, rg6_cst_143, rg6_v528]
  simp (disch := decide) only [rg6_v526 _, rg0_ok.keep, rg1_ok.keep, rg2_ok.keep, rg3_ok.keep, rg4_ok.keep, rg5_ok.keep, rg6_ok.keep]
  rfl

theorem ref_nhl (l : Fin 4) :
    rg8_nhl W₈ n l = SpecRow.nhl (nDotLV := aNDotLV) (metalLoh := aMetalLoh) (tNHL := aTNHL) n l := by
  dsimp only [rg8_nhl, rg8_uu, rg8_vv]
  rw [rg7_cst_178, rg7_cst_177, rg7_v655, rg7_v642_1]; dsimp only
  simp (disch := decide) only [rg7_v653 _, rg0_ok.keep, rg1_ok.keep, rg2_ok.keep, rg3_ok.keep, rg4_ok.keep, rg5_ok.keep, rg6_ok.keep]
  rfl

theorem ref_cm0 :
    ((W₄ (Proc.devRef .tc main_v215) : S2097152x1.Idx → EReal)) (ix2 n 0) = SpecRow.cm0 aMetalLoh n aSpst aLumCs := by
  rw [rg3_v215]; dsimp only
  simp (disch := decide) only [rg0_v8 _, rg0_ok.keep, rg1_ok.keep, rg2_ok.keep]
  rfl

theorem ref_cm1 :
    ((W₄ (Proc.devRef .tc main_v228) : S2097152x1.Idx → EReal)) (ix2 n 0) = SpecRow.cm1 aMetalLoh n aSpst := by
  rw [rg3_v228]; dsimp only
  simp (disch := decide) only [rg0_v8 _, rg0_ok.keep, rg1_ok.keep, rg2_ok.keep]
  rfl

theorem ref_cs0 :
    ((W₄ (Proc.devRef .tc main_v237) : S2097152x1.Idx → EReal)) (ix2 n 0) = SpecRow.cs0 aMetalLoh n aShst := by
  rw [rg3_v237]; dsimp only
  simp (disch := decide) only [rg0_v8 _, rg0_ok.keep, rg1_ok.keep, rg2_ok.keep]
  rfl

theorem ref_cs1 :
    ((W₄ (Proc.devRef .tc main_v248) : S2097152x1.Idx → EReal)) (ix2 n 0) = SpecRow.cs1 aMetalLoh n aShst := by
  rw [rg3_v248]; dsimp only
  simp (disch := decide) only [rg0_v8 _, rg0_ok.keep, rg1_ok.keep, rg2_ok.keep]
  rfl

theorem ref_cc :
    ((W₄ (Proc.devRef .tc main_v253) : S2097152x1.Idx → EReal)) (ix2 n 0) = SpecRow.cc n aLumCs := by
  rw [rg3_v253]; dsimp only
  simp (disch := decide) only [rg0_ok.keep, rg1_ok.keep, rg2_ok.keep]
  rfl

theorem ref_rsCd (l : Fin 3) :
    ((W₄ (Proc.devRef .tc main_v256) : S2097152x3.Idx → EReal)) (ix2 n l)
      = SpecRow.rsCd aRoughNoh aMetalLoh aSubCg aTRS n aLumCs l := by
  rw [rg3_v256]; dsimp only
  rw [rg2_cst_26, rg2_cst_25, rg2_v88, rg2_v75_1]
  simp (disch := decide) only [rg2_v86 _, rg0_v6_0 _, rg0_v8 _, rg0_ok.keep, rg1_ok.keep, rg2_ok.keep]
  rfl

theorem ref_x :
    ((StableHlo.after (ops (F := Ideal)) W (Proc.devRef .tc main_v833) : S2097152x2.Idx → EReal)) (ix2 n 0)
      = SpecRow.rowX (roughNoh := aRoughNoh) (anisoToh := aAnisoToh) (nDotLV := aNDotLV) (metalLoh := aMetalLoh)
          (subCg := aSubCg) (tRA := aTRA) (tRS := aTRS) (tRAD := aTRAD) (tLVR := aTLVR) (tLV := aTLV) (tNHL := aTNHL)
          (n := n) (spst := aSpst) (shst := aShst) (lumCs := aLumCs) := by
  rw [after_ops_groups, rg8_v833_x]
  dsimp only [rg8_xOf, rg8_dTerm, rg8_den, rg8_noh2]
  rw [ref_nhl W n 2, ref_nhl W n 0, ref_nlv W n 1, ref_nlv W n 2, ref_nlv W n 3]
  simp (disch := decide) only [rg0_ok.keep, rg1_ok.keep, rg2_ok.keep, rg3_ok.keep, rg4_ok.keep, rg5_ok.keep, rg6_ok.keep, rg7_ok.keep, ref_rsCd W n, ref_cm0 W n, ref_cs0 W n, ref_rac W n, ref_vt W n]
  rfl

theorem ref_y :
    ((StableHlo.after (ops (F := Ideal)) W (Proc.devRef .tc main_v833) : S2097152x2.Idx → EReal)) (ix2 n 1)
      = SpecRow.rowY (roughNoh := aRoughNoh) (anisoToh := aAnisoToh) (nDotLV := aNDotLV) (metalLoh := aMetalLoh)
          (subCg := aSubCg) (tRA := aTRA) (tCg := aTCg) (tRAD := aTRAD) (tCgD := aTCgD) (tLVR := aTLVR) (tLV := aTLV)
          (tNHL := aTNHL) (n := n) (spst := aSpst) (shst := aShst) (lumCs := aLumCs) := by
  rw [after_ops_groups, rg8_v833_y]
  dsimp only [rg8_yOf, rg8_dTerm, rg8_den, rg8_noh2]
  rw [ref_nhl W n 3, ref_nhl W n 0, ref_nhl W n 1, ref_nlv W n 0]
  simp (disch := decide) only [rg0_ok.keep, rg1_ok.keep, rg2_ok.keep, rg3_ok.keep, rg4_ok.keep, rg5_ok.keep, rg6_ok.keep, rg7_ok.keep, ref_cm1 W n, ref_cs1 W n, ref_cc W n, ref_rac W n, ref_cgc W n, ref_vt W n]
  rfl

end

end Cert.ReferenceIdeal.Hand
end
-- ==== Proof.Bridge.lean ====
import proofs.«140692_j21234318312201_2_alg».proof.Defs
import proofs.«140692_j21234318312201_2_alg».proof.Proof.KIRows
import proofs.«140692_j21234318312201_2_alg».proof.Proof.RefValue
import proofs.«140692_j21234318312201_2_alg».proof.Proof.SpecRow
import Idealize.ShloMosaic.Lib.ValueIdx

set_option maxRecDepth 16384

noncomputable section

namespace Cert.Proof.Bridge

open Idealize.ShloMosaic Idealize.ShloMosaic.TcCoe Idealize.SL.Sem Idealize.ShloMosaic.StableHlo Idealize.ShloMosaic.ValueIdx

variable [Cert.KernelIdeal.Facts] [Cert.ReferenceIdeal.Facts] [Cert.Pre_finite_inputs.Facts]

set_option maxHeartbeats 4000000 in
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) [Cert.KernelIdeal.Gen.hostOps1] c Cert.KernelIdeal.main_v720,
    Cert.KernelIdeal.Hand.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16⟩ := hagree c
  show (_ : Cert.ReferenceIdeal.S2097152x2.Idx → EReal) = _
  funext i
  obtain ⟨n, j, rfl⟩ : ∃ (n : Fin 2097152) (j : Fin 2), i = ix2 n j := ⟨i 0, i 1, eq_ix2 i⟩
  have hj : j = 0 ∨ j = 1 := by omega
  rcases hj with rfl | rfl
  · refine (Cert.ReferenceIdeal.Hand.ref_x (launchContents m' c) n).trans (Eq.trans ?_ (Cert.KernelIdeal.Hand.ker_x m c n).symm)
    simp only [h0, h1, h2, h4, h5, h6, h7, h8, h9, h11, h12, h14, h15, h16]
  · refine (Cert.ReferenceIdeal.Hand.ref_y (launchContents m' c) n).trans (Eq.trans ?_ (Cert.KernelIdeal.Hand.ker_y m c n).symm)
    simp only [h0, h1, h2, h4, h5, h6, h7, h8, h9, h10, h12, h13, h14, h15, h16]

end Cert.Proof.Bridge

end
-- ==== Proof.lean ====
import proofs.«140692_j21234318312201_2_alg».proof.Defs
import proofs.«140692_j21234318312201_2_alg».proof.Proof.Gen.Kernel
import proofs.«140692_j21234318312201_2_alg».proof.Proof.Gen.KernelIdeal
import proofs.«140692_j21234318312201_2_alg».proof.Proof.Gen.ReferenceIdeal
import proofs.«140692_j21234318312201_2_alg».proof.Proof.Gen.Pre_finite_inputs
import proofs.«140692_j21234318312201_2_alg».proof.Proof.KFrame
import proofs.«140692_j21234318312201_2_alg».proof.Proof.KIFrame
import proofs.«140692_j21234318312201_2_alg».proof.Proof.RefFrame
import proofs.«140692_j21234318312201_2_alg».proof.Proof.Bridge

noncomputable section

namespace Cert.Proof

open Idealize.ShloMosaic Idealize.SL.Sem

/-- The three programs' frames, the trivial idealization ledger, and the two idealized programs' equal results. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefFrame.frame_ri,
  trivial,
  Cert.Proof.Bridge.algebraic⟩

end Cert.Proof

end
